-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x256 : Shape := ⟨2, ![32768, 256]⟩
abbrev S32768x512 : Shape := ⟨2, ![32768, 512]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S6x512x256 : Shape := ⟨3, ![6, 512, 256]⟩
abbrev S6x256 : Shape := ⟨2, ![6, 256]⟩
abbrev S6x256x1 : Shape := ⟨3, ![6, 256, 1]⟩
abbrev S6x1 : Shape := ⟨2, ![6, 1]⟩
abbrev S3x256x256 : Shape := ⟨3, ![3, 256, 256]⟩
abbrev S3x256 : Shape := ⟨2, ![3, 256]⟩
abbrev S768x256 : Shape := ⟨2, ![768, 256]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S32768x512 : S_.BroadcastsInDim S32768x512 (![] : Fin 0 → Fin S32768x512.rank)
  reducesTo_S32768x512_S_d0_1 : S32768x512.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S6x512x256 : S_.BroadcastsInDim S6x512x256 (![] : Fin 0 → Fin S6x512x256.rank)
  reducesTo_S6x512x256_S_d0_1_2 : S6x512x256.ReducesTo [0, 1, 2] S_
  bcast_S_S6x256 : S_.BroadcastsInDim S6x256 (![] : Fin 0 → Fin S6x256.rank)
  reducesTo_S6x256_S_d0_1 : S6x256.ReducesTo [0, 1] S_
  bcast_S_S6x256x1 : S_.BroadcastsInDim S6x256x1 (![] : Fin 0 → Fin S6x256x1.rank)
  reducesTo_S6x256x1_S_d0_1_2 : S6x256x1.ReducesTo [0, 1, 2] S_
  bcast_S_S6x1 : S_.BroadcastsInDim S6x1 (![] : Fin 0 → Fin S6x1.rank)
  reducesTo_S6x1_S_d0_1 : S6x1.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S768x256 : S_.BroadcastsInDim S768x256 (![] : Fin 0 → Fin S768x256.rank)
  reducesTo_S768x256_S_d0_1 : S768x256.ReducesTo [0, 1] S_

variable [Facts]

def fn_part7 {F : FTy → Type} [FloatOps F] (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  main_v123

def fn_part6 {F : FTy → Type} [FloatOps F] (main_arg21 : FVec F S256x256 .f32) (main_arg22 : FVec F S256 .f32) (main_arg23 : FVec F S256 .f32) (main_arg24 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_v118 main_v119

def fn_part5 {F : FTy → Type} [FloatOps F] (main_arg18 : FVec F S3x256 .f32) (main_arg19 : FVec F S768x256 .f32) (main_arg20 : FVec F S256 .f32) (main_arg21 : FVec F S256x256 .f32) (main_arg22 : FVec F S256 .f32) (main_arg23 : FVec F S256 .f32) (main_arg24 : FVec F S256 .f32) (main_v83 : IVec S_ 1) (main_v84 : FVec F S3x256 .f32) (main_cst_32 : FVec F S_ .f32) : IVec S_ 1 :=
  let main_v85 : FVec F S3x256 .f32 := broadcastInDim S3x256 ![] bcast_S_S3x256 main_cst_32
  let main_v86 : IVec S3x256 1 := cmpf .olt main_v84 main_v85
  let main_c_33 : IVec S_ 1 := constantI S_ 1 1#1
  let main_v87 : IVec S_ 1 := (fun x v => Host.reduce IntOp.andi x v reducesTo_S3x256_S_d0_1 h_S_) main_v86 main_c_33
  let main_v88 : IVec S_ 1 := andi main_v83 main_v87
  let main_v89 : FVec F S3x256 .f32 := Host.absf main_arg18
  let main_cst_34 : FVec F S_ .f32 := constant S_ .f32 0x7F800000#32
  let main_v90 : FVec F S3x256 .f32 := broadcastInDim S3x256 ![] bcast_S_S3x256 main_cst_34
  let main_v91 : IVec S3x256 1 := cmpf .olt main_v89 main_v90
  let main_c_35 : IVec S_ 1 := constantI S_ 1 1#1
  let main_v92 : IVec S_ 1 := (fun x v => Host.reduce IntOp.andi x v reducesTo_S3x256_S_d0_1 h_S_) main_v91 main_c_35
  let main_v93 : IVec S_ 1 := andi main_v88 main_v92
  let main_v94 : FVec F S768x256 .f32 := Host.absf main_arg19
  let main_cst_36 : FVec F S_ .f32 := constant S_ .f32 0x7F800000#32
  let main_v95 : FVec F S768x256 .f32 := broadcastInDim S768x256 ![] bcast_S_S768x256 main_cst_36
  let main_v96 : IVec S768x256 1 := cmpf .olt main_v94 main_v95
  let main_c_37 : IVec S_ 1 := constantI S_ 1 1#1
  let main_v97 : IVec S_ 1 := (fun x v => Host.reduce IntOp.andi x v reducesTo_S768x256_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S3x256 .f32) (main_arg15 : FVec F S3x256x256 .f32) (main_arg16 : FVec F S3x256 .f32) (main_arg17 : FVec F S3x256 .f32) (main_arg18 : FVec F S3x256 .f32) (main_arg19 : FVec F S768x256 .f32) (main_arg20 : FVec F S256 .f32) (main_arg21 : FVec F S256x256 .f32) (main_arg22 : FVec F S256 .f32) (main_arg23 : FVec F S256 .f32) (main_arg24 : FVec F S256 .f32) (main_v63 : IVec S_ 1) (main_v67 : IVec S_ 1) : IVec S_ 1 :=
  let main_v68 : IVec S_ 1 := andi main_v63 main_v67
  let main_v69 : FVec F S3x256 .f32 := Host.absf main_arg14
  let main_cst_26 : FVec F S_ .f32 := constant S_ .f32 0x7F800000#32
  let main_v70 : FVec F S3x256 .f32 := broadcastInDim S3x256 ![] bcast_S_S3x256 main_cst_26
  let main_v71 : IVec S3x256 1 := cmpf .olt main_v69 main_v70
  let main_c_27 : IVec S_ 1 := constantI S_ 1 1#1
  let main_v72 : IVec S_ 1 := (fun x v => Host.reduce IntOp.andi x v reducesTo_S3x256_S_d0_1 h_S_) main_v71 main_c_27
  let main_v73 : IVec S_ 1 := andi main_v68 main_v72
  let main_v74 : FVec F S3x256x256 .f32 := Host.absf main_arg15
  let main_cst_28 : FVec F S_ .f32 := constant S_ .f32 0x7F800000#32
  let main_v75 : FVec F S3x256x256 .f32 := broadcastInDim S3x256x256 ![] bcast_S_S3x256x256 main_cst_28
  let main_v76 : IVec S3x256x256 1 := cmpf .olt main_v74 main_v75
  let main_c_29 : IVec S_ 1 := constantI S_ 1 1#1
  let main_v77 : IVec S_ 1 := (fun x v => Host.reduce IntOp.andi x v reducesTo_S3x256x256_S_d0_1_2 h_S_) main_v76 main_c_29
  let main_v78 : IVec S_ 1 := andi main_v73 main_v77
  let main_v79 : FVec F S3x256 .f32 := Host.absf main_arg16
  let main_cst_30 : FVec F S_ .f32 := constant S_ .f32 0x7F800000#32
  let main_v80 : FVec F S3x256 .f32 := broadcastInDim S3x256 ![] bcast_S_S3x256 main_cst_30
  let main_v81 : IVec S3x256 1 := cmpf .olt main_v79 main_v80
  let main_c_31 : IVec S_ 1 := constantI S_ 1 1#1
  let main_v82 : IVec S_ 1 := (fun x v => Host.reduce IntOp.andi x v reducesTo_S3x256_S_d0_1 h_S_) main_v81 main_c_31
  let main_v83 : IVec S_ 1 := andi main_v78 main_v82
  let main_v84 : FVec F S3x256 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S6x256x1 .f32) (main_arg12 : FVec F S6x1 .f32) (main_arg13 : FVec F S3x256x256 .f32) (main_arg14 : FVec F S3x256 .f32) (main_arg15 : FVec F S3x256x256 .f32) (main_arg16 : FVec F S3x256 .f32) (main_arg17 : FVec F S3x256 .f32) (main_arg18 : FVec F S3x256 .f32) (main_arg19 : FVec F S768x256 .f32) (main_arg20 : FVec F S256 .f32) (main_arg21 : FVec F S256x256 .f32) (main_arg22 : FVec F S256 .f32) (main_arg23 : FVec F S256 .f32) (main_arg24 : FVec F S256 .f32) (main_v48 : IVec S_ 1) (main_v49 : FVec F S6x256 .f32) (main_v50 : FVec F S6x256 .f32) : IVec S_ 1 :=
  let main_v51 : IVec S6x256 1 := cmpf .olt main_v49 main_v50
  let main_c_19 : IVec S_ 1 := constantI S_ 1 1#1
  let main_v52 : IVec S_ 1 := (fun x v => Host.reduce IntOp.andi x v reducesTo_S6x256_S_d0_1 h_S_) main_v51 main_c_19
  let main_v53 : IVec S_ 1 := andi main_v48 main_v52
  let main_v54 : FVec F S6x256x1 .f32 := Host.absf main_arg11
  let main_cst_20 : FVec F S_ .f32 := constant S_ .f32 0x7F800000#32
  let main_v55 : FVec F S6x256x1 .f32 := broadcastInDim S6x256x1 ![] bcast_S_S6x256x1 main_cst_20
  let main_v56 : IVec S6x256x1 1 := cmpf .olt main_v54 main_v55
  let main_c_21 : IVec S_ 1 := constantI S_ 1 1#1
  let main_v57 : IVec S_ 1 := (fun x v => Host.reduce IntOp.andi x v reducesTo_S6x256x1_S_d0_1_2 h_S_) main_v56 main_c_21
  let main_v58 : IVec S_ 1 := andi main_v53 main_v57
  let main_v59 : FVec F S6x1 .f32 := Host.absf main_arg12
  let main_cst_22 : FVec F S_ .f32 := constant S_ .f32 0x7F800000#32
  let main_v60 : FVec F S6x1 .f32 := broadcastInDim S6x1 ![] bcast_S_S6x1 main_cst_22
  let main_v61 : IVec S6x1 1 := cmpf .olt main_v59 main_v60
  let main_c_23 : IVec S_ 1 := constantI S_ 1 1#1
  let main_v62 : IVec S_ 1 := (fun x v => Host.reduce IntOp.andi x v reducesTo_S6x1_S_d0_1 h_S_) main_v61 main_c_23
  let main_v63 : IVec S_ 1 := andi main_v58 main_v62
  let main_v64 : FVec F S3x256x256 .f32 := Host.absf main_arg13
  let main_cst_24 : FVec F S_ .f32 := constant S_ .f32 0x7F800000#32
  let main_v65 : FVec F S3x256x256 .f32 := broadcastInDim S3x256x256 ![] bcast_S_S3x256x256 main_cst_24
  let main_v66 : IVec S3x256x256 1 := cmpf .olt main_v64 main_v65
  let main_c_25 : IVec S_ 1 := constantI S_ 1 1#1
  let main_v67 : IVec S_ 1 := (fun x v => Host.reduce IntOp.andi x v reducesTo_S3x256x256_S_d0_1_2 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S512x256 .f32) (main_arg8 : FVec F S256 .f32) (main_arg9 : FVec F S6x512x256 .f32) (main_arg10 : FVec F S6x256 .f32) (main_arg11 : FVec F S6x256x1 .f32) (main_arg12 : FVec F S6x1 .f32) (main_arg13 : FVec F S3x256x256 .f32) (main_arg14 : FVec F S3x256 .f32) (main_arg15 : FVec F S3x256x256 .f32) (main_arg16 : FVec F S3x256 .f32) (main_arg17 : FVec F S3x256 .f32) (main_arg18 : FVec F S3x256 .f32) (main_arg19 : FVec F S768x256 .f32) (main_arg20 : FVec F S256 .f32) (main_arg21 : FVec F S256x256 .f32) (main_arg22 : FVec F S256 .f32) (main_arg23 : FVec F S256 .f32) (main_arg24 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S6x512x256 .f32 := Host.absf main_arg9
  let main_cst_16 : FVec F S_ .f32 := constant S_ .f32 0x7F800000#32
  let main_v45 : FVec F S6x512x256 .f32 := broadcastInDim S6x512x256 ![] bcast_S_S6x512x256 main_cst_16
  let main_v46 : IVec S6x512x256 1 := cmpf .olt main_v44 main_v45
  let main_c_17 : IVec S_ 1 := constantI S_ 1 1#1
  let main_v47 : IVec S_ 1 := (fun x v => Host.reduce IntOp.andi x v reducesTo_S6x512x256_S_d0_1_2 h_S_) main_v46 main_c_17
  let main_v48 : IVec S_ 1 := andi main_v43 main_v47
  let main_v49 : FVec F S6x256 .f32 := Host.absf main_arg10
  let main_cst_18 : FVec F S_ .f32 := constant S_ .f32 0x7F800000#32
  let main_v50 : FVec F S6x256 .f32 := broadcastInDim S6x256 ![] bcast_S_S6x256 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S256 .f32) (main_arg5 : FVec F S256x256 .f32) (main_arg6 : FVec F S256 .f32) (main_arg7 : FVec F S512x256 .f32) (main_arg8 : FVec F S256 .f32) (main_arg9 : FVec F S6x512x256 .f32) (main_arg10 : FVec F S6x256 .f32) (main_arg11 : FVec F S6x256x1 .f32) (main_arg12 : FVec F S6x1 .f32) (main_arg13 : FVec F S3x256x256 .f32) (main_arg14 : FVec F S3x256 .f32) (main_arg15 : FVec F S3x256x256 .f32) (main_arg16 : FVec F S3x256 .f32) (main_arg17 : FVec F S3x256 .f32) (main_arg18 : FVec F S3x256 .f32) (main_arg19 : FVec F S768x256 .f32) (main_arg20 : FVec F S256 .f32) (main_arg21 : FVec F S256x256 .f32) (main_arg22 : FVec F S256 .f32) (main_arg23 : FVec F S256 .f32) (main_arg24 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S32768x128 .f32) (main_arg1 : FVec F S32768x256 .f32) (main_arg2 : FVec F S32768x512 .f32) (main_arg3 : FVec F S128x256 .f32) (main_arg4 : FVec F S256 .f32) (main_arg5 : FVec F S256x256 .f32) (main_arg6 : FVec F S256 .f32) (main_arg7 : FVec F S512x256 .f32) (main_arg8 : FVec F S256 .f32) (main_arg9 : FVec F S6x512x256 .f32) (main_arg10 : FVec F S6x256 .f32) (main_arg11 : FVec F S6x256x1 .f32) (main_arg12 : FVec F S6x1 .f32) (main_arg13 : FVec F S3x256x256 .f32) (main_arg14 : FVec F S3x256 .f32) (main_arg15 : FVec F S3x256x256 .f32) (main_arg16 : FVec F S3x256 .f32) (main_arg17 : FVec F S3x256 .f32) (main_arg18 : FVec F S3x256 .f32) (main_arg19 : FVec F S768x256 .f32) (main_arg20 : FVec F S256 .f32) (main_arg21 : FVec F S256x256 .f32) (main_arg22 : FVec F S256 .f32) (main_arg23 : FVec F S256 .f32) (main_arg24 : FVec F S256 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S32768x128 : Shape := ⟨2, ![32768, 128]⟩
abbrev S32768x256 : Shape := ⟨2, ![32768, 256]⟩
abbrev S32768x512 : Shape := ⟨2, ![32768, 512]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S6x512x256 : Shape := ⟨3, ![6, 512, 256]⟩
abbrev S6x256 : Shape := ⟨2, ![6, 256]⟩
abbrev S6x256x1 : Shape := ⟨3, ![6, 256, 1]⟩
abbrev S6x1 : Shape := ⟨2, ![6, 1]⟩
abbrev S3x256x256 : Shape := ⟨3, ![3, 256, 256]⟩
abbrev S3x256 : Shape := ⟨2, ![3, 256]⟩
abbrev S768x256 : Shape := ⟨2, ![768, 256]⟩
abbrev S6x256x256 : Shape := ⟨3, ![6, 256, 256]⟩
abbrev S1x256x256 : Shape := ⟨3, ![1, 256, 256]⟩
abbrev S256x1024 : Shape := ⟨2, ![256, 1024]⟩
abbrev S1x256x1024 : Shape := ⟨3, ![1, 256, 1024]⟩
abbrev S3x256x1024 : Shape := ⟨3, ![3, 256, 1024]⟩
abbrev S32768x6 : Shape := ⟨2, ![32768, 6]⟩
abbrev S512x128 : Shape := ⟨2, ![512, 128]⟩
abbrev S512x512 : Shape := ⟨2, ![512, 512]⟩
abbrev S512x6 : Shape := ⟨2, ![512, 6]⟩
abbrev S1x256 : Shape := ⟨2, ![1, 256]⟩
abbrev S512x1024 : Shape := ⟨2, ![512, 1024]⟩
abbrev S512 : Shape := ⟨1, ![512]⟩
abbrev S512x1 : Shape := ⟨2, ![512, 1]⟩
abbrev S1x1 : Shape := ⟨2, ![1, 1]⟩
abbrev S1 : Shape := ⟨1, ![1]⟩
abbrev S6x32768 : Shape := ⟨2, ![6, 32768]⟩
abbrev S6x32768x1 : Shape := ⟨3, ![6, 32768, 1]⟩

abbrev nBuf : Space → Nat
  | .hbm => 78
  | .vmem => 32
  | .smem => 0
  | _ => 0

abbrev bufTy : (tb : Table) → Fin (tcTables nBuf tb) → BufTy
  | .hbm, ⟨0, _⟩ => ⟨S32768x128, .f32⟩
  | .hbm, ⟨1, _⟩ => ⟨S32768x256, .f32⟩
  | .hbm, ⟨2, _⟩ => ⟨S32768x512, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S6x512x256, .f32⟩
  | .hbm, ⟨10, _⟩ => ⟨S6x256, .f32⟩
  | .hbm, ⟨11, _⟩ => ⟨S6x256x1, .f32⟩
  | .hbm, ⟨12, _⟩ => ⟨S6x1, .f32⟩
  | .hbm, ⟨13, _⟩ => ⟨S3x256x256, .f32⟩
  | .hbm, ⟨14, _⟩ => ⟨S3x256, .f32⟩
  | .hbm, ⟨15, _⟩ => ⟨S3x256x256, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S768x256, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S6x512x256, .bf16⟩
  | .hbm, ⟨26, _⟩ => ⟨S6x256x256, .bf16⟩
  | .hbm, ⟨27, _⟩ => ⟨S6x256x256, .bf16⟩
  | .hbm, ⟨28, _⟩ => ⟨S1x256x256, .bf16⟩
  | .hbm, ⟨29, _⟩ => ⟨S256x256, .bf16⟩
  | .hbm, ⟨30, _⟩ => ⟨S1x256x256, .bf16⟩
  | .hbm, ⟨31, _⟩ => ⟨S256x256, .bf16⟩
  | .hbm, ⟨32, _⟩ => ⟨S1x256x256, .bf16⟩
  | .hbm, ⟨33, _⟩ => ⟨S256x256, .bf16⟩
  | .hbm, ⟨34, _⟩ => ⟨S1x256x256, .bf16⟩
  | .hbm, ⟨35, _⟩ => ⟨S256x256, .bf16⟩
  | .hbm, ⟨36, _⟩ => ⟨S256x1024, .bf16⟩
  | .hbm, ⟨37, _⟩ => ⟨S1x256x256, .bf16⟩
  | .hbm, ⟨38, _⟩ => ⟨S256x256, .bf16⟩
  | .hbm, ⟨39, _⟩ => ⟨S1x256x256, .bf16⟩
  | .hbm, ⟨40, _⟩ => ⟨S256x256, .bf16⟩
  | .hbm, ⟨41, _⟩ => ⟨S1x256x256, .bf16⟩
  | .hbm, ⟨42, _⟩ => ⟨S256x256, .bf16⟩
  | .hbm, ⟨43, _⟩ => ⟨S1x256x256, .bf16⟩
  | .hbm, ⟨44, _⟩ => ⟨S256x256, .bf16⟩
  | .hbm, ⟨45, _⟩ => ⟨S256x1024, .bf16⟩
  | .hbm, ⟨46, _⟩ => ⟨S1x256x256, .bf16⟩
  | .hbm, ⟨47, _⟩ => ⟨S256x256, .bf16⟩
  | .hbm, ⟨48, _⟩ => ⟨S1x256x256, .bf16⟩
  | .hbm, ⟨49, _⟩ => ⟨S256x256, .bf16⟩
  | .hbm, ⟨50, _⟩ => ⟨S1x256x256, .bf16⟩
  | .hbm, ⟨51, _⟩ => ⟨S256x256, .bf16⟩
  | .hbm, ⟨52, _⟩ => ⟨S1x256x256, .bf16⟩
  | .hbm, ⟨53, _⟩ => ⟨S256x256, .bf16⟩
  | .hbm, ⟨54, _⟩ => ⟨S256x1024, .bf16⟩
  | .hbm, ⟨55, _⟩ => ⟨S1x256x1024, .bf16⟩
  | .hbm, ⟨56, _⟩ => ⟨S1x256x1024, .bf16⟩
  | .hbm, ⟨57, _⟩ => ⟨S1x256x1024, .bf16⟩
  | .hbm, ⟨58, _⟩ => ⟨S3x256x1024, .bf16⟩
  | .hbm, ⟨59, _⟩ => ⟨S6x256, .f32⟩
  | .hbm, ⟨60, _⟩ => ⟨S128x256, .bf16⟩
  | .hbm, ⟨61, _⟩ => ⟨S256x256, .bf16⟩
  | .hbm, ⟨62, _⟩ => ⟨S512x256, .bf16⟩
  | .hbm, ⟨63, _⟩ => ⟨S3x256x256, .bf16⟩
  | .hbm, ⟨64, _⟩ => ⟨S3x256x256, .bf16⟩
  | .hbm, ⟨65, _⟩ => ⟨S256x256, .bf16⟩
  | .hbm, ⟨66, _⟩ => ⟨S768x256, .bf16⟩
  | .hbm, ⟨67, _⟩ => ⟨S256x256, .bf16⟩
  | .hbm, ⟨68, _⟩ => ⟨S256x256, .bf16⟩
  | .hbm, ⟨69, _⟩ => ⟨S256x256, .bf16⟩
  | .hbm, ⟨70, _⟩ => ⟨S1x256x256, .bf16⟩
  | .hbm, ⟨71, _⟩ => ⟨S1x256x256, .bf16⟩
  | .hbm, ⟨72, _⟩ => ⟨S1x256x256, .bf16⟩
  | .hbm, ⟨73, _⟩ => ⟨S3x256x256, .bf16⟩
  | .hbm, ⟨74, _⟩ => ⟨S32768x256, .f32⟩
  | .hbm, ⟨75, _⟩ => ⟨S32768x6, .f32⟩
  | .hbm, ⟨76, _⟩ => ⟨S6x32768, .f32⟩
  | .hbm, ⟨77, _⟩ => ⟨S6x32768x1, .f32⟩
  | .local _ .vmem, ⟨0, _⟩ => ⟨S512x128, .f32⟩
  | .local _ .vmem, ⟨1, _⟩ => ⟨S512x128, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S128x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S512x256, .bf16⟩
  | .local _ .vmem, ⟨11, _⟩ => ⟨S256, .f32⟩
  | .local _ .vmem, ⟨12, _⟩ => ⟨S3x256x1024, .bf16⟩
  | .local _ .vmem, ⟨13, _⟩ => ⟨S6x256, .f32⟩
  | .local _ .vmem, ⟨14, _⟩ => ⟨S6x256, .f32⟩
  | .local _ .vmem, ⟨15, _⟩ => ⟨S6x1, .f32⟩
  | .local _ .vmem, ⟨16, _⟩ => ⟨S3x256x256, .bf16⟩
  | .local _ .vmem, ⟨17, _⟩ => ⟨S3x256, .f32⟩
  | .local _ .vmem, ⟨18, _⟩ => ⟨S3x256x256, .bf16⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S3x256x256, .bf16⟩
  | .local _ .vmem, ⟨23, _⟩ => ⟨S256, .f32⟩
  | .local _ .vmem, ⟨24, _⟩ => ⟨S256x256, .bf16⟩
  | .local _ .vmem, ⟨25, _⟩ => ⟨S256, .f32⟩
  | .local _ .vmem, ⟨26, _⟩ => ⟨S256, .f32⟩
  | .local _ .vmem, ⟨27, _⟩ => ⟨S256, .f32⟩
  | .local _ .vmem, ⟨28, _⟩ => ⟨S512x256, .f32⟩
  | .local _ .vmem, ⟨29, _⟩ => ⟨S512x256, .f32⟩
  | .local _ .vmem, ⟨30, _⟩ => ⟨S512x6, .f32⟩
  | .local _ .vmem, ⟨31, _⟩ => ⟨S512x6, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg25_1 : Ref sig .tc := ⟨.vmem, 29, rfl⟩
abbrev cc0_stg26_0 : Ref sig .tc := ⟨.vmem, 30, rfl⟩
abbrev cc0_stg26_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29
abbrev cc0_sem26_0 : DmaSem sig := 30
abbrev cc0_sem26_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S512x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x6 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  bitsLt_bf16_f32 : FTy.bits .bf16 < FTy.bits .f32
  slices_S6x512x256_S6x256x256_0_0_0 : S6x512x256.Slices ![0, 0, 0] S6x256x256
  slices_S6x512x256_S6x256x256_0_256_0 : S6x512x256.Slices ![0, 256, 0] S6x256x256
  slices_S6x256x256_S1x256x256_0_0_0 : S6x256x256.Slices ![0, 0, 0] S1x256x256
  shapeCasts_S1x256x256_S256x256 : S1x256x256.ShapeCasts S256x256
  slices_S6x256x256_S1x256x256_1_0_0 : S6x256x256.Slices ![1, 0, 0] S1x256x256
  slices_S6x256x256_S1x256x256_2_0_0 : S6x256x256.Slices ![2, 0, 0] S1x256x256
  slices_S6x256x256_S1x256x256_4_0_0 : S6x256x256.Slices ![4, 0, 0] S1x256x256
  concatenates_S256x256_S256x256_S256x256_S256x256_S256x1024_d1 : Shape.Concatenates [S256x256, S256x256, S256x256, S256x256] S256x1024 1
  slices_S6x256x256_S1x256x256_3_0_0 : S6x256x256.Slices ![3, 0, 0] S1x256x256
  slices_S6x256x256_S1x256x256_5_0_0 : S6x256x256.Slices ![5, 0, 0] S1x256x256
  bcast_S256x1024_S1x256x1024_1_2 : S256x1024.BroadcastsInDim S1x256x1024 (![1, 2] : Fin 2 → Fin S1x256x1024.rank)
  concatenates_S1x256x1024_S1x256x1024_S1x256x1024_S3x256x1024_d0 : Shape.Concatenates [S1x256x1024, S1x256x1024, S1x256x1024] S3x256x1024 0
  shapeCasts_S6x256x1_S6x256 : S6x256x1.ShapeCasts S6x256
  slices_S768x256_S256x256_0_0 : S768x256.Slices ![0, 0] S256x256
  slices_S768x256_S256x256_256_0 : S768x256.Slices ![256, 0] S256x256
  slices_S768x256_S256x256_512_0 : S768x256.Slices ![512, 0] S256x256
  bcast_S256x256_S1x256x256_1_2 : S256x256.BroadcastsInDim S1x256x256 (![1, 2] : Fin 2 → Fin S1x256x256.rank)
  concatenates_S1x256x256_S1x256x256_S1x256x256_S3x256x256_d0 : Shape.Concatenates [S1x256x256, S1x256x256, S1x256x256] S3x256x256 0
  inb_S512x128_S512x128_0_0 : ∀ a, (![0, 0] : Fin 2 → Nat) a + S512x128.size a ≤ S512x128.size a
  h_S512x128 : 0 < S512x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x512_S512x512_0_0 : ∀ a, (![0, 0] : Fin 2 → Nat) a + S512x512.size a ≤ S512x512.size a
  h_S512x512 : 0 < S512x512.numel
  shapeCasts_S512x256_S512x256 : S512x256.ShapeCasts S512x256
  inb_S3x256x1024_S1x256x1024_0_0_0 : ∀ a, (![0, 0, 0] : Fin 3 → Nat) a + S1x256x1024.size a ≤ S3x256x1024.size a
  h_S1x256x1024 : 0 < S1x256x1024.numel
  shapeCasts_S1x256x1024_S256x1024 : S1x256x1024.ShapeCasts S256x1024
  inb_S3x256x1024_S1x256x1024_1_0_0 : ∀ a, (![1, 0, 0] : Fin 3 → Nat) a + S1x256x1024.size a ≤ S3x256x1024.size a
  inb_S3x256x1024_S1x256x1024_2_0_0 : ∀ a, (![2, 0, 0] : Fin 3 → Nat) a + S1x256x1024.size a ≤ S3x256x1024.size a
  slices_S512x1024_o0_0_S512x256 : S512x1024.Slices ![0, 0] S512x256
  slices_S512x1024_o0_512_S512x256 : S512x1024.Slices ![0, 512] S512x256
  inb_S6x256_S1x256_0_0 : ∀ a, (![0, 0] : Fin 2 → Nat) a + S1x256.size a ≤ S6x256.size a
  h_S1x256 : 0 < S1x256.numel
  shapeCasts_S1x256_S256 : S1x256.ShapeCasts S256
  reduces_S512x256_S512 : S512x256.Reduces [1] S512
  shapeCasts_S512_S512x1 : S512.ShapeCasts S512x1
  inb_S6x1_S1x1_0_0 : ∀ a, (![0, 0] : Fin 2 → Nat) a + S1x1.size a ≤ S6x1.size a
  h_S1x1 : 0 < S1x1.numel
  shapeCasts_S1x1_S1 : S1x1.ShapeCasts S1
  shapeCasts_S1_S1x1 : S1.ShapeCasts S1x1
  broadcasts_S1x1_S512x1 : S1x1.Broadcasts S512x1
  broadcasts_S512x1_S512x256 : S512x1.Broadcasts S512x256
  slices_S512x1024_o0_256_S512x256 : S512x1024.Slices ![0, 256] S512x256
  inb_S6x256_S1x256_1_0 : ∀ a, (![1, 0] : Fin 2 → Nat) a + S1x256.size a ≤ S6x256.size a
  inb_S6x1_S1x1_1_0 : ∀ a, (![1, 0] : Fin 2 → Nat) a + S1x1.size a ≤ S6x1.size a
  inb_S6x256_S1x256_2_0 : ∀ a, (![2, 0] : Fin 2 → Nat) a + S1x256.size a ≤ S6x256.size a
  inb_S6x1_S1x1_2_0 : ∀ a, (![2, 0] : Fin 2 → Nat) a + S1x1.size a ≤ S6x1.size a
  slices_S512x1024_o0_768_S512x256 : S512x1024.Slices ![0, 768] S512x256
  inb_S6x256_S1x256_3_0 : ∀ a, (![3, 0] : Fin 2 → Nat) a + S1x256.size a ≤ S6x256.size a
  inb_S6x1_S1x1_3_0 : ∀ a, (![3, 0] : Fin 2 → Nat) a + S1x1.size a ≤ S6x1.size a
  inb_S6x256_S1x256_4_0 : ∀ a, (![4, 0] : Fin 2 → Nat) a + S1x256.size a ≤ S6x256.size a
  inb_S6x1_S1x1_4_0 : ∀ a, (![4, 0] : Fin 2 → Nat) a + S1x1.size a ≤ S6x1.size a
  inb_S6x256_S1x256_5_0 : ∀ a, (![5, 0] : Fin 2 → Nat) a + S1x256.size a ≤ S6x256.size a
  inb_S6x1_S1x1_5_0 : ∀ a, (![5, 0] : Fin 2 → Nat) a + S1x1.size a ≤ S6x1.size a
  inb_S3x256x256_S1x256x256_0_0_0 : ∀ a, (![0, 0, 0] : Fin 3 → Nat) a + S1x256x256.size a ≤ S3x256x256.size a
  h_S1x256x256 : 0 < S1x256x256.numel
  inb_S3x256_S1x256_0_0 : ∀ a, (![0, 0] : Fin 2 → Nat) a + S1x256.size a ≤ S3x256.size a
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  concatenates_S512x1_S512x1_S512x1_S512x1_S512x1_S512x1_S512x6_d1 : Shape.Concatenates [S512x1, S512x1, S512x1, S512x1, S512x1, S512x1] S512x6 1
  inb_S512x6_S512x6_0_0 : ∀ a, (![0, 0] : Fin 2 → Nat) a + S512x6.size a ≤ S512x6.size a
  h_S512x6 : 0 < S512x6.numel
  transposes_S32768x6_S6x32768_1_0 : S32768x6.Transposes [1, 0] S6x32768
  bcast_S6x32768_S6x32768x1_0_1 : S6x32768.BroadcastsInDim S6x32768x1 (![0, 1] : Fin 2 → Fin S6x32768x1.rank)
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S32768x256.size a
  hwx0_1 : ∀ i : grid0.Coords, EltTy.bits .f32 = 32 ∨ (Rect.block (s := S32768x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x256x1024.size a ≤ S3x256x1024.size a
  hwx0_9 : ∀ i : grid0.Coords, EltTy.bits .bf16 = 32 ∨ (Rect.block (s := S3x256x1024) S3x256x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x256.size a ≤ S6x256.size a
  hwx0_10 : ∀ i : grid0.Coords, EltTy.bits .f32 = 32 ∨ (Rect.block (s := S6x256) S6x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x256.size a ≤ S6x256.size a
  hwx0_11 : ∀ i : grid0.Coords, EltTy.bits .f32 = 32 ∨ (Rect.block (s := S6x256) S6x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6x1.size a ≤ S6x1.size a
  hwx0_12 : ∀ i : grid0.Coords, EltTy.bits .f32 = 32 ∨ (Rect.block (s := S6x1) S6x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x256x256.size a ≤ S3x256x256.size a
  hwx0_13 : ∀ i : grid0.Coords, EltTy.bits .bf16 = 32 ∨ (Rect.block (s := S3x256x256) S3x256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S3x256.size a ≤ S3x256.size a
  hwx0_14 : ∀ i : grid0.Coords, EltTy.bits .f32 = 32 ∨ (Rect.block (s := S3x256) S3x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S3x256x256.size a ≤ S3x256x256.size a
  hwx0_15 : ∀ i : grid0.Coords, EltTy.bits .bf16 = 32 ∨ (Rect.block (s := S3x256x256) S3x256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S3x256.size a ≤ S3x256.size a
  hwx0_16 : ∀ i : grid0.Coords, EltTy.bits .f32 = 32 ∨ (Rect.block (s := S3x256) S3x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S3x256.size a ≤ S3x256.size a
  hwx0_17 : ∀ i : grid0.Coords, EltTy.bits .f32 = 32 ∨ (Rect.block (s := S3x256) S3x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S3x256.size a ≤ S3x256.size a
  hwx0_18 : ∀ i : grid0.Coords, EltTy.bits .f32 = 32 ∨ (Rect.block (s := S3x256) S3x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S3x256x256.size a ≤ S3x256x256.size a
  hwx0_19 : ∀ i : grid0.Coords, EltTy.bits .bf16 = 32 ∨ (Rect.block (s := S3x256x256) S3x256x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256.size a ≤ S256.size a
  hwx0_22 : ∀ i : grid0.Coords, EltTy.bits .f32 = 32 ∨ (Rect.block (s := S256) S256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256.size a ≤ S256.size a
  hwx0_23 : ∀ i : grid0.Coords, EltTy.bits .f32 = 32 ∨ (Rect.block (s := S256) S256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256.size a ≤ S256.size a
  hwx0_24 : ∀ i : grid0.Coords, EltTy.bits .f32 = 32 ∨ (Rect.block (s := S256) S256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S512x256.size a ≤ S32768x256.size a
  hwx0_25 : ∀ i : grid0.Coords, EltTy.bits .f32 = 32 ∨ (Rect.block (s := S32768x256) S512x256.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x6.size a ≤ S32768x6.size a
  hwx0_26 : ∀ i : grid0.Coords, EltTy.bits .f32 = 32 ∨ (Rect.block (s := S32768x6) S512x6.size (cc0_transform_26 i) (hinb0_26 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S3x256x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S6x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S6x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S6x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v38) S3x256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S3x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39) S3x256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S3x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S3x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S3x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v48) S3x256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v40) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v49_0) S512x256.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v49_1) S512x6.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x256 : Shape := ⟨2, ![32768, 256]⟩
abbrev S32768x512 : Shape := ⟨2, ![32768, 512]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S6x512x256 : Shape := ⟨3, ![6, 512, 256]⟩
abbrev S6x256 : Shape := ⟨2, ![6, 256]⟩
abbrev S6x256x1 : Shape := ⟨3, ![6, 256, 1]⟩
abbrev S6x1 : Shape := ⟨2, ![6, 1]⟩
abbrev S3x256x256 : Shape := ⟨3, ![3, 256, 256]⟩
abbrev S3x256 : Shape := ⟨2, ![3, 256]⟩
abbrev S768x256 : Shape := ⟨2, ![768, 256]⟩
abbrev S6 : Shape := ⟨1, ![6]⟩
abbrev S1x256 : Shape := ⟨2, ![1, 256]⟩
abbrev S1x32768x256 : Shape := ⟨3, ![1, 32768, 256]⟩
abbrev S3x32768x256 : Shape := ⟨3, ![3, 32768, 256]⟩
abbrev S_ : Shape := ⟨0, ![]⟩
abbrev S6x32768x256 : Shape := ⟨3, ![6, 32768, 256]⟩
abbrev S6x32768x512 : Shape := ⟨3, ![6, 32768, 512]⟩
abbrev S6x1x256 : Shape := ⟨3, ![6, 1, 256]⟩
abbrev S6x32768x1 : Shape := ⟨3, ![6, 32768, 1]⟩
abbrev S6x1x1 : Shape := ⟨3, ![6, 1, 1]⟩
abbrev S3x1x256 : Shape := ⟨3, ![3, 1, 256]⟩
abbrev S3x32768 : Shape := ⟨2, ![3, 32768]⟩
abbrev S3x32768x1 : Shape := ⟨3, ![3, 32768, 1]⟩
abbrev S32768x3x256 : Shape := ⟨3, ![32768, 3, 256]⟩
abbrev S32768x768 : Shape := ⟨2, ![32768, 768]⟩
abbrev S32768 : Shape := ⟨1, ![32768]⟩
abbrev S32768x1 : Shape := ⟨2, ![32768, 1]⟩

abbrev nBuf : Space → Nat
  | .hbm => 340
  | .vmem => 0
  | .smem => 0
  | _ => 0

abbrev hbmTy0_0 (i : Nat) : BufTy := match i % 128 with
  | 0 => ⟨S32768x128, .f32⟩
  | 1 => ⟨S32768x256, .f32⟩
  | 2 => ⟨S32768x512, .f32⟩
  | 3 => ⟨S128x256, .f32⟩
  | 4 => ⟨S256, .f32⟩
  | 5 => ⟨S256x256, .f32⟩
  | 6 => ⟨S256, .f32⟩
  | 7 => ⟨S512x256, .f32⟩
  | 8 => ⟨S256, .f32⟩
  | 9 => ⟨S6x512x256, .f32⟩
  | 10 => ⟨S6x256, .f32⟩
  | 11 => ⟨S6x256x1, .f32⟩
  | 12 => ⟨S6x1, .f32⟩
  | 13 => ⟨S3x256x256, .f32⟩
  | 14 => ⟨S3x256, .f32⟩
  | 15 => ⟨S3x256x256, .f32⟩
  | 16 => ⟨S3x256, .f32⟩
  | 17 => ⟨S3x256, .f32⟩
  | 18 => ⟨S3x256, .f32⟩
  | 19 => ⟨S768x256, .f32⟩
  | 20 => ⟨S256, .f32⟩
  | 21 => ⟨S256x256, .f32⟩
  | 22 => ⟨S256, .f32⟩
  | 23 => ⟨S256, .f32⟩
  | 24 => ⟨S256, .f32⟩
  | 25 => ⟨S6, .i32⟩
  | 26 => ⟨S6, .i32⟩
  | 27 => ⟨S32768x256, .f32⟩
  | 28 => ⟨S1x256, .f32⟩
  | 29 => ⟨S32768x256, .f32⟩
  | 30 => ⟨S32768x256, .f32⟩
  | 31 => ⟨S32768x256, .f32⟩
  | 32 => ⟨S1x256, .f32⟩
  | 33 => ⟨S32768x256, .f32⟩
  | 34 => ⟨S32768x256, .f32⟩
  | 35 => ⟨S32768x256, .f32⟩
  | 36 => ⟨S1x256, .f32⟩
  | 37 => ⟨S32768x256, .f32⟩
  | 38 => ⟨S32768x256, .f32⟩
  | 39 => ⟨S1x32768x256, .f32⟩
  | 40 => ⟨S1x32768x256, .f32⟩
  | 41 => ⟨S1x32768x256, .f32⟩
  | 42 => ⟨S3x32768x256, .f32⟩
  | 43 => ⟨S_, .i32⟩
  | 44 => ⟨S6, .i32⟩
  | 45 => ⟨S6, .i1⟩
  | 46 => ⟨S_, .i32⟩
  | 47 => ⟨S6, .i32⟩
  | 48 => ⟨S6, .i32⟩
  | 49 => ⟨S6, .i32⟩
  | 50 => ⟨S6x1, .i32⟩
  | 51 => ⟨S6x32768x256, .f32⟩
  | 52 => ⟨S_, .i32⟩
  | 53 => ⟨S6, .i32⟩
  | 54 => ⟨S6, .i1⟩
  | 55 => ⟨S_, .i32⟩
  | 56 => ⟨S6, .i32⟩
  | 57 => ⟨S6, .i32⟩
  | 58 => ⟨S6, .i32⟩
  | 59 => ⟨S6x1, .i32⟩
  | 60 => ⟨S6x32768x256, .f32⟩
  | 61 => ⟨S6x32768x512, .f32⟩
  | 62 => ⟨S6x32768x256, .f32⟩
  | 63 => ⟨S6x1x256, .f32⟩
  | 64 => ⟨S6x32768x256, .f32⟩
  | 65 => ⟨S6x32768x256, .f32⟩
  | 66 => ⟨S_, .f32⟩
  | 67 => ⟨S6x32768x256, .f32⟩
  | 68 => ⟨S6x32768x256, .f32⟩
  | 69 => ⟨S6x32768x1, .f32⟩
  | 70 => ⟨S6x1x1, .f32⟩
  | 71 => ⟨S6x32768x1, .f32⟩
  | 72 => ⟨S6x32768x1, .f32⟩
  | 73 => ⟨S6x32768x1, .f32⟩
  | 74 => ⟨S6x32768x1, .f32⟩
  | 75 => ⟨S_, .f32⟩
  | 76 => ⟨S6x32768x1, .f32⟩
  | 77 => ⟨S6x32768x1, .f32⟩
  | 78 => ⟨S_, .f32⟩
  | 79 => ⟨S6x32768x1, .f32⟩
  | 80 => ⟨S6x32768x1, .f32⟩
  | 81 => ⟨S6x32768x256, .f32⟩
  | 82 => ⟨S6x32768x256, .f32⟩
  | 83 => ⟨S_, .f32⟩
  | 84 => ⟨S3x32768x256, .f32⟩
  | 85 => ⟨S6x1, .i32⟩
  | 86 => ⟨S3x32768x256, .f32⟩
  | 87 => ⟨S3x32768x256, .f32⟩
  | 88 => ⟨S3x32768x256, .f32⟩
  | 89 => ⟨S3x1x256, .f32⟩
  | 90 => ⟨S3x32768x256, .f32⟩
  | 91 => ⟨S3x32768x256, .f32⟩
  | 92 => ⟨S_, .f32⟩
  | 93 => ⟨S3x32768x256, .f32⟩
  | 94 => ⟨S3x32768x256, .f32⟩
  | 95 => ⟨S3x32768x256, .f32⟩
  | 96 => ⟨S3x1x256, .f32⟩
  | 97 => ⟨S3x32768x256, .f32⟩
  | 98 => ⟨S3x32768x256, .f32⟩
  | 99 => ⟨S3x1x256, .f32⟩
  | 100 => ⟨S3x1x256, .f32⟩
  | 101 => ⟨S_, .f32⟩
  | 102 => ⟨S3x32768, .f32⟩
  | 103 => ⟨S3x32768x1, .f32⟩
  | 104 => ⟨S_, .f32⟩
  | 105 => ⟨S3x32768x1, .f32⟩
  | 106 => ⟨S3x32768x1, .f32⟩
  | 107 => ⟨S3x32768x256, .f32⟩
  | 108 => ⟨S3x32768x256, .f32⟩
  | 109 => ⟨S3x32768x256, .f32⟩
  | 110 => ⟨S_, .f32⟩
  | 111 => ⟨S3x32768, .f32⟩
  | 112 => ⟨S3x32768x1, .f32⟩
  | 113 => ⟨S_, .f32⟩
  | 114 => ⟨S3x32768x1, .f32⟩
  | 115 => ⟨S3x32768x1, .f32⟩
  | 116 => ⟨S3x32768x256, .f32⟩
  | 117 => ⟨S3x32768x256, .f32⟩
  | 118 => ⟨S_, .f32⟩
  | 119 => ⟨S3x32768x1, .f32⟩
  | 120 => ⟨S3x32768x1, .f32⟩
  | 121 => ⟨S3x32768x1, .f32⟩
  | 122 => ⟨S3x32768x256, .f32⟩
  | 123 => ⟨S3x32768x256, .f32⟩
  | 124 => ⟨S3x32768x256, .f32⟩
  | 125 => ⟨S3x32768x256, .f32⟩
  | 126 => ⟨S3x32768x256, .f32⟩
  | 127 => ⟨S3x32768x256, .f32⟩
  | _ => ⟨S32768x128, .f32⟩

abbrev hbmTy0_1 (i : Nat) : BufTy := match i % 128 with
  | 0 => ⟨S_, .i32⟩
  | 1 => ⟨S6, .i32⟩
  | 2 => ⟨S6, .i1⟩
  | 3 => ⟨S_, .i32⟩
  | 4 => ⟨S6, .i32⟩
  | 5 => ⟨S6, .i32⟩
  | 6 => ⟨S6, .i32⟩
  | 7 => ⟨S6x1, .i32⟩
  | 8 => ⟨S6x32768x256, .f32⟩
  | 9 => ⟨S_, .i32⟩
  | 10 => ⟨S6, .i32⟩
  | 11 => ⟨S6, .i1⟩
  | 12 => ⟨S_, .i32⟩
  | 13 => ⟨S6, .i32⟩
  | 14 => ⟨S6, .i32⟩
  | 15 => ⟨S6, .i32⟩
  | 16 => ⟨S6x1, .i32⟩
  | 17 => ⟨S6x32768x256, .f32⟩
  | 18 => ⟨S6x32768x512, .f32⟩
  | 19 => ⟨S6x32768x256, .f32⟩
  | 20 => ⟨S6x1x256, .f32⟩
  | 21 => ⟨S6x32768x256, .f32⟩
  | 22 => ⟨S6x32768x256, .f32⟩
  | 23 => ⟨S_, .f32⟩
  | 24 => ⟨S6x32768x256, .f32⟩
  | 25 => ⟨S6x32768x256, .f32⟩
  | 26 => ⟨S6x32768x1, .f32⟩
  | 27 => ⟨S6x1x1, .f32⟩
  | 28 => ⟨S6x32768x1, .f32⟩
  | 29 => ⟨S6x32768x1, .f32⟩
  | 30 => ⟨S6x32768x1, .f32⟩
  | 31 => ⟨S6x32768x1, .f32⟩
  | 32 => ⟨S_, .f32⟩
  | 33 => ⟨S6x32768x1, .f32⟩
  | 34 => ⟨S6x32768x1, .f32⟩
  | 35 => ⟨S_, .f32⟩
  | 36 => ⟨S6x32768x1, .f32⟩
  | 37 => ⟨S6x32768x1, .f32⟩
  | 38 => ⟨S6x32768x256, .f32⟩
  | 39 => ⟨S6x32768x256, .f32⟩
  | 40 => ⟨S_, .f32⟩
  | 41 => ⟨S3x32768x256, .f32⟩
  | 42 => ⟨S6x1, .i32⟩
  | 43 => ⟨S3x32768x256, .f32⟩
  | 44 => ⟨S3x32768x256, .f32⟩
  | 45 => ⟨S3x32768x256, .f32⟩
  | 46 => ⟨S3x1x256, .f32⟩
  | 47 => ⟨S3x32768x256, .f32⟩
  | 48 => ⟨S3x32768x256, .f32⟩
  | 49 => ⟨S_, .f32⟩
  | 50 => ⟨S3x32768x256, .f32⟩
  | 51 => ⟨S3x32768x256, .f32⟩
  | 52 => ⟨S3x32768x256, .f32⟩
  | 53 => ⟨S3x1x256, .f32⟩
  | 54 => ⟨S3x32768x256, .f32⟩
  | 55 => ⟨S3x32768x256, .f32⟩
  | 56 => ⟨S3x1x256, .f32⟩
  | 57 => ⟨S3x1x256, .f32⟩
  | 58 => ⟨S_, .f32⟩
  | 59 => ⟨S3x32768, .f32⟩
  | 60 => ⟨S3x32768x1, .f32⟩
  | 61 => ⟨S_, .f32⟩
  | 62 => ⟨S3x32768x1, .f32⟩
  | 63 => ⟨S3x32768x1, .f32⟩
  | 64 => ⟨S3x32768x256, .f32⟩
  | 65 => ⟨S3x32768x256, .f32⟩
  | 66 => ⟨S3x32768x256, .f32⟩
  | 67 => ⟨S_, .f32⟩
  | 68 => ⟨S3x32768, .f32⟩
  | 69 => ⟨S3x32768x1, .f32⟩
  | 70 => ⟨S_, .f32⟩
  | 71 => ⟨S3x32768x1, .f32⟩
  | 72 => ⟨S3x32768x1, .f32⟩
  | 73 => ⟨S3x32768x256, .f32⟩
  | 74 => ⟨S3x32768x256, .f32⟩
  | 75 => ⟨S_, .f32⟩
  | 76 => ⟨S3x32768x1, .f32⟩
  | 77 => ⟨S3x32768x1, .f32⟩
  | 78 => ⟨S3x32768x1, .f32⟩
  | 79 => ⟨S3x32768x256, .f32⟩
  | 80 => ⟨S3x32768x256, .f32⟩
  | 81 => ⟨S3x32768x256, .f32⟩
  | 82 => ⟨S3x32768x256, .f32⟩
  | 83 => ⟨S3x32768x256, .f32⟩
  | 84 => ⟨S3x32768x256, .f32⟩
  | 85 => ⟨S_, .i32⟩
  | 86 => ⟨S6, .i32⟩
  | 87 => ⟨S6, .i1⟩
  | 88 => ⟨S_, .i32⟩
  | 89 => ⟨S6, .i32⟩
  | 90 => ⟨S6, .i32⟩
  | 91 => ⟨S6, .i32⟩
  | 92 => ⟨S6x1, .i32⟩
  | 93 => ⟨S6x32768x256, .f32⟩
  | 94 => ⟨S_, .i32⟩
  | 95 => ⟨S6, .i32⟩
  | 96 => ⟨S6, .i1⟩
  | 97 => ⟨S_, .i32⟩
  | 98 => ⟨S6, .i32⟩
  | 99 => ⟨S6, .i32⟩
  | 100 => ⟨S6, .i32⟩
  | 101 => ⟨S6x1, .i32⟩
  | 102 => ⟨S6x32768x256, .f32⟩
  | 103 => ⟨S6x32768x512, .f32⟩
  | 104 => ⟨S6x32768x256, .f32⟩
  | 105 => ⟨S6x1x256, .f32⟩
  | 106 => ⟨S6x32768x256, .f32⟩
  | 107 => ⟨S6x32768x256, .f32⟩
  | 108 => ⟨S_, .f32⟩
  | 109 => ⟨S6x32768x256, .f32⟩
  | 110 => ⟨S6x32768x256, .f32⟩
  | 111 => ⟨S6x32768x1, .f32⟩
  | 112 => ⟨S6x1x1, .f32⟩
  | 113 => ⟨S6x32768x1, .f32⟩
  | 114 => ⟨S6x32768x1, .f32⟩
  | 115 => ⟨S6x32768x1, .f32⟩
  | 116 => ⟨S6x32768x1, .f32⟩
  | 117 => ⟨S_, .f32⟩
  | 118 => ⟨S6x32768x1, .f32⟩
  | 119 => ⟨S6x32768x1, .f32⟩
  | 120 => ⟨S_, .f32⟩
  | 121 => ⟨S6x32768x1, .f32⟩
  | 122 => ⟨S6x32768x1, .f32⟩
  | 123 => ⟨S6x32768x256, .f32⟩
  | 124 => ⟨S6x32768x256, .f32⟩
  | 125 => ⟨S_, .f32⟩
  | 126 => ⟨S3x32768x256, .f32⟩
  | 127 => ⟨S6x1, .i32⟩
  | _ => ⟨S32768x128, .f32⟩

abbrev hbmTy0_2 (i : Nat) : BufTy := match i % 128 with
  | 0 => ⟨S3x32768x256, .f32⟩
  | 1 => ⟨S3x32768x256, .f32⟩
  | 2 => ⟨S3x32768x256, .f32⟩
  | 3 => ⟨S3x1x256, .f32⟩
  | 4 => ⟨S3x32768x256, .f32⟩
  | 5 => ⟨S3x32768x256, .f32⟩
  | 6 => ⟨S_, .f32⟩
  | 7 => ⟨S3x32768x256, .f32⟩
  | 8 => ⟨S3x32768x256, .f32⟩
  | 9 => ⟨S3x32768x256, .f32⟩
  | 10 => ⟨S3x1x256, .f32⟩
  | 11 => ⟨S3x32768x256, .f32⟩
  | 12 => ⟨S3x32768x256, .f32⟩
  | 13 => ⟨S3x1x256, .f32⟩
  | 14 => ⟨S3x1x256, .f32⟩
  | 15 => ⟨S_, .f32⟩
  | 16 => ⟨S3x32768, .f32⟩
  | 17 => ⟨S3x32768x1, .f32⟩
  | 18 => ⟨S_, .f32⟩
  | 19 => ⟨S3x32768x1, .f32⟩
  | 20 => ⟨S3x32768x1, .f32⟩
  | 21 => ⟨S3x32768x256, .f32⟩
  | 22 => ⟨S3x32768x256, .f32⟩
  | 23 => ⟨S3x32768x256, .f32⟩
  | 24 => ⟨S_, .f32⟩
  | 25 => ⟨S3x32768, .f32⟩
  | 26 => ⟨S3x32768x1, .f32⟩
  | 27 => ⟨S_, .f32⟩
  | 28 => ⟨S3x32768x1, .f32⟩
  | 29 => ⟨S3x32768x1, .f32⟩
  | 30 => ⟨S3x32768x256, .f32⟩
  | 31 => ⟨S3x32768x256, .f32⟩
  | 32 => ⟨S_, .f32⟩
  | 33 => ⟨S3x32768x1, .f32⟩
  | 34 => ⟨S3x32768x1, .f32⟩
  | 35 => ⟨S3x32768x1, .f32⟩
  | 36 => ⟨S3x32768x256, .f32⟩
  | 37 => ⟨S3x32768x256, .f32⟩
  | 38 => ⟨S3x32768x256, .f32⟩
  | 39 => ⟨S3x32768x256, .f32⟩
  | 40 => ⟨S3x32768x256, .f32⟩
  | 41 => ⟨S3x32768x256, .f32⟩
  | 42 => ⟨S32768x3x256, .f32⟩
  | 43 => ⟨S32768x768, .f32⟩
  | 44 => ⟨S32768x256, .f32⟩
  | 45 => ⟨S1x256, .f32⟩
  | 46 => ⟨S32768x256, .f32⟩
  | 47 => ⟨S32768x256, .f32⟩
  | 48 => ⟨S_, .f32⟩
  | 49 => ⟨S32768x256, .f32⟩
  | 50 => ⟨S32768x256, .f32⟩
  | 51 => ⟨S32768x256, .f32⟩
  | 52 => ⟨S1x256, .f32⟩
  | 53 => ⟨S32768x256, .f32⟩
  | 54 => ⟨S32768x256, .f32⟩
  | 55 => ⟨S_, .f32⟩
  | 56 => ⟨S32768, .f32⟩
  | 57 => ⟨S32768x1, .f32⟩
  | 58 => ⟨S_, .f32⟩
  | 59 => ⟨S32768x1, .f32⟩
  | 60 => ⟨S32768x1, .f32⟩
  | 61 => ⟨S32768x256, .f32⟩
  | 62 => ⟨S32768x256, .f32⟩
  | 63 => ⟨S32768x256, .f32⟩
  | 64 => ⟨S_, .f32⟩
  | 65 => ⟨S32768, .f32⟩
  | 66 => ⟨S32768x1, .f32⟩
  | 67 => ⟨S_, .f32⟩
  | 68 => ⟨S32768x1, .f32⟩
  | 69 => ⟨S32768x1, .f32⟩
  | 70 => ⟨S32768x256, .f32⟩
  | 71 => ⟨S32768x256, .f32⟩
  | 72 => ⟨S_, .f32⟩
  | 73 => ⟨S32768x1, .f32⟩
  | 74 => ⟨S32768x1, .f32⟩
  | 75 => ⟨S32768x1, .f32⟩
  | 76 => ⟨S32768x256, .f32⟩
  | 77 => ⟨S32768x256, .f32⟩
  | 78 => ⟨S1x256, .f32⟩
  | 79 => ⟨S32768x256, .f32⟩
  | 80 => ⟨S32768x256, .f32⟩
  | 81 => ⟨S1x256, .f32⟩
  | 82 => ⟨S32768x256, .f32⟩
  | 83 => ⟨S32768x256, .f32⟩
  | _ => ⟨S32768x128, .f32⟩

abbrev hbmTy (i : Nat) : BufTy := match i / 128 with
  | 0 => hbmTy0_0 i
  | 1 => hbmTy0_1 i
  | 2 => hbmTy0_2 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_c_0 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_1 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_3 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call0_cst : Ref sig .tc := ⟨.hbm, 66, rfl⟩
abbrev main_call0_v0 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst : Ref sig .tc := ⟨.hbm, 75, rfl⟩
abbrev main_v42 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call1_cst : Ref sig .tc := ⟨.hbm, 92, rfl⟩
abbrev main_call1_v0 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_7 : Ref sig .tc := ⟨.hbm, 101, rfl⟩
abbrev main_v63 : Ref sig .tc := ⟨.hbm, 102, rfl⟩
abbrev main_v64 : Ref sig .tc := ⟨.hbm, 103, rfl⟩
abbrev main_cst_8 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_9 : Ref sig .tc := ⟨.hbm, 110, rfl⟩
abbrev main_v70 : Ref sig .tc := ⟨.hbm, 111, rfl⟩
abbrev main_v71 : Ref sig .tc := ⟨.hbm, 112, rfl⟩
abbrev main_cst_10 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_11 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_12 : Ref sig .tc := ⟨.hbm, 128, rfl⟩
abbrev main_v85 : Ref sig .tc := ⟨.hbm, 129, rfl⟩
abbrev main_v86 : Ref sig .tc := ⟨.hbm, 130, rfl⟩
abbrev main_c_13 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_14 : Ref sig .tc := ⟨.hbm, 137, rfl⟩
abbrev main_v92 : Ref sig .tc := ⟨.hbm, 138, rfl⟩
abbrev main_v93 : Ref sig .tc := ⟨.hbm, 139, rfl⟩
abbrev main_c_15 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call2_cst : Ref sig .tc := ⟨.hbm, 151, rfl⟩
abbrev main_call2_v0 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_16 : Ref sig .tc := ⟨.hbm, 160, rfl⟩
abbrev main_v111 : Ref sig .tc := ⟨.hbm, 161, rfl⟩
abbrev main_v112 : Ref sig .tc := ⟨.hbm, 162, rfl⟩
abbrev main_cst_17 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_18 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_call3_cst : Ref sig .tc := ⟨.hbm, 177, rfl⟩
abbrev main_call3_v0 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_19 : Ref sig .tc := ⟨.hbm, 186, rfl⟩
abbrev main_v132 : Ref sig .tc := ⟨.hbm, 187, rfl⟩
abbrev main_v133 : Ref sig .tc := ⟨.hbm, 188, rfl⟩
abbrev main_cst_20 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_21 : Ref sig .tc := ⟨.hbm, 195, rfl⟩
abbrev main_v139 : Ref sig .tc := ⟨.hbm, 196, rfl⟩
abbrev main_v140 : Ref sig .tc := ⟨.hbm, 197, rfl⟩
abbrev main_cst_22 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_23 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_c_24 : Ref sig .tc := ⟨.hbm, 213, rfl⟩
abbrev main_v154 : Ref sig .tc := ⟨.hbm, 214, rfl⟩
abbrev main_v155 : Ref sig .tc := ⟨.hbm, 215, rfl⟩
abbrev main_c_25 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_c_26 : Ref sig .tc := ⟨.hbm, 222, rfl⟩
abbrev main_v161 : Ref sig .tc := ⟨.hbm, 223, rfl⟩
abbrev main_v162 : Ref sig .tc := ⟨.hbm, 224, rfl⟩
abbrev main_c_27 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_call4_cst : Ref sig .tc := ⟨.hbm, 236, rfl⟩
abbrev main_call4_v0 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_cst_28 : Ref sig .tc := ⟨.hbm, 245, rfl⟩
abbrev main_v180 : Ref sig .tc := ⟨.hbm, 246, rfl⟩
abbrev main_v181 : Ref sig .tc := ⟨.hbm, 247, rfl⟩
abbrev main_cst_29 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_cst_30 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_call5_cst : Ref sig .tc := ⟨.hbm, 262, rfl⟩
abbrev main_call5_v0 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_cst_31 : Ref sig .tc := ⟨.hbm, 271, rfl⟩
abbrev main_v201 : Ref sig .tc := ⟨.hbm, 272, rfl⟩
abbrev main_v202 : Ref sig .tc := ⟨.hbm, 273, rfl⟩
abbrev main_cst_32 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_cst_33 : Ref sig .tc := ⟨.hbm, 280, rfl⟩
abbrev main_v208 : Ref sig .tc := ⟨.hbm, 281, rfl⟩
abbrev main_v209 : Ref sig .tc := ⟨.hbm, 282, rfl⟩
abbrev main_cst_34 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_cst_35 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_call6_cst : Ref sig .tc := ⟨.hbm, 304, rfl⟩
abbrev main_call6_v0 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_cst_36 : Ref sig .tc := ⟨.hbm, 311, rfl⟩
abbrev main_v234 : Ref sig .tc := ⟨.hbm, 312, rfl⟩
abbrev main_v235 : Ref sig .tc := ⟨.hbm, 313, rfl⟩
abbrev main_cst_37 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_cst_38 : Ref sig .tc := ⟨.hbm, 320, rfl⟩
abbrev main_v241 : Ref sig .tc := ⟨.hbm, 321, rfl⟩
abbrev main_v242 : Ref sig .tc := ⟨.hbm, 322, rfl⟩
abbrev main_cst_39 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_cst_40 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S32768x256_S1x32768x256_1_2 : S32768x256.BroadcastsInDim S1x32768x256 (![1, 2] : Fin 2 → Fin S1x32768x256.rank)
  concatenates_S1x32768x256_S1x32768x256_S1x32768x256_S3x32768x256_d0 : Shape.Concatenates [S1x32768x256, S1x32768x256, S1x32768x256] S3x32768x256 0
  bcast_S_S6 : S_.BroadcastsInDim S6 (![] : Fin 0 → Fin S6.rank)
  bcast_S6_S6x1_0 : S6.BroadcastsInDim S6x1 (![0] : Fin 1 → Fin S6x1.rank)
  concatenates_S6x32768x256_S6x32768x256_S6x32768x512_d2 : Shape.Concatenates [S6x32768x256, S6x32768x256] S6x32768x512 2
  bcast_S6x256_S6x1x256_0_2 : S6x256.BroadcastsInDim S6x1x256 (![0, 2] : Fin 2 → Fin S6x1x256.rank)
  bcast_S6x1x256_S6x32768x256_0_1_2 : S6x1x256.BroadcastsInDim S6x32768x256 (![0, 1, 2] : Fin 3 → Fin S6x32768x256.rank)
  bcast_S_S6x32768x256 : S_.BroadcastsInDim S6x32768x256 (![] : Fin 0 → Fin S6x32768x256.rank)
  bcast_S6x1_S6x1x1_0_2 : S6x1.BroadcastsInDim S6x1x1 (![0, 2] : Fin 2 → Fin S6x1x1.rank)
  bcast_S6x1x1_S6x32768x1_0_1_2 : S6x1x1.BroadcastsInDim S6x32768x1 (![0, 1, 2] : Fin 3 → Fin S6x32768x1.rank)
  bcast_S_S6x32768x1 : S_.BroadcastsInDim S6x32768x1 (![] : Fin 0 → Fin S6x32768x1.rank)
  bcast_S6x32768x1_S6x32768x256_0_1_2 : S6x32768x1.BroadcastsInDim S6x32768x256 (![0, 1, 2] : Fin 3 → Fin S6x32768x256.rank)
  bcast_S_S3x32768x256 : S_.BroadcastsInDim S3x32768x256 (![] : Fin 0 → Fin S3x32768x256.rank)
  bcast_S3x256_S3x1x256_0_2 : S3x256.BroadcastsInDim S3x1x256 (![0, 2] : Fin 2 → Fin S3x1x256.rank)
  bcast_S3x1x256_S3x32768x256_0_1_2 : S3x1x256.BroadcastsInDim S3x32768x256 (![0, 1, 2] : Fin 3 → Fin S3x32768x256.rank)
  reducesTo_S3x32768x256_S3x32768_d2 : S3x32768x256.ReducesTo [2] S3x32768
  h_S_ : 0 < S_.numel
  bcast_S3x32768_S3x32768x1_0_1 : S3x32768.BroadcastsInDim S3x32768x1 (![0, 1] : Fin 2 → Fin S3x32768x1.rank)
  bcast_S_S3x32768x1 : S_.BroadcastsInDim S3x32768x1 (![] : Fin 0 → Fin S3x32768x1.rank)
  bcast_S3x32768x1_S3x32768x256_0_1_2 : S3x32768x1.BroadcastsInDim S3x32768x256 (![0, 1, 2] : Fin 3 → Fin S3x32768x256.rank)
  transposes_S3x32768x256_S32768x3x256_1_0_2 : S3x32768x256.Transposes [1, 0, 2] S32768x3x256
  shapeCasts_S32768x3x256_S32768x768 : S32768x3x256.ShapeCasts S32768x768
  bcast_S_S32768x256 : S_.BroadcastsInDim S32768x256 (![] : Fin 0 → Fin S32768x256.rank)
  reducesTo_S32768x256_S32768_d1 : S32768x256.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  dot_S32768x128_S128x256_S32768x256_1_0_0_1_n_n_wf : DotDims.WF S32768x128 S128x256 S32768x256 [1] [0] [0] [1] [] []
  dot_S32768x256_S256x256_S32768x256_1_0_0_1_n_n_wf : DotDims.WF S32768x256 S256x256 S32768x256 [1] [0] [0] [1] [] []
  dot_S32768x512_S512x256_S32768x256_1_0_0_1_n_n_wf : DotDims.WF S32768x512 S512x256 S32768x256 [1] [0] [0] [1] [] []
  gather_S3x32768x256_S6x1_S6x32768x256_12_0_n_n_0_1_132768256_wf : GatherDims.WF S3x32768x256 S6x1 S6x32768x256 [1, 2] [0] [] [0] [] 1 ![1, 32768, 256]
  dot_S6x32768x512_S6x512x256_S6x32768x256_2_1_1_2_0_0_wf : DotDims.WF S6x32768x512 S6x512x256 S6x32768x256 [2] [1] [1] [2] [0] [0]
  dot_S6x32768x256_S6x256x1_S6x32768x1_2_1_1_2_0_0_wf : DotDims.WF S6x32768x256 S6x256x1 S6x32768x1 [2] [1] [1] [2] [0] [0]
  scatter_S3x32768x256_S6x1_S6x32768x256_12_0_0_1_wf : ScatterDims.WF S3x32768x256 S6x1 S6x32768x256 [1, 2] [0] [0] 1
  dot_S3x32768x256_S3x256x256_S3x32768x256_2_1_1_2_0_0_wf : DotDims.WF S3x32768x256 S3x256x256 S3x32768x256 [2] [1] [1] [2] [0] [0]
  dot_S32768x768_S768x256_S32768x256_1_0_0_1_n_n_wf : DotDims.WF S32768x768 S768x256 S32768x256 [1] [0] [0] [1] [] []

variable [Facts₀]

def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def gather_S3x32768x256_S6x1_S6x32768x256_12_0_n_n_0_1_132768256 : GatherDims S3x32768x256 S6x1 S6x32768x256 where
  offsetDims := [1, 2]
  collapsedSliceDims := [0]
  operandBatchingDims := []
  startIndicesBatchingDims := []
  startIndexMap := [0]
  indexVectorDim := 1
  sliceSizes := ![1, 32768, 256]
  wf := gather_S3x32768x256_S6x1_S6x32768x256_12_0_n_n_0_1_132768256_wf
def dot_S6x32768x512_S6x512x256_S6x32768x256_2_1_1_2_0_0 : DotDims S6x32768x512 S6x512x256 S6x32768x256 where
  lhsContracting := [2]
  rhsContracting := [1]
  lhsNonContracting := [1]
  rhsNonContracting := [2]
  lhsBatch := [0]
  rhsBatch := [0]
  wf := dot_S6x32768x512_S6x512x256_S6x32768x256_2_1_1_2_0_0_wf
def dot_S6x32768x256_S6x256x1_S6x32768x1_2_1_1_2_0_0 : DotDims S6x32768x256 S6x256x1 S6x32768x1 where
  lhsContracting := [2]
  rhsContracting := [1]
  lhsNonContracting := [1]
  rhsNonContracting := [2]
  lhsBatch := [0]
  rhsBatch := [0]
  wf := dot_S6x32768x256_S6x256x1_S6x32768x1_2_1_1_2_0_0_wf
def scatter_S3x32768x256_S6x1_S6x32768x256_12_0_0_1 : ScatterDims S3x32768x256 S6x1 S6x32768x256 where
  updateWindowDims := [1, 2]
  insertedWindowDims := [0]
  scatterDimsToOperandDims := [0]
  indexVectorDim := 1
  wf := scatter_S3x32768x256_S6x1_S6x32768x256_12_0_0_1_wf
def dot_S3x32768x256_S3x256x256_S3x32768x256_2_1_1_2_0_0 : DotDims S3x32768x256 S3x256x256 S3x32768x256 where
  lhsContracting := [2]
  rhsContracting := [1]
  lhsNonContracting := [1]
  rhsNonContracting := [2]
  lhsBatch := [0]
  rhsBatch := [0]
  wf := dot_S3x32768x256_S3x256x256_S3x32768x256_2_1_1_2_0_0_wf
def dot_S32768x768_S768x256_S32768x256_1_0_0_1_n_n : DotDims S32768x768 S768x256 S32768x256 where
  lhsContracting := [1]
  rhsContracting := [0]
  lhsNonContracting := [0]
  rhsNonContracting := [1]
  lhsBatch := []
  rhsBatch := []
  wf := dot_S32768x768_S768x256_S32768x256_1_0_0_1_n_n_wf

class Facts : Prop extends Facts₀ where

variable [Facts]
-- ==== Proof.KBodyBits.lean ====
import proofs.«429394_j28956669510180_3_alg».proof.Proof.Gen.Kernel.Skeleton
import Idealize.ShloMosaic.Lib.Pipeline.FrameBody

noncomputable section

namespace Cert.Kernel.Body

open Cert.Kernel Cert.Kernel.Gen Idealize.ShloMosaic

structure Blocks (F : FTy → Type) [FloatOps F] where
  x0 : Vec F S512x128 .f32
  x1 : Vec F S512x256 .f32
  x2 : Vec F S512x512 .f32
  x3 : Vec F S128x256 .bf16
  x4 : Vec F S256 .f32
  x5 : Vec F S256x256 .bf16
  x6 : Vec F S256 .f32
  x7 : Vec F S512x256 .bf16
  x8 : Vec F S256 .f32
  x9 : Vec F S3x256x1024 .bf16
  x10 : Vec F S6x256 .f32
  x11 : Vec F S6x256 .f32
  x12 : Vec F S6x1 .f32
  x13 : Vec F S3x256x256 .bf16
  x14 : Vec F S3x256 .f32
  x15 : Vec F S3x256x256 .bf16
  x16 : Vec F S3x256 .f32
  x17 : Vec F S3x256 .f32
  x18 : Vec F S3x256 .f32
  x19 : Vec F S3x256x256 .bf16
  x20 : Vec F S256 .f32
  x21 : Vec F S256x256 .bf16
  x22 : Vec F S256 .f32
  x23 : Vec F S256 .f32
  x24 : Vec F S256 .f32

variable {F : FTy → Type} [FloatOps F]

def ld0 (B : Blocks F) : Vec F S512x128 .f32 :=
  View.ld B.x0 (Rect.unit (s := S512x128) ![0, 0] S512x128.size inb_S512x128_S512x128_0_0)
def ld3 (B : Blocks F) : Vec F S128x256 .bf16 :=
  View.ld B.x3 (Rect.unit (s := S128x256) ![0, 0] S128x256.size inb_S128x256_S128x256_0_0)
def ld4 (B : Blocks F) : Vec F S256 .f32 :=
  View.ld B.x4 (Rect.unit (s := S256) ![0] S256.size inb_S256_S256_0)
def ld1 (B : Blocks F) : Vec F S512x256 .f32 :=
  View.ld B.x1 (Rect.unit (s := S512x256) ![0, 0] S512x256.size inb_S512x256_S512x256_0_0)
def ld5 (B : Blocks F) : Vec F S256x256 .bf16 :=
  View.ld B.x5 (Rect.unit (s := S256x256) ![0, 0] S256x256.size inb_S256x256_S256x256_0_0)
def ld6 (B : Blocks F) : Vec F S256 .f32 :=
  View.ld B.x6 (Rect.unit (s := S256) ![0] S256.size inb_S256_S256_0)
def ld2 (B : Blocks F) : Vec F S512x512 .f32 :=
  View.ld B.x2 (Rect.unit (s := S512x512) ![0, 0] S512x512.size inb_S512x512_S512x512_0_0)
def ld7 (B : Blocks F) : Vec F S512x256 .bf16 :=
  View.ld B.x7 (Rect.unit (s := S512x256) ![0, 0] S512x256.size inb_S512x256_S512x256_0_0)
def ld8 (B : Blocks F) : Vec F S256 .f32 :=
  View.ld B.x8 (Rect.unit (s := S256) ![0] S256.size inb_S256_S256_0)
def ld9_0 (B : Blocks F) : Vec F S1x256x1024 .bf16 :=
  View.ld B.x9 (Rect.unit (s := S3x256x1024) ![0, 0, 0] S1x256x1024.size inb_S3x256x1024_S1x256x1024_0_0_0)
def ld9_1 (B : Blocks F) : Vec F S1x256x1024 .bf16 :=
  View.ld B.x9 (Rect.unit (s := S3x256x1024) ![1, 0, 0] S1x256x1024.size inb_S3x256x1024_S1x256x1024_1_0_0)
def ld9_2 (B : Blocks F) : Vec F S1x256x1024 .bf16 :=
  View.ld B.x9 (Rect.unit (s := S3x256x1024) ![2, 0, 0] S1x256x1024.size inb_S3x256x1024_S1x256x1024_2_0_0)
def ld10_0 (B : Blocks F) : Vec F S1x256 .f32 :=
  View.ld B.x10 (Rect.unit (s := S6x256) ![0, 0] S1x256.size inb_S6x256_S1x256_0_0)
def ld11_0 (B : Blocks F) : Vec F S1x256 .f32 :=
  View.ld B.x11 (Rect.unit (s := S6x256) ![0, 0] S1x256.size inb_S6x256_S1x256_0_0)
def ld12_0 (B : Blocks F) : Vec F S1x1 .f32 :=
  View.ld B.x12 (Rect.unit (s := S6x1) ![0, 0] S1x1.size inb_S6x1_S1x1_0_0)
def ld10_1 (B : Blocks F) : Vec F S1x256 .f32 :=
  View.ld B.x10 (Rect.unit (s := S6x256) ![1, 0] S1x256.size inb_S6x256_S1x256_1_0)
def ld11_1 (B : Blocks F) : Vec F S1x256 .f32 :=
  View.ld B.x11 (Rect.unit (s := S6x256) ![1, 0] S1x256.size inb_S6x256_S1x256_1_0)
def ld12_1 (B : Blocks F) : Vec F S1x1 .f32 :=
  View.ld B.x12 (Rect.unit (s := S6x1) ![1, 0] S1x1.size inb_S6x1_S1x1_1_0)
def ld10_2 (B : Blocks F) : Vec F S1x256 .f32 :=
  View.ld B.x10 (Rect.unit (s := S6x256) ![2, 0] S1x256.size inb_S6x256_S1x256_2_0)
def ld11_2 (B : Blocks F) : Vec F S1x256 .f32 :=
  View.ld B.x11 (Rect.unit (s := S6x256) ![2, 0] S1x256.size inb_S6x256_S1x256_2_0)
def ld12_2 (B : Blocks F) : Vec F S1x1 .f32 :=
  View.ld B.x12 (Rect.unit (s := S6x1) ![2, 0] S1x1.size inb_S6x1_S1x1_2_0)
def ld10_3 (B : Blocks F) : Vec F S1x256 .f32 :=
  View.ld B.x10 (Rect.unit (s := S6x256) ![3, 0] S1x256.size inb_S6x256_S1x256_3_0)
def ld11_3 (B : Blocks F) : Vec F S1x256 .f32 :=
  View.ld B.x11 (Rect.unit (s := S6x256) ![3, 0] S1x256.size inb_S6x256_S1x256_3_0)
def ld12_3 (B : Blocks F) : Vec F S1x1 .f32 :=
  View.ld B.x12 (Rect.unit (s := S6x1) ![3, 0] S1x1.size inb_S6x1_S1x1_3_0)
def ld10_4 (B : Blocks F) : Vec F S1x256 .f32 :=
  View.ld B.x10 (Rect.unit (s := S6x256) ![4, 0] S1x256.size inb_S6x256_S1x256_4_0)
def ld11_4 (B : Blocks F) : Vec F S1x256 .f32 :=
  View.ld B.x11 (Rect.unit (s := S6x256) ![4, 0] S1x256.size inb_S6x256_S1x256_4_0)
def ld12_4 (B : Blocks F) : Vec F S1x1 .f32 :=
  View.ld B.x12 (Rect.unit (s := S6x1) ![4, 0] S1x1.size inb_S6x1_S1x1_4_0)
def ld10_5 (B : Blocks F) : Vec F S1x256 .f32 :=
  View.ld B.x10 (Rect.unit (s := S6x256) ![5, 0] S1x256.size inb_S6x256_S1x256_5_0)
def ld11_5 (B : Blocks F) : Vec F S1x256 .f32 :=
  View.ld B.x11 (Rect.unit (s := S6x256) ![5, 0] S1x256.size inb_S6x256_S1x256_5_0)
def ld12_5 (B : Blocks F) : Vec F S1x1 .f32 :=
  View.ld B.x12 (Rect.unit (s := S6x1) ![5, 0] S1x1.size inb_S6x1_S1x1_5_0)
def ld13_0 (B : Blocks F) : Vec F S1x256x256 .bf16 :=
  View.ld B.x13 (Rect.unit (s := S3x256x256) ![0, 0, 0] S1x256x256.size inb_S3x256x256_S1x256x256_0_0_0)
def ld14_0 (B : Blocks F) : Vec F S1x256 .f32 :=
  View.ld B.x14 (Rect.unit (s := S3x256) ![0, 0] S1x256.size inb_S3x256_S1x256_0_0)
def ld15_0 (B : Blocks F) : Vec F S1x256x256 .bf16 :=
  View.ld B.x15 (Rect.unit (s := S3x256x256) ![0, 0, 0] S1x256x256.size inb_S3x256x256_S1x256x256_0_0_0)
def ld16_0 (B : Blocks F) : Vec F S1x256 .f32 :=
  View.ld B.x16 (Rect.unit (s := S3x256) ![0, 0] S1x256.size inb_S3x256_S1x256_0_0)
def ld17_0 (B : Blocks F) : Vec F S1x256 .f32 :=
  View.ld B.x17 (Rect.unit (s := S3x256) ![0, 0] S1x256.size inb_S3x256_S1x256_0_0)
def ld18_0 (B : Blocks F) : Vec F S1x256 .f32 :=
  View.ld B.x18 (Rect.unit (s := S3x256) ![0, 0] S1x256.size inb_S3x256_S1x256_0_0)
def ld13_1 (B : Blocks F) : Vec F S1x256x256 .bf16 :=
  View.ld B.x13 (Rect.unit (s := S3x256x256) ![1, 0, 0] S1x256x256.size inb_S3x256x256_S1x256x256_1_0_0)
def ld14_1 (B : Blocks F) : Vec F S1x256 .f32 :=
  View.ld B.x14 (Rect.unit (s := S3x256) ![1, 0] S1x256.size inb_S3x256_S1x256_1_0)
def ld15_1 (B : Blocks F) : Vec F S1x256x256 .bf16 :=
  View.ld B.x15 (Rect.unit (s := S3x256x256) ![1, 0, 0] S1x256x256.size inb_S3x256x256_S1x256x256_1_0_0)
def ld16_1 (B : Blocks F) : Vec F S1x256 .f32 :=
  View.ld B.x16 (Rect.unit (s := S3x256) ![1, 0] S1x256.size inb_S3x256_S1x256_1_0)
def ld17_1 (B : Blocks F) : Vec F S1x256 .f32 :=
  View.ld B.x17 (Rect.unit (s := S3x256) ![1, 0] S1x256.size inb_S3x256_S1x256_1_0)
def ld18_1 (B : Blocks F) : Vec F S1x256 .f32 :=
  View.ld B.x18 (Rect.unit (s := S3x256) ![1, 0] S1x256.size inb_S3x256_S1x256_1_0)
def ld13_2 (B : Blocks F) : Vec F S1x256x256 .bf16 :=
  View.ld B.x13 (Rect.unit (s := S3x256x256) ![2, 0, 0] S1x256x256.size inb_S3x256x256_S1x256x256_2_0_0)
def ld14_2 (B : Blocks F) : Vec F S1x256 .f32 :=
  View.ld B.x14 (Rect.unit (s := S3x256) ![2, 0] S1x256.size inb_S3x256_S1x256_2_0)
def ld15_2 (B : Blocks F) : Vec F S1x256x256 .bf16 :=
  View.ld B.x15 (Rect.unit (s := S3x256x256) ![2, 0, 0] S1x256x256.size inb_S3x256x256_S1x256x256_2_0_0)
def ld16_2 (B : Blocks F) : Vec F S1x256 .f32 :=
  View.ld B.x16 (Rect.unit (s := S3x256) ![2, 0] S1x256.size inb_S3x256_S1x256_2_0)
def ld17_2 (B : Blocks F) : Vec F S1x256 .f32 :=
  View.ld B.x17 (Rect.unit (s := S3x256) ![2, 0] S1x256.size inb_S3x256_S1x256_2_0)
def ld18_2 (B : Blocks F) : Vec F S1x256 .f32 :=
  View.ld B.x18 (Rect.unit (s := S3x256) ![2, 0] S1x256.size inb_S3x256_S1x256_2_0)
def ld19_0 (B : Blocks F) : Vec F S1x256x256 .bf16 :=
  View.ld B.x19 (Rect.unit (s := S3x256x256) ![0, 0, 0] S1x256x256.size inb_S3x256x256_S1x256x256_0_0_0)
def ld19_1 (B : Blocks F) : Vec F S1x256x256 .bf16 :=
  View.ld B.x19 (Rect.unit (s := S3x256x256) ![1, 0, 0] S1x256x256.size inb_S3x256x256_S1x256x256_1_0_0)
def ld19_2 (B : Blocks F) : Vec F S1x256x256 .bf16 :=
  View.ld B.x19 (Rect.unit (s := S3x256x256) ![2, 0, 0] S1x256x256.size inb_S3x256x256_S1x256x256_2_0_0)
def ld20 (B : Blocks F) : Vec F S256 .f32 :=
  View.ld B.x20 (Rect.unit (s := S256) ![0] S256.size inb_S256_S256_0)
def ld21 (B : Blocks F) : Vec F S256x256 .bf16 :=
  View.ld B.x21 (Rect.unit (s := S256x256) ![0, 0] S256x256.size inb_S256x256_S256x256_0_0)
def ld22 (B : Blocks F) : Vec F S256 .f32 :=
  View.ld B.x22 (Rect.unit (s := S256) ![0] S256.size inb_S256_S256_0)
def ld23 (B : Blocks F) : Vec F S256 .f32 :=
  View.ld B.x23 (Rect.unit (s := S256) ![0] S256.size inb_S256_S256_0)
def ld24 (B : Blocks F) : Vec F S256 .f32 :=
  View.ld B.x24 (Rect.unit (s := S256) ![0] S256.size inb_S256_S256_0)

def v8 (B : Blocks F) : FVec F S512x256 .f32 := k0_pay1 (ld0 B) (ld3 B) (ld4 B)
def v17 (B : Blocks F) : FVec F S512x256 .f32 := k0_pay2 (ld1 B) (ld5 B) (ld6 B)
def v26 (B : Blocks F) : FVec F S512x256 .f32 := k0_pay3 (ld2 B) (ld7 B) (ld8 B)
def v28 (B : Blocks F) : FVec F S512x256 .bf16 := k0_pay4 (ld1 B) (ld5 B) (ld6 B)
def v29 (B : Blocks F) : FVec F S512x256 .bf16 := k0_pay5 (ld2 B) (ld7 B) (ld8 B)
def v32 (B : Blocks F) : FVec F S512x1024 .f32 := k0_pay6 (ld0 B) (ld3 B) (ld4 B) (ld9_0 B)
def v33 (B : Blocks F) : Vec F S1x256x1024 .bf16 := ld9_1 B
def v35 (B : Blocks F) : FVec F S512x1024 .f32 := k0_pay7 (v28 B) (v33 B)
def v38 (B : Blocks F) : FVec F S512x1024 .f32 := k0_pay8 (v29 B) (ld9_2 B)
def v63 (B : Blocks F) : FVec F S512x256 .f32 := k0_pay9 (v8 B) (v28 B) (v32 B) (v33 B) (ld10_0 B) (ld11_0 B) (ld12_0 B)
def v73 (B : Blocks F) : FVec F S512x256 .f32 := k0_pay10 (v29 B) (v32 B) (ld9_2 B) (ld10_1 B)
def v75 (B : Blocks F) : FVec F S256 .f32 := k0_pay11 (ld11_1 B)
def v88 (B : Blocks F) : FVec F S512x256 .f32 := k0_pay12 (v8 B) (v73 B) (v75 B) (ld12_1 B)
def v113 (B : Blocks F) : FVec F S512x256 .f32 := k0_pay13 (v17 B) (v32 B) (v35 B) (ld10_2 B) (ld11_2 B) (ld12_2 B)
def v121 (B : Blocks F) : FVec F S512x256 .f32 := k0_pay14 (v35 B) (v38 B) (ld10_3 B)
def cst_51 (B : Blocks F) : F .f32 := Scalar.ofBits .f32 0x00000000#32
def v138 (B : Blocks F) : FVec F S512x256 .f32 := k0_pay15 (v17 B) (v121 B) (cst_51 B) (ld11_3 B) (ld12_3 B)
def v163 (B : Blocks F) : FVec F S512x256 .f32 := k0_pay16 (v26 B) (v32 B) (v38 B) (ld10_4 B) (ld11_4 B) (ld12_4 B)
def v166 (B : Blocks F) : FVec F S512x256 .f32 := k0_pay17 (v35 B) (v38 B)
def v188 (B : Blocks F) : FVec F S512x256 .f32 := k0_pay18 (v26 B) (v166 B) (ld10_5 B) (ld11_5 B) (ld12_5 B)
def v205 (B : Blocks F) : FVec F S512x256 .f32 := k0_pay19 (v8 B) (v113 B) (v163 B) (ld13_0 B) (ld14_0 B) (ld15_0 B)
def v207 (B : Blocks F) : FVec F S256 .f32 := k0_pay20 (ld16_0 B)
def v238 (B : Blocks F) : FVec F S512x256 .f32 := k0_pay21 (v205 B) (v207 B) (ld17_0 B) (ld18_0 B)
def v251 (B : Blocks F) : FVec F S512x256 .f32 := k0_pay22 (v17 B) (v63 B) (v188 B) (ld13_1 B) (ld14_1 B)
def v288 (B : Blocks F) : FVec F S512x256 .f32 := k0_pay23 (v251 B) (ld15_1 B) (ld16_1 B) (ld17_1 B) (ld18_1 B)
def v291 (B : Blocks F) : FVec F S512x256 .bf16 := k0_pay24 (v26 B) (v88 B) (v138 B)
def v293 (B : Blocks F) : FVec F S256x256 .bf16 := k0_pay25 (ld13_2 B)
def v314 (B : Blocks F) : FVec F S256 .f32 := k0_pay26 (ld18_2 B)
def v332 (B : Blocks F) : FVec F S512x256 .f32 := k0_pay27 (v291 B) (v293 B) (ld14_2 B) (ld15_2 B) (ld16_2 B)
def v334 (B : Blocks F) : FVec F S512x256 .f32 := k0_pay28 (ld17_2 B)
def v338 (B : Blocks F) : FVec F S512x256 .f32 := k0_pay29 (v314 B) (v332 B) (v334 B)
def v344 (B : Blocks F) : FVec F S512x1024 .f32 := k0_pay30 (v238 B) (ld9_0 B)
def v347 (B : Blocks F) : FVec F S512x1024 .f32 := k0_pay31 (v288 B) (ld9_1 B)
def v350 (B : Blocks F) : FVec F S512x1024 .f32 := k0_pay32 (v314 B) (v332 B) (v334 B) (ld9_2 B)
def v374 (B : Blocks F) : FVec F S512x256 .f32 := k0_pay33 (v238 B) (v288 B) (ld9_0 B) (ld9_1 B) (ld10_0 B) (ld11_0 B) (ld12_0 B)
def v375 (B : Blocks F) : FVec F S512x256 .f32 := k0_pay34 (v238 B) (v374 B)
def v400 (B : Blocks F) : FVec F S512x256 .f32 := k0_pay35 (v238 B) (v344 B) (v350 B) (ld10_1 B) (ld11_1 B) (ld12_1 B)
def v417 (B : Blocks F) : FVec F S512x1 .f32 := k0_pay36 (v344 B) (v347 B) (ld10_2 B) (ld11_2 B)
def v418 (B : Blocks F) : Vec F S1x1 .f32 := ld12_2 B
def v425 (B : Blocks F) : FVec F S512x256 .f32 := k0_pay37 (v288 B) (v417 B) (v418 B)
def v450 (B : Blocks F) : FVec F S512x256 .f32 := k0_pay38 (v288 B) (v347 B) (v350 B) (ld10_3 B) (ld11_3 B) (ld12_3 B)
def v465 (B : Blocks F) : FVec F S512x256 .f32 := k0_pay39 (v344 B) (v350 B) (ld10_4 B) (ld11_4 B)
def v500 (B : Blocks F) : FVec F S512x256 .f32 := k0_pay40 (v338 B) (v347 B) (v350 B) (ld10_5 B) (ld11_5 B) (ld12_5 B)
def v506 (B : Blocks F) : FVec F S512x256 .f32 := k0_pay41 (v238 B) (v338 B) (v425 B) (v465 B) (ld12_4 B) (ld13_0 B)
def v508 (B : Blocks F) : FVec F S256 .f32 := k0_pay42 (ld14_0 B)
def v550 (B : Blocks F) : FVec F S512x256 .f32 := k0_pay43 (v506 B) (v508 B) (ld15_0 B) (ld16_0 B) (ld17_0 B) (ld18_0 B)
def v552 (B : Blocks F) : FVec F S512x256 .f32 := k0_pay44 (v288 B) (v375 B) (v500 B)
def v574 (B : Blocks F) : FVec F S256 .f32 := k0_pay46 (ld17_1 B)
def v576 (B : Blocks F) : FVec F S256 .f32 := k0_pay47 (ld18_1 B)
def v587 (B : Blocks F) : FVec F S512x1 .f32 := k0_pay49 (v552 B) (ld13_1 B) (ld14_1 B) (ld15_1 B) (ld16_1 B)
def v589 (B : Blocks F) : FVec F S512x256 .f32 := k0_pay50 (v552 B) (ld13_1 B) (ld14_1 B) (ld15_1 B) (ld16_1 B)
def v590 (B : Blocks F) : FVec F S512x1 .f32 := k0_pay51 (F := F)
def v600 (B : Blocks F) : FVec F S512x256 .f32 := k0_pay52 (v574 B) (v576 B) (v587 B) (v589 B) (v590 B)
def v622 (B : Blocks F) : FVec F S512x256 .f32 := k0_pay53 (v338 B) (v400 B) (v450 B) (ld13_2 B) (ld14_2 B) (ld15_2 B) (ld16_2 B)
def v624 (B : Blocks F) : FVec F S256 .f32 := k0_pay54 (ld17_2 B)
def v626 (B : Blocks F) : FVec F S256 .f32 := k0_pay55 (ld18_2 B)
def v630 (B : Blocks F) : FVec F S512x1 .f32 := k0_pay56 (v338 B) (v400 B) (v450 B) (ld13_2 B) (ld14_2 B) (ld15_2 B) (ld16_2 B)
def v631 (B : Blocks F) : FVec F S512x256 .f32 := k0_pay57 (v338 B) (v400 B) (v450 B) (ld13_2 B) (ld14_2 B) (ld15_2 B) (ld16_2 B)
def v650 (B : Blocks F) : FVec F S512x256 .f32 := k0_pay58 (v622 B) (v624 B) (v626 B) (v630 B) (v631 B)
def v656 (B : Blocks F) : FVec F S512x1024 .f32 := k0_pay59 (v550 B) (ld9_0 B)
def v659 (B : Blocks F) : FVec F S512x1024 .f32 := k0_pay60 (v600 B) (ld9_1 B)
def v662 (B : Blocks F) : FVec F S512x1024 .f32 := k0_pay61 (v622 B) (v624 B) (v626 B) (v630 B) (v631 B) (ld9_2 B)
def v672 (B : Blocks F) : FVec F S512x256 .f32 := k0_pay62 (v550 B) (v600 B) (ld9_0 B) (ld9_1 B) (ld10_0 B)
def v685 (B : Blocks F) : FVec F S512x1 .f32 := k0_pay63 (v672 B) (ld11_0 B) (ld12_0 B)
def v687 (B : Blocks F) : FVec F S512x256 .f32 := k0_pay64 (v550 B) (v672 B) (ld11_0 B) (ld12_0 B)
def v710 (B : Blocks F) : FVec F S512x1 .f32 := k0_pay65 (v656 B) (v662 B) (ld10_1 B) (ld11_1 B) (ld12_1 B)
def v712 (B : Blocks F) : FVec F S512x256 .f32 := k0_pay66 (v550 B) (v656 B) (v662 B) (ld10_1 B) (ld11_1 B) (ld12_1 B)
def v715 (B : Blocks F) : FVec F S512x256 .f32 := k0_pay67 (v656 B) (v659 B)
def v718 (B : Blocks F) : FVec F S1x256 .f32 := k0_pay68 (ld10_2 B)
def v735 (B : Blocks F) : FVec F S512x1 .f32 := k0_pay69 (v715 B) (v718 B) (ld11_2 B) (ld12_2 B)
def v737 (B : Blocks F) : FVec F S512x256 .f32 := k0_pay70 (v600 B) (v715 B) (v718 B) (ld11_2 B) (ld12_2 B)
def v760 (B : Blocks F) : FVec F S512x1 .f32 := k0_pay71 (v659 B) (v662 B) (ld10_3 B) (ld11_3 B) (ld12_3 B)
def v762 (B : Blocks F) : FVec F S512x256 .f32 := k0_pay72 (v600 B) (v659 B) (v662 B) (ld10_3 B) (ld11_3 B) (ld12_3 B)
def v763 (B : Blocks F) : FVec F S512x256 .f32 := k0_pay73 (v662 B)
def v764 (B : Blocks F) : FVec F S512x256 .f32 := k0_pay74 (v656 B)
def v785 (B : Blocks F) : FVec F S512x1 .f32 := k0_pay75 (v763 B) (v764 B) (ld10_4 B) (ld11_4 B) (ld12_4 B)
def v787 (B : Blocks F) : FVec F S512x256 .f32 := k0_pay76 (v650 B) (v763 B) (v764 B) (ld10_4 B) (ld11_4 B) (ld12_4 B)
def v804 (B : Blocks F) : FVec F S512x1 .f32 := k0_pay77 (v659 B) (v662 B) (ld10_5 B) (ld11_5 B)
def v808 (B : Blocks F) : FVec F S512x1 .f32 := k0_pay78 (ld12_5 B)
def v812 (B : Blocks F) : FVec F S512x256 .f32 := k0_pay80 (v650 B) (v804 B) (v808 B)
def v813 (B : Blocks F) : FVec F S512x6 .f32 := k0_pay81 (v685 B) (v710 B) (v735 B) (v760 B) (v785 B) (v804 B) (v808 B)
def v835 (B : Blocks F) : FVec F S512x256 .f32 := k0_pay82 (v550 B) (v737 B) (v787 B) (ld13_0 B) (ld14_0 B) (ld15_0 B) (ld16_0 B)
def v837 (B : Blocks F) : FVec F S256 .f32 := k0_pay83 (ld17_0 B)
def v839 (B : Blocks F) : FVec F S256 .f32 := k0_pay84 (ld18_0 B)
def v843 (B : Blocks F) : FVec F S512x1 .f32 := k0_pay85 (v550 B) (v737 B) (v787 B) (ld13_0 B) (ld14_0 B) (ld15_0 B) (ld16_0 B)
def v848 (B : Blocks F) : FVec F S512x1 .f32 := k0_pay86 (v550 B) (v737 B) (v787 B) (ld13_0 B) (ld14_0 B) (ld15_0 B) (ld16_0 B)
def v863 (B : Blocks F) : FVec F S512x256 .f32 := k0_pay87 (v835 B) (v837 B) (v839 B) (v843 B) (v848 B)
def v885 (B : Blocks F) : FVec F S512x256 .f32 := k0_pay88 (v600 B) (v687 B) (v812 B) (ld13_1 B) (ld14_1 B) (ld15_1 B) (ld16_1 B)
def v887 (B : Blocks F) : FVec F S256 .f32 := k0_pay89 (ld17_1 B)
def v889 (B : Blocks F) : FVec F S256 .f32 := k0_pay90 (ld18_1 B)
def v913 (B : Blocks F) : FVec F S512x256 .f32 := k0_pay91 (v885 B) (v887 B) (v889 B)
def v930 (B : Blocks F) : FVec F S512x256 .f32 := k0_pay92 (v650 B) (v712 B) (v762 B) (ld13_2 B) (ld14_2 B) (ld15_2 B)
def v931 (B : Blocks F) : Vec F S1x256 .f32 := ld16_2 B
def v966 (B : Blocks F) : FVec F S512x256 .bf16 := k0_pay93 (v930 B) (v931 B) (ld17_2 B) (ld18_2 B)
def v973 (B : Blocks F) : FVec F S512x256 .f32 := k0_pay94 (v863 B) (v913 B) (ld19_0 B) (ld19_1 B)
def v1017 (B : Blocks F) : FVec F S512x256 .f32 := k0_pay95 (v966 B) (v973 B) (ld19_2 B) (ld20 B) (ld21 B) (ld22 B) (ld23 B) (ld24 B)

def outBlk (B : Blocks F) : FVec F S512x256 .f32 := v1017 B
def wBlk (B : Blocks F) : FVec F S512x6 .f32 := v813 B

end Cert.Kernel.Body

end
-- ==== Proof.KSoundStmtBits.lean ====
import proofs.«429394_j28956669510180_3_alg».proof.Proof.KBodyBits
import proofs.«429394_j28956669510180_3_alg».proof.Proof.Gen.Kernel.Launch
import proofs.«429394_j28956669510180_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rOut : Rect S512x256 := Rect.unit (s := S512x256) ![0, 0] S512x256.size inb_S512x256_S512x256_0_0
abbrev rW : Rect S512x6 := Rect.unit (s := S512x6) ![0, 0] S512x6.size inb_S512x6_S512x6_0_0

def outCanon (B : Blocks F) : Vec F S512x256 .f32 := View.canon [⟨rOut, outBlk B⟩]
def wCanon (B : Blocks F) : Vec F S512x6 .f32 := View.canon [⟨rW, wBlk B⟩]

theorem cover_out (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y
theorem cover_w (p0 : Vec F S512x6 .f32) (y : S512x6.Idx) :
    ∃ pc ∈ ([⟨rW, p0⟩] : List (View.Piece (Elt F) S512x6 .f32)), y ∈ pc.1.set :=
  View.cover_of_tiled [⟨rW, p0⟩] S512x6.size (by rfl) y

def SoundKernel (F : FTy → Type) [FloatOps F] : Prop :=
  ∀ (c : Dev nD) (E : Set ℕ) (i : grid0.Coords) (arg1 : Memref sig .tc .vmem S512x128 .f32) (harg1 : arg1.IsWhole) (arg2 : Memref sig .tc .vmem S512x256 .f32) (harg2 : arg2.IsWhole) (arg3 : Memref sig .tc .vmem S512x512 .f32) (harg3 : arg3.IsWhole) (arg4 : Memref sig .tc .vmem S128x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S512x256 .bf16) (harg8 : arg8.IsWhole) (arg9 : Memref sig .tc .vmem S256 .f32) (harg9 : arg9.IsWhole) (arg10 : Memref sig .tc .vmem S3x256x1024 .bf16) (harg10 : arg10.IsWhole) (arg11 : Memref sig .tc .vmem S6x256 .f32) (harg11 : arg11.IsWhole) (arg12 : Memref sig .tc .vmem S6x256 .f32) (harg12 : arg12.IsWhole) (arg13 : Memref sig .tc .vmem S6x1 .f32) (harg13 : arg13.IsWhole) (arg14 : Memref sig .tc .vmem S3x256x256 .bf16) (harg14 : arg14.IsWhole) (arg15 : Memref sig .tc .vmem S3x256 .f32) (harg15 : arg15.IsWhole) (arg16 : Memref sig .tc .vmem S3x256x256 .bf16) (harg16 : arg16.IsWhole) (arg17 : Memref sig .tc .vmem S3x256 .f32) (harg17 : arg17.IsWhole) (arg18 : Memref sig .tc .vmem S3x256 .f32) (harg18 : arg18.IsWhole) (arg19 : Memref sig .tc .vmem S3x256 .f32) (harg19 : arg19.IsWhole) (arg20 : Memref sig .tc .vmem S3x256x256 .bf16) (harg20 : arg20.IsWhole) (arg21 : Memref sig .tc .vmem S256 .f32) (harg21 : arg21.IsWhole) (arg22 : Memref sig .tc .vmem S256x256 .bf16) (harg22 : arg22.IsWhole) (arg23 : Memref sig .tc .vmem S256 .f32) (harg23 : arg23.IsWhole) (arg24 : Memref sig .tc .vmem S256 .f32) (harg24 : arg24.IsWhole) (arg25 : Memref sig .tc .vmem S256 .f32) (harg25 : arg25.IsWhole) (arg26 : Memref sig .tc .vmem S512x256 .f32) (harg26 : arg26.IsWhole) (arg27 : Memref sig .tc .vmem S512x6 .f32) (harg27 : arg27.IsWhole)
    (x0 : Vec F S512x128 .f32) (x1 : Vec F S512x256 .f32) (x2 : Vec F S512x512 .f32) (x3 : Vec F S128x256 .bf16) (x4 : Vec F S256 .f32) (x5 : Vec F S256x256 .bf16) (x6 : Vec F S256 .f32) (x7 : Vec F S512x256 .bf16) (x8 : Vec F S256 .f32) (x9 : Vec F S3x256x1024 .bf16) (x10 : Vec F S6x256 .f32) (x11 : Vec F S6x256 .f32) (x12 : Vec F S6x1 .f32) (x13 : Vec F S3x256x256 .bf16) (x14 : Vec F S3x256 .f32) (x15 : Vec F S3x256x256 .bf16) (x16 : Vec F S3x256 .f32) (x17 : Vec F S3x256 .f32) (x18 : Vec F S3x256 .f32) (x19 : Vec F S3x256x256 .bf16) (x20 : Vec F S256 .f32) (x21 : Vec F S256x256 .bf16) (x22 : Vec F S256 .f32) (x23 : Vec F S256 .f32) (x24 : Vec F S256 .f32) (K : PUnit → sProp (MT nD τ sig Unit (Elt F) ℕ (UR sig nD τ) ℕ)),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (outCanon (⟨x0, x1, x2, x3, x4, x5, x6, x7, x8, x9, x10, x11, x12, x13, x14, x15, x16, x17, x18, x19, x20, x21, x22, x23, x24⟩ : Blocks F)) ∗ owns (c : Thread nD τ) arg27 fullShare (wCanon (⟨x0, x1, x2, x3, x4, x5, x6, x7, x8, x9, x10, x11, x12, x13, x14, x15, x16, x17, x18, x19, x20, x21, x22, x23, x24⟩ : Blocks F))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K

end Cert.Kernel.Body

end
-- ==== Proof.KEntryBits.lean ====
import proofs.«429394_j28956669510180_3_alg».proof.Proof.KBodyBits
import proofs.«429394_j28956669510180_3_alg».proof.Proof.Gen.Kernel.Launch
import proofs.«429394_j28956669510180_3_alg».proof.Proof.Gen.Kernel.Points

noncomputable section

namespace Cert.Kernel.Body

open Cert.Kernel Cert.Kernel.Gen Idealize.ShloMosaic Idealize.ShloMosaic.TcCoe Idealize.SL.Sem

variable {F : FTy → Type} [FloatOps F]
variable (m : (ℓ : Loc nD τ sig) → Buf (Elt F) ℓ)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t⟩

end Cert.Kernel.Body

end
-- ==== Proof.KKeptBits.lean ====
import proofs.«429394_j28956669510180_3_alg».proof.Proof.KEntryBits
import Idealize.ShloMosaic.Lib.StableHlo.Run

set_option maxRecDepth 16384

noncomputable section

namespace Cert.Kernel.Body

open Cert.Kernel Cert.Kernel.Gen Idealize.ShloMosaic Idealize.ShloMosaic.TcCoe Idealize.SL.Sem

variable {F : FTy → Type} [FloatOps F]
variable (m : (ℓ : Loc nD τ sig) → Buf (Elt F) ℓ)

/-- The buffers the host lines before the call write: each line writes its own result only. -/
abbrev hostW : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48]

/-- A buffer none of those lines writes is found by the region as launched. -/
theorem V_keep (c : Dev nD) {r : Ref sig .tc} (h : r ∉ hostW) : V m c r = m ((c : Thread nD τ).loc r) :=
  StableHlo.after_of_writes_sub _ _ (by
    simp only [hostOps0, List.flatten_cons, List.flatten_nil, List.append_nil, List.Forall, StableHlo.nullary_writes, StableHlo.unary_writes, StableHlo.binary_writes, StableHlo.ternary_writes, StableHlo.quaternary_writes, StableHlo.reshape_writes, StableHlo.nary_writes, StableHlo.binaryIndexed_writes, Finset.singleton_subset_iff, List.mem_toFinset]
    and_intros <;> exact List.mem_map_of_mem (by decide)) h

end Cert.Kernel.Body

end
-- ==== Proof.KFrameBits.lean ====
import proofs.«429394_j28956669510180_3_alg».proof.Proof.KSoundStmtBits
import proofs.«429394_j28956669510180_3_alg».proof.Proof.KKeptBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

theorem W_keep (dats : (p : Fin _) → (c : Dev nD) → Dat τ (Elt F) Unit ℕ (UR sig nD τ) ℕ (cfgs p) c) (c : Dev nD) {r : Ref sig .tc}
    (h₁ : r ∉ [main_v50, main_v51]) (h₂ : ∀ w, Pipeline.arrRef spec0 w ≠ r) (h₀ : r ∉ hostW) :
    Pipeline.afterTail₀ cfgs dats 0 (V0 m) [hostOps1] c r = m ((c : Thread nD τ).loc r) := by
  unfold Pipeline.afterTail₀
  rw [StableHlo.after_of_writes_sub _ _ (by
      simp only [hostOps1, List.flatten_cons, List.flatten_nil, List.append_nil, List.Forall, StableHlo.nullary_writes, StableHlo.unary_writes, StableHlo.binary_writes, StableHlo.ternary_writes, StableHlo.quaternary_writes, StableHlo.reshape_writes, StableHlo.nary_writes, StableHlo.binaryIndexed_writes, Finset.singleton_subset_iff, List.mem_toFinset]
      and_intros <;> exact List.mem_map_of_mem (by decide)) h₁,
    Pipeline.withArrays_of_ne _ c (V0 m c) _ r h₂]
  exact V_keep m c h₀

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => outCanon (blocks m c t)
    | ⟨26, _⟩ => wCanon (blocks m c t)
    | ⟨n + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = outCanon (blocks m c t) := by dsimp only [dats]
theorem after0_26 (c : Dev nD) (t : Fin cfg0.N) : (dats m 0 c).after 26 t = wCanon (blocks m c t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl) (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl) (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl) (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl) (fun t => by rw [after0_24]; unfold Dat.blockOf iblk; rw [A_eq]; try rfl) t d).trans
    (by unfold Dat.fetched Dat.blockOf iblk; rw [A_eq]; try rfl)

set_option maxHeartbeats 4000000 in
theorem args_kept {r : _} (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨((h c).1 0).trans (((dats m 0 c).arrAt_in 0 rfl _).trans ((A_eq m c 0).trans (V_keep m c (by decide)))),
      ((h c).1 1).trans (((dats m 0 c).arrAt_in 1 rfl _).trans ((A_eq m c 1).trans (V_keep m c (by decide)))),
      ((h c).1 2).trans (((dats m 0 c).arrAt_in 2 rfl _).trans ((A_eq m c 2).trans (V_keep m c (by decide)))),
      ((h c).2 main_arg3 (Pipeline.mem_restRefs_of main_arg3 (by decide) (by decide))).trans (W_keep m (dats m) c (by decide) (by decide) (by decide)),
      ((h c).1 4).trans (((dats m 0 c).arrAt_in 4 rfl _).trans ((A_eq m c 4).trans (V_keep m c (by decide)))),
      ((h c).2 main_arg5 (Pipeline.mem_restRefs_of main_arg5 (by decide) (by decide))).trans (W_keep m (dats m) c (by decide) (by decide) (by decide)),
      ((h c).1 6).trans (((dats m 0 c).arrAt_in 6 rfl _).trans ((A_eq m c 6).trans (V_keep m c (by decide)))),
      ((h c).2 main_arg7 (Pipeline.mem_restRefs_of main_arg7 (by decide) (by decide))).trans (W_keep m (dats m) c (by decide) (by decide) (by decide)),
      ((h c).1 8).trans (((dats m 0 c).arrAt_in 8 rfl _).trans ((A_eq m c 8).trans (V_keep m c (by decide)))),
      ((h c).2 main_arg9 (Pipeline.mem_restRefs_of main_arg9 (by decide) (by decide))).trans (W_keep m (dats m) c (by decide) (by decide) (by decide)),
      ((h c).1 10).trans (((dats m 0 c).arrAt_in 10 rfl _).trans ((A_eq m c 10).trans (V_keep m c (by decide)))),
      ((h c).2 main_arg11 (Pipeline.mem_restRefs_of main_arg11 (by decide) (by decide))).trans (W_keep m (dats m) c (by decide) (by decide) (by decide)),
      ((h c).1 12).trans (((dats m 0 c).arrAt_in 12 rfl _).trans ((A_eq m c 12).trans (V_keep m c (by decide)))),
      ((h c).2 main_arg13 (Pipeline.mem_restRefs_of main_arg13 (by decide) (by decide))).trans (W_keep m (dats m) c (by decide) (by decide) (by decide)),
      ((h c).1 14).trans (((dats m 0 c).arrAt_in 14 rfl _).trans ((A_eq m c 14).trans (V_keep m c (by decide)))),
      ((h c).2 main_arg15 (Pipeline.mem_restRefs_of main_arg15 (by decide) (by decide))).trans (W_keep m (dats m) c (by decide) (by decide) (by decide)),
      ((h c).1 16).trans (((dats m 0 c).arrAt_in 16 rfl _).trans ((A_eq m c 16).trans (V_keep m c (by decide)))),
      ((h c).1 17).trans (((dats m 0 c).arrAt_in 17 rfl _).trans ((A_eq m c 17).trans (V_keep m c (by decide)))),
      ((h c).1 18).trans (((dats m 0 c).arrAt_in 18 rfl _).trans ((A_eq m c 18).trans (V_keep m c (by decide)))),
      ((h c).2 main_arg19 (Pipeline.mem_restRefs_of main_arg19 (by decide) (by decide))).trans (W_keep m (dats m) c (by decide) (by decide) (by decide)),
      ((h c).1 20).trans (((dats m 0 c).arrAt_in 20 rfl _).trans ((A_eq m c 20).trans (V_keep m c (by decide)))),
      ((h c).2 main_arg21 (Pipeline.mem_restRefs_of main_arg21 (by decide) (by decide))).trans (W_keep m (dats m) c (by decide) (by decide) (by decide)),
      ((h c).1 22).trans (((dats m 0 c).arrAt_in 22 rfl _).trans ((A_eq m c 22).trans (V_keep m c (by decide)))),
      ((h c).1 23).trans (((dats m 0 c).arrAt_in 23 rfl _).trans ((A_eq m c 23).trans (V_keep m c (by decide)))),
      ((h c).1 24).trans (((dats m 0 c).arrAt_in 24 rfl _).trans ((A_eq m c 24).trans (V_keep m c (by decide))))⟩

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
theorem sound_body (hsk : SoundKernel F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (hsk c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem body_obligation (hsk : SoundKernel F) (c : Dev nD) : BodyObligation (dats (F := F) m 0 c) (defs₀ (F := F)) Variants.none () Set.univ := fun t => by
  rw [bigSep_W0, bigSep_W0]
  exact sound_body m hsk c t

set_option backward.isDefEq.respectTransparency.types false in
theorem run_main (hsk : SoundKernel F) : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m hsk c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Body

end
-- ==== Proof.KSoundBits.lean ====
import proofs.«429394_j28956669510180_3_alg».proof.Proof.KSoundStmtBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
theorem sound_kernel : SoundKernel F := by
  intro c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 K
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24
  sl_exec_parts

  let B : Blocks F := (⟨View.read (Elt F) arg1.view f0, View.read (Elt F) arg2.view f1, View.read (Elt F) arg3.view f2, View.read (Elt F) arg4.view f3, View.read (Elt F) arg5.view f4, View.read (Elt F) arg6.view f5, View.read (Elt F) arg7.view f6, View.read (Elt F) arg8.view f7, View.read (Elt F) arg9.view f8, View.read (Elt F) arg10.view f9, View.read (Elt F) arg11.view f10, View.read (Elt F) arg12.view f11, View.read (Elt F) arg13.view f12, View.read (Elt F) arg14.view f13, View.read (Elt F) arg15.view f14, View.read (Elt F) arg16.view f15, View.read (Elt F) arg17.view f16, View.read (Elt F) arg18.view f17, View.read (Elt F) arg19.view f18, View.read (Elt F) arg20.view f19, View.read (Elt F) arg21.view f20, View.read (Elt F) arg22.view f21, View.read (Elt F) arg23.view f22, View.read (Elt F) arg24.view f23, View.read (Elt F) arg25.view f24⟩ : Blocks F)
  have e_cst_51 : sound_kernel.sl.cst_51 (F := F) = cst_51 B := rfl
  have e_r : sound_kernel.sl.r c arg1 arg4 arg5 f0 f3 f4 = v8 B := by
    unfold sound_kernel.sl.r v8
    rfl
  have e_r_1 : sound_kernel.sl.r_1 c arg2 arg6 arg7 f1 f5 f6 = v17 B := by
    unfold sound_kernel.sl.r_1 v17
    rfl
  have e_r_2 : sound_kernel.sl.r_2 c arg3 arg8 arg9 f2 f7 f8 = v26 B := by
    unfold sound_kernel.sl.r_2 v26
    rfl
  have e_r_3 : sound_kernel.sl.r_3 c arg2 arg6 arg7 f1 f5 f6 = v28 B := by
    unfold sound_kernel.sl.r_3 v28
    rfl
  have e_r_4 : sound_kernel.sl.r_4 c arg3 arg8 arg9 f2 f7 f8 = v29 B := by
    unfold sound_kernel.sl.r_4 v29
    rfl
  have e_r_5 : sound_kernel.sl.r_5 c arg1 arg4 arg5 arg10 f0 f3 f4 f9 = v32 B := by
    unfold sound_kernel.sl.r_5 v32
    rfl
  have e_r_6 : sound_kernel.sl.r_6 c arg10 f9 = v33 B := by
    unfold sound_kernel.sl.r_6 v33
    rfl
  have e_r_7 : sound_kernel.sl.r_7 c arg2 arg6 arg7 arg10 f1 f5 f6 f9 = v35 B := by
    unfold sound_kernel.sl.r_7 v35
    rw [e_r_3, e_r_6]
  have e_r_8 : sound_kernel.sl.r_8 c arg3 arg8 arg9 arg10 f2 f7 f8 f9 = v38 B := by
    unfold sound_kernel.sl.r_8 v38
    rw [e_r_4]
    rfl
  have e_r_9 : sound_kernel.sl.r_9 c arg1 arg2 arg4 arg5 arg6 arg7 arg10 arg11 arg12 arg13 f0 f1 f3 f4 f5 f6 f9 f10 f11 f12 = v63 B := by
    unfold sound_kernel.sl.r_9 v63
    rw [e_r, e_r_3, e_r_5, e_r_6]
    rfl
  have e_r_10 : sound_kernel.sl.r_10 c arg1 arg3 arg4 arg5 arg8 arg9 arg10 arg11 f0 f2 f3 f4 f7 f8 f9 f10 = v73 B := by
    unfold sound_kernel.sl.r_10 v73
    rw [e_r_4, e_r_5]
    rfl
  have e_r_11 : sound_kernel.sl.r_11 c arg12 f11 = v75 B := by
    unfold sound_kernel.sl.r_11 v75
    rfl
  have e_r_12 : sound_kernel.sl.r_12 c arg1 arg3 arg4 arg5 arg8 arg9 arg10 arg11 arg12 arg13 f0 f2 f3 f4 f7 f8 f9 f10 f11 f12 = v88 B := by
    unfold sound_kernel.sl.r_12 v88
    rw [e_r, e_r_10, e_r_11]
    rfl
  have e_r_13 : sound_kernel.sl.r_13 c arg1 arg2 arg4 arg5 arg6 arg7 arg10 arg11 arg12 arg13 f0 f1 f3 f4 f5 f6 f9 f10 f11 f12 = v113 B := by
    unfold sound_kernel.sl.r_13 v113
    rw [e_r_1, e_r_5, e_r_7]
    rfl
  have e_r_14 : sound_kernel.sl.r_14 c arg2 arg3 arg6 arg7 arg8 arg9 arg10 arg11 f1 f2 f5 f6 f7 f8 f9 f10 = v121 B := by
    unfold sound_kernel.sl.r_14 v121
    rw [e_r_7, e_r_8]
    rfl
  have e_r_15 : sound_kernel.sl.r_15 c arg2 arg3 arg6 arg7 arg8 arg9 arg10 arg11 arg12 arg13 f1 f2 f5 f6 f7 f8 f9 f10 f11 f12 = v138 B := by
    unfold sound_kernel.sl.r_15 v138
    rw [e_r_1, e_r_14, e_cst_51]
    rfl
  have e_r_16 : sound_kernel.sl.r_16 c arg1 arg3 arg4 arg5 arg8 arg9 arg10 arg11 arg12 arg13 f0 f2 f3 f4 f7 f8 f9 f10 f11 f12 = v163 B := by
    unfold sound_kernel.sl.r_16 v163
    rw [e_r_2, e_r_5, e_r_8]
    rfl
  have e_r_17 : sound_kernel.sl.r_17 c arg2 arg3 arg6 arg7 arg8 arg9 arg10 f1 f2 f5 f6 f7 f8 f9 = v166 B := by
    unfold sound_kernel.sl.r_17 v166
    rw [e_r_7, e_r_8]
  have e_r_18 : sound_kernel.sl.r_18 c arg2 arg3 arg6 arg7 arg8 arg9 arg10 arg11 arg12 arg13 f1 f2 f5 f6 f7 f8 f9 f10 f11 f12 = v188 B := by
    unfold sound_kernel.sl.r_18 v188
    rw [e_r_2, e_r_17]
    rfl
  have e_r_19 : sound_kernel.sl.r_19 c arg1 arg2 arg3 arg4 arg5 arg6 arg7 arg8 arg9 arg10 arg11 arg12 arg13 arg14 arg15 arg16 f0 f1 f2 f3 f4 f5 f6 f7 f8 f9 f10 f11 f12 f13 f14 f15 = v205 B := by
    unfold sound_kernel.sl.r_19 v205
    rw [e_r, e_r_13, e_r_16]
    rfl
  have e_r_20 : sound_kernel.sl.r_20 c arg17 f16 = v207 B := by
    unfold sound_kernel.sl.r_20 v207
    rfl
  have e_r_21 : sound_kernel.sl.r_21 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v238 B := by
    unfold sound_kernel.sl.r_21 v238
    rw [e_r_19, e_r_20]
    rfl
  have e_r_22 : sound_kernel.sl.r_22 c arg1 arg2 arg3 arg4 arg5 arg6 arg7 arg8 arg9 arg10 arg11 arg12 arg13 arg14 arg15 f0 f1 f2 f3 f4 f5 f6 f7 f8 f9 f10 f11 f12 f13 f14 = v251 B := by
    unfold sound_kernel.sl.r_22 v251
    rw [e_r_1, e_r_9, e_r_18]
    rfl
  have e_r_23 : sound_kernel.sl.r_23 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v288 B := by
    unfold sound_kernel.sl.r_23 v288
    rw [e_r_22]
    rfl
  have e_r_24 : sound_kernel.sl.r_24 c arg1 arg2 arg3 arg4 arg5 arg6 arg7 arg8 arg9 arg10 arg11 arg12 arg13 f0 f1 f2 f3 f4 f5 f6 f7 f8 f9 f10 f11 f12 = v291 B := by
    unfold sound_kernel.sl.r_24 v291
    rw [e_r_2, e_r_12, e_r_15]
  have e_r_25 : sound_kernel.sl.r_25 c arg14 f13 = v293 B := by
    unfold sound_kernel.sl.r_25 v293
    rfl
  have e_r_26 : sound_kernel.sl.r_26 c arg19 f18 = v314 B := by
    unfold sound_kernel.sl.r_26 v314
    rfl
  have e_r_27 : sound_kernel.sl.r_27 c arg1 arg2 arg3 arg4 arg5 arg6 arg7 arg8 arg9 arg10 arg11 arg12 arg13 arg14 arg15 arg16 arg17 f0 f1 f2 f3 f4 f5 f6 f7 f8 f9 f10 f11 f12 f13 f14 f15 f16 = v332 B := by
    unfold sound_kernel.sl.r_27 v332
    rw [e_r_24, e_r_25]
    rfl
  have e_r_28 : sound_kernel.sl.r_28 c arg18 f17 = v334 B := by
    unfold sound_kernel.sl.r_28 v334
    rfl
  have e_r_29 : sound_kernel.sl.r_29 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v338 B := by
    unfold sound_kernel.sl.r_29 v338
    rw [e_r_26, e_r_27, e_r_28]
  have e_r_30 : sound_kernel.sl.r_30 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v344 B := by
    unfold sound_kernel.sl.r_30 v344
    rw [e_r_21]
    rfl
  have e_r_31 : sound_kernel.sl.r_31 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v347 B := by
    unfold sound_kernel.sl.r_31 v347
    rw [e_r_23]
    rfl
  have e_r_32 : sound_kernel.sl.r_32 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v350 B := by
    unfold sound_kernel.sl.r_32 v350
    rw [e_r_26, e_r_27, e_r_28]
    rfl
  have e_r_33 : sound_kernel.sl.r_33 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v374 B := by
    unfold sound_kernel.sl.r_33 v374
    rw [e_r_21, e_r_23]
    rfl
  have e_r_34 : sound_kernel.sl.r_34 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v375 B := by
    unfold sound_kernel.sl.r_34 v375
    rw [e_r_21, e_r_33]
  have e_r_35 : sound_kernel.sl.r_35 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v400 B := by
    unfold sound_kernel.sl.r_35 v400
    rw [e_r_21, e_r_30, e_r_32]
    rfl
  have e_r_36 : sound_kernel.sl.r_36 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v417 B := by
    unfold sound_kernel.sl.r_36 v417
    rw [e_r_30, e_r_31]
    rfl
  have e_r_37 : sound_kernel.sl.r_37 c arg13 f12 = v418 B := by
    unfold sound_kernel.sl.r_37 v418
    rfl
  have e_r_38 : sound_kernel.sl.r_38 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v425 B := by
    unfold sound_kernel.sl.r_38 v425
    rw [e_r_23, e_r_36, e_r_37]
  have e_r_39 : sound_kernel.sl.r_39 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v450 B := by
    unfold sound_kernel.sl.r_39 v450
    rw [e_r_23, e_r_31, e_r_32]
    rfl
  have e_r_40 : sound_kernel.sl.r_40 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v465 B := by
    unfold sound_kernel.sl.r_40 v465
    rw [e_r_30, e_r_32]
    rfl
  have e_r_41 : sound_kernel.sl.r_41 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v500 B := by
    unfold sound_kernel.sl.r_41 v500
    rw [e_r_29, e_r_31, e_r_32]
    rfl
  have e_r_42 : sound_kernel.sl.r_42 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v506 B := by
    unfold sound_kernel.sl.r_42 v506
    rw [e_r_21, e_r_29, e_r_38, e_r_40]
    rfl
  have e_r_43 : sound_kernel.sl.r_43 c arg15 f14 = v508 B := by
    unfold sound_kernel.sl.r_43 v508
    rfl
  have e_r_44 : sound_kernel.sl.r_44 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v550 B := by
    unfold sound_kernel.sl.r_44 v550
    rw [e_r_42, e_r_43]
    rfl
  have e_r_45 : sound_kernel.sl.r_45 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v552 B := by
    unfold sound_kernel.sl.r_45 v552
    rw [e_r_23, e_r_34, e_r_41]
  have e_r_46 : sound_kernel.sl.r_46 c arg18 f17 = v574 B := by
    unfold sound_kernel.sl.r_46 v574
    rfl
  have e_r_47 : sound_kernel.sl.r_47 c arg19 f18 = v576 B := by
    unfold sound_kernel.sl.r_47 v576
    rfl
  have e_r_48 : sound_kernel.sl.r_48 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v587 B := by
    unfold sound_kernel.sl.r_48 v587
    rw [e_r_45]
    rfl
  have e_r_49 : sound_kernel.sl.r_49 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v589 B := by
    unfold sound_kernel.sl.r_49 v589
    rw [e_r_45]
    rfl
  have e_r_50 : sound_kernel.sl.r_50 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v600 B := by
    unfold sound_kernel.sl.r_50 v600
    rw [e_r_46, e_r_47, e_r_48, e_r_49]
    rfl
  have e_r_51 : sound_kernel.sl.r_51 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v622 B := by
    unfold sound_kernel.sl.r_51 v622
    rw [e_r_29, e_r_35, e_r_39]
    rfl
  have e_r_52 : sound_kernel.sl.r_52 c arg18 f17 = v624 B := by
    unfold sound_kernel.sl.r_52 v624
    rfl
  have e_r_53 : sound_kernel.sl.r_53 c arg19 f18 = v626 B := by
    unfold sound_kernel.sl.r_53 v626
    rfl
  have e_r_54 : sound_kernel.sl.r_54 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v630 B := by
    unfold sound_kernel.sl.r_54 v630
    rw [e_r_29, e_r_35, e_r_39]
    rfl
  have e_r_55 : sound_kernel.sl.r_55 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v631 B := by
    unfold sound_kernel.sl.r_55 v631
    rw [e_r_29, e_r_35, e_r_39]
    rfl
  have e_r_56 : sound_kernel.sl.r_56 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v650 B := by
    unfold sound_kernel.sl.r_56 v650
    rw [e_r_51, e_r_52, e_r_53, e_r_54, e_r_55]
  have e_r_57 : sound_kernel.sl.r_57 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v656 B := by
    unfold sound_kernel.sl.r_57 v656
    rw [e_r_44]
    rfl
  have e_r_58 : sound_kernel.sl.r_58 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v659 B := by
    unfold sound_kernel.sl.r_58 v659
    rw [e_r_50]
    rfl
  have e_r_59 : sound_kernel.sl.r_59 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v662 B := by
    unfold sound_kernel.sl.r_59 v662
    rw [e_r_51, e_r_52, e_r_53, e_r_54, e_r_55]
    rfl
  have e_r_60 : sound_kernel.sl.r_60 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v672 B := by
    unfold sound_kernel.sl.r_60 v672
    rw [e_r_44, e_r_50]
    rfl
  have e_r_61 : sound_kernel.sl.r_61 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v685 B := by
    unfold sound_kernel.sl.r_61 v685
    rw [e_r_60]
    rfl
  have e_r_62 : sound_kernel.sl.r_62 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v687 B := by
    unfold sound_kernel.sl.r_62 v687
    rw [e_r_44, e_r_60]
    rfl
  have e_r_63 : sound_kernel.sl.r_63 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v710 B := by
    unfold sound_kernel.sl.r_63 v710
    rw [e_r_57, e_r_59]
    rfl
  have e_r_64 : sound_kernel.sl.r_64 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v712 B := by
    unfold sound_kernel.sl.r_64 v712
    rw [e_r_44, e_r_57, e_r_59]
    rfl
  have e_r_65 : sound_kernel.sl.r_65 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v715 B := by
    unfold sound_kernel.sl.r_65 v715
    rw [e_r_57, e_r_58]
  have e_r_66 : sound_kernel.sl.r_66 c arg11 f10 = v718 B := by
    unfold sound_kernel.sl.r_66 v718
    rfl
  have e_r_67 : sound_kernel.sl.r_67 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v735 B := by
    unfold sound_kernel.sl.r_67 v735
    rw [e_r_65, e_r_66]
    rfl
  have e_r_68 : sound_kernel.sl.r_68 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v737 B := by
    unfold sound_kernel.sl.r_68 v737
    rw [e_r_50, e_r_65, e_r_66]
    rfl
  have e_r_69 : sound_kernel.sl.r_69 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v760 B := by
    unfold sound_kernel.sl.r_69 v760
    rw [e_r_58, e_r_59]
    rfl
  have e_r_70 : sound_kernel.sl.r_70 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v762 B := by
    unfold sound_kernel.sl.r_70 v762
    rw [e_r_50, e_r_58, e_r_59]
    rfl
  have e_r_71 : sound_kernel.sl.r_71 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v763 B := by
    unfold sound_kernel.sl.r_71 v763
    rw [e_r_59]
  have e_r_72 : sound_kernel.sl.r_72 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v764 B := by
    unfold sound_kernel.sl.r_72 v764
    rw [e_r_57]
  have e_r_73 : sound_kernel.sl.r_73 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v785 B := by
    unfold sound_kernel.sl.r_73 v785
    rw [e_r_71, e_r_72]
    rfl
  have e_r_74 : sound_kernel.sl.r_74 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v787 B := by
    unfold sound_kernel.sl.r_74 v787
    rw [e_r_56, e_r_71, e_r_72]
    rfl
  have e_r_75 : sound_kernel.sl.r_75 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v804 B := by
    unfold sound_kernel.sl.r_75 v804
    rw [e_r_58, e_r_59]
    rfl
  have e_r_76 : sound_kernel.sl.r_76 c arg13 f12 = v808 B := by
    unfold sound_kernel.sl.r_76 v808
    rfl
  have e_r_77 : sound_kernel.sl.r_77 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v812 B := by
    unfold sound_kernel.sl.r_77 v812
    rw [e_r_56, e_r_75, e_r_76]
  have e_r_78 : sound_kernel.sl.r_78 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v813 B := by
    unfold sound_kernel.sl.r_78 v813
    rw [e_r_61, e_r_63, e_r_67, e_r_69, e_r_73, e_r_75, e_r_76]
  have e_r_79 : sound_kernel.sl.r_79 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v835 B := by
    unfold sound_kernel.sl.r_79 v835
    rw [e_r_44, e_r_68, e_r_74]
    rfl
  have e_r_80 : sound_kernel.sl.r_80 c arg18 f17 = v837 B := by
    unfold sound_kernel.sl.r_80 v837
    rfl
  have e_r_81 : sound_kernel.sl.r_81 c arg19 f18 = v839 B := by
    unfold sound_kernel.sl.r_81 v839
    rfl
  have e_r_82 : sound_kernel.sl.r_82 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v843 B := by
    unfold sound_kernel.sl.r_82 v843
    rw [e_r_44, e_r_68, e_r_74]
    rfl
  have e_r_83 : sound_kernel.sl.r_83 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v848 B := by
    unfold sound_kernel.sl.r_83 v848
    rw [e_r_44, e_r_68, e_r_74]
    rfl
  have e_r_84 : sound_kernel.sl.r_84 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v863 B := by
    unfold sound_kernel.sl.r_84 v863
    rw [e_r_79, e_r_80, e_r_81, e_r_82, e_r_83]
  have e_r_85 : sound_kernel.sl.r_85 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v885 B := by
    unfold sound_kernel.sl.r_85 v885
    rw [e_r_50, e_r_62, e_r_77]
    rfl
  have e_r_86 : sound_kernel.sl.r_86 c arg18 f17 = v887 B := by
    unfold sound_kernel.sl.r_86 v887
    rfl
  have e_r_87 : sound_kernel.sl.r_87 c arg19 f18 = v889 B := by
    unfold sound_kernel.sl.r_87 v889
    rfl
  have e_r_88 : sound_kernel.sl.r_88 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v913 B := by
    unfold sound_kernel.sl.r_88 v913
    rw [e_r_85, e_r_86, e_r_87]
  have e_r_89 : sound_kernel.sl.r_89 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v930 B := by
    unfold sound_kernel.sl.r_89 v930
    rw [e_r_56, e_r_64, e_r_70]
    rfl
  have e_r_90 : sound_kernel.sl.r_90 c arg17 f16 = v931 B := by
    unfold sound_kernel.sl.r_90 v931
    rfl
  have e_r_91 : sound_kernel.sl.r_91 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v966 B := by
    unfold sound_kernel.sl.r_91 v966
    rw [e_r_89, e_r_90]
    rfl
  have e_r_92 : sound_kernel.sl.r_92 c arg1 arg2 arg3 arg4 arg5 arg6 arg7 arg8 arg9 arg10 arg11 arg12 arg13 arg14 arg15 arg16 arg17 arg18 arg19 arg20 f0 f1 f2 f3 f4 f5 f6 f7 f8 f9 f10 f11 f12 f13 f14 f15 f16 f17 f18 f19 = v973 B := by
    unfold sound_kernel.sl.r_92 v973
    rw [e_r_84, e_r_88]
    rfl
  have e_r_93 : sound_kernel.sl.r_93 c arg1 arg2 arg3 arg4 arg5 arg6 arg7 arg8 arg9 arg10 arg11 arg12 arg13 arg14 arg15 arg16 arg17 arg18 arg19 arg20 arg21 arg22 arg23 arg24 arg25 f0 f1 f2 f3 f4 f5 f6 f7 f8 f9 f10 f11 f12 f13 f14 f15 f16 f17 f18 f19 f20 f21 f22 f23 f24 = v1017 B := by
    unfold sound_kernel.sl.r_93 v1017
    rw [e_r_91, e_r_92]
    rfl
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    rw [e_r_93]
    exact View.read_writes_eq_canon _ _ _ (cover_out _)
  iexists _; isplitr
  swap; · iexact H26
  ipureintro
  rw [e_r_78]
  exact View.read_writes_eq_canon _ _ _ (cover_w _)

end Cert.Kernel.Body

end
-- ==== Proof.KBody.lean ====
import proofs.«429394_j28956669510180_3_alg».proof.Proof.Gen.KernelIdeal.Skeleton
import Idealize.ShloMosaic.Lib.Pipeline.FrameBody

noncomputable section

namespace Cert.KernelIdeal.Body

open Cert.KernelIdeal Cert.KernelIdeal.Gen Idealize.ShloMosaic

structure Blocks (F : FTy → Type) [FloatOps F] where
  x0 : Vec F S512x128 .f32
  x1 : Vec F S512x256 .f32
  x2 : Vec F S512x512 .f32
  x3 : Vec F S128x256 .bf16
  x4 : Vec F S256 .f32
  x5 : Vec F S256x256 .bf16
  x6 : Vec F S256 .f32
  x7 : Vec F S512x256 .bf16
  x8 : Vec F S256 .f32
  x9 : Vec F S3x256x1024 .bf16
  x10 : Vec F S6x256 .f32
  x11 : Vec F S6x256 .f32
  x12 : Vec F S6x1 .f32
  x13 : Vec F S3x256x256 .bf16
  x14 : Vec F S3x256 .f32
  x15 : Vec F S3x256x256 .bf16
  x16 : Vec F S3x256 .f32
  x17 : Vec F S3x256 .f32
  x18 : Vec F S3x256 .f32
  x19 : Vec F S3x256x256 .bf16
  x20 : Vec F S256 .f32
  x21 : Vec F S256x256 .bf16
  x22 : Vec F S256 .f32
  x23 : Vec F S256 .f32
  x24 : Vec F S256 .f32

variable {F : FTy → Type} [FloatOps F]

def ld0 (B : Blocks F) : Vec F S512x128 .f32 :=
  View.ld B.x0 (Rect.unit (s := S512x128) ![0, 0] S512x128.size inb_S512x128_S512x128_0_0)
def ld3 (B : Blocks F) : Vec F S128x256 .bf16 :=
  View.ld B.x3 (Rect.unit (s := S128x256) ![0, 0] S128x256.size inb_S128x256_S128x256_0_0)
def ld4 (B : Blocks F) : Vec F S256 .f32 :=
  View.ld B.x4 (Rect.unit (s := S256) ![0] S256.size inb_S256_S256_0)
def ld1 (B : Blocks F) : Vec F S512x256 .f32 :=
  View.ld B.x1 (Rect.unit (s := S512x256) ![0, 0] S512x256.size inb_S512x256_S512x256_0_0)
def ld5 (B : Blocks F) : Vec F S256x256 .bf16 :=
  View.ld B.x5 (Rect.unit (s := S256x256) ![0, 0] S256x256.size inb_S256x256_S256x256_0_0)
def ld6 (B : Blocks F) : Vec F S256 .f32 :=
  View.ld B.x6 (Rect.unit (s := S256) ![0] S256.size inb_S256_S256_0)
def ld2 (B : Blocks F) : Vec F S512x512 .f32 :=
  View.ld B.x2 (Rect.unit (s := S512x512) ![0, 0] S512x512.size inb_S512x512_S512x512_0_0)
def ld7 (B : Blocks F) : Vec F S512x256 .bf16 :=
  View.ld B.x7 (Rect.unit (s := S512x256) ![0, 0] S512x256.size inb_S512x256_S512x256_0_0)
def ld8 (B : Blocks F) : Vec F S256 .f32 :=
  View.ld B.x8 (Rect.unit (s := S256) ![0] S256.size inb_S256_S256_0)
def ld9_0 (B : Blocks F) : Vec F S1x256x1024 .bf16 :=
  View.ld B.x9 (Rect.unit (s := S3x256x1024) ![0, 0, 0] S1x256x1024.size inb_S3x256x1024_S1x256x1024_0_0_0)
def ld9_1 (B : Blocks F) : Vec F S1x256x1024 .bf16 :=
  View.ld B.x9 (Rect.unit (s := S3x256x1024) ![1, 0, 0] S1x256x1024.size inb_S3x256x1024_S1x256x1024_1_0_0)
def ld9_2 (B : Blocks F) : Vec F S1x256x1024 .bf16 :=
  View.ld B.x9 (Rect.unit (s := S3x256x1024) ![2, 0, 0] S1x256x1024.size inb_S3x256x1024_S1x256x1024_2_0_0)
def ld10_0 (B : Blocks F) : Vec F S1x256 .f32 :=
  View.ld B.x10 (Rect.unit (s := S6x256) ![0, 0] S1x256.size inb_S6x256_S1x256_0_0)
def ld11_0 (B : Blocks F) : Vec F S1x256 .f32 :=
  View.ld B.x11 (Rect.unit (s := S6x256) ![0, 0] S1x256.size inb_S6x256_S1x256_0_0)
def ld12_0 (B : Blocks F) : Vec F S1x1 .f32 :=
  View.ld B.x12 (Rect.unit (s := S6x1) ![0, 0] S1x1.size inb_S6x1_S1x1_0_0)
def ld10_1 (B : Blocks F) : Vec F S1x256 .f32 :=
  View.ld B.x10 (Rect.unit (s := S6x256) ![1, 0] S1x256.size inb_S6x256_S1x256_1_0)
def ld11_1 (B : Blocks F) : Vec F S1x256 .f32 :=
  View.ld B.x11 (Rect.unit (s := S6x256) ![1, 0] S1x256.size inb_S6x256_S1x256_1_0)
def ld12_1 (B : Blocks F) : Vec F S1x1 .f32 :=
  View.ld B.x12 (Rect.unit (s := S6x1) ![1, 0] S1x1.size inb_S6x1_S1x1_1_0)
def ld10_2 (B : Blocks F) : Vec F S1x256 .f32 :=
  View.ld B.x10 (Rect.unit (s := S6x256) ![2, 0] S1x256.size inb_S6x256_S1x256_2_0)
def ld11_2 (B : Blocks F) : Vec F S1x256 .f32 :=
  View.ld B.x11 (Rect.unit (s := S6x256) ![2, 0] S1x256.size inb_S6x256_S1x256_2_0)
def ld12_2 (B : Blocks F) : Vec F S1x1 .f32 :=
  View.ld B.x12 (Rect.unit (s := S6x1) ![2, 0] S1x1.size inb_S6x1_S1x1_2_0)
def ld10_3 (B : Blocks F) : Vec F S1x256 .f32 :=
  View.ld B.x10 (Rect.unit (s := S6x256) ![3, 0] S1x256.size inb_S6x256_S1x256_3_0)
def ld11_3 (B : Blocks F) : Vec F S1x256 .f32 :=
  View.ld B.x11 (Rect.unit (s := S6x256) ![3, 0] S1x256.size inb_S6x256_S1x256_3_0)
def ld12_3 (B : Blocks F) : Vec F S1x1 .f32 :=
  View.ld B.x12 (Rect.unit (s := S6x1) ![3, 0] S1x1.size inb_S6x1_S1x1_3_0)
def ld10_4 (B : Blocks F) : Vec F S1x256 .f32 :=
  View.ld B.x10 (Rect.unit (s := S6x256) ![4, 0] S1x256.size inb_S6x256_S1x256_4_0)
def ld11_4 (B : Blocks F) : Vec F S1x256 .f32 :=
  View.ld B.x11 (Rect.unit (s := S6x256) ![4, 0] S1x256.size inb_S6x256_S1x256_4_0)
def ld12_4 (B : Blocks F) : Vec F S1x1 .f32 :=
  View.ld B.x12 (Rect.unit (s := S6x1) ![4, 0] S1x1.size inb_S6x1_S1x1_4_0)
def ld10_5 (B : Blocks F) : Vec F S1x256 .f32 :=
  View.ld B.x10 (Rect.unit (s := S6x256) ![5, 0] S1x256.size inb_S6x256_S1x256_5_0)
def ld11_5 (B : Blocks F) : Vec F S1x256 .f32 :=
  View.ld B.x11 (Rect.unit (s := S6x256) ![5, 0] S1x256.size inb_S6x256_S1x256_5_0)
def ld12_5 (B : Blocks F) : Vec F S1x1 .f32 :=
  View.ld B.x12 (Rect.unit (s := S6x1) ![5, 0] S1x1.size inb_S6x1_S1x1_5_0)
def ld13_0 (B : Blocks F) : Vec F S1x256x256 .bf16 :=
  View.ld B.x13 (Rect.unit (s := S3x256x256) ![0, 0, 0] S1x256x256.size inb_S3x256x256_S1x256x256_0_0_0)
def ld14_0 (B : Blocks F) : Vec F S1x256 .f32 :=
  View.ld B.x14 (Rect.unit (s := S3x256) ![0, 0] S1x256.size inb_S3x256_S1x256_0_0)
def ld15_0 (B : Blocks F) : Vec F S1x256x256 .bf16 :=
  View.ld B.x15 (Rect.unit (s := S3x256x256) ![0, 0, 0] S1x256x256.size inb_S3x256x256_S1x256x256_0_0_0)
def ld16_0 (B : Blocks F) : Vec F S1x256 .f32 :=
  View.ld B.x16 (Rect.unit (s := S3x256) ![0, 0] S1x256.size inb_S3x256_S1x256_0_0)
def ld17_0 (B : Blocks F) : Vec F S1x256 .f32 :=
  View.ld B.x17 (Rect.unit (s := S3x256) ![0, 0] S1x256.size inb_S3x256_S1x256_0_0)
def ld18_0 (B : Blocks F) : Vec F S1x256 .f32 :=
  View.ld B.x18 (Rect.unit (s := S3x256) ![0, 0] S1x256.size inb_S3x256_S1x256_0_0)
def ld13_1 (B : Blocks F) : Vec F S1x256x256 .bf16 :=
  View.ld B.x13 (Rect.unit (s := S3x256x256) ![1, 0, 0] S1x256x256.size inb_S3x256x256_S1x256x256_1_0_0)
def ld14_1 (B : Blocks F) : Vec F S1x256 .f32 :=
  View.ld B.x14 (Rect.unit (s := S3x256) ![1, 0] S1x256.size inb_S3x256_S1x256_1_0)
def ld15_1 (B : Blocks F) : Vec F S1x256x256 .bf16 :=
  View.ld B.x15 (Rect.unit (s := S3x256x256) ![1, 0, 0] S1x256x256.size inb_S3x256x256_S1x256x256_1_0_0)
def ld16_1 (B : Blocks F) : Vec F S1x256 .f32 :=
  View.ld B.x16 (Rect.unit (s := S3x256) ![1, 0] S1x256.size inb_S3x256_S1x256_1_0)
def ld17_1 (B : Blocks F) : Vec F S1x256 .f32 :=
  View.ld B.x17 (Rect.unit (s := S3x256) ![1, 0] S1x256.size inb_S3x256_S1x256_1_0)
def ld18_1 (B : Blocks F) : Vec F S1x256 .f32 :=
  View.ld B.x18 (Rect.unit (s := S3x256) ![1, 0] S1x256.size inb_S3x256_S1x256_1_0)
def ld13_2 (B : Blocks F) : Vec F S1x256x256 .bf16 :=
  View.ld B.x13 (Rect.unit (s := S3x256x256) ![2, 0, 0] S1x256x256.size inb_S3x256x256_S1x256x256_2_0_0)
def ld14_2 (B : Blocks F) : Vec F S1x256 .f32 :=
  View.ld B.x14 (Rect.unit (s := S3x256) ![2, 0] S1x256.size inb_S3x256_S1x256_2_0)
def ld15_2 (B : Blocks F) : Vec F S1x256x256 .bf16 :=
  View.ld B.x15 (Rect.unit (s := S3x256x256) ![2, 0, 0] S1x256x256.size inb_S3x256x256_S1x256x256_2_0_0)
def ld16_2 (B : Blocks F) : Vec F S1x256 .f32 :=
  View.ld B.x16 (Rect.unit (s := S3x256) ![2, 0] S1x256.size inb_S3x256_S1x256_2_0)
def ld17_2 (B : Blocks F) : Vec F S1x256 .f32 :=
  View.ld B.x17 (Rect.unit (s := S3x256) ![2, 0] S1x256.size inb_S3x256_S1x256_2_0)
def ld18_2 (B : Blocks F) : Vec F S1x256 .f32 :=
  View.ld B.x18 (Rect.unit (s := S3x256) ![2, 0] S1x256.size inb_S3x256_S1x256_2_0)
def ld19_0 (B : Blocks F) : Vec F S1x256x256 .bf16 :=
  View.ld B.x19 (Rect.unit (s := S3x256x256) ![0, 0, 0] S1x256x256.size inb_S3x256x256_S1x256x256_0_0_0)
def ld19_1 (B : Blocks F) : Vec F S1x256x256 .bf16 :=
  View.ld B.x19 (Rect.unit (s := S3x256x256) ![1, 0, 0] S1x256x256.size inb_S3x256x256_S1x256x256_1_0_0)
def ld19_2 (B : Blocks F) : Vec F S1x256x256 .bf16 :=
  View.ld B.x19 (Rect.unit (s := S3x256x256) ![2, 0, 0] S1x256x256.size inb_S3x256x256_S1x256x256_2_0_0)
def ld20 (B : Blocks F) : Vec F S256 .f32 :=
  View.ld B.x20 (Rect.unit (s := S256) ![0] S256.size inb_S256_S256_0)
def ld21 (B : Blocks F) : Vec F S256x256 .bf16 :=
  View.ld B.x21 (Rect.unit (s := S256x256) ![0, 0] S256x256.size inb_S256x256_S256x256_0_0)
def ld22 (B : Blocks F) : Vec F S256 .f32 :=
  View.ld B.x22 (Rect.unit (s := S256) ![0] S256.size inb_S256_S256_0)
def ld23 (B : Blocks F) : Vec F S256 .f32 :=
  View.ld B.x23 (Rect.unit (s := S256) ![0] S256.size inb_S256_S256_0)
def ld24 (B : Blocks F) : Vec F S256 .f32 :=
  View.ld B.x24 (Rect.unit (s := S256) ![0] S256.size inb_S256_S256_0)

def v8 (B : Blocks F) : FVec F S512x256 .f32 := k0_pay1 (ld0 B) (ld3 B) (ld4 B)
def v17 (B : Blocks F) : FVec F S512x256 .f32 := k0_pay2 (ld1 B) (ld5 B) (ld6 B)
def v26 (B : Blocks F) : FVec F S512x256 .f32 := k0_pay3 (ld2 B) (ld7 B) (ld8 B)
def v28 (B : Blocks F) : FVec F S512x256 .bf16 := k0_pay4 (ld1 B) (ld5 B) (ld6 B)
def v29 (B : Blocks F) : FVec F S512x256 .bf16 := k0_pay5 (ld2 B) (ld7 B) (ld8 B)
def v32 (B : Blocks F) : FVec F S512x1024 .f32 := k0_pay6 (ld0 B) (ld3 B) (ld4 B) (ld9_0 B)
def v33 (B : Blocks F) : Vec F S1x256x1024 .bf16 := ld9_1 B
def v35 (B : Blocks F) : FVec F S512x1024 .f32 := k0_pay7 (v28 B) (v33 B)
def v38 (B : Blocks F) : FVec F S512x1024 .f32 := k0_pay8 (v29 B) (ld9_2 B)
def v63 (B : Blocks F) : FVec F S512x256 .f32 := k0_pay9 (v8 B) (v28 B) (v32 B) (v33 B) (ld10_0 B) (ld11_0 B) (ld12_0 B)
def v73 (B : Blocks F) : FVec F S512x256 .f32 := k0_pay10 (v29 B) (v32 B) (ld9_2 B) (ld10_1 B)
def v75 (B : Blocks F) : FVec F S256 .f32 := k0_pay11 (ld11_1 B)
def v88 (B : Blocks F) : FVec F S512x256 .f32 := k0_pay12 (v8 B) (v73 B) (v75 B) (ld12_1 B)
def v113 (B : Blocks F) : FVec F S512x256 .f32 := k0_pay13 (v17 B) (v32 B) (v35 B) (ld10_2 B) (ld11_2 B) (ld12_2 B)
def v121 (B : Blocks F) : FVec F S512x256 .f32 := k0_pay14 (v35 B) (v38 B) (ld10_3 B)
def cst_51 (B : Blocks F) : F .f32 := Scalar.ofBits .f32 0x00000000#32
def v138 (B : Blocks F) : FVec F S512x256 .f32 := k0_pay15 (v17 B) (v121 B) (cst_51 B) (ld11_3 B) (ld12_3 B)
def v163 (B : Blocks F) : FVec F S512x256 .f32 := k0_pay16 (v26 B) (v32 B) (v38 B) (ld10_4 B) (ld11_4 B) (ld12_4 B)
def v166 (B : Blocks F) : FVec F S512x256 .f32 := k0_pay17 (v35 B) (v38 B)
def v188 (B : Blocks F) : FVec F S512x256 .f32 := k0_pay18 (v26 B) (v166 B) (ld10_5 B) (ld11_5 B) (ld12_5 B)
def v205 (B : Blocks F) : FVec F S512x256 .f32 := k0_pay19 (v8 B) (v113 B) (v163 B) (ld13_0 B) (ld14_0 B) (ld15_0 B)
def v207 (B : Blocks F) : FVec F S256 .f32 := k0_pay20 (ld16_0 B)
def v238 (B : Blocks F) : FVec F S512x256 .f32 := k0_pay21 (v205 B) (v207 B) (ld17_0 B) (ld18_0 B)
def v251 (B : Blocks F) : FVec F S512x256 .f32 := k0_pay22 (v17 B) (v63 B) (v188 B) (ld13_1 B) (ld14_1 B)
def v288 (B : Blocks F) : FVec F S512x256 .f32 := k0_pay23 (v251 B) (ld15_1 B) (ld16_1 B) (ld17_1 B) (ld18_1 B)
def v291 (B : Blocks F) : FVec F S512x256 .bf16 := k0_pay24 (v26 B) (v88 B) (v138 B)
def v293 (B : Blocks F) : FVec F S256x256 .bf16 := k0_pay25 (ld13_2 B)
def v314 (B : Blocks F) : FVec F S256 .f32 := k0_pay26 (ld18_2 B)
def v332 (B : Blocks F) : FVec F S512x256 .f32 := k0_pay27 (v291 B) (v293 B) (ld14_2 B) (ld15_2 B) (ld16_2 B)
def v334 (B : Blocks F) : FVec F S512x256 .f32 := k0_pay28 (ld17_2 B)
def v338 (B : Blocks F) : FVec F S512x256 .f32 := k0_pay29 (v314 B) (v332 B) (v334 B)
def v344 (B : Blocks F) : FVec F S512x1024 .f32 := k0_pay30 (v238 B) (ld9_0 B)
def v347 (B : Blocks F) : FVec F S512x1024 .f32 := k0_pay31 (v288 B) (ld9_1 B)
def v350 (B : Blocks F) : FVec F S512x1024 .f32 := k0_pay32 (v314 B) (v332 B) (v334 B) (ld9_2 B)
def v374 (B : Blocks F) : FVec F S512x256 .f32 := k0_pay33 (v238 B) (v288 B) (ld9_0 B) (ld9_1 B) (ld10_0 B) (ld11_0 B) (ld12_0 B)
def v375 (B : Blocks F) : FVec F S512x256 .f32 := k0_pay34 (v238 B) (v374 B)
def v400 (B : Blocks F) : FVec F S512x256 .f32 := k0_pay35 (v238 B) (v344 B) (v350 B) (ld10_1 B) (ld11_1 B) (ld12_1 B)
def v417 (B : Blocks F) : FVec F S512x1 .f32 := k0_pay36 (v344 B) (v347 B) (ld10_2 B) (ld11_2 B)
def v418 (B : Blocks F) : Vec F S1x1 .f32 := ld12_2 B
def v425 (B : Blocks F) : FVec F S512x256 .f32 := k0_pay37 (v288 B) (v417 B) (v418 B)
def v450 (B : Blocks F) : FVec F S512x256 .f32 := k0_pay38 (v288 B) (v347 B) (v350 B) (ld10_3 B) (ld11_3 B) (ld12_3 B)
def v465 (B : Blocks F) : FVec F S512x256 .f32 := k0_pay39 (v344 B) (v350 B) (ld10_4 B) (ld11_4 B)
def v500 (B : Blocks F) : FVec F S512x256 .f32 := k0_pay40 (v338 B) (v347 B) (v350 B) (ld10_5 B) (ld11_5 B) (ld12_5 B)
def v506 (B : Blocks F) : FVec F S512x256 .f32 := k0_pay41 (v238 B) (v338 B) (v425 B) (v465 B) (ld12_4 B) (ld13_0 B)
def v508 (B : Blocks F) : FVec F S256 .f32 := k0_pay42 (ld14_0 B)
def v550 (B : Blocks F) : FVec F S512x256 .f32 := k0_pay43 (v506 B) (v508 B) (ld15_0 B) (ld16_0 B) (ld17_0 B) (ld18_0 B)
def v552 (B : Blocks F) : FVec F S512x256 .f32 := k0_pay44 (v288 B) (v375 B) (v500 B)
def v574 (B : Blocks F) : FVec F S256 .f32 := k0_pay46 (ld17_1 B)
def v576 (B : Blocks F) : FVec F S256 .f32 := k0_pay47 (ld18_1 B)
def v587 (B : Blocks F) : FVec F S512x1 .f32 := k0_pay49 (v552 B) (ld13_1 B) (ld14_1 B) (ld15_1 B) (ld16_1 B)
def v589 (B : Blocks F) : FVec F S512x256 .f32 := k0_pay50 (v552 B) (ld13_1 B) (ld14_1 B) (ld15_1 B) (ld16_1 B)
def v590 (B : Blocks F) : FVec F S512x1 .f32 := k0_pay51 (F := F)
def v600 (B : Blocks F) : FVec F S512x256 .f32 := k0_pay52 (v574 B) (v576 B) (v587 B) (v589 B) (v590 B)
def v622 (B : Blocks F) : FVec F S512x256 .f32 := k0_pay53 (v338 B) (v400 B) (v450 B) (ld13_2 B) (ld14_2 B) (ld15_2 B) (ld16_2 B)
def v624 (B : Blocks F) : FVec F S256 .f32 := k0_pay54 (ld17_2 B)
def v626 (B : Blocks F) : FVec F S256 .f32 := k0_pay55 (ld18_2 B)
def v630 (B : Blocks F) : FVec F S512x1 .f32 := k0_pay56 (v338 B) (v400 B) (v450 B) (ld13_2 B) (ld14_2 B) (ld15_2 B) (ld16_2 B)
def v631 (B : Blocks F) : FVec F S512x256 .f32 := k0_pay57 (v338 B) (v400 B) (v450 B) (ld13_2 B) (ld14_2 B) (ld15_2 B) (ld16_2 B)
def v650 (B : Blocks F) : FVec F S512x256 .f32 := k0_pay58 (v622 B) (v624 B) (v626 B) (v630 B) (v631 B)
def v656 (B : Blocks F) : FVec F S512x1024 .f32 := k0_pay59 (v550 B) (ld9_0 B)
def v659 (B : Blocks F) : FVec F S512x1024 .f32 := k0_pay60 (v600 B) (ld9_1 B)
def v662 (B : Blocks F) : FVec F S512x1024 .f32 := k0_pay61 (v622 B) (v624 B) (v626 B) (v630 B) (v631 B) (ld9_2 B)
def v672 (B : Blocks F) : FVec F S512x256 .f32 := k0_pay62 (v550 B) (v600 B) (ld9_0 B) (ld9_1 B) (ld10_0 B)
def v685 (B : Blocks F) : FVec F S512x1 .f32 := k0_pay63 (v672 B) (ld11_0 B) (ld12_0 B)
def v687 (B : Blocks F) : FVec F S512x256 .f32 := k0_pay64 (v550 B) (v672 B) (ld11_0 B) (ld12_0 B)
def v710 (B : Blocks F) : FVec F S512x1 .f32 := k0_pay65 (v656 B) (v662 B) (ld10_1 B) (ld11_1 B) (ld12_1 B)
def v712 (B : Blocks F) : FVec F S512x256 .f32 := k0_pay66 (v550 B) (v656 B) (v662 B) (ld10_1 B) (ld11_1 B) (ld12_1 B)
def v715 (B : Blocks F) : FVec F S512x256 .f32 := k0_pay67 (v656 B) (v659 B)
def v718 (B : Blocks F) : FVec F S1x256 .f32 := k0_pay68 (ld10_2 B)
def v735 (B : Blocks F) : FVec F S512x1 .f32 := k0_pay69 (v715 B) (v718 B) (ld11_2 B) (ld12_2 B)
def v737 (B : Blocks F) : FVec F S512x256 .f32 := k0_pay70 (v600 B) (v715 B) (v718 B) (ld11_2 B) (ld12_2 B)
def v760 (B : Blocks F) : FVec F S512x1 .f32 := k0_pay71 (v659 B) (v662 B) (ld10_3 B) (ld11_3 B) (ld12_3 B)
def v762 (B : Blocks F) : FVec F S512x256 .f32 := k0_pay72 (v600 B) (v659 B) (v662 B) (ld10_3 B) (ld11_3 B) (ld12_3 B)
def v763 (B : Blocks F) : FVec F S512x256 .f32 := k0_pay73 (v662 B)
def v764 (B : Blocks F) : FVec F S512x256 .f32 := k0_pay74 (v656 B)
def v785 (B : Blocks F) : FVec F S512x1 .f32 := k0_pay75 (v763 B) (v764 B) (ld10_4 B) (ld11_4 B) (ld12_4 B)
def v787 (B : Blocks F) : FVec F S512x256 .f32 := k0_pay76 (v650 B) (v763 B) (v764 B) (ld10_4 B) (ld11_4 B) (ld12_4 B)
def v804 (B : Blocks F) : FVec F S512x1 .f32 := k0_pay77 (v659 B) (v662 B) (ld10_5 B) (ld11_5 B)
def v808 (B : Blocks F) : FVec F S512x1 .f32 := k0_pay78 (ld12_5 B)
def v812 (B : Blocks F) : FVec F S512x256 .f32 := k0_pay80 (v650 B) (v804 B) (v808 B)
def v813 (B : Blocks F) : FVec F S512x6 .f32 := k0_pay81 (v685 B) (v710 B) (v735 B) (v760 B) (v785 B) (v804 B) (v808 B)
def v835 (B : Blocks F) : FVec F S512x256 .f32 := k0_pay82 (v550 B) (v737 B) (v787 B) (ld13_0 B) (ld14_0 B) (ld15_0 B) (ld16_0 B)
def v837 (B : Blocks F) : FVec F S256 .f32 := k0_pay83 (ld17_0 B)
def v839 (B : Blocks F) : FVec F S256 .f32 := k0_pay84 (ld18_0 B)
def v843 (B : Blocks F) : FVec F S512x1 .f32 := k0_pay85 (v550 B) (v737 B) (v787 B) (ld13_0 B) (ld14_0 B) (ld15_0 B) (ld16_0 B)
def v848 (B : Blocks F) : FVec F S512x1 .f32 := k0_pay86 (v550 B) (v737 B) (v787 B) (ld13_0 B) (ld14_0 B) (ld15_0 B) (ld16_0 B)
def v863 (B : Blocks F) : FVec F S512x256 .f32 := k0_pay87 (v835 B) (v837 B) (v839 B) (v843 B) (v848 B)
def v885 (B : Blocks F) : FVec F S512x256 .f32 := k0_pay88 (v600 B) (v687 B) (v812 B) (ld13_1 B) (ld14_1 B) (ld15_1 B) (ld16_1 B)
def v887 (B : Blocks F) : FVec F S256 .f32 := k0_pay89 (ld17_1 B)
def v889 (B : Blocks F) : FVec F S256 .f32 := k0_pay90 (ld18_1 B)
def v913 (B : Blocks F) : FVec F S512x256 .f32 := k0_pay91 (v885 B) (v887 B) (v889 B)
def v930 (B : Blocks F) : FVec F S512x256 .f32 := k0_pay92 (v650 B) (v712 B) (v762 B) (ld13_2 B) (ld14_2 B) (ld15_2 B)
def v931 (B : Blocks F) : Vec F S1x256 .f32 := ld16_2 B
def v966 (B : Blocks F) : FVec F S512x256 .bf16 := k0_pay93 (v930 B) (v931 B) (ld17_2 B) (ld18_2 B)
def v973 (B : Blocks F) : FVec F S512x256 .f32 := k0_pay94 (v863 B) (v913 B) (ld19_0 B) (ld19_1 B)
def v1017 (B : Blocks F) : FVec F S512x256 .f32 := k0_pay95 (v966 B) (v973 B) (ld19_2 B) (ld20 B) (ld21 B) (ld22 B) (ld23 B) (ld24 B)

def outBlk (B : Blocks F) : FVec F S512x256 .f32 := v1017 B
def wBlk (B : Blocks F) : FVec F S512x6 .f32 := v813 B

end Cert.KernelIdeal.Body

end
-- ==== Proof.KSoundStmt.lean ====
import proofs.«429394_j28956669510180_3_alg».proof.Proof.KBody
import proofs.«429394_j28956669510180_3_alg».proof.Proof.Gen.KernelIdeal.Launch
import proofs.«429394_j28956669510180_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rOut : Rect S512x256 := Rect.unit (s := S512x256) ![0, 0] S512x256.size inb_S512x256_S512x256_0_0
abbrev rW : Rect S512x6 := Rect.unit (s := S512x6) ![0, 0] S512x6.size inb_S512x6_S512x6_0_0

def outCanon (B : Blocks F) : Vec F S512x256 .f32 := View.canon [⟨rOut, outBlk B⟩]
def wCanon (B : Blocks F) : Vec F S512x6 .f32 := View.canon [⟨rW, wBlk B⟩]

theorem cover_out (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y
theorem cover_w (p0 : Vec F S512x6 .f32) (y : S512x6.Idx) :
    ∃ pc ∈ ([⟨rW, p0⟩] : List (View.Piece (Elt F) S512x6 .f32)), y ∈ pc.1.set :=
  View.cover_of_tiled [⟨rW, p0⟩] S512x6.size (by rfl) y

def SoundKernel (F : FTy → Type) [FloatOps F] : Prop :=
  ∀ (c : Dev nD) (E : Set ℕ) (i : grid0.Coords) (arg1 : Memref sig .tc .vmem S512x128 .f32) (harg1 : arg1.IsWhole) (arg2 : Memref sig .tc .vmem S512x256 .f32) (harg2 : arg2.IsWhole) (arg3 : Memref sig .tc .vmem S512x512 .f32) (harg3 : arg3.IsWhole) (arg4 : Memref sig .tc .vmem S128x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S512x256 .bf16) (harg8 : arg8.IsWhole) (arg9 : Memref sig .tc .vmem S256 .f32) (harg9 : arg9.IsWhole) (arg10 : Memref sig .tc .vmem S3x256x1024 .bf16) (harg10 : arg10.IsWhole) (arg11 : Memref sig .tc .vmem S6x256 .f32) (harg11 : arg11.IsWhole) (arg12 : Memref sig .tc .vmem S6x256 .f32) (harg12 : arg12.IsWhole) (arg13 : Memref sig .tc .vmem S6x1 .f32) (harg13 : arg13.IsWhole) (arg14 : Memref sig .tc .vmem S3x256x256 .bf16) (harg14 : arg14.IsWhole) (arg15 : Memref sig .tc .vmem S3x256 .f32) (harg15 : arg15.IsWhole) (arg16 : Memref sig .tc .vmem S3x256x256 .bf16) (harg16 : arg16.IsWhole) (arg17 : Memref sig .tc .vmem S3x256 .f32) (harg17 : arg17.IsWhole) (arg18 : Memref sig .tc .vmem S3x256 .f32) (harg18 : arg18.IsWhole) (arg19 : Memref sig .tc .vmem S3x256 .f32) (harg19 : arg19.IsWhole) (arg20 : Memref sig .tc .vmem S3x256x256 .bf16) (harg20 : arg20.IsWhole) (arg21 : Memref sig .tc .vmem S256 .f32) (harg21 : arg21.IsWhole) (arg22 : Memref sig .tc .vmem S256x256 .bf16) (harg22 : arg22.IsWhole) (arg23 : Memref sig .tc .vmem S256 .f32) (harg23 : arg23.IsWhole) (arg24 : Memref sig .tc .vmem S256 .f32) (harg24 : arg24.IsWhole) (arg25 : Memref sig .tc .vmem S256 .f32) (harg25 : arg25.IsWhole) (arg26 : Memref sig .tc .vmem S512x256 .f32) (harg26 : arg26.IsWhole) (arg27 : Memref sig .tc .vmem S512x6 .f32) (harg27 : arg27.IsWhole)
    (x0 : Vec F S512x128 .f32) (x1 : Vec F S512x256 .f32) (x2 : Vec F S512x512 .f32) (x3 : Vec F S128x256 .bf16) (x4 : Vec F S256 .f32) (x5 : Vec F S256x256 .bf16) (x6 : Vec F S256 .f32) (x7 : Vec F S512x256 .bf16) (x8 : Vec F S256 .f32) (x9 : Vec F S3x256x1024 .bf16) (x10 : Vec F S6x256 .f32) (x11 : Vec F S6x256 .f32) (x12 : Vec F S6x1 .f32) (x13 : Vec F S3x256x256 .bf16) (x14 : Vec F S3x256 .f32) (x15 : Vec F S3x256x256 .bf16) (x16 : Vec F S3x256 .f32) (x17 : Vec F S3x256 .f32) (x18 : Vec F S3x256 .f32) (x19 : Vec F S3x256x256 .bf16) (x20 : Vec F S256 .f32) (x21 : Vec F S256x256 .bf16) (x22 : Vec F S256 .f32) (x23 : Vec F S256 .f32) (x24 : Vec F S256 .f32) (K : PUnit → sProp (MT nD τ sig Unit (Elt F) ℕ (UR sig nD τ) ℕ)),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (outCanon (⟨x0, x1, x2, x3, x4, x5, x6, x7, x8, x9, x10, x11, x12, x13, x14, x15, x16, x17, x18, x19, x20, x21, x22, x23, x24⟩ : Blocks F)) ∗ owns (c : Thread nD τ) arg27 fullShare (wCanon (⟨x0, x1, x2, x3, x4, x5, x6, x7, x8, x9, x10, x11, x12, x13, x14, x15, x16, x17, x18, x19, x20, x21, x22, x23, x24⟩ : Blocks F))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K

end Cert.KernelIdeal.Body

end
-- ==== Proof.KSound.lean ====
import proofs.«429394_j28956669510180_3_alg».proof.Proof.KSoundStmt

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
theorem sound_kernel : SoundKernel F := by
  intro c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 K
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24
  sl_exec_parts

  let B : Blocks F := (⟨View.read (Elt F) arg1.view f0, View.read (Elt F) arg2.view f1, View.read (Elt F) arg3.view f2, View.read (Elt F) arg4.view f3, View.read (Elt F) arg5.view f4, View.read (Elt F) arg6.view f5, View.read (Elt F) arg7.view f6, View.read (Elt F) arg8.view f7, View.read (Elt F) arg9.view f8, View.read (Elt F) arg10.view f9, View.read (Elt F) arg11.view f10, View.read (Elt F) arg12.view f11, View.read (Elt F) arg13.view f12, View.read (Elt F) arg14.view f13, View.read (Elt F) arg15.view f14, View.read (Elt F) arg16.view f15, View.read (Elt F) arg17.view f16, View.read (Elt F) arg18.view f17, View.read (Elt F) arg19.view f18, View.read (Elt F) arg20.view f19, View.read (Elt F) arg21.view f20, View.read (Elt F) arg22.view f21, View.read (Elt F) arg23.view f22, View.read (Elt F) arg24.view f23, View.read (Elt F) arg25.view f24⟩ : Blocks F)
  have e_cst_51 : sound_kernel.sl.cst_51 (F := F) = cst_51 B := rfl
  have e_r : sound_kernel.sl.r c arg1 arg4 arg5 f0 f3 f4 = v8 B := by
    unfold sound_kernel.sl.r v8
    rfl
  have e_r_1 : sound_kernel.sl.r_1 c arg2 arg6 arg7 f1 f5 f6 = v17 B := by
    unfold sound_kernel.sl.r_1 v17
    rfl
  have e_r_2 : sound_kernel.sl.r_2 c arg3 arg8 arg9 f2 f7 f8 = v26 B := by
    unfold sound_kernel.sl.r_2 v26
    rfl
  have e_r_3 : sound_kernel.sl.r_3 c arg2 arg6 arg7 f1 f5 f6 = v28 B := by
    unfold sound_kernel.sl.r_3 v28
    rfl
  have e_r_4 : sound_kernel.sl.r_4 c arg3 arg8 arg9 f2 f7 f8 = v29 B := by
    unfold sound_kernel.sl.r_4 v29
    rfl
  have e_r_5 : sound_kernel.sl.r_5 c arg1 arg4 arg5 arg10 f0 f3 f4 f9 = v32 B := by
    unfold sound_kernel.sl.r_5 v32
    rfl
  have e_r_6 : sound_kernel.sl.r_6 c arg10 f9 = v33 B := by
    unfold sound_kernel.sl.r_6 v33
    rfl
  have e_r_7 : sound_kernel.sl.r_7 c arg2 arg6 arg7 arg10 f1 f5 f6 f9 = v35 B := by
    unfold sound_kernel.sl.r_7 v35
    rw [e_r_3, e_r_6]
  have e_r_8 : sound_kernel.sl.r_8 c arg3 arg8 arg9 arg10 f2 f7 f8 f9 = v38 B := by
    unfold sound_kernel.sl.r_8 v38
    rw [e_r_4]
    rfl
  have e_r_9 : sound_kernel.sl.r_9 c arg1 arg2 arg4 arg5 arg6 arg7 arg10 arg11 arg12 arg13 f0 f1 f3 f4 f5 f6 f9 f10 f11 f12 = v63 B := by
    unfold sound_kernel.sl.r_9 v63
    rw [e_r, e_r_3, e_r_5, e_r_6]
    rfl
  have e_r_10 : sound_kernel.sl.r_10 c arg1 arg3 arg4 arg5 arg8 arg9 arg10 arg11 f0 f2 f3 f4 f7 f8 f9 f10 = v73 B := by
    unfold sound_kernel.sl.r_10 v73
    rw [e_r_4, e_r_5]
    rfl
  have e_r_11 : sound_kernel.sl.r_11 c arg12 f11 = v75 B := by
    unfold sound_kernel.sl.r_11 v75
    rfl
  have e_r_12 : sound_kernel.sl.r_12 c arg1 arg3 arg4 arg5 arg8 arg9 arg10 arg11 arg12 arg13 f0 f2 f3 f4 f7 f8 f9 f10 f11 f12 = v88 B := by
    unfold sound_kernel.sl.r_12 v88
    rw [e_r, e_r_10, e_r_11]
    rfl
  have e_r_13 : sound_kernel.sl.r_13 c arg1 arg2 arg4 arg5 arg6 arg7 arg10 arg11 arg12 arg13 f0 f1 f3 f4 f5 f6 f9 f10 f11 f12 = v113 B := by
    unfold sound_kernel.sl.r_13 v113
    rw [e_r_1, e_r_5, e_r_7]
    rfl
  have e_r_14 : sound_kernel.sl.r_14 c arg2 arg3 arg6 arg7 arg8 arg9 arg10 arg11 f1 f2 f5 f6 f7 f8 f9 f10 = v121 B := by
    unfold sound_kernel.sl.r_14 v121
    rw [e_r_7, e_r_8]
    rfl
  have e_r_15 : sound_kernel.sl.r_15 c arg2 arg3 arg6 arg7 arg8 arg9 arg10 arg11 arg12 arg13 f1 f2 f5 f6 f7 f8 f9 f10 f11 f12 = v138 B := by
    unfold sound_kernel.sl.r_15 v138
    rw [e_r_1, e_r_14, e_cst_51]
    rfl
  have e_r_16 : sound_kernel.sl.r_16 c arg1 arg3 arg4 arg5 arg8 arg9 arg10 arg11 arg12 arg13 f0 f2 f3 f4 f7 f8 f9 f10 f11 f12 = v163 B := by
    unfold sound_kernel.sl.r_16 v163
    rw [e_r_2, e_r_5, e_r_8]
    rfl
  have e_r_17 : sound_kernel.sl.r_17 c arg2 arg3 arg6 arg7 arg8 arg9 arg10 f1 f2 f5 f6 f7 f8 f9 = v166 B := by
    unfold sound_kernel.sl.r_17 v166
    rw [e_r_7, e_r_8]
  have e_r_18 : sound_kernel.sl.r_18 c arg2 arg3 arg6 arg7 arg8 arg9 arg10 arg11 arg12 arg13 f1 f2 f5 f6 f7 f8 f9 f10 f11 f12 = v188 B := by
    unfold sound_kernel.sl.r_18 v188
    rw [e_r_2, e_r_17]
    rfl
  have e_r_19 : sound_kernel.sl.r_19 c arg1 arg2 arg3 arg4 arg5 arg6 arg7 arg8 arg9 arg10 arg11 arg12 arg13 arg14 arg15 arg16 f0 f1 f2 f3 f4 f5 f6 f7 f8 f9 f10 f11 f12 f13 f14 f15 = v205 B := by
    unfold sound_kernel.sl.r_19 v205
    rw [e_r, e_r_13, e_r_16]
    rfl
  have e_r_20 : sound_kernel.sl.r_20 c arg17 f16 = v207 B := by
    unfold sound_kernel.sl.r_20 v207
    rfl
  have e_r_21 : sound_kernel.sl.r_21 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v238 B := by
    unfold sound_kernel.sl.r_21 v238
    rw [e_r_19, e_r_20]
    rfl
  have e_r_22 : sound_kernel.sl.r_22 c arg1 arg2 arg3 arg4 arg5 arg6 arg7 arg8 arg9 arg10 arg11 arg12 arg13 arg14 arg15 f0 f1 f2 f3 f4 f5 f6 f7 f8 f9 f10 f11 f12 f13 f14 = v251 B := by
    unfold sound_kernel.sl.r_22 v251
    rw [e_r_1, e_r_9, e_r_18]
    rfl
  have e_r_23 : sound_kernel.sl.r_23 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v288 B := by
    unfold sound_kernel.sl.r_23 v288
    rw [e_r_22]
    rfl
  have e_r_24 : sound_kernel.sl.r_24 c arg1 arg2 arg3 arg4 arg5 arg6 arg7 arg8 arg9 arg10 arg11 arg12 arg13 f0 f1 f2 f3 f4 f5 f6 f7 f8 f9 f10 f11 f12 = v291 B := by
    unfold sound_kernel.sl.r_24 v291
    rw [e_r_2, e_r_12, e_r_15]
  have e_r_25 : sound_kernel.sl.r_25 c arg14 f13 = v293 B := by
    unfold sound_kernel.sl.r_25 v293
    rfl
  have e_r_26 : sound_kernel.sl.r_26 c arg19 f18 = v314 B := by
    unfold sound_kernel.sl.r_26 v314
    rfl
  have e_r_27 : sound_kernel.sl.r_27 c arg1 arg2 arg3 arg4 arg5 arg6 arg7 arg8 arg9 arg10 arg11 arg12 arg13 arg14 arg15 arg16 arg17 f0 f1 f2 f3 f4 f5 f6 f7 f8 f9 f10 f11 f12 f13 f14 f15 f16 = v332 B := by
    unfold sound_kernel.sl.r_27 v332
    rw [e_r_24, e_r_25]
    rfl
  have e_r_28 : sound_kernel.sl.r_28 c arg18 f17 = v334 B := by
    unfold sound_kernel.sl.r_28 v334
    rfl
  have e_r_29 : sound_kernel.sl.r_29 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v338 B := by
    unfold sound_kernel.sl.r_29 v338
    rw [e_r_26, e_r_27, e_r_28]
  have e_r_30 : sound_kernel.sl.r_30 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v344 B := by
    unfold sound_kernel.sl.r_30 v344
    rw [e_r_21]
    rfl
  have e_r_31 : sound_kernel.sl.r_31 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v347 B := by
    unfold sound_kernel.sl.r_31 v347
    rw [e_r_23]
    rfl
  have e_r_32 : sound_kernel.sl.r_32 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v350 B := by
    unfold sound_kernel.sl.r_32 v350
    rw [e_r_26, e_r_27, e_r_28]
    rfl
  have e_r_33 : sound_kernel.sl.r_33 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v374 B := by
    unfold sound_kernel.sl.r_33 v374
    rw [e_r_21, e_r_23]
    rfl
  have e_r_34 : sound_kernel.sl.r_34 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v375 B := by
    unfold sound_kernel.sl.r_34 v375
    rw [e_r_21, e_r_33]
  have e_r_35 : sound_kernel.sl.r_35 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v400 B := by
    unfold sound_kernel.sl.r_35 v400
    rw [e_r_21, e_r_30, e_r_32]
    rfl
  have e_r_36 : sound_kernel.sl.r_36 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v417 B := by
    unfold sound_kernel.sl.r_36 v417
    rw [e_r_30, e_r_31]
    rfl
  have e_r_37 : sound_kernel.sl.r_37 c arg13 f12 = v418 B := by
    unfold sound_kernel.sl.r_37 v418
    rfl
  have e_r_38 : sound_kernel.sl.r_38 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v425 B := by
    unfold sound_kernel.sl.r_38 v425
    rw [e_r_23, e_r_36, e_r_37]
  have e_r_39 : sound_kernel.sl.r_39 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v450 B := by
    unfold sound_kernel.sl.r_39 v450
    rw [e_r_23, e_r_31, e_r_32]
    rfl
  have e_r_40 : sound_kernel.sl.r_40 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v465 B := by
    unfold sound_kernel.sl.r_40 v465
    rw [e_r_30, e_r_32]
    rfl
  have e_r_41 : sound_kernel.sl.r_41 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v500 B := by
    unfold sound_kernel.sl.r_41 v500
    rw [e_r_29, e_r_31, e_r_32]
    rfl
  have e_r_42 : sound_kernel.sl.r_42 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v506 B := by
    unfold sound_kernel.sl.r_42 v506
    rw [e_r_21, e_r_29, e_r_38, e_r_40]
    rfl
  have e_r_43 : sound_kernel.sl.r_43 c arg15 f14 = v508 B := by
    unfold sound_kernel.sl.r_43 v508
    rfl
  have e_r_44 : sound_kernel.sl.r_44 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v550 B := by
    unfold sound_kernel.sl.r_44 v550
    rw [e_r_42, e_r_43]
    rfl
  have e_r_45 : sound_kernel.sl.r_45 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v552 B := by
    unfold sound_kernel.sl.r_45 v552
    rw [e_r_23, e_r_34, e_r_41]
  have e_r_46 : sound_kernel.sl.r_46 c arg18 f17 = v574 B := by
    unfold sound_kernel.sl.r_46 v574
    rfl
  have e_r_47 : sound_kernel.sl.r_47 c arg19 f18 = v576 B := by
    unfold sound_kernel.sl.r_47 v576
    rfl
  have e_r_48 : sound_kernel.sl.r_48 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v587 B := by
    unfold sound_kernel.sl.r_48 v587
    rw [e_r_45]
    rfl
  have e_r_49 : sound_kernel.sl.r_49 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v589 B := by
    unfold sound_kernel.sl.r_49 v589
    rw [e_r_45]
    rfl
  have e_r_50 : sound_kernel.sl.r_50 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v600 B := by
    unfold sound_kernel.sl.r_50 v600
    rw [e_r_46, e_r_47, e_r_48, e_r_49]
    rfl
  have e_r_51 : sound_kernel.sl.r_51 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v622 B := by
    unfold sound_kernel.sl.r_51 v622
    rw [e_r_29, e_r_35, e_r_39]
    rfl
  have e_r_52 : sound_kernel.sl.r_52 c arg18 f17 = v624 B := by
    unfold sound_kernel.sl.r_52 v624
    rfl
  have e_r_53 : sound_kernel.sl.r_53 c arg19 f18 = v626 B := by
    unfold sound_kernel.sl.r_53 v626
    rfl
  have e_r_54 : sound_kernel.sl.r_54 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v630 B := by
    unfold sound_kernel.sl.r_54 v630
    rw [e_r_29, e_r_35, e_r_39]
    rfl
  have e_r_55 : sound_kernel.sl.r_55 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v631 B := by
    unfold sound_kernel.sl.r_55 v631
    rw [e_r_29, e_r_35, e_r_39]
    rfl
  have e_r_56 : sound_kernel.sl.r_56 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v650 B := by
    unfold sound_kernel.sl.r_56 v650
    rw [e_r_51, e_r_52, e_r_53, e_r_54, e_r_55]
  have e_r_57 : sound_kernel.sl.r_57 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v656 B := by
    unfold sound_kernel.sl.r_57 v656
    rw [e_r_44]
    rfl
  have e_r_58 : sound_kernel.sl.r_58 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v659 B := by
    unfold sound_kernel.sl.r_58 v659
    rw [e_r_50]
    rfl
  have e_r_59 : sound_kernel.sl.r_59 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v662 B := by
    unfold sound_kernel.sl.r_59 v662
    rw [e_r_51, e_r_52, e_r_53, e_r_54, e_r_55]
    rfl
  have e_r_60 : sound_kernel.sl.r_60 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v672 B := by
    unfold sound_kernel.sl.r_60 v672
    rw [e_r_44, e_r_50]
    rfl
  have e_r_61 : sound_kernel.sl.r_61 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v685 B := by
    unfold sound_kernel.sl.r_61 v685
    rw [e_r_60]
    rfl
  have e_r_62 : sound_kernel.sl.r_62 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v687 B := by
    unfold sound_kernel.sl.r_62 v687
    rw [e_r_44, e_r_60]
    rfl
  have e_r_63 : sound_kernel.sl.r_63 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v710 B := by
    unfold sound_kernel.sl.r_63 v710
    rw [e_r_57, e_r_59]
    rfl
  have e_r_64 : sound_kernel.sl.r_64 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v712 B := by
    unfold sound_kernel.sl.r_64 v712
    rw [e_r_44, e_r_57, e_r_59]
    rfl
  have e_r_65 : sound_kernel.sl.r_65 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v715 B := by
    unfold sound_kernel.sl.r_65 v715
    rw [e_r_57, e_r_58]
  have e_r_66 : sound_kernel.sl.r_66 c arg11 f10 = v718 B := by
    unfold sound_kernel.sl.r_66 v718
    rfl
  have e_r_67 : sound_kernel.sl.r_67 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v735 B := by
    unfold sound_kernel.sl.r_67 v735
    rw [e_r_65, e_r_66]
    rfl
  have e_r_68 : sound_kernel.sl.r_68 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v737 B := by
    unfold sound_kernel.sl.r_68 v737
    rw [e_r_50, e_r_65, e_r_66]
    rfl
  have e_r_69 : sound_kernel.sl.r_69 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v760 B := by
    unfold sound_kernel.sl.r_69 v760
    rw [e_r_58, e_r_59]
    rfl
  have e_r_70 : sound_kernel.sl.r_70 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v762 B := by
    unfold sound_kernel.sl.r_70 v762
    rw [e_r_50, e_r_58, e_r_59]
    rfl
  have e_r_71 : sound_kernel.sl.r_71 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v763 B := by
    unfold sound_kernel.sl.r_71 v763
    rw [e_r_59]
  have e_r_72 : sound_kernel.sl.r_72 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v764 B := by
    unfold sound_kernel.sl.r_72 v764
    rw [e_r_57]
  have e_r_73 : sound_kernel.sl.r_73 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v785 B := by
    unfold sound_kernel.sl.r_73 v785
    rw [e_r_71, e_r_72]
    rfl
  have e_r_74 : sound_kernel.sl.r_74 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v787 B := by
    unfold sound_kernel.sl.r_74 v787
    rw [e_r_56, e_r_71, e_r_72]
    rfl
  have e_r_75 : sound_kernel.sl.r_75 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v804 B := by
    unfold sound_kernel.sl.r_75 v804
    rw [e_r_58, e_r_59]
    rfl
  have e_r_76 : sound_kernel.sl.r_76 c arg13 f12 = v808 B := by
    unfold sound_kernel.sl.r_76 v808
    rfl
  have e_r_77 : sound_kernel.sl.r_77 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v812 B := by
    unfold sound_kernel.sl.r_77 v812
    rw [e_r_56, e_r_75, e_r_76]
  have e_r_78 : sound_kernel.sl.r_78 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v813 B := by
    unfold sound_kernel.sl.r_78 v813
    rw [e_r_61, e_r_63, e_r_67, e_r_69, e_r_73, e_r_75, e_r_76]
  have e_r_79 : sound_kernel.sl.r_79 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v835 B := by
    unfold sound_kernel.sl.r_79 v835
    rw [e_r_44, e_r_68, e_r_74]
    rfl
  have e_r_80 : sound_kernel.sl.r_80 c arg18 f17 = v837 B := by
    unfold sound_kernel.sl.r_80 v837
    rfl
  have e_r_81 : sound_kernel.sl.r_81 c arg19 f18 = v839 B := by
    unfold sound_kernel.sl.r_81 v839
    rfl
  have e_r_82 : sound_kernel.sl.r_82 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v843 B := by
    unfold sound_kernel.sl.r_82 v843
    rw [e_r_44, e_r_68, e_r_74]
    rfl
  have e_r_83 : sound_kernel.sl.r_83 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v848 B := by
    unfold sound_kernel.sl.r_83 v848
    rw [e_r_44, e_r_68, e_r_74]
    rfl
  have e_r_84 : sound_kernel.sl.r_84 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v863 B := by
    unfold sound_kernel.sl.r_84 v863
    rw [e_r_79, e_r_80, e_r_81, e_r_82, e_r_83]
  have e_r_85 : sound_kernel.sl.r_85 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v885 B := by
    unfold sound_kernel.sl.r_85 v885
    rw [e_r_50, e_r_62, e_r_77]
    rfl
  have e_r_86 : sound_kernel.sl.r_86 c arg18 f17 = v887 B := by
    unfold sound_kernel.sl.r_86 v887
    rfl
  have e_r_87 : sound_kernel.sl.r_87 c arg19 f18 = v889 B := by
    unfold sound_kernel.sl.r_87 v889
    rfl
  have e_r_88 : sound_kernel.sl.r_88 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v913 B := by
    unfold sound_kernel.sl.r_88 v913
    rw [e_r_85, e_r_86, e_r_87]
  have e_r_89 : sound_kernel.sl.r_89 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v930 B := by
    unfold sound_kernel.sl.r_89 v930
    rw [e_r_56, e_r_64, e_r_70]
    rfl
  have e_r_90 : sound_kernel.sl.r_90 c arg17 f16 = v931 B := by
    unfold sound_kernel.sl.r_90 v931
    rfl
  have e_r_91 : sound_kernel.sl.r_91 c arg1 arg2 arg3 arg4 arg5 arg6 arg7 arg8 arg9 arg10 arg11 arg12 arg13 arg14 arg15 arg16 arg17 arg18 arg19 f0 f1 f2 f3 f4 f5 f6 f7 f8 f9 f10 f11 f12 f13 f14 f15 f16 f17 f18 = v966 B := by
    unfold sound_kernel.sl.r_91 v966
    rw [e_r_89, e_r_90]
    rfl
  have e_r_92 : sound_kernel.sl.r_92 c arg1 arg2 arg3 arg4 arg5 arg6 arg7 arg8 arg9 arg10 arg11 arg12 arg13 arg14 arg15 arg16 arg17 arg18 arg19 arg20 f0 f1 f2 f3 f4 f5 f6 f7 f8 f9 f10 f11 f12 f13 f14 f15 f16 f17 f18 f19 = v973 B := by
    unfold sound_kernel.sl.r_92 v973
    rw [e_r_84, e_r_88]
    rfl
  have e_r_93 : sound_kernel.sl.r_93 c arg1 arg2 arg3 arg4 arg5 arg6 arg7 arg8 arg9 arg10 arg11 arg12 arg13 arg14 arg15 arg16 arg17 arg18 arg19 arg20 arg21 arg22 arg23 arg24 arg25 f0 f1 f2 f3 f4 f5 f6 f7 f8 f9 f10 f11 f12 f13 f14 f15 f16 f17 f18 f19 f20 f21 f22 f23 f24 = v1017 B := by
    unfold sound_kernel.sl.r_93 v1017
    rw [e_r_91, e_r_92]
    rfl
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    rw [e_r_93]
    exact View.read_writes_eq_canon _ _ _ (cover_out _)
  iexists _; isplitr
  swap; · iexact H26
  ipureintro
  rw [e_r_78]
  exact View.read_writes_eq_canon _ _ _ (cover_w _)

end Cert.KernelIdeal.Body

end
-- ==== Proof.KEntry.lean ====
import proofs.«429394_j28956669510180_3_alg».proof.Proof.KBody
import proofs.«429394_j28956669510180_3_alg».proof.Proof.Gen.KernelIdeal.Launch
import proofs.«429394_j28956669510180_3_alg».proof.Proof.Gen.KernelIdeal.Points

noncomputable section

namespace Cert.KernelIdeal.Body

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t⟩

end Cert.KernelIdeal.Body

end
-- ==== Proof.KKept.lean ====
import proofs.«429394_j28956669510180_3_alg».proof.Proof.KEntry
import Idealize.ShloMosaic.Lib.StableHlo.Run

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The buffers the host lines before the call write: each line writes its own result only. -/
abbrev hostW : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48]

/-- A buffer none of those lines writes is found by the region as launched. -/
theorem V_keep (c : Dev nD) {r : Ref sig .tc} (h : r ∉ hostW) : V m c r = m ((c : Thread nD τ).loc r) :=
  StableHlo.after_of_writes_sub _ _ (by
    simp only [hostOps0, List.flatten_cons, List.flatten_nil, List.append_nil, List.Forall, StableHlo.nullary_writes, StableHlo.unary_writes, StableHlo.binary_writes, StableHlo.ternary_writes, StableHlo.quaternary_writes, StableHlo.reshape_writes, StableHlo.nary_writes, StableHlo.binaryIndexed_writes, Finset.singleton_subset_iff, List.mem_toFinset]
    and_intros <;> exact List.mem_map_of_mem (by decide)) h

end Cert.KernelIdeal.Body

end
-- ==== Proof.KFrame.lean ====
import proofs.«429394_j28956669510180_3_alg».proof.Proof.KSoundStmt
import proofs.«429394_j28956669510180_3_alg».proof.Proof.KKept
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

theorem W_keep (dats : (p : Fin _) → (c : Dev nD) → Dat τ (Elt F) Unit ℕ (UR sig nD τ) ℕ (cfgs p) c) (c : Dev nD) {r : Ref sig .tc}
    (h₁ : r ∉ [main_v50, main_v51]) (h₂ : ∀ w, Pipeline.arrRef spec0 w ≠ r) (h₀ : r ∉ hostW) :
    Pipeline.afterTail₀ cfgs dats 0 (V0 m) [hostOps1] c r = m ((c : Thread nD τ).loc r) := by
  unfold Pipeline.afterTail₀
  rw [StableHlo.after_of_writes_sub _ _ (by
      simp only [hostOps1, List.flatten_cons, List.flatten_nil, List.append_nil, List.Forall, StableHlo.nullary_writes, StableHlo.unary_writes, StableHlo.binary_writes, StableHlo.ternary_writes, StableHlo.quaternary_writes, StableHlo.reshape_writes, StableHlo.nary_writes, StableHlo.binaryIndexed_writes, Finset.singleton_subset_iff, List.mem_toFinset]
      and_intros <;> exact List.mem_map_of_mem (by decide)) h₁,
    Pipeline.withArrays_of_ne _ c (V0 m c) _ r h₂]
  exact V_keep m c h₀

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => outCanon (blocks m c t)
    | ⟨26, _⟩ => wCanon (blocks m c t)
    | ⟨n + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = outCanon (blocks m c t) := by dsimp only [dats]
theorem after0_26 (c : Dev nD) (t : Fin cfg0.N) : (dats m 0 c).after 26 t = wCanon (blocks m c t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl) (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl) (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl) (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl) (fun t => by rw [after0_24]; unfold Dat.blockOf iblk; rw [A_eq]; try rfl) t d).trans
    (by unfold Dat.fetched Dat.blockOf iblk; rw [A_eq]; try rfl)

set_option maxHeartbeats 4000000 in
theorem args_kept {r : _} (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨((h c).1 0).trans (((dats m 0 c).arrAt_in 0 rfl _).trans ((A_eq m c 0).trans (V_keep m c (by decide)))),
      ((h c).1 1).trans (((dats m 0 c).arrAt_in 1 rfl _).trans ((A_eq m c 1).trans (V_keep m c (by decide)))),
      ((h c).1 2).trans (((dats m 0 c).arrAt_in 2 rfl _).trans ((A_eq m c 2).trans (V_keep m c (by decide)))),
      ((h c).2 main_arg3 (Pipeline.mem_restRefs_of main_arg3 (by decide) (by decide))).trans (W_keep m (dats m) c (by decide) (by decide) (by decide)),
      ((h c).1 4).trans (((dats m 0 c).arrAt_in 4 rfl _).trans ((A_eq m c 4).trans (V_keep m c (by decide)))),
      ((h c).2 main_arg5 (Pipeline.mem_restRefs_of main_arg5 (by decide) (by decide))).trans (W_keep m (dats m) c (by decide) (by decide) (by decide)),
      ((h c).1 6).trans (((dats m 0 c).arrAt_in 6 rfl _).trans ((A_eq m c 6).trans (V_keep m c (by decide)))),
      ((h c).2 main_arg7 (Pipeline.mem_restRefs_of main_arg7 (by decide) (by decide))).trans (W_keep m (dats m) c (by decide) (by decide) (by decide)),
      ((h c).1 8).trans (((dats m 0 c).arrAt_in 8 rfl _).trans ((A_eq m c 8).trans (V_keep m c (by decide)))),
      ((h c).2 main_arg9 (Pipeline.mem_restRefs_of main_arg9 (by decide) (by decide))).trans (W_keep m (dats m) c (by decide) (by decide) (by decide)),
      ((h c).1 10).trans (((dats m 0 c).arrAt_in 10 rfl _).trans ((A_eq m c 10).trans (V_keep m c (by decide)))),
      ((h c).2 main_arg11 (Pipeline.mem_restRefs_of main_arg11 (by decide) (by decide))).trans (W_keep m (dats m) c (by decide) (by decide) (by decide)),
      ((h c).1 12).trans (((dats m 0 c).arrAt_in 12 rfl _).trans ((A_eq m c 12).trans (V_keep m c (by decide)))),
      ((h c).2 main_arg13 (Pipeline.mem_restRefs_of main_arg13 (by decide) (by decide))).trans (W_keep m (dats m) c (by decide) (by decide) (by decide)),
      ((h c).1 14).trans (((dats m 0 c).arrAt_in 14 rfl _).trans ((A_eq m c 14).trans (V_keep m c (by decide)))),
      ((h c).2 main_arg15 (Pipeline.mem_restRefs_of main_arg15 (by decide) (by decide))).trans (W_keep m (dats m) c (by decide) (by decide) (by decide)),
      ((h c).1 16).trans (((dats m 0 c).arrAt_in 16 rfl _).trans ((A_eq m c 16).trans (V_keep m c (by decide)))),
      ((h c).1 17).trans (((dats m 0 c).arrAt_in 17 rfl _).trans ((A_eq m c 17).trans (V_keep m c (by decide)))),
      ((h c).1 18).trans (((dats m 0 c).arrAt_in 18 rfl _).trans ((A_eq m c 18).trans (V_keep m c (by decide)))),
      ((h c).2 main_arg19 (Pipeline.mem_restRefs_of main_arg19 (by decide) (by decide))).trans (W_keep m (dats m) c (by decide) (by decide) (by decide)),
      ((h c).1 20).trans (((dats m 0 c).arrAt_in 20 rfl _).trans ((A_eq m c 20).trans (V_keep m c (by decide)))),
      ((h c).2 main_arg21 (Pipeline.mem_restRefs_of main_arg21 (by decide) (by decide))).trans (W_keep m (dats m) c (by decide) (by decide) (by decide)),
      ((h c).1 22).trans (((dats m 0 c).arrAt_in 22 rfl _).trans ((A_eq m c 22).trans (V_keep m c (by decide)))),
      ((h c).1 23).trans (((dats m 0 c).arrAt_in 23 rfl _).trans ((A_eq m c 23).trans (V_keep m c (by decide)))),
      ((h c).1 24).trans (((dats m 0 c).arrAt_in 24 rfl _).trans ((A_eq m c 24).trans (V_keep m c (by decide))))⟩

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
theorem sound_body (hsk : SoundKernel F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (hsk c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem body_obligation (hsk : SoundKernel F) (c : Dev nD) : BodyObligation (dats (F := F) m 0 c) (defs₀ (F := F)) Variants.none () Set.univ := fun t => by
  rw [bigSep_W0, bigSep_W0]
  exact sound_body m hsk c t

set_option backward.isDefEq.respectTransparency.types false in
theorem run_main (hsk : SoundKernel F) : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m hsk c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Body

end
-- ==== Proof.Spec.lean ====
import Idealize.ShloMosaic.PureOps.Ideal
import Idealize.ShloMosaic.PureOps.Ideal.Laws

noncomputable section

namespace RouteSpec

open Idealize.ShloMosaic

abbrev c0 : EReal := Ideal.ofBits .f32 0x00000000#32
abbrev c256 : EReal := Ideal.ofBits .f32 0x43800000#32
abbrev ceps : EReal := Ideal.ofBits .f32 0x3727C5AC#32

structure Wts where
  pW0 : Fin 128 → Fin 256 → EReal
  pb0 : Fin 256 → EReal
  pW1 : Fin 256 → Fin 256 → EReal
  pb1 : Fin 256 → EReal
  pW2 : Fin 512 → Fin 256 → EReal
  pb2 : Fin 256 → EReal
  rWa : Fin 6 → Fin 256 → Fin 256 → EReal
  rWb : Fin 6 → Fin 256 → Fin 256 → EReal
  rb1 : Fin 6 → Fin 256 → EReal
  rW2 : Fin 6 → Fin 256 → EReal
  rb2 : Fin 6 → EReal
  lW1 : Fin 3 → Fin 256 → Fin 256 → EReal
  lb1 : Fin 3 → Fin 256 → EReal
  lW2 : Fin 3 → Fin 256 → Fin 256 → EReal
  lb2 : Fin 3 → Fin 256 → EReal
  lng : Fin 3 → Fin 256 → EReal
  lnb : Fin 3 → Fin 256 → EReal
  fW1 : Fin 3 → Fin 256 → Fin 256 → EReal
  fb1 : Fin 256 → EReal
  fW2 : Fin 256 → Fin 256 → EReal
  fb2 : Fin 256 → EReal
  fng : Fin 256 → EReal
  fnb : Fin 256 → EReal

abbrev Feats := Fin 3 → Fin 256 → EReal

def src : Fin 6 → Fin 3 := ![0, 0, 1, 1, 2, 2]
def tgt : Fin 6 → Fin 3 := ![1, 2, 0, 2, 0, 1]

def pa : Fin 3 → Fin 6 := ![2, 0, 1]
def pb : Fin 3 → Fin 6 := ![4, 5, 3]

def relu (x : EReal) : EReal := max x c0

def proj0 (W : Wts) (xf : Fin 128 → EReal) : Fin 256 → EReal := fun q => (∑ k, xf k * W.pW0 k q) + W.pb0 q
def proj1 (W : Wts) (xm : Fin 256 → EReal) : Fin 256 → EReal := fun q => (∑ k, xm k * W.pW1 k q) + W.pb1 q
def proj2 (W : Wts) (xc : Fin 512 → EReal) : Fin 256 → EReal := fun q => (∑ k, xc k * W.pW2 k q) + W.pb2 q
def feats0 (W : Wts) (xf : Fin 128 → EReal) (xm : Fin 256 → EReal) (xc : Fin 512 → EReal) : Feats :=
  ![proj0 W xf, proj1 W xm, proj2 W xc]

def mean (x : Fin 256 → EReal) : EReal := Ideal.div (∑ k, x k) c256
def var (x : Fin 256 → EReal) : EReal := Ideal.div (∑ k, (x k - mean x) * (x k - mean x)) c256
def lnorm (x g b : Fin 256 → EReal) : Fin 256 → EReal := fun q =>
  (x q - mean x) * Ideal.rsqrt (var x + ceps) * g q + b q

def hid (W : Wts) (f : Feats) (i : Fin 6) : Fin 256 → EReal := fun h =>
  relu (((∑ d, f (src i) d * W.rWa i d h) + (∑ d, f (tgt i) d * W.rWb i d h)) + W.rb1 i h)
def gate (W : Wts) (f : Feats) (i : Fin 6) : EReal :=
  Ideal.logistic ((∑ h, hid W f i h * W.rW2 i h) + W.rb2 i)

def sent (W : Wts) (f : Feats) (i : Fin 6) : Fin 256 → EReal := fun q => gate W f i * f (src i) q

def upd (W : Wts) (f : Feats) (l : Fin 3) : Fin 256 → EReal := fun q =>
  f l q + (sent W f (pa l) q + sent W f (pb l) q)
def h2 (W : Wts) (f : Feats) (l : Fin 3) : Fin 256 → EReal := fun e =>
  relu ((∑ d, upd W f l d * W.lW1 l d e) + W.lb1 l e)
def h3 (W : Wts) (f : Feats) (l : Fin 3) : Fin 256 → EReal := fun e =>
  (∑ d, h2 W f l d * W.lW2 l d e) + W.lb2 l e
def step (W : Wts) (f : Feats) : Feats := fun l => lnorm (h3 W f l) (W.lng l) (W.lnb l)

def h4 (W : Wts) (f : Feats) : Fin 256 → EReal := fun e =>
  relu ((((∑ d, f 0 d * W.fW1 0 d e) + (∑ d, f 1 d * W.fW1 1 d e)) + (∑ d, f 2 d * W.fW1 2 d e)) + W.fb1 e)
def h5 (W : Wts) (f : Feats) : Fin 256 → EReal := fun e => (∑ d, h4 W f d * W.fW2 d e) + W.fb2 e
def fin (W : Wts) (f : Feats) : Fin 256 → EReal := lnorm (h5 W f) W.fng W.fnb

def f1 (W : Wts) (xf : Fin 128 → EReal) (xm : Fin 256 → EReal) (xc : Fin 512 → EReal) : Feats := step W (feats0 W xf xm xc)
def f2 (W : Wts) (xf : Fin 128 → EReal) (xm : Fin 256 → EReal) (xc : Fin 512 → EReal) : Feats := step W (f1 W xf xm xc)
def f3 (W : Wts) (xf : Fin 128 → EReal) (xm : Fin 256 → EReal) (xc : Fin 512 → EReal) : Feats := step W (f2 W xf xm xc)
def rowOut (W : Wts) (xf : Fin 128 → EReal) (xm : Fin 256 → EReal) (xc : Fin 512 → EReal) : Fin 256 → EReal :=
  fin W (f3 W xf xm xc)
def rowGate (W : Wts) (xf : Fin 128 → EReal) (xm : Fin 256 → EReal) (xc : Fin 512 → EReal) : Fin 6 → EReal :=
  fun i => gate W (f2 W xf xm xc) i

end RouteSpec

end
-- ==== Proof.KIface.lean ====
import proofs.«429394_j28956669510180_3_alg».proof.Proof.KBody
import proofs.«429394_j28956669510180_3_alg».proof.Proof.Spec
import Idealize.ShloMosaic.Lib.ValueIdx

noncomputable section

namespace Cert.KernelIdeal.Body

open Cert.KernelIdeal Cert.KernelIdeal.Gen Idealize.ShloMosaic Idealize.ShloMosaic.ValueIdx RouteSpec

def sa : Fin 3 → Fin 6 := ![0, 2, 4]
def sb : Fin 3 → Fin 6 := ![1, 3, 5]

structure BlocksOK (B : Blocks Ideal) (W : Wts) : Prop where
  x3 : ∀ (k : Fin 128) (q : Fin 256), B.x3 (ix2 k q) = W.pW0 k q
  x4 : ∀ q : Fin 256, B.x4 (ix1 q) = W.pb0 q
  x5 : ∀ (k : Fin 256) (q : Fin 256), B.x5 (ix2 k q) = W.pW1 k q
  x6 : ∀ q : Fin 256, B.x6 (ix1 q) = W.pb1 q
  x7 : ∀ (k : Fin 512) (q : Fin 256), B.x7 (ix2 k q) = W.pW2 k q
  x8 : ∀ q : Fin 256, B.x8 (ix1 q) = W.pb2 q
  x9a : ∀ (l : Fin 3) (d h : Fin 256), B.x9 (ix3 l d (⟨h.val, by omega⟩ : Fin 1024)) = W.rWa (sa l) d h
  x9b : ∀ (l : Fin 3) (d h : Fin 256), B.x9 (ix3 l d (⟨256 + h.val, by omega⟩ : Fin 1024)) = W.rWa (sb l) d h
  x9c : ∀ (l : Fin 3) (d h : Fin 256), B.x9 (ix3 l d (⟨512 + h.val, by omega⟩ : Fin 1024)) = W.rWb (pa l) d h
  x9d : ∀ (l : Fin 3) (d h : Fin 256), B.x9 (ix3 l d (⟨768 + h.val, by omega⟩ : Fin 1024)) = W.rWb (pb l) d h
  x10 : ∀ (i : Fin 6) (h : Fin 256), B.x10 (ix2 i h) = W.rb1 i h
  x11 : ∀ (i : Fin 6) (h : Fin 256), B.x11 (ix2 i h) = W.rW2 i h
  x12 : ∀ i : Fin 6, B.x12 (ix2 i (0 : Fin 1)) = W.rb2 i
  x13 : ∀ (l : Fin 3) (d e : Fin 256), B.x13 (ix3 l d e) = W.lW1 l d e
  x14 : ∀ (l : Fin 3) (e : Fin 256), B.x14 (ix2 l e) = W.lb1 l e
  x15 : ∀ (l : Fin 3) (d e : Fin 256), B.x15 (ix3 l d e) = W.lW2 l d e
  x16 : ∀ (l : Fin 3) (e : Fin 256), B.x16 (ix2 l e) = W.lb2 l e
  x17 : ∀ (l : Fin 3) (e : Fin 256), B.x17 (ix2 l e) = W.lng l e
  x18 : ∀ (l : Fin 3) (e : Fin 256), B.x18 (ix2 l e) = W.lnb l e
  x19 : ∀ (l : Fin 3) (d e : Fin 256), B.x19 (ix3 l d e) = W.fW1 l d e
  x20 : ∀ e : Fin 256, B.x20 (ix1 e) = W.fb1 e
  x21 : ∀ d e : Fin 256, B.x21 (ix2 d e) = W.fW2 d e
  x22 : ∀ e : Fin 256, B.x22 (ix1 e) = W.fb2 e
  x23 : ∀ e : Fin 256, B.x23 (ix1 e) = W.fng e
  x24 : ∀ e : Fin 256, B.x24 (ix1 e) = W.fnb e

def rowF (B : Blocks Ideal) (p : Fin 512) : Fin 128 → EReal := fun k => B.x0 (ix2 p k)
def rowM (B : Blocks Ideal) (p : Fin 512) : Fin 256 → EReal := fun k => B.x1 (ix2 p k)
def rowC (B : Blocks Ideal) (p : Fin 512) : Fin 512 → EReal := fun k => B.x2 (ix2 p k)

end Cert.KernelIdeal.Body

end
-- ==== Proof.RefStages.lean ====
import proofs.«429394_j28956669510180_3_alg».proof.Proof.Gen.ReferenceIdeal

noncomputable section

namespace Cert.ReferenceIdeal.Stages

open Cert.ReferenceIdeal Cert.ReferenceIdeal.Gen Idealize.ShloMosaic

structure RArgs (F : FTy → Type) [FloatOps F] where
  a0 : Vec F S32768x128 .f32
  a1 : Vec F S32768x256 .f32
  a2 : Vec F S32768x512 .f32
  a3 : Vec F S128x256 .f32
  a4 : Vec F S256 .f32
  a5 : Vec F S256x256 .f32
  a6 : Vec F S256 .f32
  a7 : Vec F S512x256 .f32
  a8 : Vec F S256 .f32
  a9 : Vec F S6x512x256 .f32
  a10 : Vec F S6x256 .f32
  a11 : Vec F S6x256x1 .f32
  a12 : Vec F S6x1 .f32
  a13 : Vec F S3x256x256 .f32
  a14 : Vec F S3x256 .f32
  a15 : Vec F S3x256x256 .f32
  a16 : Vec F S3x256 .f32
  a17 : Vec F S3x256 .f32
  a18 : Vec F S3x256 .f32
  a19 : Vec F S768x256 .f32
  a20 : Vec F S256 .f32
  a21 : Vec F S256x256 .f32
  a22 : Vec F S256 .f32
  a23 : Vec F S256 .f32
  a24 : Vec F S256 .f32

variable {F : FTy → Type} [FloatOps F]

def r_c (A : RArgs F) := fun i => lit0 (S6.rowMajor i)
def r_c_0 (A : RArgs F) := fun i => lit1 (S6.rowMajor i)
def r_v0 (A : RArgs F) := Host.dotGeneral dot_S32768x128_S128x256_S32768x256_1_0_0_1_n_n none A.a0 A.a3
def r_v1 (A : RArgs F) := broadcastInDim S1x256 ![1] bcast_S256_S1x256_1 A.a4
def r_v2 (A : RArgs F) := broadcastInDim S32768x256 ![0, 1] bcast_S1x256_S32768x256_0_1 (r_v1 A)
def r_v3 (A : RArgs F) := addf (r_v0 A) (r_v2 A)
def r_v4 (A : RArgs F) := Host.dotGeneral dot_S32768x256_S256x256_S32768x256_1_0_0_1_n_n none A.a1 A.a5
def r_v5 (A : RArgs F) := broadcastInDim S1x256 ![1] bcast_S256_S1x256_1 A.a6
def r_v6 (A : RArgs F) := broadcastInDim S32768x256 ![0, 1] bcast_S1x256_S32768x256_0_1 (r_v5 A)
def r_v7 (A : RArgs F) := addf (r_v4 A) (r_v6 A)
def r_v8 (A : RArgs F) := Host.dotGeneral dot_S32768x512_S512x256_S32768x256_1_0_0_1_n_n none A.a2 A.a7
def r_v9 (A : RArgs F) := broadcastInDim S1x256 ![1] bcast_S256_S1x256_1 A.a8
def r_v10 (A : RArgs F) := broadcastInDim S32768x256 ![0, 1] bcast_S1x256_S32768x256_0_1 (r_v9 A)
def r_v11 (A : RArgs F) := addf (r_v8 A) (r_v10 A)
def r_v12 (A : RArgs F) := broadcastInDim S1x32768x256 ![1, 2] bcast_S32768x256_S1x32768x256_1_2 (r_v3 A)
def r_v13 (A : RArgs F) := broadcastInDim S1x32768x256 ![1, 2] bcast_S32768x256_S1x32768x256_1_2 (r_v7 A)
def r_v14 (A : RArgs F) := broadcastInDim S1x32768x256 ![1, 2] bcast_S32768x256_S1x32768x256_1_2 (r_v11 A)
def r_v15 (A : RArgs F) := concatenate S3x32768x256 0 [⟨S1x32768x256, (r_v12 A)⟩, ⟨S1x32768x256, (r_v13 A)⟩, ⟨S1x32768x256, (r_v14 A)⟩] concatenates_S1x32768x256_S1x32768x256_S1x32768x256_S3x32768x256_d0

def t_c_1 (f : FVec F S3x32768x256 .f32) (A : RArgs F) := constantI S_ 32 0#32
def t_v16 (f : FVec F S3x32768x256 .f32) (A : RArgs F) := broadcastInDim S6 ![] bcast_S_S6 (t_c_1 f A)
def t_v17 (f : FVec F S3x32768x256 .f32) (A : RArgs F) := cmpi .slt (r_c A) (t_v16 f A)
def t_c_2 (f : FVec F S3x32768x256 .f32) (A : RArgs F) := constantI S_ 32 3#32
def t_v18 (f : FVec F S3x32768x256 .f32) (A : RArgs F) := broadcastInDim S6 ![] bcast_S_S6 (t_c_2 f A)
def t_v19 (f : FVec F S3x32768x256 .f32) (A : RArgs F) := addi (r_c A) (t_v18 f A)
def t_v20 (f : FVec F S3x32768x256 .f32) (A : RArgs F) := select (t_v17 f A) (t_v19 f A) (r_c A)
def t_v21 (f : FVec F S3x32768x256 .f32) (A : RArgs F) := broadcastInDim S6x1 ![0] bcast_S6_S6x1_0 (t_v20 f A)
def t_v22 (f : FVec F S3x32768x256 .f32) (A : RArgs F) := Host.gather gather_S3x32768x256_S6x1_S6x32768x256_12_0_n_n_0_1_132768256 f (t_v21 f A)
def t_c_3 (f : FVec F S3x32768x256 .f32) (A : RArgs F) := constantI S_ 32 0#32
def t_v23 (f : FVec F S3x32768x256 .f32) (A : RArgs F) := broadcastInDim S6 ![] bcast_S_S6 (t_c_3 f A)
def t_v24 (f : FVec F S3x32768x256 .f32) (A : RArgs F) := cmpi .slt (r_c_0 A) (t_v23 f A)
def t_c_4 (f : FVec F S3x32768x256 .f32) (A : RArgs F) := constantI S_ 32 3#32
def t_v25 (f : FVec F S3x32768x256 .f32) (A : RArgs F) := broadcastInDim S6 ![] bcast_S_S6 (t_c_4 f A)
def t_v26 (f : FVec F S3x32768x256 .f32) (A : RArgs F) := addi (r_c_0 A) (t_v25 f A)
def t_v27 (f : FVec F S3x32768x256 .f32) (A : RArgs F) := select (t_v24 f A) (t_v26 f A) (r_c_0 A)
def t_v28 (f : FVec F S3x32768x256 .f32) (A : RArgs F) := broadcastInDim S6x1 ![0] bcast_S6_S6x1_0 (t_v27 f A)
def t_v29 (f : FVec F S3x32768x256 .f32) (A : RArgs F) := Host.gather gather_S3x32768x256_S6x1_S6x32768x256_12_0_n_n_0_1_132768256 f (t_v28 f A)
def t_v30 (f : FVec F S3x32768x256 .f32) (A : RArgs F) := concatenate S6x32768x512 2 [⟨S6x32768x256, (t_v22 f A)⟩, ⟨S6x32768x256, (t_v29 f A)⟩] concatenates_S6x32768x256_S6x32768x256_S6x32768x512_d2
def t_v31 (f : FVec F S3x32768x256 .f32) (A : RArgs F) := Host.dotGeneral dot_S6x32768x512_S6x512x256_S6x32768x256_2_1_1_2_0_0 none (t_v30 f A) A.a9
def t_v32 (f : FVec F S3x32768x256 .f32) (A : RArgs F) := broadcastInDim S6x1x256 ![0, 2] bcast_S6x256_S6x1x256_0_2 A.a10
def t_v33 (f : FVec F S3x32768x256 .f32) (A : RArgs F) := broadcastInDim S6x32768x256 ![0, 1, 2] bcast_S6x1x256_S6x32768x256_0_1_2 (t_v32 f A)
def t_v34 (f : FVec F S3x32768x256 .f32) (A : RArgs F) := addf (t_v31 f A) (t_v33 f A)
def t_v35 (f : FVec F S3x32768x256 .f32) (A : RArgs F) := maximumf (t_v34 f A) (broadcastInDim S6x32768x256 ![] bcast_S_S6x32768x256 (constant (F := F) S_ .f32 0x00000000#32))
def t_v36 (f : FVec F S3x32768x256 .f32) (A : RArgs F) := Host.dotGeneral dot_S6x32768x256_S6x256x1_S6x32768x1_2_1_1_2_0_0 none (t_v35 f A) A.a11
def t_v37 (f : FVec F S3x32768x256 .f32) (A : RArgs F) := broadcastInDim S6x1x1 ![0, 2] bcast_S6x1_S6x1x1_0_2 A.a12
def t_v38 (f : FVec F S3x32768x256 .f32) (A : RArgs F) := broadcastInDim S6x32768x1 ![0, 1, 2] bcast_S6x1x1_S6x32768x1_0_1_2 (t_v37 f A)
def t_v39 (f : FVec F S3x32768x256 .f32) (A : RArgs F) := addf (t_v36 f A) (t_v38 f A)
def t_v40 (f : FVec F S3x32768x256 .f32) (A : RArgs F) := Host.negf (t_v39 f A)
def t_v41 (f : FVec F S3x32768x256 .f32) (A : RArgs F) := Host.exp (t_v40 f A)
def t_cst (f : FVec F S3x32768x256 .f32) (A : RArgs F) := constant (F := F) S_ .f32 0x3F800000#32
def t_v42 (f : FVec F S3x32768x256 .f32) (A : RArgs F) := broadcastInDim S6x32768x1 ![] bcast_S_S6x32768x1 (t_cst f A)
def t_v43 (f : FVec F S3x32768x256 .f32) (A : RArgs F) := addf (t_v42 f A) (t_v41 f A)
def t_cst_5 (f : FVec F S3x32768x256 .f32) (A : RArgs F) := constant (F := F) S_ .f32 0x3F800000#32
def t_v44 (f : FVec F S3x32768x256 .f32) (A : RArgs F) := broadcastInDim S6x32768x1 ![] bcast_S_S6x32768x1 (t_cst_5 f A)
def t_v45 (f : FVec F S3x32768x256 .f32) (A : RArgs F) := Host.divf (t_v44 f A) (t_v43 f A)
def t_v46 (f : FVec F S3x32768x256 .f32) (A : RArgs F) := broadcastInDim S6x32768x256 ![0, 1, 2] bcast_S6x32768x1_S6x32768x256_0_1_2 (t_v45 f A)
def t_v47 (f : FVec F S3x32768x256 .f32) (A : RArgs F) := mulf (t_v46 f A) (t_v22 f A)
def t_cst_6 (f : FVec F S3x32768x256 .f32) (A : RArgs F) := constant (F := F) S_ .f32 0x00000000#32
def t_v48 (f : FVec F S3x32768x256 .f32) (A : RArgs F) := broadcastInDim S3x32768x256 ![] bcast_S_S3x32768x256 (t_cst_6 f A)
def t_v49 (f : FVec F S3x32768x256 .f32) (A : RArgs F) := broadcastInDim S6x1 ![0] bcast_S6_S6x1_0 (r_c_0 A)
def t_v50 (f : FVec F S3x32768x256 .f32) (A : RArgs F) := Host.scatterAdd scatter_S3x32768x256_S6x1_S6x32768x256_12_0_0_1 (t_v48 f A) (t_v49 f A) (t_v47 f A)
def t_v51 (f : FVec F S3x32768x256 .f32) (A : RArgs F) := addf f (t_v50 f A)
def t_v52 (f : FVec F S3x32768x256 .f32) (A : RArgs F) := Host.dotGeneral dot_S3x32768x256_S3x256x256_S3x32768x256_2_1_1_2_0_0 none (t_v51 f A) A.a13
def t_v53 (f : FVec F S3x32768x256 .f32) (A : RArgs F) := broadcastInDim S3x1x256 ![0, 2] bcast_S3x256_S3x1x256_0_2 A.a14
def t_v54 (f : FVec F S3x32768x256 .f32) (A : RArgs F) := broadcastInDim S3x32768x256 ![0, 1, 2] bcast_S3x1x256_S3x32768x256_0_1_2 (t_v53 f A)
def t_v55 (f : FVec F S3x32768x256 .f32) (A : RArgs F) := addf (t_v52 f A) (t_v54 f A)
def t_v56 (f : FVec F S3x32768x256 .f32) (A : RArgs F) := maximumf (t_v55 f A) (broadcastInDim S3x32768x256 ![] bcast_S_S3x32768x256 (constant (F := F) S_ .f32 0x00000000#32))
def t_v57 (f : FVec F S3x32768x256 .f32) (A : RArgs F) := Host.dotGeneral dot_S3x32768x256_S3x256x256_S3x32768x256_2_1_1_2_0_0 none (t_v56 f A) A.a15
def t_v58 (f : FVec F S3x32768x256 .f32) (A : RArgs F) := broadcastInDim S3x1x256 ![0, 2] bcast_S3x256_S3x1x256_0_2 A.a16
def t_v59 (f : FVec F S3x32768x256 .f32) (A : RArgs F) := broadcastInDim S3x32768x256 ![0, 1, 2] bcast_S3x1x256_S3x32768x256_0_1_2 (t_v58 f A)
def t_v60 (f : FVec F S3x32768x256 .f32) (A : RArgs F) := addf (t_v57 f A) (t_v59 f A)
def t_v61 (f : FVec F S3x32768x256 .f32) (A : RArgs F) := broadcastInDim S3x1x256 ![0, 2] bcast_S3x256_S3x1x256_0_2 A.a17
def t_v62 (f : FVec F S3x32768x256 .f32) (A : RArgs F) := broadcastInDim S3x1x256 ![0, 2] bcast_S3x256_S3x1x256_0_2 A.a18
def t_cst_7 (f : FVec F S3x32768x256 .f32) (A : RArgs F) := constant (F := F) S_ .f32 0x00000000#32
def t_v63 (f : FVec F S3x32768x256 .f32) (A : RArgs F) := Host.reduceAdd (t_v60 f A) (t_cst_7 f A) reducesTo_S3x32768x256_S3x32768_d2 h_S_
def t_v64 (f : FVec F S3x32768x256 .f32) (A : RArgs F) := broadcastInDim S3x32768x1 ![0, 1] bcast_S3x32768_S3x32768x1_0_1 (t_v63 f A)
def t_cst_8 (f : FVec F S3x32768x256 .f32) (A : RArgs F) := constant (F := F) S_ .f32 0x43800000#32
def t_v65 (f : FVec F S3x32768x256 .f32) (A : RArgs F) := broadcastInDim S3x32768x1 ![] bcast_S_S3x32768x1 (t_cst_8 f A)
def t_v66 (f : FVec F S3x32768x256 .f32) (A : RArgs F) := Host.divf (t_v64 f A) (t_v65 f A)
def t_v67 (f : FVec F S3x32768x256 .f32) (A : RArgs F) := broadcastInDim S3x32768x256 ![0, 1, 2] bcast_S3x32768x1_S3x32768x256_0_1_2 (t_v66 f A)
def t_v68 (f : FVec F S3x32768x256 .f32) (A : RArgs F) := subf (t_v60 f A) (t_v67 f A)
def t_v69 (f : FVec F S3x32768x256 .f32) (A : RArgs F) := mulf (t_v68 f A) (t_v68 f A)
def t_cst_9 (f : FVec F S3x32768x256 .f32) (A : RArgs F) := constant (F := F) S_ .f32 0x00000000#32
def t_v70 (f : FVec F S3x32768x256 .f32) (A : RArgs F) := Host.reduceAdd (t_v69 f A) (t_cst_9 f A) reducesTo_S3x32768x256_S3x32768_d2 h_S_
def t_v71 (f : FVec F S3x32768x256 .f32) (A : RArgs F) := broadcastInDim S3x32768x1 ![0, 1] bcast_S3x32768_S3x32768x1_0_1 (t_v70 f A)
def t_cst_10 (f : FVec F S3x32768x256 .f32) (A : RArgs F) := constant (F := F) S_ .f32 0x43800000#32
def t_v72 (f : FVec F S3x32768x256 .f32) (A : RArgs F) := broadcastInDim S3x32768x1 ![] bcast_S_S3x32768x1 (t_cst_10 f A)
def t_v73 (f : FVec F S3x32768x256 .f32) (A : RArgs F) := Host.divf (t_v71 f A) (t_v72 f A)
def t_v74 (f : FVec F S3x32768x256 .f32) (A : RArgs F) := broadcastInDim S3x32768x256 ![0, 1, 2] bcast_S3x32768x1_S3x32768x256_0_1_2 (t_v66 f A)
def t_v75 (f : FVec F S3x32768x256 .f32) (A : RArgs F) := subf (t_v60 f A) (t_v74 f A)
def t_cst_11 (f : FVec F S3x32768x256 .f32) (A : RArgs F) := constant (F := F) S_ .f32 0x3727C5AC#32
def t_v76 (f : FVec F S3x32768x256 .f32) (A : RArgs F) := broadcastInDim S3x32768x1 ![] bcast_S_S3x32768x1 (t_cst_11 f A)
def t_v77 (f : FVec F S3x32768x256 .f32) (A : RArgs F) := addf (t_v73 f A) (t_v76 f A)
def t_v78 (f : FVec F S3x32768x256 .f32) (A : RArgs F) := Host.sqrt (t_v77 f A)
def t_v79 (f : FVec F S3x32768x256 .f32) (A : RArgs F) := broadcastInDim S3x32768x256 ![0, 1, 2] bcast_S3x32768x1_S3x32768x256_0_1_2 (t_v78 f A)
def t_v80 (f : FVec F S3x32768x256 .f32) (A : RArgs F) := Host.divf (t_v75 f A) (t_v79 f A)
def t_v81 (f : FVec F S3x32768x256 .f32) (A : RArgs F) := broadcastInDim S3x32768x256 ![0, 1, 2] bcast_S3x1x256_S3x32768x256_0_1_2 (t_v61 f A)
def t_v82 (f : FVec F S3x32768x256 .f32) (A : RArgs F) := mulf (t_v80 f A) (t_v81 f A)
def t_v83 (f : FVec F S3x32768x256 .f32) (A : RArgs F) := broadcastInDim S3x32768x256 ![0, 1, 2] bcast_S3x1x256_S3x32768x256_0_1_2 (t_v62 f A)
def t_v84 (f : FVec F S3x32768x256 .f32) (A : RArgs F) := addf (t_v82 f A) (t_v83 f A)

def e_v223 (f : FVec F S3x32768x256 .f32) (A : RArgs F) := transpose S32768x3x256 [1, 0, 2] f transposes_S3x32768x256_S32768x3x256_1_0_2
def e_v224 (f : FVec F S3x32768x256 .f32) (A : RArgs F) := shapeCast S32768x768 (e_v223 f A) shapeCasts_S32768x3x256_S32768x768
def e_v225 (f : FVec F S3x32768x256 .f32) (A : RArgs F) := Host.dotGeneral dot_S32768x768_S768x256_S32768x256_1_0_0_1_n_n none (e_v224 f A) A.a19
def e_v226 (f : FVec F S3x32768x256 .f32) (A : RArgs F) := broadcastInDim S1x256 ![1] bcast_S256_S1x256_1 A.a20
def e_v227 (f : FVec F S3x32768x256 .f32) (A : RArgs F) := broadcastInDim S32768x256 ![0, 1] bcast_S1x256_S32768x256_0_1 (e_v226 f A)
def e_v228 (f : FVec F S3x32768x256 .f32) (A : RArgs F) := addf (e_v225 f A) (e_v227 f A)
def e_v229 (f : FVec F S3x32768x256 .f32) (A : RArgs F) := maximumf (e_v228 f A) (broadcastInDim S32768x256 ![] bcast_S_S32768x256 (constant (F := F) S_ .f32 0x00000000#32))
def e_v230 (f : FVec F S3x32768x256 .f32) (A : RArgs F) := Host.dotGeneral dot_S32768x256_S256x256_S32768x256_1_0_0_1_n_n none (e_v229 f A) A.a21
def e_v231 (f : FVec F S3x32768x256 .f32) (A : RArgs F) := broadcastInDim S1x256 ![1] bcast_S256_S1x256_1 A.a22
def e_v232 (f : FVec F S3x32768x256 .f32) (A : RArgs F) := broadcastInDim S32768x256 ![0, 1] bcast_S1x256_S32768x256_0_1 (e_v231 f A)
def e_v233 (f : FVec F S3x32768x256 .f32) (A : RArgs F) := addf (e_v230 f A) (e_v232 f A)
def e_cst_36 (f : FVec F S3x32768x256 .f32) (A : RArgs F) := constant (F := F) S_ .f32 0x00000000#32
def e_v234 (f : FVec F S3x32768x256 .f32) (A : RArgs F) := Host.reduceAdd (e_v233 f A) (e_cst_36 f A) reducesTo_S32768x256_S32768_d1 h_S_
def e_v235 (f : FVec F S3x32768x256 .f32) (A : RArgs F) := broadcastInDim S32768x1 ![0] bcast_S32768_S32768x1_0 (e_v234 f A)
def e_cst_37 (f : FVec F S3x32768x256 .f32) (A : RArgs F) := constant (F := F) S_ .f32 0x43800000#32
def e_v236 (f : FVec F S3x32768x256 .f32) (A : RArgs F) := broadcastInDim S32768x1 ![] bcast_S_S32768x1 (e_cst_37 f A)
def e_v237 (f : FVec F S3x32768x256 .f32) (A : RArgs F) := Host.divf (e_v235 f A) (e_v236 f A)
def e_v238 (f : FVec F S3x32768x256 .f32) (A : RArgs F) := broadcastInDim S32768x256 ![0, 1] bcast_S32768x1_S32768x256_0_1 (e_v237 f A)
def e_v239 (f : FVec F S3x32768x256 .f32) (A : RArgs F) := subf (e_v233 f A) (e_v238 f A)
def e_v240 (f : FVec F S3x32768x256 .f32) (A : RArgs F) := mulf (e_v239 f A) (e_v239 f A)
def e_cst_38 (f : FVec F S3x32768x256 .f32) (A : RArgs F) := constant (F := F) S_ .f32 0x00000000#32
def e_v241 (f : FVec F S3x32768x256 .f32) (A : RArgs F) := Host.reduceAdd (e_v240 f A) (e_cst_38 f A) reducesTo_S32768x256_S32768_d1 h_S_
def e_v242 (f : FVec F S3x32768x256 .f32) (A : RArgs F) := broadcastInDim S32768x1 ![0] bcast_S32768_S32768x1_0 (e_v241 f A)
def e_cst_39 (f : FVec F S3x32768x256 .f32) (A : RArgs F) := constant (F := F) S_ .f32 0x43800000#32
def e_v243 (f : FVec F S3x32768x256 .f32) (A : RArgs F) := broadcastInDim S32768x1 ![] bcast_S_S32768x1 (e_cst_39 f A)
def e_v244 (f : FVec F S3x32768x256 .f32) (A : RArgs F) := Host.divf (e_v242 f A) (e_v243 f A)
def e_v245 (f : FVec F S3x32768x256 .f32) (A : RArgs F) := broadcastInDim S32768x256 ![0, 1] bcast_S32768x1_S32768x256_0_1 (e_v237 f A)
def e_v246 (f : FVec F S3x32768x256 .f32) (A : RArgs F) := subf (e_v233 f A) (e_v245 f A)
def e_cst_40 (f : FVec F S3x32768x256 .f32) (A : RArgs F) := constant (F := F) S_ .f32 0x3727C5AC#32
def e_v247 (f : FVec F S3x32768x256 .f32) (A : RArgs F) := broadcastInDim S32768x1 ![] bcast_S_S32768x1 (e_cst_40 f A)
def e_v248 (f : FVec F S3x32768x256 .f32) (A : RArgs F) := addf (e_v244 f A) (e_v247 f A)
def e_v249 (f : FVec F S3x32768x256 .f32) (A : RArgs F) := Host.sqrt (e_v248 f A)
def e_v250 (f : FVec F S3x32768x256 .f32) (A : RArgs F) := broadcastInDim S32768x256 ![0, 1] bcast_S32768x1_S32768x256_0_1 (e_v249 f A)
def e_v251 (f : FVec F S3x32768x256 .f32) (A : RArgs F) := Host.divf (e_v246 f A) (e_v250 f A)
def e_v252 (f : FVec F S3x32768x256 .f32) (A : RArgs F) := broadcastInDim S1x256 ![1] bcast_S256_S1x256_1 A.a23
def e_v253 (f : FVec F S3x32768x256 .f32) (A : RArgs F) := broadcastInDim S32768x256 ![0, 1] bcast_S1x256_S32768x256_0_1 (e_v252 f A)
def e_v254 (f : FVec F S3x32768x256 .f32) (A : RArgs F) := mulf (e_v251 f A) (e_v253 f A)
def e_v255 (f : FVec F S3x32768x256 .f32) (A : RArgs F) := broadcastInDim S1x256 ![1] bcast_S256_S1x256_1 A.a24
def e_v256 (f : FVec F S3x32768x256 .f32) (A : RArgs F) := broadcastInDim S32768x256 ![0, 1] bcast_S1x256_S32768x256_0_1 (e_v255 f A)
def e_v257 (f : FVec F S3x32768x256 .f32) (A : RArgs F) := addf (e_v254 f A) (e_v256 f A)

def refProj (A : RArgs F) : FVec F S3x32768x256 .f32 := r_v15 A
def refStep (f : FVec F S3x32768x256 .f32) (A : RArgs F) : FVec F S3x32768x256 .f32 := t_v84 f A
def refGate (f : FVec F S3x32768x256 .f32) (A : RArgs F) : FVec F S6x32768x1 .f32 := t_v45 f A
def refFin (f : FVec F S3x32768x256 .f32) (A : RArgs F) : FVec F S32768x256 .f32 := e_v257 f A

def refOut (A : RArgs F) : FVec F S32768x256 .f32 := refFin (refStep (refStep (refStep (refProj A) A) A) A) A
def refW (A : RArgs F) : FVec F S6x32768x1 .f32 := refGate (refStep (refStep (refProj A) A) A) A

end Cert.ReferenceIdeal.Stages

end
-- ==== Proof.RIface.lean ====
import proofs.«429394_j28956669510180_3_alg».proof.Proof.RefStages
import proofs.«429394_j28956669510180_3_alg».proof.Proof.Spec
import Idealize.ShloMosaic.Lib.ValueIdx

noncomputable section

namespace Cert.ReferenceIdeal.Stages

open Cert.ReferenceIdeal Cert.ReferenceIdeal.Gen Idealize.ShloMosaic Idealize.ShloMosaic.ValueIdx RouteSpec

def wts (A : RArgs Ideal) : Wts where
  pW0 k q := A.a3 (ix2 k q)
  pb0 q := A.a4 (ix1 q)
  pW1 k q := A.a5 (ix2 k q)
  pb1 q := A.a6 (ix1 q)
  pW2 k q := A.a7 (ix2 k q)
  pb2 q := A.a8 (ix1 q)
  rWa i d h := A.a9 (ix3 i (⟨d.val, by omega⟩ : Fin 512) h)
  rWb i d h := A.a9 (ix3 i (⟨256 + d.val, by omega⟩ : Fin 512) h)
  rb1 i h := A.a10 (ix2 i h)
  rW2 i h := A.a11 (ix3 i h (0 : Fin 1))
  rb2 i := A.a12 (ix2 i (0 : Fin 1))
  lW1 l d e := A.a13 (ix3 l d e)
  lb1 l e := A.a14 (ix2 l e)
  lW2 l d e := A.a15 (ix3 l d e)
  lb2 l e := A.a16 (ix2 l e)
  lng l e := A.a17 (ix2 l e)
  lnb l e := A.a18 (ix2 l e)
  fW1 l d e := A.a19 (ix2 (⟨256 * l.val + d.val, by omega⟩ : Fin 768) e)
  fb1 e := A.a20 (ix1 e)
  fW2 d e := A.a21 (ix2 d e)
  fb2 e := A.a22 (ix1 e)
  fng e := A.a23 (ix1 e)
  fnb e := A.a24 (ix1 e)

def rowF (A : RArgs Ideal) (b : Fin 32768) : Fin 128 → EReal := fun k => A.a0 (ix2 b k)
def rowM (A : RArgs Ideal) (b : Fin 32768) : Fin 256 → EReal := fun k => A.a1 (ix2 b k)
def rowC (A : RArgs Ideal) (b : Fin 32768) : Fin 512 → EReal := fun k => A.a2 (ix2 b k)
def rowL (f : FVec Ideal S3x32768x256 .f32) (b : Fin 32768) : Feats := fun l q => f (ix3 l b q)

end Cert.ReferenceIdeal.Stages

end
-- ==== Proof.KHostA.lean ====
import proofs.«429394_j28956669510180_3_alg».proof.Proof.KEntry
import proofs.«429394_j28956669510180_3_alg».proof.Proof.KKept
import proofs.«429394_j28956669510180_3_alg».proof.Proof.KIface
import proofs.«429394_j28956669510180_3_alg».proof.Proof.RIface
import Idealize.ShloMosaic.Lib.StableHlo.Run
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx RouteSpec
open Cert.ReferenceIdeal.Stages (RArgs wts)

variable (m : (ℓ : Loc nD τ sig) → Buf (Elt Ideal) ℓ) (c : Dev nD)

def kargs : RArgs Ideal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24)⟩

macro "host_results" : tactic =>
  `(tactic| (simp (disch := decide) only [StableHlo.after_cons, StableHlo.after_nil,
      StableHlo.unary_result', StableHlo.reshape_result', StableHlo.nary_result',
      StableHlo.unary_result_ne', StableHlo.reshape_result_ne', StableHlo.nary_result_ne',
      Matrix.cons_val]))

section Layout
variable {α : Type}

theorem stack3_0 {a b : Nat} (x0 x1 x2 : (⟨3, ![1, a, b]⟩ : Shape).Idx → α)
    (hc : Shape.Concatenates (([⟨⟨3, ![1, a, b]⟩, x0⟩, ⟨⟨3, ![1, a, b]⟩, x1⟩, ⟨⟨3, ![1, a, b]⟩, x2⟩] : List ((s : Shape) × (s.Idx → α))).map (·.1)) ⟨3, ![3, a, b]⟩ 0)
    (d : Fin a) (e : Fin b) :
    concatenate (⟨3, ![3, a, b]⟩ : Shape) 0 [⟨⟨3, ![1, a, b]⟩, x0⟩, ⟨⟨3, ![1, a, b]⟩, x1⟩, ⟨⟨3, ![1, a, b]⟩, x2⟩] hc (ix3 (0 : Fin 3) d e) = x0 (ix3 (0 : Fin 1) d e) :=
  concatenate_apply_piece 0 _ hc _ 0 (Nat.lt_of_sub_eq_succ rfl) _ x0 rfl rfl 0 rfl (ix3 (0 : Fin 1) d e)
    (fun b hb => match b, hb with
      | ⟨0, _⟩, hb => absurd rfl hb
      | ⟨1, _⟩, _ => rfl
      | ⟨2, _⟩, _ => rfl) rfl
theorem stack3_1 {a b : Nat} (x0 x1 x2 : (⟨3, ![1, a, b]⟩ : Shape).Idx → α)
    (hc : Shape.Concatenates (([⟨⟨3, ![1, a, b]⟩, x0⟩, ⟨⟨3, ![1, a, b]⟩, x1⟩, ⟨⟨3, ![1, a, b]⟩, x2⟩] : List ((s : Shape) × (s.Idx → α))).map (·.1)) ⟨3, ![3, a, b]⟩ 0)
    (d : Fin a) (e : Fin b) :
    concatenate (⟨3, ![3, a, b]⟩ : Shape) 0 [⟨⟨3, ![1, a, b]⟩, x0⟩, ⟨⟨3, ![1, a, b]⟩, x1⟩, ⟨⟨3, ![1, a, b]⟩, x2⟩] hc (ix3 (1 : Fin 3) d e) = x1 (ix3 (0 : Fin 1) d e) :=
  concatenate_apply_piece 0 _ hc _ 1 (Nat.lt_of_sub_eq_succ rfl) _ x1 rfl rfl 1 rfl (ix3 (0 : Fin 1) d e)
    (fun b hb => match b, hb with
      | ⟨0, _⟩, hb => absurd rfl hb
      | ⟨1, _⟩, _ => rfl
      | ⟨2, _⟩, _ => rfl) rfl
theorem stack3_2 {a b : Nat} (x0 x1 x2 : (⟨3, ![1, a, b]⟩ : Shape).Idx → α)
    (hc : Shape.Concatenates (([⟨⟨3, ![1, a, b]⟩, x0⟩, ⟨⟨3, ![1, a, b]⟩, x1⟩, ⟨⟨3, ![1, a, b]⟩, x2⟩] : List ((s : Shape) × (s.Idx → α))).map (·.1)) ⟨3, ![3, a, b]⟩ 0)
    (d : Fin a) (e : Fin b) :
    concatenate (⟨3, ![3, a, b]⟩ : Shape) 0 [⟨⟨3, ![1, a, b]⟩, x0⟩, ⟨⟨3, ![1, a, b]⟩, x1⟩, ⟨⟨3, ![1, a, b]⟩, x2⟩] hc (ix3 (2 : Fin 3) d e) = x2 (ix3 (0 : Fin 1) d e) :=
  concatenate_apply_piece 0 _ hc _ 2 (Nat.lt_of_sub_eq_succ rfl) _ x2 rfl rfl 2 rfl (ix3 (0 : Fin 1) d e)
    (fun b hb => match b, hb with
      | ⟨0, _⟩, hb => absurd rfl hb
      | ⟨1, _⟩, _ => rfl
      | ⟨2, _⟩, _ => rfl) rfl

theorem lead_apply {a b : Nat} (ha : a ≠ 1) (hb : b ≠ 1) (x : (⟨2, ![a, b]⟩ : Shape).Idx → α)
    (hbc : (⟨2, ![a, b]⟩ : Shape).BroadcastsInDim ⟨3, ![1, a, b]⟩ ![1, 2]) (z : Fin 1) (d : Fin a) (e : Fin b) :
    broadcastInDim (⟨3, ![1, a, b]⟩ : Shape) ![1, 2] hbc x (ix3 z d e) = x (ix2 d e) :=
  broadcastInDim_apply _ hbc x (ix3 z d e) (ix2 d e) (fun k => match k with
    | ⟨0, _⟩ => by show d.val = if a = 1 then 0 else d.val; rw [if_neg ha]
    | ⟨1, _⟩ => by show e.val = if b = 1 then 0 else e.val; rw [if_neg hb])

theorem cat4_0 (x0 x1 x2 x3 : S256x256.Idx → α)
    (hc : Shape.Concatenates (([⟨S256x256, x0⟩, ⟨S256x256, x1⟩, ⟨S256x256, x2⟩, ⟨S256x256, x3⟩] : List ((s : Shape) × (s.Idx → α))).map (·.1)) S256x1024 1)
    (d h : Fin 256) (q : Fin 1024) (hq : q.val = h.val) :
    concatenate S256x1024 1 [⟨S256x256, x0⟩, ⟨S256x256, x1⟩, ⟨S256x256, x2⟩, ⟨S256x256, x3⟩] hc (ix2 d q) = x0 (ix2 d h) :=
  concatenate_apply_piece 1 _ hc _ 0 (Nat.lt_of_sub_eq_succ rfl) _ x0 rfl rfl 0 rfl (ix2 d h)
    (fun b hb => match b, hb with
      | ⟨0, _⟩, _ => rfl
      | ⟨1, _⟩, hb => absurd rfl hb) (by show 0 + h.val = q.val; omega)
theorem cat4_1 (x0 x1 x2 x3 : S256x256.Idx → α)
    (hc : Shape.Concatenates (([⟨S256x256, x0⟩, ⟨S256x256, x1⟩, ⟨S256x256, x2⟩, ⟨S256x256, x3⟩] : List ((s : Shape) × (s.Idx → α))).map (·.1)) S256x1024 1)
    (d h : Fin 256) (q : Fin 1024) (hq : q.val = 256 + h.val) :
    concatenate S256x1024 1 [⟨S256x256, x0⟩, ⟨S256x256, x1⟩, ⟨S256x256, x2⟩, ⟨S256x256, x3⟩] hc (ix2 d q) = x1 (ix2 d h) :=
  concatenate_apply_piece 1 _ hc _ 1 (Nat.lt_of_sub_eq_succ rfl) _ x1 rfl rfl 256 rfl (ix2 d h)
    (fun b hb => match b, hb with
      | ⟨0, _⟩, _ => rfl
      | ⟨1, _⟩, hb => absurd rfl hb) (by show 256 + h.val = q.val; omega)
theorem cat4_2 (x0 x1 x2 x3 : S256x256.Idx → α)
    (hc : Shape.Concatenates (([⟨S256x256, x0⟩, ⟨S256x256, x1⟩, ⟨S256x256, x2⟩, ⟨S256x256, x3⟩] : List ((s : Shape) × (s.Idx → α))).map (·.1)) S256x1024 1)
    (d h : Fin 256) (q : Fin 1024) (hq : q.val = 512 + h.val) :
    concatenate S256x1024 1 [⟨S256x256, x0⟩, ⟨S256x256, x1⟩, ⟨S256x256, x2⟩, ⟨S256x256, x3⟩] hc (ix2 d q) = x2 (ix2 d h) :=
  concatenate_apply_piece 1 _ hc _ 2 (Nat.lt_of_sub_eq_succ rfl) _ x2 rfl rfl 512 rfl (ix2 d h)
    (fun b hb => match b, hb with
      | ⟨0, _⟩, _ => rfl
      | ⟨1, _⟩, hb => absurd rfl hb) (by show 512 + h.val = q.val; omega)
theorem cat4_3 (x0 x1 x2 x3 : S256x256.Idx → α)
    (hc : Shape.Concatenates (([⟨S256x256, x0⟩, ⟨S256x256, x1⟩, ⟨S256x256, x2⟩, ⟨S256x256, x3⟩] : List ((s : Shape) × (s.Idx → α))).map (·.1)) S256x1024 1)
    (d h : Fin 256) (q : Fin 1024) (hq : q.val = 768 + h.val) :
    concatenate S256x1024 1 [⟨S256x256, x0⟩, ⟨S256x256, x1⟩, ⟨S256x256, x2⟩, ⟨S256x256, x3⟩] hc (ix2 d q) = x3 (ix2 d h) :=
  concatenate_apply_piece 1 _ hc _ 3 (Nat.lt_of_sub_eq_succ rfl) _ x3 rfl rfl 768 rfl (ix2 d h)
    (fun b hb => match b, hb with
      | ⟨0, _⟩, _ => rfl
      | ⟨1, _⟩, hb => absurd rfl hb) (by show 768 + h.val = q.val; omega)

theorem slab_apply (x : S6x256x256.Idx → α) (p : Fin 6) (hs : S6x256x256.Slices ![p.val, 0, 0] S1x256x256) (d h : Fin 256) :
    shapeCast S256x256 (extractStridedSlice S1x256x256 ![p.val, 0, 0] x hs) shapeCasts_S1x256x256_S256x256 (ix2 d h) = x (ix3 p d h) := by
  refine (shapeCast_apply _ _ (ix2 d h) (ix3 (0 : Fin 1) d h) (by
    rw [Shape.rowMajor_val_three, Shape.rowMajor_val_two]
    show (0 * 256 + d.val) * 256 + h.val = d.val * 256 + h.val
    omega)).trans ?_
  exact extractStridedSlice_apply _ _ hs (ix3 (0 : Fin 1) d h) (ix3 p d h) (fun k => match k with
    | ⟨0, _⟩ => by show p.val = p.val + 0; omega
    | ⟨1, _⟩ => by show d.val = 0 + d.val; omega
    | ⟨2, _⟩ => by show h.val = 0 + h.val; omega)

theorem half_apply (y : S6x512x256.Idx → α) (o : Nat) (hs : S6x512x256.Slices ![0, o, 0] S6x256x256) (p : Fin 6) (d h : Fin 256)
    (r : Fin 512) (hr : r.val = o + d.val) :
    extractStridedSlice S6x256x256 ![0, o, 0] y hs (ix3 p d h) = y (ix3 p r h) :=
  extractStridedSlice_apply _ _ hs (ix3 p d h) (ix3 p r h) (fun k => match k with
    | ⟨0, _⟩ => by show p.val = 0 + p.val; omega
    | ⟨1, _⟩ => by show r.val = o + d.val; omega
    | ⟨2, _⟩ => by show h.val = 0 + h.val; omega)

theorem rows_apply (y : S768x256.Idx → α) (o : Nat) (hs : S768x256.Slices ![o, 0] S256x256) (d e : Fin 256)
    (r : Fin 768) (hr : r.val = o + d.val) :
    extractStridedSlice S256x256 ![o, 0] y hs (ix2 d e) = y (ix2 r e) :=
  extractStridedSlice_apply _ _ hs (ix2 d e) (ix2 r e) (fun k => match k with
    | ⟨0, _⟩ => by show r.val = o + d.val; omega
    | ⟨1, _⟩ => by show e.val = 0 + e.val; omega)

end Layout

theorem V35_apply (k : Fin 128) (q : Fin 256) : (V m c main_v35 : Vec Ideal S128x256 .bf16) (ix2 k q) = (wts (kargs m c)).pW0 k q := by
  dsimp only [V, V0]
  simp only [hostOps0, List.flatten_cons, List.flatten_nil, List.append_nil, List.cons_append, List.nil_append]
  host_results
  rfl
theorem V36_apply (k q : Fin 256) : (V m c main_v36 : Vec Ideal S256x256 .bf16) (ix2 k q) = (wts (kargs m c)).pW1 k q := by
  dsimp only [V, V0]
  simp only [hostOps0, List.flatten_cons, List.flatten_nil, List.append_nil, List.cons_append, List.nil_append]
  host_results
  rfl
theorem V37_apply (k : Fin 512) (q : Fin 256) : (V m c main_v37 : Vec Ideal S512x256 .bf16) (ix2 k q) = (wts (kargs m c)).pW2 k q := by
  dsimp only [V, V0]
  simp only [hostOps0, List.flatten_cons, List.flatten_nil, List.append_nil, List.cons_append, List.nil_append]
  host_results
  rfl
theorem V38_apply (l : Fin 3) (d e : Fin 256) : (V m c main_v38 : Vec Ideal S3x256x256 .bf16) (ix3 l d e) = (wts (kargs m c)).lW1 l d e := by
  dsimp only [V, V0]
  simp only [hostOps0, List.flatten_cons, List.flatten_nil, List.append_nil, List.cons_append, List.nil_append]
  host_results
  rfl
theorem V39_apply (l : Fin 3) (d e : Fin 256) : (V m c main_v39 : Vec Ideal S3x256x256 .bf16) (ix3 l d e) = (wts (kargs m c)).lW2 l d e := by
  dsimp only [V, V0]
  simp only [hostOps0, List.flatten_cons, List.flatten_nil, List.append_nil, List.cons_append, List.nil_append]
  host_results
  rfl
theorem V40_apply (d e : Fin 256) : (V m c main_v40 : Vec Ideal S256x256 .bf16) (ix2 d e) = (wts (kargs m c)).fW2 d e := by
  dsimp only [V, V0]
  simp only [hostOps0, List.flatten_cons, List.flatten_nil, List.append_nil, List.cons_append, List.nil_append]
  host_results
  rfl

theorem V34_apply (i : Fin 6) (h : Fin 256) : (V m c main_v34 : Vec Ideal S6x256 .f32) (ix2 i h) = (wts (kargs m c)).rW2 i h := by
  dsimp only [V, V0]
  simp only [hostOps0, List.flatten_cons, List.flatten_nil, List.append_nil, List.cons_append, List.nil_append]
  host_results
  show shapeCast S6x256 (m ((c : Thread nD τ).loc main_arg11) : S6x256x1.Idx → Ideal .f32) shapeCasts_S6x256x1_S6x256 (ix2 i h) = _
  refine (shapeCast_apply _ _ (ix2 i h) (ix3 i h (0 : Fin 1)) (by
    rw [Shape.rowMajor_val_three, Shape.rowMajor_val_two]
    show ((i.val * 256 + h.val) * 1 + 0) = i.val * 256 + h.val
    omega)).trans ?_
  rfl

theorem V48_apply (l : Fin 3) (d e : Fin 256) : (V m c main_v48 : Vec Ideal S3x256x256 .bf16) (ix3 l d e) = (wts (kargs m c)).fW1 l d e := by
  dsimp only [V, V0]
  simp only [hostOps0, List.flatten_cons, List.flatten_nil, List.append_nil, List.cons_append, List.nil_append]
  host_results
  match l with
  | ⟨0, _⟩ =>
    refine (stack3_0 _ _ _ _ d e).trans ?_
    refine (lead_apply (by decide) (by decide) _ _ 0 d e).trans ?_
    refine (rows_apply _ 0 _ d e ⟨256 * 0 + d.val, by omega⟩ (by show 256 * 0 + d.val = 0 + d.val; omega)).trans ?_
    rfl
  | ⟨1, _⟩ =>
    refine (stack3_1 _ _ _ _ d e).trans ?_
    refine (lead_apply (by decide) (by decide) _ _ 0 d e).trans ?_
    refine (rows_apply _ 256 _ d e ⟨256 * 1 + d.val, by omega⟩ (by show 256 * 1 + d.val = 256 + d.val; omega)).trans ?_
    rfl
  | ⟨2, _⟩ =>
    refine (stack3_2 _ _ _ _ d e).trans ?_
    refine (lead_apply (by decide) (by decide) _ _ 0 d e).trans ?_
    refine (rows_apply _ 512 _ d e ⟨256 * 2 + d.val, by omega⟩ (by show 256 * 2 + d.val = 512 + d.val; omega)).trans ?_
    rfl

theorem V33a_apply (l : Fin 3) (d h : Fin 256) :
    (V m c main_v33 : Vec Ideal S3x256x1024 .bf16) (ix3 l d (⟨h.val, by omega⟩ : Fin 1024)) = (wts (kargs m c)).rWa (sa l) d h := by
  dsimp only [V, V0]
  simp only [hostOps0, List.flatten_cons, List.flatten_nil, List.append_nil, List.cons_append, List.nil_append]
  host_results
  match l with
  | ⟨0, _⟩ =>
    refine (stack3_0 _ _ _ _ d _).trans ?_
    refine (lead_apply (by decide) (by decide) _ _ 0 d _).trans ?_
    refine (cat4_0 _ _ _ _ _ d h _ rfl).trans ?_
    host_results
    refine (slab_apply _ (0 : Fin 6) _ d h).trans ?_
    refine (half_apply _ 0 _ (0 : Fin 6) d h ⟨d.val, by omega⟩ (by show d.val = 0 + d.val; omega)).trans ?_
    rfl
  | ⟨1, _⟩ =>
    refine (stack3_1 _ _ _ _ d _).trans ?_
    refine (lead_apply (by decide) (by decide) _ _ 0 d _).trans ?_
    refine (cat4_0 _ _ _ _ _ d h _ rfl).trans ?_
    host_results
    refine (slab_apply _ (2 : Fin 6) _ d h).trans ?_
    refine (half_apply _ 0 _ (2 : Fin 6) d h ⟨d.val, by omega⟩ (by show d.val = 0 + d.val; omega)).trans ?_
    rfl
  | ⟨2, _⟩ =>
    refine (stack3_2 _ _ _ _ d _).trans ?_
    refine (lead_apply (by decide) (by decide) _ _ 0 d _).trans ?_
    refine (cat4_0 _ _ _ _ _ d h _ rfl).trans ?_
    host_results
    refine (slab_apply _ (4 : Fin 6) _ d h).trans ?_
    refine (half_apply _ 0 _ (4 : Fin 6) d h ⟨d.val, by omega⟩ (by show d.val = 0 + d.val; omega)).trans ?_
    rfl
theorem V33b_apply (l : Fin 3) (d h : Fin 256) :
    (V m c main_v33 : Vec Ideal S3x256x1024 .bf16) (ix3 l d (⟨256 + h.val, by omega⟩ : Fin 1024)) = (wts (kargs m c)).rWa (sb l) d h := by
  dsimp only [V, V0]
  simp only [hostOps0, List.flatten_cons, List.flatten_nil, List.append_nil, List.cons_append, List.nil_append]
  host_results
  match l with
  | ⟨0, _⟩ =>
    refine (stack3_0 _ _ _ _ d _).trans ?_
    refine (lead_apply (by decide) (by decide) _ _ 0 d _).trans ?_
    refine (cat4_1 _ _ _ _ _ d h _ rfl).trans ?_
    host_results
    refine (slab_apply _ (1 : Fin 6) _ d h).trans ?_
    refine (half_apply _ 0 _ (1 : Fin 6) d h ⟨d.val, by omega⟩ (by show d.val = 0 + d.val; omega)).trans ?_
    rfl
  | ⟨1, _⟩ =>
    refine (stack3_1 _ _ _ _ d _).trans ?_
    refine (lead_apply (by decide) (by decide) _ _ 0 d _).trans ?_
    refine (cat4_1 _ _ _ _ _ d h _ rfl).trans ?_
    host_results
    refine (slab_apply _ (3 : Fin 6) _ d h).trans ?_
    refine (half_apply _ 0 _ (3 : Fin 6) d h ⟨d.val, by omega⟩ (by show d.val = 0 + d.val; omega)).trans ?_
    rfl
  | ⟨2, _⟩ =>
    refine (stack3_2 _ _ _ _ d _).trans ?_
    refine (lead_apply (by decide) (by decide) _ _ 0 d _).trans ?_
    refine (cat4_1 _ _ _ _ _ d h _ rfl).trans ?_
    host_results
    refine (slab_apply _ (5 : Fin 6) _ d h).trans ?_
    refine (half_apply _ 0 _ (5 : Fin 6) d h ⟨d.val, by omega⟩ (by show d.val = 0 + d.val; omega)).trans ?_
    rfl
theorem V33c_apply (l : Fin 3) (d h : Fin 256) :
    (V m c main_v33 : Vec Ideal S3x256x1024 .bf16) (ix3 l d (⟨512 + h.val, by omega⟩ : Fin 1024)) = (wts (kargs m c)).rWb (pa l) d h := by
  dsimp only [V, V0]
  simp only [hostOps0, List.flatten_cons, List.flatten_nil, List.append_nil, List.cons_append, List.nil_append]
  host_results
  match l with
  | ⟨0, _⟩ =>
    refine (stack3_0 _ _ _ _ d _).trans ?_
    refine (lead_apply (by decide) (by decide) _ _ 0 d _).trans ?_
    refine (cat4_2 _ _ _ _ _ d h _ rfl).trans ?_
    host_results
    refine (slab_apply _ (2 : Fin 6) _ d h).trans ?_
    refine (half_apply _ 256 _ (2 : Fin 6) d h ⟨256 + d.val, by omega⟩ (by show 256 + d.val = 256 + d.val; omega)).trans ?_
    rfl
  | ⟨1, _⟩ =>
    refine (stack3_1 _ _ _ _ d _).trans ?_
    refine (lead_apply (by decide) (by decide) _ _ 0 d _).trans ?_
    refine (cat4_2 _ _ _ _ _ d h _ rfl).trans ?_
    host_results
    refine (slab_apply _ (0 : Fin 6) _ d h).trans ?_
    refine (half_apply _ 256 _ (0 : Fin 6) d h ⟨256 + d.val, by omega⟩ (by show 256 + d.val = 256 + d.val; omega)).trans ?_
    rfl
  | ⟨2, _⟩ =>
    refine (stack3_2 _ _ _ _ d _).trans ?_
    refine (lead_apply (by decide) (by decide) _ _ 0 d _).trans ?_
    refine (cat4_2 _ _ _ _ _ d h _ rfl).trans ?_
    host_results
    refine (slab_apply _ (1 : Fin 6) _ d h).trans ?_
    refine (half_apply _ 256 _ (1 : Fin 6) d h ⟨256 + d.val, by omega⟩ (by show 256 + d.val = 256 + d.val; omega)).trans ?_
    rfl
theorem V33d_apply (l : Fin 3) (d h : Fin 256) :
    (V m c main_v33 : Vec Ideal S3x256x1024 .bf16) (ix3 l d (⟨768 + h.val, by omega⟩ : Fin 1024)) = (wts (kargs m c)).rWb (pb l) d h := by
  dsimp only [V, V0]
  simp only [hostOps0, List.flatten_cons, List.flatten_nil, List.append_nil, List.cons_append, List.nil_append]
  host_results
  match l with
  | ⟨0, _⟩ =>
    refine (stack3_0 _ _ _ _ d _).trans ?_
    refine (lead_apply (by decide) (by decide) _ _ 0 d _).trans ?_
    refine (cat4_3 _ _ _ _ _ d h _ rfl).trans ?_
    host_results
    refine (slab_apply _ (4 : Fin 6) _ d h).trans ?_
    refine (half_apply _ 256 _ (4 : Fin 6) d h ⟨256 + d.val, by omega⟩ (by show 256 + d.val = 256 + d.val; omega)).trans ?_
    rfl
  | ⟨1, _⟩ =>
    refine (stack3_1 _ _ _ _ d _).trans ?_
    refine (lead_apply (by decide) (by decide) _ _ 0 d _).trans ?_
    refine (cat4_3 _ _ _ _ _ d h _ rfl).trans ?_
    host_results
    refine (slab_apply _ (5 : Fin 6) _ d h).trans ?_
    refine (half_apply _ 256 _ (5 : Fin 6) d h ⟨256 + d.val, by omega⟩ (by show 256 + d.val = 256 + d.val; omega)).trans ?_
    rfl
  | ⟨2, _⟩ =>
    refine (stack3_2 _ _ _ _ d _).trans ?_
    refine (lead_apply (by decide) (by decide) _ _ 0 d _).trans ?_
    refine (cat4_3 _ _ _ _ _ d h _ rfl).trans ?_
    host_results
    refine (slab_apply _ (3 : Fin 6) _ d h).trans ?_
    refine (half_apply _ 256 _ (3 : Fin 6) d h ⟨256 + d.val, by omega⟩ (by show 256 + d.val = 256 + d.val; omega)).trans ?_
    rfl

end Cert.KernelIdeal.Body

end
-- ==== Proof.KBlk.lean ====
import proofs.«429394_j28956669510180_3_alg».proof.Proof.KHostA
import proofs.«429394_j28956669510180_3_alg».proof.Proof.KKept

noncomputable section

namespace Cert.KernelIdeal.Body

open Cert.KernelIdeal Cert.KernelIdeal.Gen Idealize.ShloMosaic Idealize.ShloMosaic.TcCoe Idealize.SL.Sem
open Idealize.ShloMosaic.ValueIdx RouteSpec
open Cert.ReferenceIdeal.Stages (RArgs wts)

variable (m : (ℓ : Loc nD τ sig) → Buf (Elt Ideal) ℓ) (c : Dev nD)

def brow (t : Fin cfg0.N) (p : Fin 512) : Fin 32768 :=
  ⟨512 * t.val + p.val, by have h1 := t.isLt; have h2 : cfg0.N = 64 := N_0; have h3 := p.isLt; omega⟩

theorem read3 (A : Buf (Elt Ideal) ((c : Thread nD τ).loc main_v35)) (t : Fin cfg0.N) (a0 : Fin 128) (a1 : Fin 256) :
    (win0_3.blk t).view.read (Elt Ideal) A (ix2 a0 a1) = A (ix2 a0 a1) := by
  refine congrArg A ?_
  funext a; apply Fin.ext
  match a with
  | ⟨0, _⟩ => exact win0_3.rect_emb_val_of_index_zero t (0 : Fin 2) rfl _
  | ⟨1, _⟩ => exact win0_3.rect_emb_val_of_index_zero t (1 : Fin 2) rfl _
theorem iblk3 (t : Fin cfg0.N) (a0 : Fin 128) (a1 : Fin 256) : iblk m c 3 t (ix2 a0 a1) = V m c main_v35 (ix2 a0 a1) :=
  read3 c (V m c main_v35) t a0 a1
theorem read4 (A : Buf (Elt Ideal) ((c : Thread nD τ).loc main_arg4)) (t : Fin cfg0.N) (a0 : Fin 256) :
    (win0_4.blk t).view.read (Elt Ideal) A (ix1 a0) = A (ix1 a0) := by
  refine congrArg A ?_
  funext a; apply Fin.ext
  match a with
  | ⟨0, _⟩ => exact win0_4.rect_emb_val_of_index_zero t (0 : Fin 1) rfl _
theorem iblk4 (t : Fin cfg0.N) (a0 : Fin 256) : iblk m c 4 t (ix1 a0) = V m c main_arg4 (ix1 a0) :=
  read4 c (V m c main_arg4) t a0
theorem read5 (A : Buf (Elt Ideal) ((c : Thread nD τ).loc main_v36)) (t : Fin cfg0.N) (a0 : Fin 256) (a1 : Fin 256) :
    (win0_5.blk t).view.read (Elt Ideal) A (ix2 a0 a1) = A (ix2 a0 a1) := by
  refine congrArg A ?_
  funext a; apply Fin.ext
  match a with
  | ⟨0, _⟩ => exact win0_5.rect_emb_val_of_index_zero t (0 : Fin 2) rfl _
  | ⟨1, _⟩ => exact win0_5.rect_emb_val_of_index_zero t (1 : Fin 2) rfl _
theorem iblk5 (t : Fin cfg0.N) (a0 : Fin 256) (a1 : Fin 256) : iblk m c 5 t (ix2 a0 a1) = V m c main_v36 (ix2 a0 a1) :=
  read5 c (V m c main_v36) t a0 a1
theorem read6 (A : Buf (Elt Ideal) ((c : Thread nD τ).loc main_arg6)) (t : Fin cfg0.N) (a0 : Fin 256) :
    (win0_6.blk t).view.read (Elt Ideal) A (ix1 a0) = A (ix1 a0) := by
  refine congrArg A ?_
  funext a; apply Fin.ext
  match a with
  | ⟨0, _⟩ => exact win0_6.rect_emb_val_of_index_zero t (0 : Fin 1) rfl _
theorem iblk6 (t : Fin cfg0.N) (a0 : Fin 256) : iblk m c 6 t (ix1 a0) = V m c main_arg6 (ix1 a0) :=
  read6 c (V m c main_arg6) t a0
theorem read7 (A : Buf (Elt Ideal) ((c : Thread nD τ).loc main_v37)) (t : Fin cfg0.N) (a0 : Fin 512) (a1 : Fin 256) :
    (win0_7.blk t).view.read (Elt Ideal) A (ix2 a0 a1) = A (ix2 a0 a1) := by
  refine congrArg A ?_
  funext a; apply Fin.ext
  match a with
  | ⟨0, _⟩ => exact win0_7.rect_emb_val_of_index_zero t (0 : Fin 2) rfl _
  | ⟨1, _⟩ => exact win0_7.rect_emb_val_of_index_zero t (1 : Fin 2) rfl _
theorem iblk7 (t : Fin cfg0.N) (a0 : Fin 512) (a1 : Fin 256) : iblk m c 7 t (ix2 a0 a1) = V m c main_v37 (ix2 a0 a1) :=
  read7 c (V m c main_v37) t a0 a1
theorem read8 (A : Buf (Elt Ideal) ((c : Thread nD τ).loc main_arg8)) (t : Fin cfg0.N) (a0 : Fin 256) :
    (win0_8.blk t).view.read (Elt Ideal) A (ix1 a0) = A (ix1 a0) := by
  refine congrArg A ?_
  funext a; apply Fin.ext
  match a with
  | ⟨0, _⟩ => exact win0_8.rect_emb_val_of_index_zero t (0 : Fin 1) rfl _
theorem iblk8 (t : Fin cfg0.N) (a0 : Fin 256) : iblk m c 8 t (ix1 a0) = V m c main_arg8 (ix1 a0) :=
  read8 c (V m c main_arg8) t a0
theorem read9 (A : Buf (Elt Ideal) ((c : Thread nD τ).loc main_v33)) (t : Fin cfg0.N) (a0 : Fin 3) (a1 : Fin 256) (a2 : Fin 1024) :
    (win0_9.blk t).view.read (Elt Ideal) A (ix3 a0 a1 a2) = A (ix3 a0 a1 a2) := by
  refine congrArg A ?_
  funext a; apply Fin.ext
  match a with
  | ⟨0, _⟩ => exact win0_9.rect_emb_val_of_index_zero t (0 : Fin 3) rfl _
  | ⟨1, _⟩ => exact win0_9.rect_emb_val_of_index_zero t (1 : Fin 3) rfl _
  | ⟨2, _⟩ => exact win0_9.rect_emb_val_of_index_zero t (2 : Fin 3) rfl _
theorem iblk9 (t : Fin cfg0.N) (a0 : Fin 3) (a1 : Fin 256) (a2 : Fin 1024) : iblk m c 9 t (ix3 a0 a1 a2) = V m c main_v33 (ix3 a0 a1 a2) :=
  read9 c (V m c main_v33) t a0 a1 a2
theorem read10 (A : Buf (Elt Ideal) ((c : Thread nD τ).loc main_arg10)) (t : Fin cfg0.N) (a0 : Fin 6) (a1 : Fin 256) :
    (win0_10.blk t).view.read (Elt Ideal) A (ix2 a0 a1) = A (ix2 a0 a1) := by
  refine congrArg A ?_
  funext a; apply Fin.ext
  match a with
  | ⟨0, _⟩ => exact win0_10.rect_emb_val_of_index_zero t (0 : Fin 2) rfl _
  | ⟨1, _⟩ => exact win0_10.rect_emb_val_of_index_zero t (1 : Fin 2) rfl _
theorem iblk10 (t : Fin cfg0.N) (a0 : Fin 6) (a1 : Fin 256) : iblk m c 10 t (ix2 a0 a1) = V m c main_arg10 (ix2 a0 a1) :=
  read10 c (V m c main_arg10) t a0 a1
theorem read11 (A : Buf (Elt Ideal) ((c : Thread nD τ).loc main_v34)) (t : Fin cfg0.N) (a0 : Fin 6) (a1 : Fin 256) :
    (win0_11.blk t).view.read (Elt Ideal) A (ix2 a0 a1) = A (ix2 a0 a1) := by
  refine congrArg A ?_
  funext a; apply Fin.ext
  match a with
  | ⟨0, _⟩ => exact win0_11.rect_emb_val_of_index_zero t (0 : Fin 2) rfl _
  | ⟨1, _⟩ => exact win0_11.rect_emb_val_of_index_zero t (1 : Fin 2) rfl _
theorem iblk11 (t : Fin cfg0.N) (a0 : Fin 6) (a1 : Fin 256) : iblk m c 11 t (ix2 a0 a1) = V m c main_v34 (ix2 a0 a1) :=
  read11 c (V m c main_v34) t a0 a1
theorem read12 (A : Buf (Elt Ideal) ((c : Thread nD τ).loc main_arg12)) (t : Fin cfg0.N) (a0 : Fin 6) (a1 : Fin 1) :
    (win0_12.blk t).view.read (Elt Ideal) A (ix2 a0 a1) = A (ix2 a0 a1) := by
  refine congrArg A ?_
  funext a; apply Fin.ext
  match a with
  | ⟨0, _⟩ => exact win0_12.rect_emb_val_of_index_zero t (0 : Fin 2) rfl _
  | ⟨1, _⟩ => exact win0_12.rect_emb_val_of_index_zero t (1 : Fin 2) rfl _
theorem iblk12 (t : Fin cfg0.N) (a0 : Fin 6) (a1 : Fin 1) : iblk m c 12 t (ix2 a0 a1) = V m c main_arg12 (ix2 a0 a1) :=
  read12 c (V m c main_arg12) t a0 a1
theorem read13 (A : Buf (Elt Ideal) ((c : Thread nD τ).loc main_v38)) (t : Fin cfg0.N) (a0 : Fin 3) (a1 : Fin 256) (a2 : Fin 256) :
    (win0_13.blk t).view.read (Elt Ideal) A (ix3 a0 a1 a2) = A (ix3 a0 a1 a2) := by
  refine congrArg A ?_
  funext a; apply Fin.ext
  match a with
  | ⟨0, _⟩ => exact win0_13.rect_emb_val_of_index_zero t (0 : Fin 3) rfl _
  | ⟨1, _⟩ => exact win0_13.rect_emb_val_of_index_zero t (1 : Fin 3) rfl _
  | ⟨2, _⟩ => exact win0_13.rect_emb_val_of_index_zero t (2 : Fin 3) rfl _
theorem iblk13 (t : Fin cfg0.N) (a0 : Fin 3) (a1 : Fin 256) (a2 : Fin 256) : iblk m c 13 t (ix3 a0 a1 a2) = V m c main_v38 (ix3 a0 a1 a2) :=
  read13 c (V m c main_v38) t a0 a1 a2
theorem read14 (A : Buf (Elt Ideal) ((c : Thread nD τ).loc main_arg14)) (t : Fin cfg0.N) (a0 : Fin 3) (a1 : Fin 256) :
    (win0_14.blk t).view.read (Elt Ideal) A (ix2 a0 a1) = A (ix2 a0 a1) := by
  refine congrArg A ?_
  funext a; apply Fin.ext
  match a with
  | ⟨0, _⟩ => exact win0_14.rect_emb_val_of_index_zero t (0 : Fin 2) rfl _
  | ⟨1, _⟩ => exact win0_14.rect_emb_val_of_index_zero t (1 : Fin 2) rfl _
theorem iblk14 (t : Fin cfg0.N) (a0 : Fin 3) (a1 : Fin 256) : iblk m c 14 t (ix2 a0 a1) = V m c main_arg14 (ix2 a0 a1) :=
  read14 c (V m c main_arg14) t a0 a1
theorem read15 (A : Buf (Elt Ideal) ((c : Thread nD τ).loc main_v39)) (t : Fin cfg0.N) (a0 : Fin 3) (a1 : Fin 256) (a2 : Fin 256) :
    (win0_15.blk t).view.read (Elt Ideal) A (ix3 a0 a1 a2) = A (ix3 a0 a1 a2) := by
  refine congrArg A ?_
  funext a; apply Fin.ext
  match a with
  | ⟨0, _⟩ => exact win0_15.rect_emb_val_of_index_zero t (0 : Fin 3) rfl _
  | ⟨1, _⟩ => exact win0_15.rect_emb_val_of_index_zero t (1 : Fin 3) rfl _
  | ⟨2, _⟩ => exact win0_15.rect_emb_val_of_index_zero t (2 : Fin 3) rfl _
theorem iblk15 (t : Fin cfg0.N) (a0 : Fin 3) (a1 : Fin 256) (a2 : Fin 256) : iblk m c 15 t (ix3 a0 a1 a2) = V m c main_v39 (ix3 a0 a1 a2) :=
  read15 c (V m c main_v39) t a0 a1 a2
theorem read16 (A : Buf (Elt Ideal) ((c : Thread nD τ).loc main_arg16)) (t : Fin cfg0.N) (a0 : Fin 3) (a1 : Fin 256) :
    (win0_16.blk t).view.read (Elt Ideal) A (ix2 a0 a1) = A (ix2 a0 a1) := by
  refine congrArg A ?_
  funext a; apply Fin.ext
  match a with
  | ⟨0, _⟩ => exact win0_16.rect_emb_val_of_index_zero t (0 : Fin 2) rfl _
  | ⟨1, _⟩ => exact win0_16.rect_emb_val_of_index_zero t (1 : Fin 2) rfl _
theorem iblk16 (t : Fin cfg0.N) (a0 : Fin 3) (a1 : Fin 256) : iblk m c 16 t (ix2 a0 a1) = V m c main_arg16 (ix2 a0 a1) :=
  read16 c (V m c main_arg16) t a0 a1
theorem read17 (A : Buf (Elt Ideal) ((c : Thread nD τ).loc main_arg17)) (t : Fin cfg0.N) (a0 : Fin 3) (a1 : Fin 256) :
    (win0_17.blk t).view.read (Elt Ideal) A (ix2 a0 a1) = A (ix2 a0 a1) := by
  refine congrArg A ?_
  funext a; apply Fin.ext
  match a with
  | ⟨0, _⟩ => exact win0_17.rect_emb_val_of_index_zero t (0 : Fin 2) rfl _
  | ⟨1, _⟩ => exact win0_17.rect_emb_val_of_index_zero t (1 : Fin 2) rfl _
theorem iblk17 (t : Fin cfg0.N) (a0 : Fin 3) (a1 : Fin 256) : iblk m c 17 t (ix2 a0 a1) = V m c main_arg17 (ix2 a0 a1) :=
  read17 c (V m c main_arg17) t a0 a1
theorem read18 (A : Buf (Elt Ideal) ((c : Thread nD τ).loc main_arg18)) (t : Fin cfg0.N) (a0 : Fin 3) (a1 : Fin 256) :
    (win0_18.blk t).view.read (Elt Ideal) A (ix2 a0 a1) = A (ix2 a0 a1) := by
  refine congrArg A ?_
  funext a; apply Fin.ext
  match a with
  | ⟨0, _⟩ => exact win0_18.rect_emb_val_of_index_zero t (0 : Fin 2) rfl _
  | ⟨1, _⟩ => exact win0_18.rect_emb_val_of_index_zero t (1 : Fin 2) rfl _
theorem iblk18 (t : Fin cfg0.N) (a0 : Fin 3) (a1 : Fin 256) : iblk m c 18 t (ix2 a0 a1) = V m c main_arg18 (ix2 a0 a1) :=
  read18 c (V m c main_arg18) t a0 a1
theorem read19 (A : Buf (Elt Ideal) ((c : Thread nD τ).loc main_v48)) (t : Fin cfg0.N) (a0 : Fin 3) (a1 : Fin 256) (a2 : Fin 256) :
    (win0_19.blk t).view.read (Elt Ideal) A (ix3 a0 a1 a2) = A (ix3 a0 a1 a2) := by
  refine congrArg A ?_
  funext a; apply Fin.ext
  match a with
  | ⟨0, _⟩ => exact win0_19.rect_emb_val_of_index_zero t (0 : Fin 3) rfl _
  | ⟨1, _⟩ => exact win0_19.rect_emb_val_of_index_zero t (1 : Fin 3) rfl _
  | ⟨2, _⟩ => exact win0_19.rect_emb_val_of_index_zero t (2 : Fin 3) rfl _
theorem iblk19 (t : Fin cfg0.N) (a0 : Fin 3) (a1 : Fin 256) (a2 : Fin 256) : iblk m c 19 t (ix3 a0 a1 a2) = V m c main_v48 (ix3 a0 a1 a2) :=
  read19 c (V m c main_v48) t a0 a1 a2
theorem read20 (A : Buf (Elt Ideal) ((c : Thread nD τ).loc main_arg20)) (t : Fin cfg0.N) (a0 : Fin 256) :
    (win0_20.blk t).view.read (Elt Ideal) A (ix1 a0) = A (ix1 a0) := by
  refine congrArg A ?_
  funext a; apply Fin.ext
  match a with
  | ⟨0, _⟩ => exact win0_20.rect_emb_val_of_index_zero t (0 : Fin 1) rfl _
theorem iblk20 (t : Fin cfg0.N) (a0 : Fin 256) : iblk m c 20 t (ix1 a0) = V m c main_arg20 (ix1 a0) :=
  read20 c (V m c main_arg20) t a0
theorem read21 (A : Buf (Elt Ideal) ((c : Thread nD τ).loc main_v40)) (t : Fin cfg0.N) (a0 : Fin 256) (a1 : Fin 256) :
    (win0_21.blk t).view.read (Elt Ideal) A (ix2 a0 a1) = A (ix2 a0 a1) := by
  refine congrArg A ?_
  funext a; apply Fin.ext
  match a with
  | ⟨0, _⟩ => exact win0_21.rect_emb_val_of_index_zero t (0 : Fin 2) rfl _
  | ⟨1, _⟩ => exact win0_21.rect_emb_val_of_index_zero t (1 : Fin 2) rfl _
theorem iblk21 (t : Fin cfg0.N) (a0 : Fin 256) (a1 : Fin 256) : iblk m c 21 t (ix2 a0 a1) = V m c main_v40 (ix2 a0 a1) :=
  read21 c (V m c main_v40) t a0 a1
theorem read22 (A : Buf (Elt Ideal) ((c : Thread nD τ).loc main_arg22)) (t : Fin cfg0.N) (a0 : Fin 256) :
    (win0_22.blk t).view.read (Elt Ideal) A (ix1 a0) = A (ix1 a0) := by
  refine congrArg A ?_
  funext a; apply Fin.ext
  match a with
  | ⟨0, _⟩ => exact win0_22.rect_emb_val_of_index_zero t (0 : Fin 1) rfl _
theorem iblk22 (t : Fin cfg0.N) (a0 : Fin 256) : iblk m c 22 t (ix1 a0) = V m c main_arg22 (ix1 a0) :=
  read22 c (V m c main_arg22) t a0
theorem read23 (A : Buf (Elt Ideal) ((c : Thread nD τ).loc main_arg23)) (t : Fin cfg0.N) (a0 : Fin 256) :
    (win0_23.blk t).view.read (Elt Ideal) A (ix1 a0) = A (ix1 a0) := by
  refine congrArg A ?_
  funext a; apply Fin.ext
  match a with
  | ⟨0, _⟩ => exact win0_23.rect_emb_val_of_index_zero t (0 : Fin 1) rfl _
theorem iblk23 (t : Fin cfg0.N) (a0 : Fin 256) : iblk m c 23 t (ix1 a0) = V m c main_arg23 (ix1 a0) :=
  read23 c (V m c main_arg23) t a0
theorem read24 (A : Buf (Elt Ideal) ((c : Thread nD τ).loc main_arg24)) (t : Fin cfg0.N) (a0 : Fin 256) :
    (win0_24.blk t).view.read (Elt Ideal) A (ix1 a0) = A (ix1 a0) := by
  refine congrArg A ?_
  funext a; apply Fin.ext
  match a with
  | ⟨0, _⟩ => exact win0_24.rect_emb_val_of_index_zero t (0 : Fin 1) rfl _
theorem iblk24 (t : Fin cfg0.N) (a0 : Fin 256) : iblk m c 24 t (ix1 a0) = V m c main_arg24 (ix1 a0) :=
  read24 c (V m c main_arg24) t a0

theorem ok3 (t : Fin cfg0.N) (k : Fin 128) (q : Fin 256) : (blocks m c t).x3 (ix2 k q) = (wts (kargs m c)).pW0 k q := by
  simp only [blocks]; exact (iblk3 m c t k q).trans (V35_apply m c k q)
theorem ok4 (t : Fin cfg0.N) (q : Fin 256) : (blocks m c t).x4 (ix1 q) = (wts (kargs m c)).pb0 q := by
  simp only [blocks]; exact (iblk4 m c t q).trans (congrFun (V_keep m c (by decide)) _)
theorem ok5 (t : Fin cfg0.N) (k q : Fin 256) : (blocks m c t).x5 (ix2 k q) = (wts (kargs m c)).pW1 k q := by
  simp only [blocks]; exact (iblk5 m c t k q).trans (V36_apply m c k q)
theorem ok6 (t : Fin cfg0.N) (q : Fin 256) : (blocks m c t).x6 (ix1 q) = (wts (kargs m c)).pb1 q := by
  simp only [blocks]; exact (iblk6 m c t q).trans (congrFun (V_keep m c (by decide)) _)
theorem ok7 (t : Fin cfg0.N) (k : Fin 512) (q : Fin 256) : (blocks m c t).x7 (ix2 k q) = (wts (kargs m c)).pW2 k q := by
  simp only [blocks]; exact (iblk7 m c t k q).trans (V37_apply m c k q)
theorem ok8 (t : Fin cfg0.N) (q : Fin 256) : (blocks m c t).x8 (ix1 q) = (wts (kargs m c)).pb2 q := by
  simp only [blocks]; exact (iblk8 m c t q).trans (congrFun (V_keep m c (by decide)) _)
theorem ok9a (t : Fin cfg0.N) (l : Fin 3) (d h : Fin 256) : (blocks m c t).x9 (ix3 l d (⟨h.val, by omega⟩ : Fin 1024)) = (wts (kargs m c)).rWa (sa l) d h := by
  simp only [blocks]; exact (iblk9 m c t l d _).trans (V33a_apply m c l d h)
theorem ok9b (t : Fin cfg0.N) (l : Fin 3) (d h : Fin 256) : (blocks m c t).x9 (ix3 l d (⟨256 + h.val, by omega⟩ : Fin 1024)) = (wts (kargs m c)).rWa (sb l) d h := by
  simp only [blocks]; exact (iblk9 m c t l d _).trans (V33b_apply m c l d h)
theorem ok9c (t : Fin cfg0.N) (l : Fin 3) (d h : Fin 256) : (blocks m c t).x9 (ix3 l d (⟨512 + h.val, by omega⟩ : Fin 1024)) = (wts (kargs m c)).rWb (pa l) d h := by
  simp only [blocks]; exact (iblk9 m c t l d _).trans (V33c_apply m c l d h)
theorem ok9d (t : Fin cfg0.N) (l : Fin 3) (d h : Fin 256) : (blocks m c t).x9 (ix3 l d (⟨768 + h.val, by omega⟩ : Fin 1024)) = (wts (kargs m c)).rWb (pb l) d h := by
  simp only [blocks]; exact (iblk9 m c t l d _).trans (V33d_apply m c l d h)
theorem ok10 (t : Fin cfg0.N) (i : Fin 6) (h : Fin 256) : (blocks m c t).x10 (ix2 i h) = (wts (kargs m c)).rb1 i h := by
  simp only [blocks]; exact (iblk10 m c t i h).trans (congrFun (V_keep m c (by decide)) _)
theorem ok11 (t : Fin cfg0.N) (i : Fin 6) (h : Fin 256) : (blocks m c t).x11 (ix2 i h) = (wts (kargs m c)).rW2 i h := by
  simp only [blocks]; exact (iblk11 m c t i h).trans (V34_apply m c i h)
theorem ok12 (t : Fin cfg0.N) (i : Fin 6) : (blocks m c t).x12 (ix2 i (0 : Fin 1)) = (wts (kargs m c)).rb2 i := by
  simp only [blocks]; exact (iblk12 m c t i 0).trans (congrFun (V_keep m c (by decide)) _)
theorem ok13 (t : Fin cfg0.N) (l : Fin 3) (d e : Fin 256) : (blocks m c t).x13 (ix3 l d e) = (wts (kargs m c)).lW1 l d e := by
  simp only [blocks]; exact (iblk13 m c t l d e).trans (V38_apply m c l d e)
theorem ok14 (t : Fin cfg0.N) (l : Fin 3) (e : Fin 256) : (blocks m c t).x14 (ix2 l e) = (wts (kargs m c)).lb1 l e := by
  simp only [blocks]; exact (iblk14 m c t l e).trans (congrFun (V_keep m c (by decide)) _)
theorem ok15 (t : Fin cfg0.N) (l : Fin 3) (d e : Fin 256) : (blocks m c t).x15 (ix3 l d e) = (wts (kargs m c)).lW2 l d e := by
  simp only [blocks]; exact (iblk15 m c t l d e).trans (V39_apply m c l d e)
theorem ok16 (t : Fin cfg0.N) (l : Fin 3) (e : Fin 256) : (blocks m c t).x16 (ix2 l e) = (wts (kargs m c)).lb2 l e := by
  simp only [blocks]; exact (iblk16 m c t l e).trans (congrFun (V_keep m c (by decide)) _)
theorem ok17 (t : Fin cfg0.N) (l : Fin 3) (e : Fin 256) : (blocks m c t).x17 (ix2 l e) = (wts (kargs m c)).lng l e := by
  simp only [blocks]; exact (iblk17 m c t l e).trans (congrFun (V_keep m c (by decide)) _)
theorem ok18 (t : Fin cfg0.N) (l : Fin 3) (e : Fin 256) : (blocks m c t).x18 (ix2 l e) = (wts (kargs m c)).lnb l e := by
  simp only [blocks]; exact (iblk18 m c t l e).trans (congrFun (V_keep m c (by decide)) _)
theorem ok19 (t : Fin cfg0.N) (l : Fin 3) (d e : Fin 256) : (blocks m c t).x19 (ix3 l d e) = (wts (kargs m c)).fW1 l d e := by
  simp only [blocks]; exact (iblk19 m c t l d e).trans (V48_apply m c l d e)
theorem ok20 (t : Fin cfg0.N) (e : Fin 256) : (blocks m c t).x20 (ix1 e) = (wts (kargs m c)).fb1 e := by
  simp only [blocks]; exact (iblk20 m c t e).trans (congrFun (V_keep m c (by decide)) _)
theorem ok21 (t : Fin cfg0.N) (d e : Fin 256) : (blocks m c t).x21 (ix2 d e) = (wts (kargs m c)).fW2 d e := by
  simp only [blocks]; exact (iblk21 m c t d e).trans (V40_apply m c d e)
theorem ok22 (t : Fin cfg0.N) (e : Fin 256) : (blocks m c t).x22 (ix1 e) = (wts (kargs m c)).fb2 e := by
  simp only [blocks]; exact (iblk22 m c t e).trans (congrFun (V_keep m c (by decide)) _)
theorem ok23 (t : Fin cfg0.N) (e : Fin 256) : (blocks m c t).x23 (ix1 e) = (wts (kargs m c)).fng e := by
  simp only [blocks]; exact (iblk23 m c t e).trans (congrFun (V_keep m c (by decide)) _)
theorem ok24 (t : Fin cfg0.N) (e : Fin 256) : (blocks m c t).x24 (ix1 e) = (wts (kargs m c)).fnb e := by
  simp only [blocks]; exact (iblk24 m c t e).trans (congrFun (V_keep m c (by decide)) _)

theorem blocksOK (t : Fin cfg0.N) : BlocksOK (blocks m c t) (wts (kargs m c)) :=
  ⟨ok3 m c t, ok4 m c t, ok5 m c t, ok6 m c t, ok7 m c t, ok8 m c t, ok9a m c t, ok9b m c t, ok9c m c t, ok9d m c t, ok10 m c t, ok11 m c t, ok12 m c t, ok13 m c t, ok14 m c t, ok15 m c t, ok16 m c t, ok17 m c t, ok18 m c t, ok19 m c t, ok20 m c t, ok21 m c t, ok22 m c t, ok23 m c t, ok24 m c t⟩

theorem readrow0 (A : Buf (Elt Ideal) ((c : Thread nD τ).loc main_arg0)) (t : Fin cfg0.N) (p : Fin 512) (k : Fin 128) :
    (win0_0.blk t).view.read (Elt Ideal) A (ix2 p k) = A (ix2 (brow t p) k) := by
  refine congrArg A ?_
  funext a; apply Fin.ext
  obtain ⟨e0, e1⟩ := (by decide +kernel : ∀ t : Fin grid0.N, win0_0.index t (0 : Fin 2) = t.val ∧ win0_0.index t (1 : Fin 2) = 0) t
  match a with
  | ⟨0, _⟩ => show win0_0.index t (0 : Fin 2) * 512 + 1 * p.val = 512 * t.val + p.val; omega
  | ⟨1, _⟩ => show win0_0.index t (1 : Fin 2) * 128 + 1 * k.val = k.val; omega
theorem iblkrow0 (t : Fin cfg0.N) (p : Fin 512) (k : Fin 128) : iblk m c 0 t (ix2 p k) = V m c main_arg0 (ix2 (brow t p) k) :=
  readrow0 c (V m c main_arg0) t p k
theorem readrow1 (A : Buf (Elt Ideal) ((c : Thread nD τ).loc main_arg1)) (t : Fin cfg0.N) (p : Fin 512) (k : Fin 256) :
    (win0_1.blk t).view.read (Elt Ideal) A (ix2 p k) = A (ix2 (brow t p) k) := by
  refine congrArg A ?_
  funext a; apply Fin.ext
  obtain ⟨e0, e1⟩ := (by decide +kernel : ∀ t : Fin grid0.N, win0_1.index t (0 : Fin 2) = t.val ∧ win0_1.index t (1 : Fin 2) = 0) t
  match a with
  | ⟨0, _⟩ => show win0_1.index t (0 : Fin 2) * 512 + 1 * p.val = 512 * t.val + p.val; omega
  | ⟨1, _⟩ => show win0_1.index t (1 : Fin 2) * 256 + 1 * k.val = k.val; omega
theorem iblkrow1 (t : Fin cfg0.N) (p : Fin 512) (k : Fin 256) : iblk m c 1 t (ix2 p k) = V m c main_arg1 (ix2 (brow t p) k) :=
  readrow1 c (V m c main_arg1) t p k
theorem readrow2 (A : Buf (Elt Ideal) ((c : Thread nD τ).loc main_arg2)) (t : Fin cfg0.N) (p : Fin 512) (k : Fin 512) :
    (win0_2.blk t).view.read (Elt Ideal) A (ix2 p k) = A (ix2 (brow t p) k) := by
  refine congrArg A ?_
  funext a; apply Fin.ext
  obtain ⟨e0, e1⟩ := (by decide +kernel : ∀ t : Fin grid0.N, win0_2.index t (0 : Fin 2) = t.val ∧ win0_2.index t (1 : Fin 2) = 0) t
  match a with
  | ⟨0, _⟩ => show win0_2.index t (0 : Fin 2) * 512 + 1 * p.val = 512 * t.val + p.val; omega
  | ⟨1, _⟩ => show win0_2.index t (1 : Fin 2) * 512 + 1 * k.val = k.val; omega
theorem iblkrow2 (t : Fin cfg0.N) (p : Fin 512) (k : Fin 512) : iblk m c 2 t (ix2 p k) = V m c main_arg2 (ix2 (brow t p) k) :=
  readrow2 c (V m c main_arg2) t p k

theorem rowF_blocks (t : Fin cfg0.N) (p : Fin 512) :
    rowF (blocks m c t) p = Cert.ReferenceIdeal.Stages.rowF (kargs m c) (brow t p) := by
  funext k
  show (blocks m c t).x0 (ix2 p k) = m ((c : Thread nD τ).loc main_arg0) (ix2 (brow t p) k)
  simp only [blocks]
  exact (iblkrow0 m c t p k).trans (congrFun (V_keep m c (by decide)) _)
theorem rowM_blocks (t : Fin cfg0.N) (p : Fin 512) :
    rowM (blocks m c t) p = Cert.ReferenceIdeal.Stages.rowM (kargs m c) (brow t p) := by
  funext k
  show (blocks m c t).x1 (ix2 p k) = m ((c : Thread nD τ).loc main_arg1) (ix2 (brow t p) k)
  simp only [blocks]
  exact (iblkrow1 m c t p k).trans (congrFun (V_keep m c (by decide)) _)
theorem rowC_blocks (t : Fin cfg0.N) (p : Fin 512) :
    rowC (blocks m c t) p = Cert.ReferenceIdeal.Stages.rowC (kargs m c) (brow t p) := by
  funext k
  show (blocks m c t).x2 (ix2 p k) = m ((c : Thread nD τ).loc main_arg2) (ix2 (brow t p) k)
  simp only [blocks]
  exact (iblkrow2 m c t p k).trans (congrFun (V_keep m c (by decide)) _)

end Cert.KernelIdeal.Body

end
-- ==== Proof.KOps.lean ====
import proofs.«429394_j28956669510180_3_alg».proof.Proof.KBody
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

section Elementwise
variable {s : Shape} {φ : FTy}

theorem logistic_apply (a : FVec Ideal s φ) (i : s.Idx) : logistic a i = Ideal.logistic (a i) := rfl

theorem rsqrt_apply (a : FVec Ideal s φ) (i : s.Idx) : rsqrt a i = Ideal.rsqrt (a i) := rfl

end Elementwise

section Layout
variable {α : Type}

theorem castRow_apply (v : S256.Idx → α) (u : Fin 1) (q : Fin 256) :
    shapeCast S1x256 v shapeCasts_S256_S1x256 (ix2 u q) = v (ix1 q) := shapeCast_a_1a_apply v _ u q

theorem uncastRow_apply (v : S1x256.Idx → α) (q : Fin 256) :
    shapeCast S256 v shapeCasts_S1x256_S256 (ix1 q) = v (ix2 (0 : Fin 1) q) := shapeCast_1a_a_apply v _ q

theorem castCol_apply (v : S512.Idx → α) (p : Fin 512) (u : Fin 1) :
    shapeCast S512x1 v shapeCasts_S512_S512x1 (ix2 p u) = v (ix1 p) := shapeCast_apply v _ _ _ (by
    have hu : u.val = 0 := by omega
    rw [Shape.rowMajor_val_two, Shape.rowMajor_val_one]
    show p.val = p.val * 1 + u.val
    omega)

theorem cast11_1_apply (v : S1x1.Idx → α) (u : Fin 1) :
    shapeCast S1 v shapeCasts_S1x1_S1 (ix1 u) = v (ix2 (0 : Fin 1) (0 : Fin 1)) := shapeCast_apply v _ _ _ (by
    have hu : u.val = 0 := by omega
    rw [Shape.rowMajor_val_two, Shape.rowMajor_val_one]
    show 0 * 1 + 0 = u.val
    omega)

theorem cast1_11_apply (v : S1.Idx → α) (u u' : Fin 1) :
    shapeCast S1x1 v shapeCasts_S1_S1x1 (ix2 u u') = v (ix1 (0 : Fin 1)) := shapeCast_apply v _ _ _ (by
    have hu : u.val = 0 := by omega
    have hu' : u'.val = 0 := by omega
    rw [Shape.rowMajor_val_two, Shape.rowMajor_val_one]
    show 0 = u.val * 1 + u'.val
    omega)

theorem castW256_apply (v : S1x256x256.Idx → α) (d c : Fin 256) :
    shapeCast S256x256 v shapeCasts_S1x256x256_S256x256 (ix2 d c) = v (ix3 (0 : Fin 1) d c) := shapeCast_1ab_ab_apply v _ d c

theorem castW1024_apply (v : S1x256x1024.Idx → α) (d : Fin 256) (c : Fin 1024) :
    shapeCast S256x1024 v shapeCasts_S1x256x1024_S256x1024 (ix2 d c) = v (ix3 (0 : Fin 1) d c) := shapeCast_1ab_ab_apply v _ d c

theorem castId256x256 (v : S256x256.Idx → α) : shapeCast S256x256 v shapeCasts_S256x256_S256x256 = v := shapeCast_self v _
theorem castId512x256 (v : S512x256.Idx → α) : shapeCast S512x256 v shapeCasts_S512x256_S512x256 = v := shapeCast_self v _
theorem castId128x256 (v : S128x256.Idx → α) : shapeCast S128x256 v shapeCasts_S128x256_S128x256 = v := shapeCast_self v _
theorem castId256x256_apply (v : S256x256.Idx → α) (d c : Fin 256) :
    shapeCast S256x256 v shapeCasts_S256x256_S256x256 (ix2 d c) = v (ix2 d c) := congrFun (shapeCast_self v _) _
theorem castId512x256_apply (v : S512x256.Idx → α) (d : Fin 512) (c : Fin 256) :
    shapeCast S512x256 v shapeCasts_S512x256_S512x256 (ix2 d c) = v (ix2 d c) := congrFun (shapeCast_self v _) _
theorem castId128x256_apply (v : S128x256.Idx → α) (d : Fin 128) (c : Fin 256) :
    shapeCast S128x256 v shapeCasts_S128x256_S128x256 (ix2 d c) = v (ix2 d c) := congrFun (shapeCast_self v _) _

theorem bcastRow_apply (v : S1x256.Idx → α) (p : Fin 512) (q : Fin 256) :
    broadcastTo S512x256 v broadcasts_S1x256_S512x256 (ix2 p q) = v (ix2 (0 : Fin 1) q) := broadcastTo_1b_ab_apply v _ p q

theorem bcastCol_apply (v : S512x1.Idx → α) (p : Fin 512) (q : Fin 256) :
    broadcastTo S512x256 v broadcasts_S512x1_S512x256 (ix2 p q) = v (ix2 p (0 : Fin 1)) := by
  refine broadcastTo_apply v _ (ix2 p q) (ix2 p (0 : Fin 1)) fun ax => ?_
  match ax with
  | ⟨0, _⟩ => rfl
  | ⟨1, _⟩ => rfl

theorem bcast11_apply (v : S1x1.Idx → α) (p : Fin 512) (u : Fin 1) :
    broadcastTo S512x1 v broadcasts_S1x1_S512x1 (ix2 p u) = v (ix2 (0 : Fin 1) (0 : Fin 1)) := by
  refine broadcastTo_apply v _ (ix2 p u) (ix2 (0 : Fin 1) (0 : Fin 1)) fun ax => ?_
  match ax with
  | ⟨0, _⟩ => rfl
  | ⟨1, _⟩ => rfl

theorem slice0_apply (v : S512x1024.Idx → α) (p : Fin 512) (q : Fin 256) :
    extractStridedSlice S512x256 ![0, 0] v slices_S512x1024_o0_0_S512x256 (ix2 p q)
      = v (ix2 p (⟨q.val, by omega⟩ : Fin 1024)) := slice2_axis1_apply 0 v _ p q _ (Nat.zero_add _).symm
theorem slice256_apply (v : S512x1024.Idx → α) (p : Fin 512) (q : Fin 256) :
    extractStridedSlice S512x256 ![0, 256] v slices_S512x1024_o0_256_S512x256 (ix2 p q)
      = v (ix2 p (⟨256 + q.val, by omega⟩ : Fin 1024)) := slice2_axis1_eq 256 v _ p q
theorem slice512_apply (v : S512x1024.Idx → α) (p : Fin 512) (q : Fin 256) :
    extractStridedSlice S512x256 ![0, 512] v slices_S512x1024_o0_512_S512x256 (ix2 p q)
      = v (ix2 p (⟨512 + q.val, by omega⟩ : Fin 1024)) := slice2_axis1_eq 512 v _ p q
theorem slice768_apply (v : S512x1024.Idx → α) (p : Fin 512) (q : Fin 256) :
    extractStridedSlice S512x256 ![0, 768] v slices_S512x1024_o0_768_S512x256 (ix2 p q)
      = v (ix2 p (⟨768 + q.val, by omega⟩ : Fin 1024)) := slice2_axis1_eq 768 v _ p q

theorem concat6_apply (c0 c1 c2 c3 c4 c5 : S512x1.Idx → α) (p : Fin 512) (i : Fin 6) :
    concatenate S512x6 1 [⟨S512x1, c0⟩, ⟨S512x1, c1⟩, ⟨S512x1, c2⟩, ⟨S512x1, c3⟩, ⟨S512x1, c4⟩, ⟨S512x1, c5⟩]
        concatenates_S512x1_S512x1_S512x1_S512x1_S512x1_S512x1_S512x6_d1 (ix2 p i)
      = (![c0, c1, c2, c3, c4, c5] i) (ix2 p (0 : Fin 1)) := by
  match i with
  | ⟨0, _⟩ =>
    exact concatenate_apply_piece (1 : Fin S512x6.rank) _ _ _ 0 (by show 0 < 6; omega) S512x1 c0 rfl rfl 0 rfl (ix2 p (0 : Fin 1))
      (fun b hb => match b with | ⟨0, _⟩ => rfl | ⟨1, _⟩ => absurd rfl hb) rfl
  | ⟨1, _⟩ =>
    exact concatenate_apply_piece (1 : Fin S512x6.rank) _ _ _ 1 (by show 1 < 6; omega) S512x1 c1 rfl rfl 1 rfl (ix2 p (0 : Fin 1))
      (fun b hb => match b with | ⟨0, _⟩ => rfl | ⟨1, _⟩ => absurd rfl hb) rfl
  | ⟨2, _⟩ =>
    exact concatenate_apply_piece (1 : Fin S512x6.rank) _ _ _ 2 (by show 2 < 6; omega) S512x1 c2 rfl rfl 2 rfl (ix2 p (0 : Fin 1))
      (fun b hb => match b with | ⟨0, _⟩ => rfl | ⟨1, _⟩ => absurd rfl hb) rfl
  | ⟨3, _⟩ =>
    exact concatenate_apply_piece (1 : Fin S512x6.rank) _ _ _ 3 (by show 3 < 6; omega) S512x1 c3 rfl rfl 3 rfl (ix2 p (0 : Fin 1))
      (fun b hb => match b with | ⟨0, _⟩ => rfl | ⟨1, _⟩ => absurd rfl hb) rfl
  | ⟨4, _⟩ =>
    exact concatenate_apply_piece (1 : Fin S512x6.rank) _ _ _ 4 (by show 4 < 6; omega) S512x1 c4 rfl rfl 4 rfl (ix2 p (0 : Fin 1))
      (fun b hb => match b with | ⟨0, _⟩ => rfl | ⟨1, _⟩ => absurd rfl hb) rfl
  | ⟨5, _⟩ =>
    exact concatenate_apply_piece (1 : Fin S512x6.rank) _ _ _ 5 (by show 5 < 6; omega) S512x1 c5 rfl rfl 5 rfl (ix2 p (0 : Fin 1))
      (fun b hb => match b with | ⟨0, _⟩ => rfl | ⟨1, _⟩ => absurd rfl hb) rfl

theorem concat6_0 (c0 c1 c2 c3 c4 c5 : S512x1.Idx → α) (p : Fin 512) :
    concatenate S512x6 1 [⟨S512x1, c0⟩, ⟨S512x1, c1⟩, ⟨S512x1, c2⟩, ⟨S512x1, c3⟩, ⟨S512x1, c4⟩, ⟨S512x1, c5⟩]
        concatenates_S512x1_S512x1_S512x1_S512x1_S512x1_S512x1_S512x6_d1 (ix2 p (0 : Fin 6))
      = c0 (ix2 p (0 : Fin 1)) := concat6_apply c0 c1 c2 c3 c4 c5 p 0
theorem concat6_1 (c0 c1 c2 c3 c4 c5 : S512x1.Idx → α) (p : Fin 512) :
    concatenate S512x6 1 [⟨S512x1, c0⟩, ⟨S512x1, c1⟩, ⟨S512x1, c2⟩, ⟨S512x1, c3⟩, ⟨S512x1, c4⟩, ⟨S512x1, c5⟩]
        concatenates_S512x1_S512x1_S512x1_S512x1_S512x1_S512x1_S512x6_d1 (ix2 p (1 : Fin 6))
      = c1 (ix2 p (0 : Fin 1)) := concat6_apply c0 c1 c2 c3 c4 c5 p 1
theorem concat6_2 (c0 c1 c2 c3 c4 c5 : S512x1.Idx → α) (p : Fin 512) :
    concatenate S512x6 1 [⟨S512x1, c0⟩, ⟨S512x1, c1⟩, ⟨S512x1, c2⟩, ⟨S512x1, c3⟩, ⟨S512x1, c4⟩, ⟨S512x1, c5⟩]
        concatenates_S512x1_S512x1_S512x1_S512x1_S512x1_S512x1_S512x6_d1 (ix2 p (2 : Fin 6))
      = c2 (ix2 p (0 : Fin 1)) := concat6_apply c0 c1 c2 c3 c4 c5 p 2
theorem concat6_3 (c0 c1 c2 c3 c4 c5 : S512x1.Idx → α) (p : Fin 512) :
    concatenate S512x6 1 [⟨S512x1, c0⟩, ⟨S512x1, c1⟩, ⟨S512x1, c2⟩, ⟨S512x1, c3⟩, ⟨S512x1, c4⟩, ⟨S512x1, c5⟩]
        concatenates_S512x1_S512x1_S512x1_S512x1_S512x1_S512x1_S512x6_d1 (ix2 p (3 : Fin 6))
      = c3 (ix2 p (0 : Fin 1)) := concat6_apply c0 c1 c2 c3 c4 c5 p 3
theorem concat6_4 (c0 c1 c2 c3 c4 c5 : S512x1.Idx → α) (p : Fin 512) :
    concatenate S512x6 1 [⟨S512x1, c0⟩, ⟨S512x1, c1⟩, ⟨S512x1, c2⟩, ⟨S512x1, c3⟩, ⟨S512x1, c4⟩, ⟨S512x1, c5⟩]
        concatenates_S512x1_S512x1_S512x1_S512x1_S512x1_S512x1_S512x6_d1 (ix2 p (4 : Fin 6))
      = c4 (ix2 p (0 : Fin 1)) := concat6_apply c0 c1 c2 c3 c4 c5 p 4
theorem concat6_5 (c0 c1 c2 c3 c4 c5 : S512x1.Idx → α) (p : Fin 512) :
    concatenate S512x6 1 [⟨S512x1, c0⟩, ⟨S512x1, c1⟩, ⟨S512x1, c2⟩, ⟨S512x1, c3⟩, ⟨S512x1, c4⟩, ⟨S512x1, c5⟩]
        concatenates_S512x1_S512x1_S512x1_S512x1_S512x1_S512x1_S512x6_d1 (ix2 p (5 : Fin 6))
      = c5 (ix2 p (0 : Fin 1)) := concat6_apply c0 c1 c2 c3 c4 c5 p 5

end Layout

theorem rowSum_apply (v : FVec Ideal S512x256 .f32) (p : Fin 512) :
    multiReduction .add [1] S512 v 0x00000000#32 reduces_S512x256_S512 (.inl rfl) rfl (ix1 p) = ∑ k : Fin 256, v (ix2 p k) :=
  (Ideal.multiReduction_add_single v _ reduces_S512x256_S512 (.inl rfl) rfl (ix1 p)).trans
    (Finset.sum_congr rfl fun k _ => congrArg v (funext fun a => Fin.ext (match a with | ⟨0, _⟩ => rfl | ⟨1, _⟩ => rfl)))

section Products
variable {φ₁ φ₂ : FTy}

theorem mm128_apply (a : FVec Ideal S512x128 φ₁) (b : FVec Ideal S128x256 φ₂) (p : Fin 512) (q : Fin 256) :
    matmul dot_S512x128_S128x256_S512x256_1_0_0_1_n_n none a b (constant S512x256 .f32 0x00000000#32) (ix2 p q)
      = ∑ k : Fin 128, a (ix2 p k) * b (ix2 k q) := by
  simp only [matmul]
  rw [Ideal.matmul_constant_zero_apply, ← Equiv.sum_comp (contrEquiv1 dot_S512x128_S128x256_S512x256_1_0_0_1_n_n 128 rfl rfl).symm]
  refine Finset.sum_congr rfl fun k _ => ?_
  have hl : dot_S512x128_S128x256_S512x256_1_0_0_1_n_n.lhsIdx (ix2 p q) ((contrEquiv1 dot_S512x128_S128x256_S512x256_1_0_0_1_n_n 128 rfl rfl).symm k) = ix2 p k := by
    funext x; match x with | ⟨0, _⟩ => rfl | ⟨1, _⟩ => rfl
  have hr : dot_S512x128_S128x256_S512x256_1_0_0_1_n_n.rhsIdx (ix2 p q) ((contrEquiv1 dot_S512x128_S128x256_S512x256_1_0_0_1_n_n 128 rfl rfl).symm k) = ix2 k q := by
    funext x; match x with | ⟨0, _⟩ => rfl | ⟨1, _⟩ => rfl
  rw [hl, hr]
theorem mm256_apply (a : FVec Ideal S512x256 φ₁) (b : FVec Ideal S256x256 φ₂) (p : Fin 512) (q : Fin 256) :
    matmul dot_S512x256_S256x256_S512x256_1_0_0_1_n_n none a b (constant S512x256 .f32 0x00000000#32) (ix2 p q)
      = ∑ k : Fin 256, a (ix2 p k) * b (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hl : dot_S512x256_S256x256_S512x256_1_0_0_1_n_n.lhsIdx (ix2 p q) ((contrEquiv1 dot_S512x256_S256x256_S512x256_1_0_0_1_n_n 256 rfl rfl).symm k) = ix2 p k := by
    funext x; match x with | ⟨0, _⟩ => rfl | ⟨1, _⟩ => rfl
  have hr : dot_S512x256_S256x256_S512x256_1_0_0_1_n_n.rhsIdx (ix2 p q) ((contrEquiv1 dot_S512x256_S256x256_S512x256_1_0_0_1_n_n 256 rfl rfl).symm k) = ix2 k q := by
    funext x; match x with | ⟨0, _⟩ => rfl | ⟨1, _⟩ => rfl
  rw [hl, hr]
theorem mm512_apply (a : FVec Ideal S512x512 φ₁) (b : FVec Ideal S512x256 φ₂) (p : Fin 512) (q : Fin 256) :
    matmul dot_S512x512_S512x256_S512x256_1_0_0_1_n_n none a b (constant S512x256 .f32 0x00000000#32) (ix2 p q)
      = ∑ k : Fin 512, a (ix2 p k) * b (ix2 k q) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hl : dot_S512x512_S512x256_S512x256_1_0_0_1_n_n.lhsIdx (ix2 p q) ((contrEquiv1 dot_S512x512_S512x256_S512x256_1_0_0_1_n_n 512 rfl rfl).symm k) = ix2 p k := by
    funext x; match x with | ⟨0, _⟩ => rfl | ⟨1, _⟩ => rfl
  have hr : dot_S512x512_S512x256_S512x256_1_0_0_1_n_n.rhsIdx (ix2 p q) ((contrEquiv1 dot_S512x512_S512x256_S512x256_1_0_0_1_n_n 512 rfl rfl).symm k) = ix2 k q := by
    funext x; match x with | ⟨0, _⟩ => rfl | ⟨1, _⟩ => rfl
  rw [hl, hr]
theorem mm1024_apply (a : FVec Ideal S512x256 φ₁) (b : FVec Ideal S256x1024 φ₂) (p : Fin 512) (q : Fin 1024) :
    matmul dot_S512x256_S256x1024_S512x1024_1_0_0_1_n_n none a b (constant S512x1024 .f32 0x00000000#32) (ix2 p q)
      = ∑ k : Fin 256, a (ix2 p k) * b (ix2 k q) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hl : dot_S512x256_S256x1024_S512x1024_1_0_0_1_n_n.lhsIdx (ix2 p q) ((contrEquiv1 dot_S512x256_S256x1024_S512x1024_1_0_0_1_n_n 256 rfl rfl).symm k) = ix2 p k := by
    funext x; match x with | ⟨0, _⟩ => rfl | ⟨1, _⟩ => rfl
  have hr : dot_S512x256_S256x1024_S512x1024_1_0_0_1_n_n.rhsIdx (ix2 p q) ((contrEquiv1 dot_S512x256_S256x1024_S512x1024_1_0_0_1_n_n 256 rfl rfl).symm k) = ix2 k q := by
    funext x; match x with | ⟨0, _⟩ => rfl | ⟨1, _⟩ => rfl
  rw [hl, hr]

end Products

section Loads
variable {F : FTy → Type} [FloatOps F]

theorem z1 : (![0] : Fin 1 → Nat) = fun _ => 0 := funext fun a => by fin_cases a <;> rfl
theorem z2 : (![0, 0] : Fin 2 → Nat) = fun _ => 0 := funext fun a => by fin_cases a <;> rfl
theorem z3 : (![0, 0, 0] : Fin 3 → Nat) = fun _ => 0 := funext fun a => by fin_cases a <;> rfl

theorem ld0_eq (B : Blocks F) : ld0 B = B.x0 := View.ld_unit_zero (S := S512x128) z2 inb_S512x128_S512x128_0_0 B.x0
theorem ld3_eq (B : Blocks F) : ld3 B = B.x3 := View.ld_unit_zero (S := S128x256) z2 inb_S128x256_S128x256_0_0 B.x3
theorem ld4_eq (B : Blocks F) : ld4 B = B.x4 := View.ld_unit_zero (S := S256) z1 inb_S256_S256_0 B.x4
theorem ld1_eq (B : Blocks F) : ld1 B = B.x1 := View.ld_unit_zero (S := S512x256) z2 inb_S512x256_S512x256_0_0 B.x1
theorem ld5_eq (B : Blocks F) : ld5 B = B.x5 := View.ld_unit_zero (S := S256x256) z2 inb_S256x256_S256x256_0_0 B.x5
theorem ld6_eq (B : Blocks F) : ld6 B = B.x6 := View.ld_unit_zero (S := S256) z1 inb_S256_S256_0 B.x6
theorem ld2_eq (B : Blocks F) : ld2 B = B.x2 := View.ld_unit_zero (S := S512x512) z2 inb_S512x512_S512x512_0_0 B.x2
theorem ld7_eq (B : Blocks F) : ld7 B = B.x7 := View.ld_unit_zero (S := S512x256) z2 inb_S512x256_S512x256_0_0 B.x7
theorem ld8_eq (B : Blocks F) : ld8 B = B.x8 := View.ld_unit_zero (S := S256) z1 inb_S256_S256_0 B.x8
theorem ld9_0_apply (B : Blocks F) (u : Fin 1) (d : Fin 256) (c : Fin 1024) : ld9_0 B (ix3 u d c) = B.x9 (ix3 (0 : Fin 3) d c) :=
  congrArg B.x9 (funext fun a => Fin.ext (match a with
    | ⟨0, _⟩ => by show 0 + 1 * u.val = 0; omega
    | ⟨1, _⟩ => by show 0 + 1 * d.val = d.val; omega
    | ⟨2, _⟩ => by show 0 + 1 * c.val = c.val; omega))
theorem ld9_1_apply (B : Blocks F) (u : Fin 1) (d : Fin 256) (c : Fin 1024) : ld9_1 B (ix3 u d c) = B.x9 (ix3 (1 : Fin 3) d c) :=
  congrArg B.x9 (funext fun a => Fin.ext (match a with
    | ⟨0, _⟩ => by show 1 + 1 * u.val = 1; omega
    | ⟨1, _⟩ => by show 0 + 1 * d.val = d.val; omega
    | ⟨2, _⟩ => by show 0 + 1 * c.val = c.val; omega))
theorem ld9_2_apply (B : Blocks F) (u : Fin 1) (d : Fin 256) (c : Fin 1024) : ld9_2 B (ix3 u d c) = B.x9 (ix3 (2 : Fin 3) d c) :=
  congrArg B.x9 (funext fun a => Fin.ext (match a with
    | ⟨0, _⟩ => by show 2 + 1 * u.val = 2; omega
    | ⟨1, _⟩ => by show 0 + 1 * d.val = d.val; omega
    | ⟨2, _⟩ => by show 0 + 1 * c.val = c.val; omega))
theorem ld10_0_apply (B : Blocks F) (u : Fin 1) (q : Fin 256) : ld10_0 B (ix2 u q) = B.x10 (ix2 (0 : Fin 6) q) :=
  congrArg B.x10 (funext fun a => Fin.ext (match a with
    | ⟨0, _⟩ => by show 0 + 1 * u.val = 0; omega
    | ⟨1, _⟩ => by show 0 + 1 * q.val = q.val; omega))
theorem ld11_0_apply (B : Blocks F) (u : Fin 1) (q : Fin 256) : ld11_0 B (ix2 u q) = B.x11 (ix2 (0 : Fin 6) q) :=
  congrArg B.x11 (funext fun a => Fin.ext (match a with
    | ⟨0, _⟩ => by show 0 + 1 * u.val = 0; omega
    | ⟨1, _⟩ => by show 0 + 1 * q.val = q.val; omega))
theorem ld12_0_apply (B : Blocks F) (u u' : Fin 1) : ld12_0 B (ix2 u u') = B.x12 (ix2 (0 : Fin 6) (0 : Fin 1)) :=
  congrArg B.x12 (funext fun a => Fin.ext (match a with
    | ⟨0, _⟩ => by show 0 + 1 * u.val = 0; omega
    | ⟨1, _⟩ => by show 0 + 1 * u'.val = 0; omega))
theorem ld10_1_apply (B : Blocks F) (u : Fin 1) (q : Fin 256) : ld10_1 B (ix2 u q) = B.x10 (ix2 (1 : Fin 6) q) :=
  congrArg B.x10 (funext fun a => Fin.ext (match a with
    | ⟨0, _⟩ => by show 1 + 1 * u.val = 1; omega
    | ⟨1, _⟩ => by show 0 + 1 * q.val = q.val; omega))
theorem ld11_1_apply (B : Blocks F) (u : Fin 1) (q : Fin 256) : ld11_1 B (ix2 u q) = B.x11 (ix2 (1 : Fin 6) q) :=
  congrArg B.x11 (funext fun a => Fin.ext (match a with
    | ⟨0, _⟩ => by show 1 + 1 * u.val = 1; omega
    | ⟨1, _⟩ => by show 0 + 1 * q.val = q.val; omega))
theorem ld12_1_apply (B : Blocks F) (u u' : Fin 1) : ld12_1 B (ix2 u u') = B.x12 (ix2 (1 : Fin 6) (0 : Fin 1)) :=
  congrArg B.x12 (funext fun a => Fin.ext (match a with
    | ⟨0, _⟩ => by show 1 + 1 * u.val = 1; omega
    | ⟨1, _⟩ => by show 0 + 1 * u'.val = 0; omega))
theorem ld10_2_apply (B : Blocks F) (u : Fin 1) (q : Fin 256) : ld10_2 B (ix2 u q) = B.x10 (ix2 (2 : Fin 6) q) :=
  congrArg B.x10 (funext fun a => Fin.ext (match a with
    | ⟨0, _⟩ => by show 2 + 1 * u.val = 2; omega
    | ⟨1, _⟩ => by show 0 + 1 * q.val = q.val; omega))
theorem ld11_2_apply (B : Blocks F) (u : Fin 1) (q : Fin 256) : ld11_2 B (ix2 u q) = B.x11 (ix2 (2 : Fin 6) q) :=
  congrArg B.x11 (funext fun a => Fin.ext (match a with
    | ⟨0, _⟩ => by show 2 + 1 * u.val = 2; omega
    | ⟨1, _⟩ => by show 0 + 1 * q.val = q.val; omega))
theorem ld12_2_apply (B : Blocks F) (u u' : Fin 1) : ld12_2 B (ix2 u u') = B.x12 (ix2 (2 : Fin 6) (0 : Fin 1)) :=
  congrArg B.x12 (funext fun a => Fin.ext (match a with
    | ⟨0, _⟩ => by show 2 + 1 * u.val = 2; omega
    | ⟨1, _⟩ => by show 0 + 1 * u'.val = 0; omega))
theorem ld10_3_apply (B : Blocks F) (u : Fin 1) (q : Fin 256) : ld10_3 B (ix2 u q) = B.x10 (ix2 (3 : Fin 6) q) :=
  congrArg B.x10 (funext fun a => Fin.ext (match a with
    | ⟨0, _⟩ => by show 3 + 1 * u.val = 3; omega
    | ⟨1, _⟩ => by show 0 + 1 * q.val = q.val; omega))
theorem ld11_3_apply (B : Blocks F) (u : Fin 1) (q : Fin 256) : ld11_3 B (ix2 u q) = B.x11 (ix2 (3 : Fin 6) q) :=
  congrArg B.x11 (funext fun a => Fin.ext (match a with
    | ⟨0, _⟩ => by show 3 + 1 * u.val = 3; omega
    | ⟨1, _⟩ => by show 0 + 1 * q.val = q.val; omega))
theorem ld12_3_apply (B : Blocks F) (u u' : Fin 1) : ld12_3 B (ix2 u u') = B.x12 (ix2 (3 : Fin 6) (0 : Fin 1)) :=
  congrArg B.x12 (funext fun a => Fin.ext (match a with
    | ⟨0, _⟩ => by show 3 + 1 * u.val = 3; omega
    | ⟨1, _⟩ => by show 0 + 1 * u'.val = 0; omega))
theorem ld10_4_apply (B : Blocks F) (u : Fin 1) (q : Fin 256) : ld10_4 B (ix2 u q) = B.x10 (ix2 (4 : Fin 6) q) :=
  congrArg B.x10 (funext fun a => Fin.ext (match a with
    | ⟨0, _⟩ => by show 4 + 1 * u.val = 4; omega
    | ⟨1, _⟩ => by show 0 + 1 * q.val = q.val; omega))
theorem ld11_4_apply (B : Blocks F) (u : Fin 1) (q : Fin 256) : ld11_4 B (ix2 u q) = B.x11 (ix2 (4 : Fin 6) q) :=
  congrArg B.x11 (funext fun a => Fin.ext (match a with
    | ⟨0, _⟩ => by show 4 + 1 * u.val = 4; omega
    | ⟨1, _⟩ => by show 0 + 1 * q.val = q.val; omega))
theorem ld12_4_apply (B : Blocks F) (u u' : Fin 1) : ld12_4 B (ix2 u u') = B.x12 (ix2 (4 : Fin 6) (0 : Fin 1)) :=
  congrArg B.x12 (funext fun a => Fin.ext (match a with
    | ⟨0, _⟩ => by show 4 + 1 * u.val = 4; omega
    | ⟨1, _⟩ => by show 0 + 1 * u'.val = 0; omega))
theorem ld10_5_apply (B : Blocks F) (u : Fin 1) (q : Fin 256) : ld10_5 B (ix2 u q) = B.x10 (ix2 (5 : Fin 6) q) :=
  congrArg B.x10 (funext fun a => Fin.ext (match a with
    | ⟨0, _⟩ => by show 5 + 1 * u.val = 5; omega
    | ⟨1, _⟩ => by show 0 + 1 * q.val = q.val; omega))
theorem ld11_5_apply (B : Blocks F) (u : Fin 1) (q : Fin 256) : ld11_5 B (ix2 u q) = B.x11 (ix2 (5 : Fin 6) q) :=
  congrArg B.x11 (funext fun a => Fin.ext (match a with
    | ⟨0, _⟩ => by show 5 + 1 * u.val = 5; omega
    | ⟨1, _⟩ => by show 0 + 1 * q.val = q.val; omega))
theorem ld12_5_apply (B : Blocks F) (u u' : Fin 1) : ld12_5 B (ix2 u u') = B.x12 (ix2 (5 : Fin 6) (0 : Fin 1)) :=
  congrArg B.x12 (funext fun a => Fin.ext (match a with
    | ⟨0, _⟩ => by show 5 + 1 * u.val = 5; omega
    | ⟨1, _⟩ => by show 0 + 1 * u'.val = 0; omega))
theorem ld13_0_apply (B : Blocks F) (u : Fin 1) (d : Fin 256) (c : Fin 256) : ld13_0 B (ix3 u d c) = B.x13 (ix3 (0 : Fin 3) d c) :=
  congrArg B.x13 (funext fun a => Fin.ext (match a with
    | ⟨0, _⟩ => by show 0 + 1 * u.val = 0; omega
    | ⟨1, _⟩ => by show 0 + 1 * d.val = d.val; omega
    | ⟨2, _⟩ => by show 0 + 1 * c.val = c.val; omega))
theorem ld14_0_apply (B : Blocks F) (u : Fin 1) (q : Fin 256) : ld14_0 B (ix2 u q) = B.x14 (ix2 (0 : Fin 3) q) :=
  congrArg B.x14 (funext fun a => Fin.ext (match a with
    | ⟨0, _⟩ => by show 0 + 1 * u.val = 0; omega
    | ⟨1, _⟩ => by show 0 + 1 * q.val = q.val; omega))
theorem ld15_0_apply (B : Blocks F) (u : Fin 1) (d : Fin 256) (c : Fin 256) : ld15_0 B (ix3 u d c) = B.x15 (ix3 (0 : Fin 3) d c) :=
  congrArg B.x15 (funext fun a => Fin.ext (match a with
    | ⟨0, _⟩ => by show 0 + 1 * u.val = 0; omega
    | ⟨1, _⟩ => by show 0 + 1 * d.val = d.val; omega
    | ⟨2, _⟩ => by show 0 + 1 * c.val = c.val; omega))
theorem ld16_0_apply (B : Blocks F) (u : Fin 1) (q : Fin 256) : ld16_0 B (ix2 u q) = B.x16 (ix2 (0 : Fin 3) q) :=
  congrArg B.x16 (funext fun a => Fin.ext (match a with
    | ⟨0, _⟩ => by show 0 + 1 * u.val = 0; omega
    | ⟨1, _⟩ => by show 0 + 1 * q.val = q.val; omega))
theorem ld17_0_apply (B : Blocks F) (u : Fin 1) (q : Fin 256) : ld17_0 B (ix2 u q) = B.x17 (ix2 (0 : Fin 3) q) :=
  congrArg B.x17 (funext fun a => Fin.ext (match a with
    | ⟨0, _⟩ => by show 0 + 1 * u.val = 0; omega
    | ⟨1, _⟩ => by show 0 + 1 * q.val = q.val; omega))
theorem ld18_0_apply (B : Blocks F) (u : Fin 1) (q : Fin 256) : ld18_0 B (ix2 u q) = B.x18 (ix2 (0 : Fin 3) q) :=
  congrArg B.x18 (funext fun a => Fin.ext (match a with
    | ⟨0, _⟩ => by show 0 + 1 * u.val = 0; omega
    | ⟨1, _⟩ => by show 0 + 1 * q.val = q.val; omega))
theorem ld13_1_apply (B : Blocks F) (u : Fin 1) (d : Fin 256) (c : Fin 256) : ld13_1 B (ix3 u d c) = B.x13 (ix3 (1 : Fin 3) d c) :=
  congrArg B.x13 (funext fun a => Fin.ext (match a with
    | ⟨0, _⟩ => by show 1 + 1 * u.val = 1; omega
    | ⟨1, _⟩ => by show 0 + 1 * d.val = d.val; omega
    | ⟨2, _⟩ => by show 0 + 1 * c.val = c.val; omega))
theorem ld14_1_apply (B : Blocks F) (u : Fin 1) (q : Fin 256) : ld14_1 B (ix2 u q) = B.x14 (ix2 (1 : Fin 3) q) :=
  congrArg B.x14 (funext fun a => Fin.ext (match a with
    | ⟨0, _⟩ => by show 1 + 1 * u.val = 1; omega
    | ⟨1, _⟩ => by show 0 + 1 * q.val = q.val; omega))
theorem ld15_1_apply (B : Blocks F) (u : Fin 1) (d : Fin 256) (c : Fin 256) : ld15_1 B (ix3 u d c) = B.x15 (ix3 (1 : Fin 3) d c) :=
  congrArg B.x15 (funext fun a => Fin.ext (match a with
    | ⟨0, _⟩ => by show 1 + 1 * u.val = 1; omega
    | ⟨1, _⟩ => by show 0 + 1 * d.val = d.val; omega
    | ⟨2, _⟩ => by show 0 + 1 * c.val = c.val; omega))
theorem ld16_1_apply (B : Blocks F) (u : Fin 1) (q : Fin 256) : ld16_1 B (ix2 u q) = B.x16 (ix2 (1 : Fin 3) q) :=
  congrArg B.x16 (funext fun a => Fin.ext (match a with
    | ⟨0, _⟩ => by show 1 + 1 * u.val = 1; omega
    | ⟨1, _⟩ => by show 0 + 1 * q.val = q.val; omega))
theorem ld17_1_apply (B : Blocks F) (u : Fin 1) (q : Fin 256) : ld17_1 B (ix2 u q) = B.x17 (ix2 (1 : Fin 3) q) :=
  congrArg B.x17 (funext fun a => Fin.ext (match a with
    | ⟨0, _⟩ => by show 1 + 1 * u.val = 1; omega
    | ⟨1, _⟩ => by show 0 + 1 * q.val = q.val; omega))
theorem ld18_1_apply (B : Blocks F) (u : Fin 1) (q : Fin 256) : ld18_1 B (ix2 u q) = B.x18 (ix2 (1 : Fin 3) q) :=
  congrArg B.x18 (funext fun a => Fin.ext (match a with
    | ⟨0, _⟩ => by show 1 + 1 * u.val = 1; omega
    | ⟨1, _⟩ => by show 0 + 1 * q.val = q.val; omega))
theorem ld13_2_apply (B : Blocks F) (u : Fin 1) (d : Fin 256) (c : Fin 256) : ld13_2 B (ix3 u d c) = B.x13 (ix3 (2 : Fin 3) d c) :=
  congrArg B.x13 (funext fun a => Fin.ext (match a with
    | ⟨0, _⟩ => by show 2 + 1 * u.val = 2; omega
    | ⟨1, _⟩ => by show 0 + 1 * d.val = d.val; omega
    | ⟨2, _⟩ => by show 0 + 1 * c.val = c.val; omega))
theorem ld14_2_apply (B : Blocks F) (u : Fin 1) (q : Fin 256) : ld14_2 B (ix2 u q) = B.x14 (ix2 (2 : Fin 3) q) :=
  congrArg B.x14 (funext fun a => Fin.ext (match a with
    | ⟨0, _⟩ => by show 2 + 1 * u.val = 2; omega
    | ⟨1, _⟩ => by show 0 + 1 * q.val = q.val; omega))
theorem ld15_2_apply (B : Blocks F) (u : Fin 1) (d : Fin 256) (c : Fin 256) : ld15_2 B (ix3 u d c) = B.x15 (ix3 (2 : Fin 3) d c) :=
  congrArg B.x15 (funext fun a => Fin.ext (match a with
    | ⟨0, _⟩ => by show 2 + 1 * u.val = 2; omega
    | ⟨1, _⟩ => by show 0 + 1 * d.val = d.val; omega
    | ⟨2, _⟩ => by show 0 + 1 * c.val = c.val; omega))
theorem ld16_2_apply (B : Blocks F) (u : Fin 1) (q : Fin 256) : ld16_2 B (ix2 u q) = B.x16 (ix2 (2 : Fin 3) q) :=
  congrArg B.x16 (funext fun a => Fin.ext (match a with
    | ⟨0, _⟩ => by show 2 + 1 * u.val = 2; omega
    | ⟨1, _⟩ => by show 0 + 1 * q.val = q.val; omega))
theorem ld17_2_apply (B : Blocks F) (u : Fin 1) (q : Fin 256) : ld17_2 B (ix2 u q) = B.x17 (ix2 (2 : Fin 3) q) :=
  congrArg B.x17 (funext fun a => Fin.ext (match a with
    | ⟨0, _⟩ => by show 2 + 1 * u.val = 2; omega
    | ⟨1, _⟩ => by show 0 + 1 * q.val = q.val; omega))
theorem ld18_2_apply (B : Blocks F) (u : Fin 1) (q : Fin 256) : ld18_2 B (ix2 u q) = B.x18 (ix2 (2 : Fin 3) q) :=
  congrArg B.x18 (funext fun a => Fin.ext (match a with
    | ⟨0, _⟩ => by show 2 + 1 * u.val = 2; omega
    | ⟨1, _⟩ => by show 0 + 1 * q.val = q.val; omega))
theorem ld19_0_apply (B : Blocks F) (u : Fin 1) (d : Fin 256) (c : Fin 256) : ld19_0 B (ix3 u d c) = B.x19 (ix3 (0 : Fin 3) d c) :=
  congrArg B.x19 (funext fun a => Fin.ext (match a with
    | ⟨0, _⟩ => by show 0 + 1 * u.val = 0; omega
    | ⟨1, _⟩ => by show 0 + 1 * d.val = d.val; omega
    | ⟨2, _⟩ => by show 0 + 1 * c.val = c.val; omega))
theorem ld19_1_apply (B : Blocks F) (u : Fin 1) (d : Fin 256) (c : Fin 256) : ld19_1 B (ix3 u d c) = B.x19 (ix3 (1 : Fin 3) d c) :=
  congrArg B.x19 (funext fun a => Fin.ext (match a with
    | ⟨0, _⟩ => by show 1 + 1 * u.val = 1; omega
    | ⟨1, _⟩ => by show 0 + 1 * d.val = d.val; omega
    | ⟨2, _⟩ => by show 0 + 1 * c.val = c.val; omega))
theorem ld19_2_apply (B : Blocks F) (u : Fin 1) (d : Fin 256) (c : Fin 256) : ld19_2 B (ix3 u d c) = B.x19 (ix3 (2 : Fin 3) d c) :=
  congrArg B.x19 (funext fun a => Fin.ext (match a with
    | ⟨0, _⟩ => by show 2 + 1 * u.val = 2; omega
    | ⟨1, _⟩ => by show 0 + 1 * d.val = d.val; omega
    | ⟨2, _⟩ => by show 0 + 1 * c.val = c.val; omega))
theorem ld20_eq (B : Blocks F) : ld20 B = B.x20 := View.ld_unit_zero (S := S256) z1 inb_S256_S256_0 B.x20
theorem ld21_eq (B : Blocks F) : ld21 B = B.x21 := View.ld_unit_zero (S := S256x256) z2 inb_S256x256_S256x256_0_0 B.x21
theorem ld22_eq (B : Blocks F) : ld22 B = B.x22 := View.ld_unit_zero (S := S256) z1 inb_S256_S256_0 B.x22
theorem ld23_eq (B : Blocks F) : ld23 B = B.x23 := View.ld_unit_zero (S := S256) z1 inb_S256_S256_0 B.x23
theorem ld24_eq (B : Blocks F) : ld24 B = B.x24 := View.ld_unit_zero (S := S256) z1 inb_S256_S256_0 B.x24

end Loads

end Cert.KernelIdeal.Body

end
-- ==== Proof.KValP.lean ====
import proofs.«429394_j28956669510180_3_alg».proof.Proof.KIface
import proofs.«429394_j28956669510180_3_alg».proof.Proof.KOps
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx RouteSpec

theorem v8_apply (B : Blocks Ideal) (W : Wts) (hB : BlocksOK B W) (p : Fin 512) (q : Fin 256) :
    v8 B (ix2 p q) = proj0 W (rowF B p) q := by
  unfold v8 k0_pay1
  rw [addf_apply, mm128_apply, bcastRow_apply, castRow_apply, ld4_eq, hB.x4]
  unfold proj0 rowF
  refine congrArg (· + W.pb0 q) (Finset.sum_congr rfl fun k _ => ?_)
  rw [truncf_apply, ld0_eq, castId128x256_apply, ld3_eq, hB.x3]

theorem v17_apply (B : Blocks Ideal) (W : Wts) (hB : BlocksOK B W) (p : Fin 512) (q : Fin 256) :
    v17 B (ix2 p q) = proj1 W (rowM B p) q := by
  unfold v17 k0_pay2
  rw [addf_apply, mm256_apply, bcastRow_apply, castRow_apply, ld6_eq, hB.x6]
  unfold proj1 rowM
  refine congrArg (· + W.pb1 q) (Finset.sum_congr rfl fun k _ => ?_)
  rw [truncf_apply, ld1_eq, castId256x256_apply, ld5_eq, hB.x5]

theorem v26_apply (B : Blocks Ideal) (W : Wts) (hB : BlocksOK B W) (p : Fin 512) (q : Fin 256) :
    v26 B (ix2 p q) = proj2 W (rowC B p) q := by
  unfold v26 k0_pay3
  rw [addf_apply, mm512_apply, bcastRow_apply, castRow_apply, ld8_eq, hB.x8]
  unfold proj2 rowC
  refine congrArg (· + W.pb2 q) (Finset.sum_congr rfl fun k _ => ?_)
  rw [truncf_apply, ld2_eq, castId512x256_apply, ld7_eq, hB.x7]

theorem v28_apply (B : Blocks Ideal) (W : Wts) (hB : BlocksOK B W) (p : Fin 512) (q : Fin 256) :
    v28 B (ix2 p q) = v17 B (ix2 p q) := rfl
theorem v29_apply (B : Blocks Ideal) (W : Wts) (hB : BlocksOK B W) (p : Fin 512) (q : Fin 256) :
    v29 B (ix2 p q) = v26 B (ix2 p q) := rfl

end Cert.KernelIdeal.Body

end
-- ==== Proof.KValR1.lean ====
import proofs.«429394_j28956669510180_3_alg».proof.Proof.KIface
import proofs.«429394_j28956669510180_3_alg».proof.Proof.KOps
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx RouteSpec

namespace R1

theorem biasRow_apply (v : FVec Ideal S1x256 .f32) (p : Fin 512) (q : Fin 256) :
    broadcastTo S512x256 (shapeCast S1x256 (shapeCast S256 v shapeCasts_S1x256_S256) shapeCasts_S256_S1x256)
      broadcasts_S1x256_S512x256 (ix2 p q) = v (ix2 (0 : Fin 1) q) := by
  rw [bcastRow_apply, castRow_apply, uncastRow_apply]

theorem biasVec_apply (v : FVec Ideal S256 .f32) (p : Fin 512) (q : Fin 256) :
    broadcastTo S512x256 (shapeCast S1x256 v shapeCasts_S256_S1x256) broadcasts_S1x256_S512x256 (ix2 p q) = v (ix1 q) := by
  rw [bcastRow_apply, castRow_apply]

theorem biasScal_apply (v : FVec Ideal S1x1 .f32) (p : Fin 512) :
    broadcastTo S512x1 (shapeCast S1x1 (shapeCast S1 v shapeCasts_S1x1_S1) shapeCasts_S1_S1x1) broadcasts_S1x1_S512x1
      (ix2 p (0 : Fin 1)) = v (ix2 (0 : Fin 1) (0 : Fin 1)) := by
  rw [bcast11_apply, cast1_11_apply, cast11_1_apply]

theorem rowSumCol_apply (x : FVec Ideal S512x256 .f32) (p : Fin 512) :
    shapeCast S512x1 (multiReduction .add [1] S512 x 0x00000000#32 reduces_S512x256_S512 (.inl rfl) rfl) shapeCasts_S512_S512x1
      (ix2 p (0 : Fin 1)) = ∑ k : Fin 256, x (ix2 p k) := by
  rw [castCol_apply, rowSum_apply]

theorem prod1024_apply (a : FVec Ideal S512x256 .bf16) (w : FVec Ideal S1x256x1024 .bf16) (p : Fin 512) (c : Fin 1024) :
    matmul dot_S512x256_S256x1024_S512x1024_1_0_0_1_n_n none a (shapeCast S256x1024 w shapeCasts_S1x256x1024_S256x1024)
      (constant S512x1024 .f32 0x00000000#32) (ix2 p c) = ∑ d : Fin 256, a (ix2 p d) * w (ix3 (0 : Fin 1) d c) := by
  rw [mm1024_apply]
  exact Finset.sum_congr rfl fun d _ => by rw [castW1024_apply]

theorem prod256_apply (a : FVec Ideal S512x256 .bf16) (w : FVec Ideal S1x256x256 .bf16) (p : Fin 512) (c : Fin 256) :
    matmul dot_S512x256_S256x256_S512x256_1_0_0_1_n_n none a (shapeCast S256x256 w shapeCasts_S1x256x256_S256x256)
      (constant S512x256 .f32 0x00000000#32) (ix2 p c) = ∑ d : Fin 256, a (ix2 p d) * w (ix3 (0 : Fin 1) d c) := by
  rw [mm256_apply]
  exact Finset.sum_congr rfl fun d _ => by rw [castW256_apply]

theorem hidden_apply (sa sb : FVec Ideal S512x256 .f32) (b1 : FVec Ideal S1x256 .f32) (p : Fin 512) (h : Fin 256)
    (A Bv b : EReal) (hA : sa (ix2 p h) = A) (hBv : sb (ix2 p h) = Bv) (hb : b1 (ix2 (0 : Fin 1) h) = b) :
    maximumf (addf (addf sa sb) (broadcastTo S512x256 (shapeCast S1x256 (shapeCast S256 b1 shapeCasts_S1x256_S256)
        shapeCasts_S256_S1x256) broadcasts_S1x256_S512x256)) (broadcast S512x256 (Scalar.ofBits .f32 0x00000000#32)) (ix2 p h)
      = relu ((A + Bv) + b) := by
  rw [maximumf_apply, addf_apply, addf_apply, biasRow_apply, hA, hBv, hb]
  rfl

theorem gated_apply (hv : FVec Ideal S512x256 .f32) (w2 : FVec Ideal S1x256 .f32) (b2 : FVec Ideal S1x1 .f32)
    (sv : FVec Ideal S512x256 .f32) (p : Fin 512) (q : Fin 256) (H w : Fin 256 → EReal) (b s : EReal)
    (hH : ∀ h, hv (ix2 p h) = H h) (hw : ∀ h, w2 (ix2 (0 : Fin 1) h) = w h)
    (hb : b2 (ix2 (0 : Fin 1) (0 : Fin 1)) = b) (hs : sv (ix2 p q) = s) :
    mulf (broadcastTo S512x256 (logistic (addf
        (shapeCast S512x1 (multiReduction .add [1] S512 (mulf hv (broadcastTo S512x256 (shapeCast S1x256
          (shapeCast S256 w2 shapeCasts_S1x256_S256) shapeCasts_S256_S1x256) broadcasts_S1x256_S512x256))
          0x00000000#32 reduces_S512x256_S512 (.inl rfl) rfl) shapeCasts_S512_S512x1)
        (broadcastTo S512x1 (shapeCast S1x1 (shapeCast S1 b2 shapeCasts_S1x1_S1) shapeCasts_S1_S1x1) broadcasts_S1x1_S512x1)))
      broadcasts_S512x1_S512x256) sv (ix2 p q)
      = Ideal.logistic ((∑ h, H h * w h) + b) * s := by
  rw [mulf_apply, bcastCol_apply, logistic_apply, addf_apply, rowSumCol_apply, biasScal_apply, hb, hs]
  refine congrArg (fun t => Ideal.logistic (t + b) * s) (Finset.sum_congr rfl fun h _ => ?_)
  rw [mulf_apply, biasRow_apply, hH, hw]

theorem v32_apply (B : Blocks Ideal) (W : Wts) (hB : BlocksOK B W) (p : Fin 512) (f : Feats)
    (h0 : ∀ q : Fin 256, v8 B (ix2 p q) = f 0 q) (c : Fin 1024) :
    v32 B (ix2 p c) = ∑ d : Fin 256, f 0 d * B.x9 (ix3 (0 : Fin 3) d c) := by
  refine (prod1024_apply _ _ p c).trans (Finset.sum_congr rfl fun d _ => ?_)
  exact congrArg₂ (· * ·) (h0 d) (ld9_0_apply B 0 d c)

theorem v35_apply (B : Blocks Ideal) (W : Wts) (hB : BlocksOK B W) (p : Fin 512) (f : Feats)
    (h1' : ∀ q : Fin 256, v28 B (ix2 p q) = f 1 q) (c : Fin 1024) :
    v35 B (ix2 p c) = ∑ d : Fin 256, f 1 d * B.x9 (ix3 (1 : Fin 3) d c) := by
  refine (prod1024_apply _ _ p c).trans (Finset.sum_congr rfl fun d _ => ?_)
  exact congrArg₂ (· * ·) (h1' d) (ld9_1_apply B 0 d c)

theorem v38_apply (B : Blocks Ideal) (W : Wts) (hB : BlocksOK B W) (p : Fin 512) (f : Feats)
    (h2' : ∀ q : Fin 256, v29 B (ix2 p q) = f 2 q) (c : Fin 1024) :
    v38 B (ix2 p c) = ∑ d : Fin 256, f 2 d * B.x9 (ix3 (2 : Fin 3) d c) := by
  refine (prod1024_apply _ _ p c).trans (Finset.sum_congr rfl fun d _ => ?_)
  exact congrArg₂ (· * ·) (h2' d) (ld9_2_apply B 0 d c)

theorem v63_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v63 B (ix2 p q) = sent W f 0 q := by
  unfold v63 k0_pay9
  refine gated_apply _ _ _ _ p q (hid W f 0) (W.rW2 0) (W.rb2 0) (f 0 q) (fun h => ?_) (fun h => ?_) ?_ (h0 q)
  · refine hidden_apply _ _ _ p h (∑ d, f 0 d * W.rWa 0 d h) (∑ d, f 1 d * W.rWb 0 d h) (W.rb1 0 h) ?_ ?_ ?_
    · refine (slice0_apply _ p h).trans ((v32_apply B W hB p f h0 _).trans (Finset.sum_congr rfl fun d _ => ?_))
      exact congrArg (_ * ·) (hB.x9a 0 d h)
    · refine (slice512_apply _ p h).trans ((v35_apply B W hB p f h1' _).trans (Finset.sum_congr rfl fun d _ => ?_))
      exact congrArg (_ * ·) (hB.x9c 1 d h)
    · exact (ld10_0_apply B 0 h).trans (hB.x10 0 h)
  · exact (ld11_0_apply B 0 h).trans (hB.x11 0 h)
  · exact (ld12_0_apply B 0 0).trans (hB.x12 0)

theorem v88_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v88 B (ix2 p q) = sent W f 1 q := by
  unfold v88 k0_pay12 v75 k0_pay11
  refine gated_apply _ _ _ _ p q (hid W f 1) (W.rW2 1) (W.rb2 1) (f 0 q) (fun h => ?_) (fun h => ?_) ?_ (h0 q)
  · unfold v73 k0_pay10
    refine hidden_apply _ _ _ p h (∑ d, f 0 d * W.rWa 1 d h) (∑ d, f 2 d * W.rWb 1 d h) (W.rb1 1 h) ?_ ?_ ?_
    · refine (slice256_apply _ p h).trans ((v32_apply B W hB p f h0 _).trans (Finset.sum_congr rfl fun d _ => ?_))
      exact congrArg (_ * ·) (hB.x9b 0 d h)
    · refine (slice512_apply _ p h).trans ((v38_apply B W hB p f h2' _).trans (Finset.sum_congr rfl fun d _ => ?_))
      exact congrArg (_ * ·) (hB.x9c 2 d h)
    · exact (ld10_1_apply B 0 h).trans (hB.x10 1 h)
  · exact (ld11_1_apply B 0 h).trans (hB.x11 1 h)
  · exact (ld12_1_apply B 0 0).trans (hB.x12 1)

theorem v113_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v113 B (ix2 p q) = sent W f 2 q := by
  unfold v113 k0_pay13
  refine gated_apply _ _ _ _ p q (hid W f 2) (W.rW2 2) (W.rb2 2) (f 1 q) (fun h => ?_) (fun h => ?_) ?_ (h1 q)
  · refine hidden_apply _ _ _ p h (∑ d, f 1 d * W.rWa 2 d h) (∑ d, f 0 d * W.rWb 2 d h) (W.rb1 2 h) ?_ ?_ ?_
    · refine (slice0_apply _ p h).trans ((v35_apply B W hB p f h1' _).trans (Finset.sum_congr rfl fun d _ => ?_))
      exact congrArg (_ * ·) (hB.x9a 1 d h)
    · refine (slice512_apply _ p h).trans ((v32_apply B W hB p f h0 _).trans (Finset.sum_congr rfl fun d _ => ?_))
      exact congrArg (_ * ·) (hB.x9c 0 d h)
    · exact (ld10_2_apply B 0 h).trans (hB.x10 2 h)
  · exact (ld11_2_apply B 0 h).trans (hB.x11 2 h)
  · exact (ld12_2_apply B 0 0).trans (hB.x12 2)

theorem v138_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v138 B (ix2 p q) = sent W f 3 q := by
  unfold v138 k0_pay15
  refine gated_apply _ _ _ _ p q (hid W f 3) (W.rW2 3) (W.rb2 3) (f 1 q) (fun h => ?_) (fun h => ?_) ?_ (h1 q)
  · unfold v121 k0_pay14 cst_51
    refine hidden_apply _ _ _ p h (∑ d, f 1 d * W.rWa 3 d h) (∑ d, f 2 d * W.rWb 3 d h) (W.rb1 3 h) ?_ ?_ ?_
    · refine (slice256_apply _ p h).trans ((v35_apply B W hB p f h1' _).trans (Finset.sum_congr rfl fun d _ => ?_))
      exact congrArg (_ * ·) (hB.x9b 1 d h)
    · refine (slice768_apply _ p h).trans ((v38_apply B W hB p f h2' _).trans (Finset.sum_congr rfl fun d _ => ?_))
      exact congrArg (_ * ·) (hB.x9d 2 d h)
    · exact (ld10_3_apply B 0 h).trans (hB.x10 3 h)
  · exact (ld11_3_apply B 0 h).trans (hB.x11 3 h)
  · exact (ld12_3_apply B 0 0).trans (hB.x12 3)

theorem v163_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v163 B (ix2 p q) = sent W f 4 q := by
  unfold v163 k0_pay16
  refine gated_apply _ _ _ _ p q (hid W f 4) (W.rW2 4) (W.rb2 4) (f 2 q) (fun h => ?_) (fun h => ?_) ?_ (h2 q)
  · refine hidden_apply _ _ _ p h (∑ d, f 2 d * W.rWa 4 d h) (∑ d, f 0 d * W.rWb 4 d h) (W.rb1 4 h) ?_ ?_ ?_
    · refine (slice0_apply _ p h).trans ((v38_apply B W hB p f h2' _).trans (Finset.sum_congr rfl fun d _ => ?_))
      exact congrArg (_ * ·) (hB.x9a 2 d h)
    · refine (slice768_apply _ p h).trans ((v32_apply B W hB p f h0 _).trans (Finset.sum_congr rfl fun d _ => ?_))
      exact congrArg (_ * ·) (hB.x9d 0 d h)
    · exact (ld10_4_apply B 0 h).trans (hB.x10 4 h)
  · exact (ld11_4_apply B 0 h).trans (hB.x11 4 h)
  · exact (ld12_4_apply B 0 0).trans (hB.x12 4)

theorem v188_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v188 B (ix2 p q) = sent W f 5 q := by
  unfold v188 k0_pay18
  refine gated_apply _ _ _ _ p q (hid W f 5) (W.rW2 5) (W.rb2 5) (f 2 q) (fun h => ?_) (fun h => ?_) ?_ (h2 q)
  · unfold v166 k0_pay17
    refine hidden_apply _ _ _ p h (∑ d, f 2 d * W.rWa 5 d h) (∑ d, f 1 d * W.rWb 5 d h) (W.rb1 5 h) ?_ ?_ ?_
    · refine (slice256_apply _ p h).trans ((v38_apply B W hB p f h2' _).trans (Finset.sum_congr rfl fun d _ => ?_))
      exact congrArg (_ * ·) (hB.x9b 2 d h)
    · refine (slice768_apply _ p h).trans ((v35_apply B W hB p f h1' _).trans (Finset.sum_congr rfl fun d _ => ?_))
      exact congrArg (_ * ·) (hB.x9d 1 d h)
    · exact (ld10_5_apply B 0 h).trans (hB.x10 5 h)
  · exact (ld11_5_apply B 0 h).trans (hB.x11 5 h)
  · exact (ld12_5_apply B 0 0).trans (hB.x12 5)

theorem layer1_apply (x : FVec Ideal S512x256 .f32) (w1 : FVec Ideal S1x256x256 .bf16) (b1 : FVec Ideal S1x256 .f32)
    (p : Fin 512) (e : Fin 256) (X Wm : Fin 256 → EReal) (b : EReal)
    (hX : ∀ d, x (ix2 p d) = X d) (hW : ∀ d, w1 (ix3 (0 : Fin 1) d e) = Wm d) (hb : b1 (ix2 (0 : Fin 1) e) = b) :
    maximumf (addf (matmul dot_S512x256_S256x256_S512x256_1_0_0_1_n_n none (truncf .bf16 x bitsLt_bf16_f32)
        (shapeCast S256x256 w1 shapeCasts_S1x256x256_S256x256) (constant S512x256 .f32 0x00000000#32))
      (broadcastTo S512x256 (shapeCast S1x256 (shapeCast S256 b1 shapeCasts_S1x256_S256) shapeCasts_S256_S1x256)
        broadcasts_S1x256_S512x256)) (broadcast S512x256 (Scalar.ofBits .f32 0x00000000#32)) (ix2 p e)
      = relu ((∑ d, X d * Wm d) + b) := by
  rw [maximumf_apply, addf_apply, biasRow_apply, hb, prod256_apply]
  refine congrArg (fun t => max (t + b) _) (Finset.sum_congr rfl fun d _ => ?_)
  rw [truncf_apply, hX, hW]

theorem layer2_apply (y : FVec Ideal S512x256 .f32) (w2 : FVec Ideal S1x256x256 .bf16)
    (p : Fin 512) (e : Fin 256) (Y Wm : Fin 256 → EReal)
    (hY : ∀ d, y (ix2 p d) = Y d) (hW : ∀ d, w2 (ix3 (0 : Fin 1) d e) = Wm d) :
    matmul dot_S512x256_S256x256_S512x256_1_0_0_1_n_n none (truncf .bf16 y bitsLt_bf16_f32)
        (shapeCast S256x256 w2 shapeCasts_S1x256x256_S256x256) (constant S512x256 .f32 0x00000000#32) (ix2 p e)
      = ∑ d, Y d * Wm d := by
  rw [prod256_apply]
  refine Finset.sum_congr rfl fun d _ => ?_
  rw [truncf_apply, hY, hW]

def rowMean (x : FVec Ideal S512x256 .f32) : FVec Ideal S512x1 .f32 :=
  divf (shapeCast S512x1 (multiReduction .add [1] S512 x 0x00000000#32 reduces_S512x256_S512 (.inl rfl) rfl) shapeCasts_S512_S512x1)
    (broadcast S512x1 (Scalar.ofBits .f32 0x43800000#32))

def centred (x : FVec Ideal S512x256 .f32) : FVec Ideal S512x256 .f32 :=
  subf x (broadcastTo S512x256 (rowMean x) broadcasts_S512x1_S512x256)

def rowVar (x : FVec Ideal S512x256 .f32) : FVec Ideal S512x1 .f32 :=
  divf (shapeCast S512x1 (multiReduction .add [1] S512 (mulf (centred x) (centred x)) 0x00000000#32 reduces_S512x256_S512
      (.inl rfl) rfl) shapeCasts_S512_S512x1) (broadcast S512x1 (Scalar.ofBits .f32 0x43800000#32))

def normed (x : FVec Ideal S512x256 .f32) : FVec Ideal S512x256 .f32 :=
  mulf (centred x) (broadcastTo S512x256 (rsqrt (addf (rowVar x) (broadcast S512x1 (Scalar.ofBits .f32 0x3727C5AC#32))))
    broadcasts_S512x1_S512x256)

theorem rowMean_apply (x : FVec Ideal S512x256 .f32) (p : Fin 512) (X : Fin 256 → EReal) (hX : ∀ k, x (ix2 p k) = X k) :
    rowMean x (ix2 p (0 : Fin 1)) = mean X := by
  unfold rowMean mean
  rw [divf_apply, rowSumCol_apply, broadcast_apply]
  exact congrArg (fun t => Ideal.div t _) (Finset.sum_congr rfl fun k _ => hX k)

theorem centred_apply (x : FVec Ideal S512x256 .f32) (p : Fin 512) (q : Fin 256) (X : Fin 256 → EReal)
    (hX : ∀ k, x (ix2 p k) = X k) : centred x (ix2 p q) = X q - mean X := by
  unfold centred
  rw [subf_apply, bcastCol_apply, rowMean_apply x p X hX, hX]

theorem rowVar_apply (x : FVec Ideal S512x256 .f32) (p : Fin 512) (X : Fin 256 → EReal) (hX : ∀ k, x (ix2 p k) = X k) :
    rowVar x (ix2 p (0 : Fin 1)) = var X := by
  unfold rowVar var
  rw [divf_apply, rowSumCol_apply, broadcast_apply]
  refine congrArg (fun t => Ideal.div t _) (Finset.sum_congr rfl fun k _ => ?_)
  rw [mulf_apply, centred_apply x p k X hX]

theorem normed_apply (x : FVec Ideal S512x256 .f32) (p : Fin 512) (q : Fin 256) (X : Fin 256 → EReal)
    (hX : ∀ k, x (ix2 p k) = X k) : normed x (ix2 p q) = (X q - mean X) * Ideal.rsqrt (var X + ceps) := by
  unfold normed
  rw [mulf_apply, bcastCol_apply, rsqrt_apply, addf_apply, broadcast_apply, centred_apply x p q X hX, rowVar_apply x p X hX]
  <;> rfl

theorem lnorm_apply (x : FVec Ideal S512x256 .f32) (g b : FVec Ideal S256 .f32) (p : Fin 512) (q : Fin 256)
    (X G Bv : Fin 256 → EReal) (hX : ∀ k, x (ix2 p k) = X k) (hg : g (ix1 q) = G q) (hb : b (ix1 q) = Bv q) :
    addf (mulf (normed x) (broadcastTo S512x256 (shapeCast S1x256 g shapeCasts_S256_S1x256) broadcasts_S1x256_S512x256))
      (broadcastTo S512x256 (shapeCast S1x256 b shapeCasts_S256_S1x256) broadcasts_S1x256_S512x256) (ix2 p q)
      = lnorm X G Bv q := by
  unfold lnorm
  rw [addf_apply, mulf_apply, biasVec_apply, biasVec_apply, normed_apply x p q X hX, hg, hb]

theorem v205_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (e : Fin 256) :
    v205 B (ix2 p e) = ∑ d, RouteSpec.h2 W f 0 d * W.lW2 0 d e := by
  unfold v205 k0_pay19
  refine layer2_apply _ _ p e (RouteSpec.h2 W f 0) (fun d => W.lW2 0 d e) (fun d => ?_)
    (fun d => (ld15_0_apply B 0 d e).trans (hB.x15 0 d e))
  refine layer1_apply _ _ _ p d (upd W f 0) (fun d' => W.lW1 0 d' d) (W.lb1 0 d) (fun d' => ?_)
    (fun d' => (ld13_0_apply B 0 d' d).trans (hB.x13 0 d' d)) ((ld14_0_apply B 0 d).trans (hB.x14 0 d))
  exact congrArg₂ (· + ·) (h0 d') (congrArg₂ (· + ·) (v113_apply B W hB p f h0 h1 h2 h1' h2' d') (v163_apply B W hB p f h0 h1 h2 h1' h2' d'))

theorem v238_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v238 B (ix2 p q) = step W f 0 q := by
  unfold v238 k0_pay21 v207 k0_pay20
  refine lnorm_apply _ _ _ p q (h3 W f 0) (W.lng 0) (W.lnb 0) (fun e => ?_)
    ((uncastRow_apply _ q).trans ((ld17_0_apply B 0 q).trans (hB.x17 0 q)))
    ((uncastRow_apply _ q).trans ((ld18_0_apply B 0 q).trans (hB.x18 0 q)))
  exact congrArg₂ (· + ·) (v205_apply B W hB p f h0 h1 h2 h1' h2' e)
    ((biasRow_apply _ p e).trans ((ld16_0_apply B 0 e).trans (hB.x16 0 e)))

theorem v251_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (e : Fin 256) :
    v251 B (ix2 p e) = RouteSpec.h2 W f 1 e := by
  unfold v251 k0_pay22
  refine layer1_apply _ _ _ p e (upd W f 1) (fun d => W.lW1 1 d e) (W.lb1 1 e) (fun d => ?_)
    (fun d => (ld13_1_apply B 0 d e).trans (hB.x13 1 d e)) ((ld14_1_apply B 0 e).trans (hB.x14 1 e))
  exact congrArg₂ (· + ·) (h1 d) (congrArg₂ (· + ·) (v63_apply B W hB p f h0 h1 h2 h1' h2' d) (v188_apply B W hB p f h0 h1 h2 h1' h2' d))

theorem v288_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v288 B (ix2 p q) = step W f 1 q := by
  unfold v288 k0_pay23
  refine lnorm_apply _ _ _ p q (h3 W f 1) (W.lng 1) (W.lnb 1) (fun e => ?_)
    ((uncastRow_apply _ q).trans ((ld17_1_apply B 0 q).trans (hB.x17 1 q)))
    ((uncastRow_apply _ q).trans ((ld18_1_apply B 0 q).trans (hB.x18 1 q)))
  exact congrArg₂ (· + ·)
    (layer2_apply _ _ p e (RouteSpec.h2 W f 1) (fun d => W.lW2 1 d e) (fun d => v251_apply B W hB p f h0 h1 h2 h1' h2' d)
      (fun d => (ld15_1_apply B 0 d e).trans (hB.x15 1 d e)))
    ((biasRow_apply _ p e).trans ((ld16_1_apply B 0 e).trans (hB.x16 1 e)))

theorem v338_apply (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q) (q : Fin 256) :
    v338 B (ix2 p q) = step W f 2 q := by
  unfold v338 k0_pay29 v332 k0_pay27 v334 k0_pay28 v314 k0_pay26 v291 k0_pay24 v293 k0_pay25
  refine lnorm_apply _ _ _ p q (h3 W f 2) (W.lng 2) (W.lnb 2) (fun e => ?_)
    ((uncastRow_apply _ q).trans ((ld17_2_apply B 0 q).trans (hB.x17 2 q)))
    ((uncastRow_apply _ q).trans ((ld18_2_apply B 0 q).trans (hB.x18 2 q)))
  refine congrArg₂ (· + ·)
    (layer2_apply _ _ p e (RouteSpec.h2 W f 2) (fun d => W.lW2 2 d e) (fun d => ?_)
      (fun d => (ld15_2_apply B 0 d e).trans (hB.x15 2 d e)))
    ((biasRow_apply _ p e).trans ((ld16_2_apply B 0 e).trans (hB.x16 2 e)))
  refine layer1_apply _ _ _ p d (upd W f 2) (fun d' => W.lW1 2 d' d) (W.lb1 2 d) (fun d' => ?_)
    (fun d' => (ld13_2_apply B 0 d' d).trans (hB.x13 2 d' d)) ((ld14_2_apply B 0 d).trans (hB.x14 2 d))
  exact congrArg₂ (· + ·) (h2 d') (congrArg₂ (· + ·) (v88_apply B W hB p f h0 h1 h2 h1' h2' d') (v138_apply B W hB p f h0 h1 h2 h1' h2' d'))

end R1

theorem round1 (B : Blocks Ideal) (W : Wts) (hB : BlocksOK B W) (p : Fin 512) (f : Feats)
    (h0 : ∀ q : Fin 256, v8 B (ix2 p q) = f 0 q) (h1 : ∀ q : Fin 256, v17 B (ix2 p q) = f 1 q)
    (h2 : ∀ q : Fin 256, v26 B (ix2 p q) = f 2 q)
    (h1' : ∀ q : Fin 256, v28 B (ix2 p q) = f 1 q) (h2' : ∀ q : Fin 256, v29 B (ix2 p q) = f 2 q)
    (hx0 : ∀ k : Fin 128, B.x0 (ix2 p k) = rowF B p k) :
    (∀ q : Fin 256, v238 B (ix2 p q) = step W f 0 q) ∧ (∀ q : Fin 256, v288 B (ix2 p q) = step W f 1 q)
      ∧ (∀ q : Fin 256, v338 B (ix2 p q) = step W f 2 q) :=
  ⟨R1.v238_apply B W hB p f h0 h1 h2 h1' h2', R1.v288_apply B W hB p f h0 h1 h2 h1' h2', R1.v338_apply B W hB p f h0 h1 h2 h1' h2'⟩

end Cert.KernelIdeal.Body

end
-- ==== Proof.KValR2b.lean ====
import proofs.«429394_j28956669510180_3_alg».proof.Proof.KIface
import proofs.«429394_j28956669510180_3_alg».proof.Proof.KOps
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx RouteSpec

theorem pay52_apply (g b : FVec Ideal S256 .f32) (vv : FVec Ideal S512x1 .f32) (dd : FVec Ideal S512x256 .f32)
    (ee : FVec Ideal S512x1 .f32) (p : Fin 512) (q : Fin 256) :
    k0_pay52 g b vv dd ee (ix2 p q)
      = dd (ix2 p q) * Ideal.rsqrt (vv (ix2 p (0 : Fin 1)) + ee (ix2 p (0 : Fin 1))) * g (ix1 q) + b (ix1 q) := by
  unfold k0_pay52
  simp only [addf_apply, mulf_apply, bcastCol_apply, bcastRow_apply, castRow_apply, rsqrt_apply]

theorem pay45_apply (X : FVec Ideal S512x256 .f32) (w1 : Vec Ideal S1x256x256 .bf16) (b1 : Vec Ideal S1x256 .f32)
    (w2 : Vec Ideal S1x256x256 .bf16) (b2 : Vec Ideal S1x256 .f32) (p : Fin 512) (e : Fin 256) :
    k0_pay45 X w1 b1 w2 b2 (ix2 p e)
      = (∑ d : Fin 256, max ((∑ c : Fin 256, X (ix2 p c) * w1 (ix3 (0 : Fin 1) c d)) + b1 (ix2 (0 : Fin 1) d)) c0
            * w2 (ix3 (0 : Fin 1) d e)) + b2 (ix2 (0 : Fin 1) e) := by
  unfold k0_pay45
  simp only [addf_apply, mm256_apply, truncf_apply, maximumf_apply, broadcast_apply, bcastRow_apply, castRow_apply,
    uncastRow_apply, castW256_apply]
  rfl

theorem pay48_apply (X : FVec Ideal S512x256 .f32) (w1 : Vec Ideal S1x256x256 .bf16) (b1 : Vec Ideal S1x256 .f32)
    (w2 : Vec Ideal S1x256x256 .bf16) (b2 : Vec Ideal S1x256 .f32) (p : Fin 512) (u : Fin 1) :
    k0_pay48 X w1 b1 w2 b2 (ix2 p u) = mean fun k => k0_pay45 X w1 b1 w2 b2 (ix2 p k) := by
  unfold k0_pay48
  simp only [divf_apply, castCol_apply, broadcast_apply]
  rw [rowSum_apply]
  rfl

theorem pay50_apply (X : FVec Ideal S512x256 .f32) (w1 : Vec Ideal S1x256x256 .bf16) (b1 : Vec Ideal S1x256 .f32)
    (w2 : Vec Ideal S1x256x256 .bf16) (b2 : Vec Ideal S1x256 .f32) (p : Fin 512) (q : Fin 256) :
    k0_pay50 X w1 b1 w2 b2 (ix2 p q)
      = k0_pay45 X w1 b1 w2 b2 (ix2 p q) - mean fun k => k0_pay45 X w1 b1 w2 b2 (ix2 p k) := by
  unfold k0_pay50
  simp only [subf_apply, bcastCol_apply, pay48_apply]

theorem pay49_apply (X : FVec Ideal S512x256 .f32) (w1 : Vec Ideal S1x256x256 .bf16) (b1 : Vec Ideal S1x256 .f32)
    (w2 : Vec Ideal S1x256x256 .bf16) (b2 : Vec Ideal S1x256 .f32) (p : Fin 512) (u : Fin 1) :
    k0_pay49 X w1 b1 w2 b2 (ix2 p u) = var fun k => k0_pay45 X w1 b1 w2 b2 (ix2 p k) := by
  unfold k0_pay49
  simp only [divf_apply, castCol_apply, broadcast_apply]
  rw [rowSum_apply]
  simp only [mulf_apply, subf_apply, bcastCol_apply, pay48_apply]
  rfl

theorem pay51_apply (p : Fin 512) (u : Fin 1) : k0_pay51 (F := Ideal) (ix2 p u) = ceps := rfl

theorem level1_r2 (B : Blocks Ideal) (W : Wts) (hB : BlocksOK B W) (p : Fin 512) (g : Feats)
    (hu : ∀ d : Fin 256, v552 B (ix2 p d) = upd W g 1 d) : ∀ q : Fin 256, v600 B (ix2 p q) = step W g 1 q := by
  intro q
  have hx : (fun k => k0_pay45 (v552 B) (ld13_1 B) (ld14_1 B) (ld15_1 B) (ld16_1 B) (ix2 p k)) = h3 W g 1 := by
    funext k
    rw [pay45_apply]
    simp only [hu, ld13_1_apply, ld14_1_apply, ld15_1_apply, ld16_1_apply, hB.x13, hB.x14, hB.x15, hB.x16]
    rfl
  have hxq : k0_pay45 (v552 B) (ld13_1 B) (ld14_1 B) (ld15_1 B) (ld16_1 B) (ix2 p q) = h3 W g 1 q := congrFun hx q
  unfold v600 v574 v576 v587 v589 v590 k0_pay46 k0_pay47
  rw [pay52_apply, pay49_apply, pay50_apply, pay51_apply, hx, hxq]
  simp only [uncastRow_apply, ld17_1_apply, ld18_1_apply, hB.x17, hB.x18]
  rfl

theorem pay53_eq (a b c : FVec Ideal S512x256 .f32) (w1 : Vec Ideal S1x256x256 .bf16) (b1 : Vec Ideal S1x256 .f32)
    (w2 : Vec Ideal S1x256x256 .bf16) (b2 : Vec Ideal S1x256 .f32) :
    k0_pay53 a b c w1 b1 w2 b2 = k0_pay45 (addf a (addf b c)) w1 b1 w2 b2 := rfl

theorem pay56_apply (a b c : FVec Ideal S512x256 .f32) (w1 : Vec Ideal S1x256x256 .bf16) (b1 : Vec Ideal S1x256 .f32)
    (w2 : Vec Ideal S1x256x256 .bf16) (b2 : Vec Ideal S1x256 .f32) (p : Fin 512) (u : Fin 1) :
    k0_pay56 a b c w1 b1 w2 b2 (ix2 p u) = mean fun k => k0_pay53 a b c w1 b1 w2 b2 (ix2 p k) := by
  unfold k0_pay56
  simp only [divf_apply, castCol_apply, broadcast_apply]
  rw [rowSum_apply]
  rfl

theorem pay57_apply (a b c : FVec Ideal S512x256 .f32) (w1 : Vec Ideal S1x256x256 .bf16) (b1 : Vec Ideal S1x256 .f32)
    (w2 : Vec Ideal S1x256x256 .bf16) (b2 : Vec Ideal S1x256 .f32) (p : Fin 512) (q : Fin 256) :
    k0_pay57 a b c w1 b1 w2 b2 (ix2 p q) = mean fun k => k0_pay53 a b c w1 b1 w2 b2 (ix2 p k) := by
  unfold k0_pay57
  simp only [bcastCol_apply, pay56_apply]

theorem pay58_apply (H : FVec Ideal S512x256 .f32) (g b : FVec Ideal S256 .f32) (m : FVec Ideal S512x1 .f32)
    (mb : FVec Ideal S512x256 .f32) (p : Fin 512) (q : Fin 256) :
    k0_pay58 H g b m mb (ix2 p q)
      = (H (ix2 p q) - m (ix2 p (0 : Fin 1)))
          * Ideal.rsqrt (Ideal.div (∑ k : Fin 256, (H (ix2 p k) - mb (ix2 p k)) * (H (ix2 p k) - mb (ix2 p k))) c256 + ceps)
          * g (ix1 q) + b (ix1 q) := by
  unfold k0_pay58
  simp only [addf_apply, mulf_apply, subf_apply, divf_apply, bcastCol_apply, bcastRow_apply, castRow_apply, castCol_apply,
    rsqrt_apply, broadcast_apply]
  rw [rowSum_apply]
  simp only [mulf_apply, subf_apply]
  rfl

theorem level2_r2 (B : Blocks Ideal) (W : Wts) (hB : BlocksOK B W) (p : Fin 512) (g : Feats)
    (h338 : ∀ d : Fin 256, v338 B (ix2 p d) = g 2 d) (h400 : ∀ d : Fin 256, v400 B (ix2 p d) = sent W g 1 d)
    (h450 : ∀ d : Fin 256, v450 B (ix2 p d) = sent W g 3 d) : ∀ q : Fin 256, v650 B (ix2 p q) = step W g 2 q := by
  intro q
  have hX : ∀ d : Fin 256, addf (v338 B) (addf (v400 B) (v450 B)) (ix2 p d) = upd W g 2 d := by
    intro d; rw [addf_apply, addf_apply, h338, h400, h450]; rfl
  have hx : ∀ k : Fin 256,
      k0_pay53 (v338 B) (v400 B) (v450 B) (ld13_2 B) (ld14_2 B) (ld15_2 B) (ld16_2 B) (ix2 p k) = h3 W g 2 k := by
    intro k
    rw [pay53_eq, pay45_apply]
    simp only [hX, ld13_2_apply, ld14_2_apply, ld15_2_apply, ld16_2_apply, hB.x13, hB.x14, hB.x15, hB.x16]
    rfl
  unfold v650 v622 v624 v626 v630 v631 k0_pay54 k0_pay55
  rw [pay58_apply]
  simp only [pay56_apply, pay57_apply, hx, uncastRow_apply, ld17_2_apply, ld18_2_apply, hB.x17, hB.x18]
  rfl

end Cert.KernelIdeal.Body

end
-- ==== Proof.KValR2.lean ====
import proofs.«429394_j28956669510180_3_alg».proof.Proof.KIface
import proofs.«429394_j28956669510180_3_alg».proof.Proof.KOps
import proofs.«429394_j28956669510180_3_alg».proof.Proof.KValR2b
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx RouteSpec

namespace R2

section Products
variable (B : Blocks Ideal) (p : Fin 512) (f : Feats)

theorem v344_apply (h0 : ∀ q : Fin 256, v238 B (ix2 p q) = f 0 q) (c : Fin 1024) :
    v344 B (ix2 p c) = ∑ d : Fin 256, f 0 d * B.x9 (ix3 (0 : Fin 3) d c) := by
  unfold v344 k0_pay30
  refine (mm1024_apply _ _ p c).trans (Finset.sum_congr rfl fun d _ => ?_)
  rw [truncf_apply, h0, castW1024_apply, ld9_0_apply]

theorem v347_apply (h1 : ∀ q : Fin 256, v288 B (ix2 p q) = f 1 q) (c : Fin 1024) :
    v347 B (ix2 p c) = ∑ d : Fin 256, f 1 d * B.x9 (ix3 (1 : Fin 3) d c) := by
  unfold v347 k0_pay31
  refine (mm1024_apply _ _ p c).trans (Finset.sum_congr rfl fun d _ => ?_)
  rw [truncf_apply, h1, castW1024_apply, ld9_1_apply]

theorem v350_apply (h2 : ∀ q : Fin 256, v338 B (ix2 p q) = f 2 q) (c : Fin 1024) :
    v350 B (ix2 p c) = ∑ d : Fin 256, f 2 d * B.x9 (ix3 (2 : Fin 3) d c) := by
  unfold v350 k0_pay32
  refine (mm1024_apply _ _ p c).trans (Finset.sum_congr rfl fun d _ => ?_)
  rw [truncf_apply, castW1024_apply, ld9_2_apply]
  exact congrArg (· * _) (h2 d)

end Products

section Bands
variable (B : Blocks Ideal) (W : Wts) (hB : BlocksOK B W) (p : Fin 512) (f : Feats)
include hB

theorem Y0a (h0 : ∀ q : Fin 256, v238 B (ix2 p q) = f 0 q) (h : Fin 256) (pf : h.val < 1024) :
    v344 B (ix2 p (⟨h.val, pf⟩ : Fin 1024)) = ∑ d : Fin 256, f 0 d * W.rWa 0 d h := by
  rw [v344_apply B p f h0]
  exact Finset.sum_congr rfl fun d _ => congrArg (f 0 d * ·) (hB.x9a 0 d h)

theorem Y0b (h0 : ∀ q : Fin 256, v238 B (ix2 p q) = f 0 q) (h : Fin 256) (pf : 256 + h.val < 1024) :
    v344 B (ix2 p (⟨256 + h.val, pf⟩ : Fin 1024)) = ∑ d : Fin 256, f 0 d * W.rWa 1 d h := by
  rw [v344_apply B p f h0]
  exact Finset.sum_congr rfl fun d _ => congrArg (f 0 d * ·) (hB.x9b 0 d h)

theorem Y0c (h0 : ∀ q : Fin 256, v238 B (ix2 p q) = f 0 q) (h : Fin 256) (pf : 512 + h.val < 1024) :
    v344 B (ix2 p (⟨512 + h.val, pf⟩ : Fin 1024)) = ∑ d : Fin 256, f 0 d * W.rWb 2 d h := by
  rw [v344_apply B p f h0]
  exact Finset.sum_congr rfl fun d _ => congrArg (f 0 d * ·) (hB.x9c 0 d h)

theorem Y0d (h0 : ∀ q : Fin 256, v238 B (ix2 p q) = f 0 q) (h : Fin 256) (pf : 768 + h.val < 1024) :
    v344 B (ix2 p (⟨768 + h.val, pf⟩ : Fin 1024)) = ∑ d : Fin 256, f 0 d * W.rWb 4 d h := by
  rw [v344_apply B p f h0]
  exact Finset.sum_congr rfl fun d _ => congrArg (f 0 d * ·) (hB.x9d 0 d h)

theorem Y1a (h1 : ∀ q : Fin 256, v288 B (ix2 p q) = f 1 q) (h : Fin 256) (pf : h.val < 1024) :
    v347 B (ix2 p (⟨h.val, pf⟩ : Fin 1024)) = ∑ d : Fin 256, f 1 d * W.rWa 2 d h := by
  rw [v347_apply B p f h1]
  exact Finset.sum_congr rfl fun d _ => congrArg (f 1 d * ·) (hB.x9a 1 d h)

theorem Y1b (h1 : ∀ q : Fin 256, v288 B (ix2 p q) = f 1 q) (h : Fin 256) (pf : 256 + h.val < 1024) :
    v347 B (ix2 p (⟨256 + h.val, pf⟩ : Fin 1024)) = ∑ d : Fin 256, f 1 d * W.rWa 3 d h := by
  rw [v347_apply B p f h1]
  exact Finset.sum_congr rfl fun d _ => congrArg (f 1 d * ·) (hB.x9b 1 d h)

theorem Y1c (h1 : ∀ q : Fin 256, v288 B (ix2 p q) = f 1 q) (h : Fin 256) (pf : 512 + h.val < 1024) :
    v347 B (ix2 p (⟨512 + h.val, pf⟩ : Fin 1024)) = ∑ d : Fin 256, f 1 d * W.rWb 0 d h := by
  rw [v347_apply B p f h1]
  exact Finset.sum_congr rfl fun d _ => congrArg (f 1 d * ·) (hB.x9c 1 d h)

theorem Y1d (h1 : ∀ q : Fin 256, v288 B (ix2 p q) = f 1 q) (h : Fin 256) (pf : 768 + h.val < 1024) :
    v347 B (ix2 p (⟨768 + h.val, pf⟩ : Fin 1024)) = ∑ d : Fin 256, f 1 d * W.rWb 5 d h := by
  rw [v347_apply B p f h1]
  exact Finset.sum_congr rfl fun d _ => congrArg (f 1 d * ·) (hB.x9d 1 d h)

theorem Y2a (h2 : ∀ q : Fin 256, v338 B (ix2 p q) = f 2 q) (h : Fin 256) (pf : h.val < 1024) :
    v350 B (ix2 p (⟨h.val, pf⟩ : Fin 1024)) = ∑ d : Fin 256, f 2 d * W.rWa 4 d h := by
  rw [v350_apply B p f h2]
  exact Finset.sum_congr rfl fun d _ => congrArg (f 2 d * ·) (hB.x9a 2 d h)

theorem Y2b (h2 : ∀ q : Fin 256, v338 B (ix2 p q) = f 2 q) (h : Fin 256) (pf : 256 + h.val < 1024) :
    v350 B (ix2 p (⟨256 + h.val, pf⟩ : Fin 1024)) = ∑ d : Fin 256, f 2 d * W.rWa 5 d h := by
  rw [v350_apply B p f h2]
  exact Finset.sum_congr rfl fun d _ => congrArg (f 2 d * ·) (hB.x9b 2 d h)

theorem Y2c (h2 : ∀ q : Fin 256, v338 B (ix2 p q) = f 2 q) (h : Fin 256) (pf : 512 + h.val < 1024) :
    v350 B (ix2 p (⟨512 + h.val, pf⟩ : Fin 1024)) = ∑ d : Fin 256, f 2 d * W.rWb 1 d h := by
  rw [v350_apply B p f h2]
  exact Finset.sum_congr rfl fun d _ => congrArg (f 2 d * ·) (hB.x9c 2 d h)

theorem Y2d (h2 : ∀ q : Fin 256, v338 B (ix2 p q) = f 2 q) (h : Fin 256) (pf : 768 + h.val < 1024) :
    v350 B (ix2 p (⟨768 + h.val, pf⟩ : Fin 1024)) = ∑ d : Fin 256, f 2 d * W.rWb 3 d h := by
  rw [v350_apply B p f h2]
  exact Finset.sum_congr rfl fun d _ => congrArg (f 2 d * ·) (hB.x9d 2 d h)

end Bands

local macro "kpush" : tactic => `(tactic| simp only [mulf_apply, addf_apply, subf_apply, divf_apply, maximumf_apply, truncf_apply,
  broadcast_apply, logistic_apply, rsqrt_apply, castRow_apply, uncastRow_apply, castCol_apply, cast11_1_apply, cast1_11_apply,
  bcastRow_apply, bcastCol_apply, bcast11_apply, slice0_apply, slice256_apply, slice512_apply, slice768_apply])

section Pairs
variable (B : Blocks Ideal) (W : Wts) (hB : BlocksOK B W) (p : Fin 512) (f : Feats)
include hB

theorem v374_apply (h0 : ∀ q : Fin 256, v238 B (ix2 p q) = f 0 q) (h1 : ∀ q : Fin 256, v288 B (ix2 p q) = f 1 q) (q : Fin 256) :
    v374 B (ix2 p q) = gate W f 0 := by
  unfold v374 k0_pay33
  kpush
  rw [rowSum_apply]
  kpush
  simp only [show k0_pay30 (v238 B) (ld9_0 B) = v344 B from rfl, show k0_pay31 (v288 B) (ld9_1 B) = v347 B from rfl,
    ld10_0_apply, ld11_0_apply, ld12_0_apply, hB.x10, hB.x11, hB.x12, Y0a B W hB p f h0, Y1c B W hB p f h1]
  rfl

theorem v375_apply (h0 : ∀ q : Fin 256, v238 B (ix2 p q) = f 0 q) (h1 : ∀ q : Fin 256, v288 B (ix2 p q) = f 1 q) (q : Fin 256) :
    v375 B (ix2 p q) = sent W f 0 q := by
  unfold v375 k0_pay34
  rw [mulf_apply, v374_apply B W hB p f h0 h1, h0]
  rfl

theorem v400_apply (h0 : ∀ q : Fin 256, v238 B (ix2 p q) = f 0 q) (h2 : ∀ q : Fin 256, v338 B (ix2 p q) = f 2 q) (q : Fin 256) :
    v400 B (ix2 p q) = sent W f 1 q := by
  unfold v400 k0_pay35
  kpush
  rw [rowSum_apply]
  kpush
  simp only [ld10_1_apply, ld11_1_apply, ld12_1_apply, hB.x10, hB.x11, hB.x12, Y0b B W hB p f h0, Y2c B W hB p f h2, h0]
  rfl

theorem v417_apply (h0 : ∀ q : Fin 256, v238 B (ix2 p q) = f 0 q) (h1 : ∀ q : Fin 256, v288 B (ix2 p q) = f 1 q) (u : Fin 1) :
    v417 B (ix2 p u) = ∑ h : Fin 256, hid W f 2 h * W.rW2 2 h := by
  unfold v417 k0_pay36
  rw [castCol_apply, rowSum_apply]
  kpush
  simp only [ld10_2_apply, ld11_2_apply, hB.x10, hB.x11, Y1a B W hB p f h1, Y0c B W hB p f h0]
  rfl

theorem v425_apply (h0 : ∀ q : Fin 256, v238 B (ix2 p q) = f 0 q) (h1 : ∀ q : Fin 256, v288 B (ix2 p q) = f 1 q) (q : Fin 256) :
    v425 B (ix2 p q) = sent W f 2 q := by
  unfold v425 v418 k0_pay37
  kpush
  simp only [v417_apply B W hB p f h0 h1, ld12_2_apply, hB.x12, h1]
  rfl

theorem v450_apply (h1 : ∀ q : Fin 256, v288 B (ix2 p q) = f 1 q) (h2 : ∀ q : Fin 256, v338 B (ix2 p q) = f 2 q) (q : Fin 256) :
    v450 B (ix2 p q) = sent W f 3 q := by
  unfold v450 k0_pay38
  kpush
  rw [rowSum_apply]
  kpush
  simp only [ld10_3_apply, ld11_3_apply, ld12_3_apply, hB.x10, hB.x11, hB.x12, Y1b B W hB p f h1, Y2d B W hB p f h2, h1]
  rfl

theorem v465_apply (h0 : ∀ q : Fin 256, v238 B (ix2 p q) = f 0 q) (h2 : ∀ q : Fin 256, v338 B (ix2 p q) = f 2 q) (h : Fin 256) :
    v465 B (ix2 p h) = hid W f 4 h * W.rW2 4 h := by
  unfold v465 k0_pay39
  kpush
  simp only [ld10_4_apply, ld11_4_apply, hB.x10, hB.x11, Y2a B W hB p f h2, Y0d B W hB p f h0]
  rfl

theorem v500_apply (h1 : ∀ q : Fin 256, v288 B (ix2 p q) = f 1 q) (h2 : ∀ q : Fin 256, v338 B (ix2 p q) = f 2 q) (q : Fin 256) :
    v500 B (ix2 p q) = sent W f 5 q := by
  unfold v500 k0_pay40
  kpush
  rw [rowSum_apply]
  kpush
  simp only [ld10_5_apply, ld11_5_apply, ld12_5_apply, hB.x10, hB.x11, hB.x12, Y2b B W hB p f h2, Y1d B W hB p f h1, h2]
  rfl

end Pairs

section Level0
variable (B : Blocks Ideal) (W : Wts) (p : Fin 512) (f : Feats)

private theorem lnK (x : FVec Ideal S512x256 .f32) (g b : FVec Ideal S256 .f32) (xr gr br : Fin 256 → EReal)
    (hx : ∀ e : Fin 256, x (ix2 p e) = xr e) (hg : ∀ e : Fin 256, g (ix1 e) = gr e) (hb : ∀ e : Fin 256, b (ix1 e) = br e)
    (q : Fin 256) : k0_pay91 x g b (ix2 p q) = lnorm xr gr br q := by
  unfold k0_pay91
  kpush
  rw [rowSum_apply, rowSum_apply]
  kpush
  rw [rowSum_apply]
  simp only [hx, hg, hb]
  rfl

private def x522 (B : Blocks Ideal) : FVec Ideal S512x256 .f32 :=
  addf (matmul dot_S512x256_S256x256_S512x256_1_0_0_1_n_n none
      (truncf .bf16 (maximumf (addf (v506 B) (broadcastTo S512x256 (shapeCast S1x256 (v508 B) shapeCasts_S256_S1x256)
          broadcasts_S1x256_S512x256)) (broadcast S512x256 (Scalar.ofBits .f32 0x00000000#32 : Ideal .f32))) bitsLt_bf16_f32 : FVec Ideal S512x256 .bf16)
      (shapeCast S256x256 (ld15_0 B) shapeCasts_S1x256x256_S256x256 : FVec Ideal S256x256 .bf16) (constant S512x256 .f32 0x00000000#32))
    (broadcastTo S512x256 (shapeCast S1x256 (shapeCast S256 (ld16_0 B) shapeCasts_S1x256_S256) shapeCasts_S256_S1x256)
      broadcasts_S1x256_S512x256)

private theorem v550_eq : v550 B = k0_pay91 (x522 B) (shapeCast S256 (ld17_0 B) shapeCasts_S1x256_S256)
    (shapeCast S256 (ld18_0 B) shapeCasts_S1x256_S256) := rfl

variable (hB : BlocksOK B W)
include hB

theorem v506_apply (h0 : ∀ q : Fin 256, v238 B (ix2 p q) = f 0 q) (h1 : ∀ q : Fin 256, v288 B (ix2 p q) = f 1 q) (h2 : ∀ q : Fin 256, v338 B (ix2 p q) = f 2 q) (e : Fin 256) :
    v506 B (ix2 p e) = ∑ d : Fin 256, upd W f 0 d * W.lW1 0 d e := by
  unfold v506 k0_pay41
  refine (mm256_apply _ _ p e).trans (Finset.sum_congr rfl fun d _ => ?_)
  kpush
  rw [rowSum_apply]
  simp only [v465_apply B W hB p f h0 h2, v425_apply B W hB p f h0 h1, ld12_4_apply, hB.x12, h0, h2, castW256_apply,
    ld13_0_apply, hB.x13]
  rfl

private theorem x522_apply (h0 : ∀ q : Fin 256, v238 B (ix2 p q) = f 0 q) (h1 : ∀ q : Fin 256, v288 B (ix2 p q) = f 1 q) (h2 : ∀ q : Fin 256, v338 B (ix2 p q) = f 2 q) (e : Fin 256) :
    x522 B (ix2 p e) = h3 W f 0 e := by
  unfold x522 v508 k0_pay42
  simp only [addf_apply, mm256_apply, truncf_apply, maximumf_apply, broadcast_apply, bcastRow_apply, castRow_apply,
    uncastRow_apply, castW256_apply, v506_apply B W p f hB h0 h1 h2, ld14_0_apply, ld15_0_apply, ld16_0_apply, hB.x14, hB.x15,
    hB.x16]
  rfl

theorem v550_apply (h0 : ∀ q : Fin 256, v238 B (ix2 p q) = f 0 q) (h1 : ∀ q : Fin 256, v288 B (ix2 p q) = f 1 q) (h2 : ∀ q : Fin 256, v338 B (ix2 p q) = f 2 q) (q : Fin 256) :
    v550 B (ix2 p q) = step W f 0 q := by
  rw [v550_eq]
  refine lnK p (x522 B) _ _ (h3 W f 0) (W.lng 0) (W.lnb 0) (x522_apply B W p f hB h0 h1 h2) (fun e => ?_) (fun e => ?_) q
  · rw [uncastRow_apply, ld17_0_apply, hB.x17]
  · rw [uncastRow_apply, ld18_0_apply, hB.x18]

theorem v552_apply (h0 : ∀ q : Fin 256, v238 B (ix2 p q) = f 0 q) (h1 : ∀ q : Fin 256, v288 B (ix2 p q) = f 1 q) (h2 : ∀ q : Fin 256, v338 B (ix2 p q) = f 2 q) (q : Fin 256) :
    v552 B (ix2 p q) = upd W f 1 q := by
  unfold v552 k0_pay44
  rw [addf_apply, addf_apply, h1, v375_apply B W hB p f h0 h1, v500_apply B W hB p f h1 h2]
  rfl

end Level0

end R2

theorem round2 (B : Blocks Ideal) (W : Wts) (hB : BlocksOK B W) (p : Fin 512) (f : Feats)
    (h0 : ∀ q : Fin 256, v238 B (ix2 p q) = f 0 q) (h1 : ∀ q : Fin 256, v288 B (ix2 p q) = f 1 q)
    (h2 : ∀ q : Fin 256, v338 B (ix2 p q) = f 2 q) :
    (∀ q : Fin 256, v550 B (ix2 p q) = step W f 0 q) ∧ (∀ q : Fin 256, v600 B (ix2 p q) = step W f 1 q)
      ∧ (∀ q : Fin 256, v650 B (ix2 p q) = step W f 2 q) :=
  ⟨R2.v550_apply B W p f hB h0 h1 h2,
    level1_r2 B W hB p f (R2.v552_apply B W p f hB h0 h1 h2),
    level2_r2 B W hB p f h2 (R2.v400_apply B W hB p f h0 h2) (R2.v450_apply B W hB p f h1 h2)⟩

end Cert.KernelIdeal.Body

end
-- ==== Proof.KValR3.lean ====
import proofs.«429394_j28956669510180_3_alg».proof.Proof.KIface
import proofs.«429394_j28956669510180_3_alg».proof.Proof.KOps
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx RouteSpec

namespace R3

section Round3
variable {B : Blocks Ideal} {W : Wts} {p : Fin 512} {f : Feats}

theorem v656_apply (h0 : ∀ q : Fin 256, v550 B (ix2 p q) = f 0 q) (c : Fin 1024) :
    v656 B (ix2 p c) = ∑ k : Fin 256, f 0 k * B.x9 (ix3 (0 : Fin 3) k c) := by
  unfold v656 k0_pay59
  simp only [mm1024_apply, truncf_apply, castW1024_apply, ld9_0_apply, h0]

theorem v659_apply (h1 : ∀ q : Fin 256, v600 B (ix2 p q) = f 1 q) (c : Fin 1024) :
    v659 B (ix2 p c) = ∑ k : Fin 256, f 1 k * B.x9 (ix3 (1 : Fin 3) k c) := by
  unfold v659 k0_pay60
  simp only [mm1024_apply, truncf_apply, castW1024_apply, ld9_1_apply, h1]

theorem v662_apply (h2 : ∀ q : Fin 256, v650 B (ix2 p q) = f 2 q) (c : Fin 1024) :
    v662 B (ix2 p c) = ∑ k : Fin 256, f 2 k * B.x9 (ix3 (2 : Fin 3) k c) := by
  unfold v662 k0_pay61
  simp only [mm1024_apply, truncf_apply, castW1024_apply, ld9_2_apply]
  exact Finset.sum_congr rfl fun k _ => congrArg (· * B.x9 (ix3 (2 : Fin 3) k c)) (h2 k)

theorem band0 (hB : BlocksOK B W) (l : Fin 3) (g : Fin 256 → EReal) (Y : FVec Ideal S512x1024 .f32)
    (hY : ∀ c : Fin 1024, Y (ix2 p c) = ∑ k : Fin 256, g k * B.x9 (ix3 l k c)) (h : Fin 256) :
    extractStridedSlice S512x256 ![0, 0] Y slices_S512x1024_o0_0_S512x256 (ix2 p h) = ∑ k : Fin 256, g k * W.rWa (sa l) k h := by
  rw [slice0_apply, hY]
  exact Finset.sum_congr rfl fun k _ => by rw [hB.x9a]
theorem band256 (hB : BlocksOK B W) (l : Fin 3) (g : Fin 256 → EReal) (Y : FVec Ideal S512x1024 .f32)
    (hY : ∀ c : Fin 1024, Y (ix2 p c) = ∑ k : Fin 256, g k * B.x9 (ix3 l k c)) (h : Fin 256) :
    extractStridedSlice S512x256 ![0, 256] Y slices_S512x1024_o0_256_S512x256 (ix2 p h) = ∑ k : Fin 256, g k * W.rWa (sb l) k h := by
  rw [slice256_apply, hY]
  exact Finset.sum_congr rfl fun k _ => by rw [hB.x9b]
theorem band512 (hB : BlocksOK B W) (l : Fin 3) (g : Fin 256 → EReal) (Y : FVec Ideal S512x1024 .f32)
    (hY : ∀ c : Fin 1024, Y (ix2 p c) = ∑ k : Fin 256, g k * B.x9 (ix3 l k c)) (h : Fin 256) :
    extractStridedSlice S512x256 ![0, 512] Y slices_S512x1024_o0_512_S512x256 (ix2 p h) = ∑ k : Fin 256, g k * W.rWb (pa l) k h := by
  rw [slice512_apply, hY]
  exact Finset.sum_congr rfl fun k _ => by rw [hB.x9c]
theorem band768 (hB : BlocksOK B W) (l : Fin 3) (g : Fin 256 → EReal) (Y : FVec Ideal S512x1024 .f32)
    (hY : ∀ c : Fin 1024, Y (ix2 p c) = ∑ k : Fin 256, g k * B.x9 (ix3 l k c)) (h : Fin 256) :
    extractStridedSlice S512x256 ![0, 768] Y slices_S512x1024_o0_768_S512x256 (ix2 p h) = ∑ k : Fin 256, g k * W.rWb (pb l) k h := by
  rw [slice768_apply, hY]
  exact Finset.sum_congr rfl fun k _ => by rw [hB.x9d]

theorem hidForm (S T : FVec Ideal S512x256 .f32) (r : S1x256.Idx → EReal) (h : Fin 256) :
    maximumf (addf (addf S T) (broadcastTo S512x256 (shapeCast S1x256 (shapeCast S256 r shapeCasts_S1x256_S256)
        shapeCasts_S256_S1x256) broadcasts_S1x256_S512x256))
      (broadcast S512x256 (Scalar.ofBits .f32 0x00000000#32 : Ideal .f32)) (ix2 p h)
      = max ((S (ix2 p h) + T (ix2 p h)) + r (ix2 (0 : Fin 1) h)) c0 := by
  simp only [maximumf_apply, addf_apply, bcastRow_apply, castRow_apply, uncastRow_apply, broadcast_apply]
  rfl

theorem gateForm (H : FVec Ideal S512x256 .f32) (r : S1x256.Idx → EReal) (b : S1x1.Idx → EReal) :
    logistic (addf (shapeCast S512x1 (multiReduction .add [1] S512
        (mulf H (broadcastTo S512x256 (shapeCast S1x256 (shapeCast S256 r shapeCasts_S1x256_S256) shapeCasts_S256_S1x256)
          broadcasts_S1x256_S512x256)) 0x00000000#32 reduces_S512x256_S512 (.inl rfl) rfl) shapeCasts_S512_S512x1)
        (broadcastTo S512x1 (shapeCast S1x1 (shapeCast S1 b shapeCasts_S1x1_S1) shapeCasts_S1_S1x1) broadcasts_S1x1_S512x1))
      (ix2 p (0 : Fin 1))
      = Ideal.logistic ((∑ h : Fin 256, H (ix2 p h) * r (ix2 (0 : Fin 1) h)) + b (ix2 (0 : Fin 1) (0 : Fin 1))) := by
  simp only [logistic_apply, addf_apply, castCol_apply, bcast11_apply, cast1_11_apply, cast11_1_apply]
  rw [rowSum_apply]
  simp only [mulf_apply, bcastRow_apply, castRow_apply, uncastRow_apply]

theorem sentForm (G : FVec Ideal S512x1 .f32) (X : FVec Ideal S512x256 .f32) (q : Fin 256) :
    mulf (broadcastTo S512x256 G broadcasts_S512x1_S512x256) X (ix2 p q) = G (ix2 p (0 : Fin 1)) * X (ix2 p q) := by
  simp only [mulf_apply, bcastCol_apply]

theorem v672_apply (hB : BlocksOK B W) (h0 : ∀ q : Fin 256, v550 B (ix2 p q) = f 0 q)
    (h1 : ∀ q : Fin 256, v600 B (ix2 p q) = f 1 q) (h : Fin 256) : v672 B (ix2 p h) = hid W f 0 h := by
  refine (hidForm (p := p) _ _ (ld10_0 B) h).trans ?_
  rw [band0 hB 0 (f 0) (k0_pay59 (v550 B) (ld9_0 B)) (v656_apply h0) h,
    band512 hB 1 (f 1) (k0_pay60 (v600 B) (ld9_1 B)) (v659_apply h1) h, ld10_0_apply, hB.x10]
  rfl

theorem v685_apply (hB : BlocksOK B W) (h0 : ∀ q : Fin 256, v550 B (ix2 p q) = f 0 q)
    (h1 : ∀ q : Fin 256, v600 B (ix2 p q) = f 1 q) : v685 B (ix2 p (0 : Fin 1)) = gate W f 0 := by
  refine (gateForm (p := p) (v672 B) (ld11_0 B) (ld12_0 B)).trans ?_
  simp only [v672_apply hB h0 h1, ld11_0_apply, ld12_0_apply, hB.x11, hB.x12]
  rfl

theorem v687_apply (hB : BlocksOK B W) (h0 : ∀ q : Fin 256, v550 B (ix2 p q) = f 0 q)
    (h1 : ∀ q : Fin 256, v600 B (ix2 p q) = f 1 q) (q : Fin 256) : v687 B (ix2 p q) = sent W f 0 q := by
  refine (sentForm (p := p) (v685 B) (v550 B) q).trans ?_
  rw [v685_apply hB h0 h1, h0]
  rfl

end Round3

section Round3b
variable {B : Blocks Ideal} {W : Wts} {p : Fin 512} {f : Feats}

theorem v710_apply (hB : BlocksOK B W) (h0 : ∀ q : Fin 256, v550 B (ix2 p q) = f 0 q)
    (h2 : ∀ q : Fin 256, v650 B (ix2 p q) = f 2 q) : v710 B (ix2 p (0 : Fin 1)) = gate W f 1 := by
  refine (gateForm (p := p) _ (ld11_1 B) (ld12_1 B)).trans ?_
  simp only [hidForm, band256 hB 0 (f 0) (v656 B) (v656_apply h0), band512 hB 2 (f 2) (v662 B) (v662_apply h2),
    ld10_1_apply, ld11_1_apply, ld12_1_apply, hB.x10, hB.x11, hB.x12]
  rfl

theorem v712_apply (hB : BlocksOK B W) (h0 : ∀ q : Fin 256, v550 B (ix2 p q) = f 0 q)
    (h2 : ∀ q : Fin 256, v650 B (ix2 p q) = f 2 q) (q : Fin 256) : v712 B (ix2 p q) = sent W f 1 q := by
  refine (sentForm (p := p) (v710 B) (v550 B) q).trans ?_
  rw [v710_apply hB h0 h2, h0]
  rfl

theorem v715_apply (hB : BlocksOK B W) (h0 : ∀ q : Fin 256, v550 B (ix2 p q) = f 0 q)
    (h1 : ∀ q : Fin 256, v600 B (ix2 p q) = f 1 q) (h : Fin 256) :
    v715 B (ix2 p h) = (∑ k : Fin 256, f 1 k * W.rWa 2 k h) + ∑ k : Fin 256, f 0 k * W.rWb 2 k h := by
  unfold v715 k0_pay67
  rw [addf_apply, band0 hB 1 (f 1) (v659 B) (v659_apply h1) h, band512 hB 0 (f 0) (v656 B) (v656_apply h0) h]
  rfl

theorem v718_apply (hB : BlocksOK B W) (h : Fin 256) : v718 B (ix2 (0 : Fin 1) h) = W.rb1 2 h := by
  unfold v718 k0_pay68
  rw [castRow_apply, uncastRow_apply, ld10_2_apply, hB.x10]

theorem v735_apply (hB : BlocksOK B W) (h0 : ∀ q : Fin 256, v550 B (ix2 p q) = f 0 q)
    (h1 : ∀ q : Fin 256, v600 B (ix2 p q) = f 1 q) : v735 B (ix2 p (0 : Fin 1)) = gate W f 2 := by
  refine (gateForm (p := p) _ (ld11_2 B) (ld12_2 B)).trans ?_
  simp only [maximumf_apply, addf_apply, bcastRow_apply, broadcast_apply, v715_apply hB h0 h1, v718_apply hB,
    ld11_2_apply, ld12_2_apply, hB.x11, hB.x12]
  rfl

theorem v737_apply (hB : BlocksOK B W) (h0 : ∀ q : Fin 256, v550 B (ix2 p q) = f 0 q)
    (h1 : ∀ q : Fin 256, v600 B (ix2 p q) = f 1 q) (q : Fin 256) : v737 B (ix2 p q) = sent W f 2 q := by
  refine (sentForm (p := p) (v735 B) (v600 B) q).trans ?_
  rw [v735_apply hB h0 h1, h1]
  rfl

theorem v760_apply (hB : BlocksOK B W) (h1 : ∀ q : Fin 256, v600 B (ix2 p q) = f 1 q)
    (h2 : ∀ q : Fin 256, v650 B (ix2 p q) = f 2 q) : v760 B (ix2 p (0 : Fin 1)) = gate W f 3 := by
  refine (gateForm (p := p) _ (ld11_3 B) (ld12_3 B)).trans ?_
  simp only [hidForm, band256 hB 1 (f 1) (v659 B) (v659_apply h1), band768 hB 2 (f 2) (v662 B) (v662_apply h2),
    ld10_3_apply, ld11_3_apply, ld12_3_apply, hB.x10, hB.x11, hB.x12]
  rfl

theorem v762_apply (hB : BlocksOK B W) (h1 : ∀ q : Fin 256, v600 B (ix2 p q) = f 1 q)
    (h2 : ∀ q : Fin 256, v650 B (ix2 p q) = f 2 q) (q : Fin 256) : v762 B (ix2 p q) = sent W f 3 q := by
  refine (sentForm (p := p) (v760 B) (v600 B) q).trans ?_
  rw [v760_apply hB h1 h2, h1]
  rfl

theorem v763_apply (hB : BlocksOK B W) (h2 : ∀ q : Fin 256, v650 B (ix2 p q) = f 2 q) (h : Fin 256) :
    v763 B (ix2 p h) = ∑ k : Fin 256, f 2 k * W.rWa 4 k h := by
  unfold v763 k0_pay73
  rw [band0 hB 2 (f 2) (v662 B) (v662_apply h2) h]
  rfl

theorem v764_apply (hB : BlocksOK B W) (h0 : ∀ q : Fin 256, v550 B (ix2 p q) = f 0 q) (h : Fin 256) :
    v764 B (ix2 p h) = ∑ k : Fin 256, f 0 k * W.rWb 4 k h := by
  unfold v764 k0_pay74
  rw [band768 hB 0 (f 0) (v656 B) (v656_apply h0) h]
  rfl

theorem v785_apply (hB : BlocksOK B W) (h0 : ∀ q : Fin 256, v550 B (ix2 p q) = f 0 q)
    (h2 : ∀ q : Fin 256, v650 B (ix2 p q) = f 2 q) : v785 B (ix2 p (0 : Fin 1)) = gate W f 4 := by
  refine (gateForm (p := p) _ (ld11_4 B) (ld12_4 B)).trans ?_
  simp only [hidForm, v763_apply hB h2, v764_apply hB h0, ld10_4_apply, ld11_4_apply, ld12_4_apply, hB.x10, hB.x11, hB.x12]
  rfl

theorem v787_apply (hB : BlocksOK B W) (h0 : ∀ q : Fin 256, v550 B (ix2 p q) = f 0 q)
    (h2 : ∀ q : Fin 256, v650 B (ix2 p q) = f 2 q) (q : Fin 256) : v787 B (ix2 p q) = sent W f 4 q := by
  refine (sentForm (p := p) (v785 B) (v650 B) q).trans ?_
  rw [v785_apply hB h0 h2, h2]
  rfl

theorem gate5_apply (hB : BlocksOK B W) (h1 : ∀ q : Fin 256, v600 B (ix2 p q) = f 1 q)
    (h2 : ∀ q : Fin 256, v650 B (ix2 p q) = f 2 q) : k0_pay79 (v804 B) (v808 B) (ix2 p (0 : Fin 1)) = gate W f 5 := by
  refine (gateForm (p := p) _ (ld11_5 B) (ld12_5 B)).trans ?_
  simp only [hidForm, band256 hB 2 (f 2) (v662 B) (v662_apply h2), band768 hB 1 (f 1) (v659 B) (v659_apply h1),
    ld10_5_apply, ld11_5_apply, ld12_5_apply, hB.x10, hB.x11, hB.x12]
  rfl

theorem v812_apply (hB : BlocksOK B W) (h1 : ∀ q : Fin 256, v600 B (ix2 p q) = f 1 q)
    (h2 : ∀ q : Fin 256, v650 B (ix2 p q) = f 2 q) (q : Fin 256) : v812 B (ix2 p q) = sent W f 5 q := by
  refine (sentForm (p := p) (k0_pay79 (v804 B) (v808 B)) (v650 B) q).trans ?_
  rw [gate5_apply hB h1 h2, h2]
  rfl

theorem v813_apply (hB : BlocksOK B W) (h0 : ∀ q : Fin 256, v550 B (ix2 p q) = f 0 q)
    (h1 : ∀ q : Fin 256, v600 B (ix2 p q) = f 1 q) (h2 : ∀ q : Fin 256, v650 B (ix2 p q) = f 2 q) (i : Fin 6) :
    v813 B (ix2 p i) = gate W f i := by
  unfold v813 k0_pay81
  rw [concat6_apply]
  fin_cases i
  · exact v685_apply hB h0 h1
  · exact v710_apply hB h0 h2
  · exact v735_apply hB h0 h1
  · exact v760_apply hB h1 h2
  · exact v785_apply hB h0 h2
  · exact gate5_apply hB h1 h2

end Round3b

section Round3c
variable {B : Blocks Ideal} {W : Wts} {p : Fin 512} {f : Feats}

theorem lnForm (x : FVec Ideal S512x256 .f32) (g b : FVec Ideal S256 .f32) (xr gr br : Fin 256 → EReal)
    (hx : ∀ q : Fin 256, x (ix2 p q) = xr q) (hg : ∀ q : Fin 256, g (ix1 q) = gr q) (hb : ∀ q : Fin 256, b (ix1 q) = br q)
    (q : Fin 256) : k0_pay91 x g b (ix2 p q) = lnorm xr gr br q := by
  unfold k0_pay91
  simp only [addf_apply, mulf_apply, subf_apply, divf_apply, rsqrt_apply, broadcast_apply, bcastCol_apply, bcastRow_apply,
    castRow_apply, castCol_apply, hx, hg, hb]
  rw [rowSum_apply, rowSum_apply]
  simp only [mulf_apply, subf_apply, divf_apply, broadcast_apply, bcastCol_apply, castCol_apply, hx]
  rw [rowSum_apply]
  simp only [hx]
  rfl

theorem mlpForm (X S T : FVec Ideal S512x256 .f32) (w1 : S1x256x256.Idx → EReal) (r1 : S1x256.Idx → EReal)
    (w2 : S1x256x256.Idx → EReal) (e : Fin 256) :
    matmul dot_S512x256_S256x256_S512x256_1_0_0_1_n_n none
      (truncf .bf16 (maximumf (addf (matmul dot_S512x256_S256x256_S512x256_1_0_0_1_n_n none
          (truncf .bf16 (addf X (addf S T)) bitsLt_bf16_f32 : FVec Ideal S512x256 .bf16)
          (shapeCast S256x256 w1 shapeCasts_S1x256x256_S256x256 : FVec Ideal S256x256 .bf16) (constant S512x256 .f32 0x00000000#32))
        (broadcastTo S512x256 (shapeCast S1x256 (shapeCast S256 r1 shapeCasts_S1x256_S256) shapeCasts_S256_S1x256)
          broadcasts_S1x256_S512x256)) (broadcast S512x256 (Scalar.ofBits .f32 0x00000000#32 : Ideal .f32))) bitsLt_bf16_f32
        : FVec Ideal S512x256 .bf16)
      (shapeCast S256x256 w2 shapeCasts_S1x256x256_S256x256 : FVec Ideal S256x256 .bf16) (constant S512x256 .f32 0x00000000#32)
      (ix2 p e)
    = ∑ d : Fin 256, max ((∑ c : Fin 256, (X (ix2 p c) + (S (ix2 p c) + T (ix2 p c))) * w1 (ix3 (0 : Fin 1) c d))
        + r1 (ix2 (0 : Fin 1) d)) c0 * w2 (ix3 (0 : Fin 1) d e) := by
  simp only [mm256_apply, truncf_apply, maximumf_apply, addf_apply, castW256_apply, bcastRow_apply, castRow_apply,
    uncastRow_apply, broadcast_apply]
  rfl

theorem v835_apply (hB : BlocksOK B W) (h0 : ∀ q : Fin 256, v550 B (ix2 p q) = f 0 q)
    (h1 : ∀ q : Fin 256, v600 B (ix2 p q) = f 1 q) (h2 : ∀ q : Fin 256, v650 B (ix2 p q) = f 2 q) (e : Fin 256) :
    v835 B (ix2 p e) = h3 W f 0 e := by
  unfold v835 k0_pay82
  rw [addf_apply, mlpForm (p := p) (v550 B) (v737 B) (v787 B) (ld13_0 B) (ld14_0 B) (ld15_0 B) e]
  simp only [bcastRow_apply, castRow_apply, uncastRow_apply, ld13_0_apply, ld14_0_apply, ld15_0_apply, ld16_0_apply,
    hB.x13, hB.x14, hB.x15, hB.x16, h0, v737_apply hB h0 h1, v787_apply hB h0 h2]
  rfl

theorem v837_apply (hB : BlocksOK B W) (q : Fin 256) : v837 B (ix1 q) = W.lng 0 q := by
  unfold v837 k0_pay83
  rw [uncastRow_apply, ld17_0_apply, hB.x17]

theorem v839_apply (hB : BlocksOK B W) (q : Fin 256) : v839 B (ix1 q) = W.lnb 0 q := by
  unfold v839 k0_pay84
  rw [uncastRow_apply, ld18_0_apply, hB.x18]

theorem v863_eq : v863 B = k0_pay91 (v835 B) (v837 B) (v839 B) := rfl

theorem v863_apply (hB : BlocksOK B W) (h0 : ∀ q : Fin 256, v550 B (ix2 p q) = f 0 q)
    (h1 : ∀ q : Fin 256, v600 B (ix2 p q) = f 1 q) (h2 : ∀ q : Fin 256, v650 B (ix2 p q) = f 2 q) (q : Fin 256) :
    v863 B (ix2 p q) = step W f 0 q := by
  rw [v863_eq]
  exact lnForm (p := p) (v835 B) (v837 B) (v839 B) (h3 W f 0) (W.lng 0) (W.lnb 0) (v835_apply hB h0 h1 h2)
    (v837_apply hB) (v839_apply hB) q

theorem v885_apply (hB : BlocksOK B W) (h0 : ∀ q : Fin 256, v550 B (ix2 p q) = f 0 q)
    (h1 : ∀ q : Fin 256, v600 B (ix2 p q) = f 1 q) (h2 : ∀ q : Fin 256, v650 B (ix2 p q) = f 2 q) (e : Fin 256) :
    v885 B (ix2 p e) = h3 W f 1 e := by
  unfold v885 k0_pay88
  rw [addf_apply, mlpForm (p := p) (v600 B) (v687 B) (v812 B) (ld13_1 B) (ld14_1 B) (ld15_1 B) e]
  simp only [bcastRow_apply, castRow_apply, uncastRow_apply, ld13_1_apply, ld14_1_apply, ld15_1_apply, ld16_1_apply,
    hB.x13, hB.x14, hB.x15, hB.x16, h1, v687_apply hB h0 h1, v812_apply hB h1 h2]
  rfl

theorem v887_apply (hB : BlocksOK B W) (q : Fin 256) : v887 B (ix1 q) = W.lng 1 q := by
  unfold v887 k0_pay89
  rw [uncastRow_apply, ld17_1_apply, hB.x17]

theorem v889_apply (hB : BlocksOK B W) (q : Fin 256) : v889 B (ix1 q) = W.lnb 1 q := by
  unfold v889 k0_pay90
  rw [uncastRow_apply, ld18_1_apply, hB.x18]

theorem v913_apply (hB : BlocksOK B W) (h0 : ∀ q : Fin 256, v550 B (ix2 p q) = f 0 q)
    (h1 : ∀ q : Fin 256, v600 B (ix2 p q) = f 1 q) (h2 : ∀ q : Fin 256, v650 B (ix2 p q) = f 2 q) (q : Fin 256) :
    v913 B (ix2 p q) = step W f 1 q :=
  lnForm (p := p) (v885 B) (v887 B) (v889 B) (h3 W f 1) (W.lng 1) (W.lnb 1) (v885_apply hB h0 h1 h2)
    (v887_apply hB) (v889_apply hB) q

theorem v930_apply (hB : BlocksOK B W) (h0 : ∀ q : Fin 256, v550 B (ix2 p q) = f 0 q)
    (h1 : ∀ q : Fin 256, v600 B (ix2 p q) = f 1 q) (h2 : ∀ q : Fin 256, v650 B (ix2 p q) = f 2 q) (e : Fin 256) :
    v930 B (ix2 p e) = ∑ d : Fin 256, RouteSpec.h2 W f 2 d * W.lW2 2 d e := by
  unfold v930 k0_pay92
  rw [mlpForm (p := p) (v650 B) (v712 B) (v762 B) (ld13_2 B) (ld14_2 B) (ld15_2 B) e]
  simp only [ld13_2_apply, ld14_2_apply, ld15_2_apply, hB.x13, hB.x14, hB.x15, h2, v712_apply hB h0 h2, v762_apply hB h1 h2]
  rfl

theorem v966_eq : v966 B = k0_pay91 (addf (v930 B) (broadcastTo S512x256 (shapeCast S1x256 (shapeCast S256 (v931 B)
    shapeCasts_S1x256_S256) shapeCasts_S256_S1x256) broadcasts_S1x256_S512x256))
    (shapeCast S256 (ld17_2 B) shapeCasts_S1x256_S256) (shapeCast S256 (ld18_2 B) shapeCasts_S1x256_S256) := rfl

theorem v966_apply (hB : BlocksOK B W) (h0 : ∀ q : Fin 256, v550 B (ix2 p q) = f 0 q)
    (h1 : ∀ q : Fin 256, v600 B (ix2 p q) = f 1 q) (h2 : ∀ q : Fin 256, v650 B (ix2 p q) = f 2 q) (q : Fin 256) :
    v966 B (ix2 p q) = step W f 2 q := by
  rw [v966_eq]
  refine lnForm (p := p) _ _ _ (h3 W f 2) (W.lng 2) (W.lnb 2) (fun e => ?_) (fun e => ?_) (fun e => ?_) q
  · rw [addf_apply, v930_apply hB h0 h1 h2, bcastRow_apply, castRow_apply, uncastRow_apply]
    unfold v931
    rw [ld16_2_apply, hB.x16]
    rfl
  · rw [uncastRow_apply, ld17_2_apply, hB.x17]
  · rw [uncastRow_apply, ld18_2_apply, hB.x18]

end Round3c

end R3

theorem round3 (B : Blocks Ideal) (W : Wts) (hB : BlocksOK B W) (p : Fin 512) (f : Feats)
    (h0 : ∀ q : Fin 256, v550 B (ix2 p q) = f 0 q) (h1 : ∀ q : Fin 256, v600 B (ix2 p q) = f 1 q)
    (h2 : ∀ q : Fin 256, v650 B (ix2 p q) = f 2 q) :
    (∀ q : Fin 256, v863 B (ix2 p q) = step W f 0 q) ∧ (∀ q : Fin 256, v913 B (ix2 p q) = step W f 1 q)
      ∧ (∀ q : Fin 256, v966 B (ix2 p q) = step W f 2 q)
      ∧ (∀ i : Fin 6, v813 B (ix2 p i) = gate W f i) :=
  ⟨R3.v863_apply hB h0 h1 h2, R3.v913_apply hB h0 h1 h2, R3.v966_apply hB h0 h1 h2, R3.v813_apply hB h0 h1 h2⟩

end Cert.KernelIdeal.Body

end
-- ==== Proof.KValE.lean ====
import proofs.«429394_j28956669510180_3_alg».proof.Proof.KIface
import proofs.«429394_j28956669510180_3_alg».proof.Proof.KOps
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx RouteSpec

theorem v973_apply (B : Blocks Ideal) (W : Wts) (hB : BlocksOK B W) (p : Fin 512) (f : Feats)
    (h0 : ∀ q : Fin 256, v863 B (ix2 p q) = f 0 q) (h1 : ∀ q : Fin 256, v913 B (ix2 p q) = f 1 q) (q : Fin 256) :
    v973 B (ix2 p q) = (∑ d, f 0 d * W.fW1 0 d q) + (∑ d, f 1 d * W.fW1 1 d q) := by
  unfold v973 k0_pay94
  rw [addf_apply, mm256_apply, mm256_apply]
  refine congrArg₂ (· + ·) (Finset.sum_congr rfl fun k _ => ?_) (Finset.sum_congr rfl fun k _ => ?_)
  · rw [truncf_apply, h0, castW256_apply, ld19_0_apply, hB.x19]
  · rw [truncf_apply, h1, castW256_apply, ld19_1_apply, hB.x19]

theorem epilogue (B : Blocks Ideal) (W : Wts) (hB : BlocksOK B W) (p : Fin 512) (f : Feats)
    (h0 : ∀ q : Fin 256, v863 B (ix2 p q) = f 0 q) (h1 : ∀ q : Fin 256, v913 B (ix2 p q) = f 1 q)
    (h2 : ∀ q : Fin 256, v966 B (ix2 p q) = f 2 q) :
    ∀ q : Fin 256, v1017 B (ix2 p q) = fin W f q := by
  intro q
  unfold v1017 k0_pay95
  simp only [addf_apply, mulf_apply, subf_apply, divf_apply, maximumf_apply, truncf_apply, broadcast_apply,
    bcastRow_apply, bcastCol_apply, castRow_apply, castCol_apply, rsqrt_apply, mm256_apply,
    castW256_apply, castId256x256_apply, ld19_2_apply, ld20_eq, ld21_eq, ld22_eq, ld23_eq, ld24_eq,
    v973_apply B W hB p f h0 h1, h2, hB.x19, hB.x20, hB.x21, hB.x22, hB.x23, hB.x24]
  rw [rowSum_apply, rowSum_apply]
  simp only [addf_apply, mulf_apply, subf_apply, divf_apply, maximumf_apply, truncf_apply, broadcast_apply,
    bcastRow_apply, bcastCol_apply, castRow_apply, castCol_apply, rsqrt_apply, mm256_apply,
    castW256_apply, castId256x256_apply, ld19_2_apply, ld20_eq, ld21_eq, ld22_eq, ld23_eq, ld24_eq,
    v973_apply B W hB p f h0 h1, h2, hB.x19, hB.x20, hB.x21, hB.x22, hB.x23, hB.x24]
  rw [rowSum_apply]
  simp only [addf_apply, mulf_apply, subf_apply, divf_apply, maximumf_apply, truncf_apply, broadcast_apply,
    bcastRow_apply, bcastCol_apply, castRow_apply, castCol_apply, rsqrt_apply, mm256_apply,
    castW256_apply, castId256x256_apply, ld19_2_apply, ld20_eq, ld21_eq, ld22_eq, ld23_eq, ld24_eq,
    v973_apply B W hB p f h0 h1, h2, hB.x19, hB.x20, hB.x21, hB.x22, hB.x23, hB.x24]
  rfl

end Cert.KernelIdeal.Body

end
-- ==== Proof.KVal.lean ====
import proofs.«429394_j28956669510180_3_alg».proof.Proof.KValP
import proofs.«429394_j28956669510180_3_alg».proof.Proof.KValR1
import proofs.«429394_j28956669510180_3_alg».proof.Proof.KValR2
import proofs.«429394_j28956669510180_3_alg».proof.Proof.KValR3
import proofs.«429394_j28956669510180_3_alg».proof.Proof.KValE

noncomputable section

namespace Cert.KernelIdeal.Body

open Cert.KernelIdeal Cert.KernelIdeal.Gen Idealize.ShloMosaic Idealize.ShloMosaic.ValueIdx RouteSpec

theorem rounds (B : Blocks Ideal) (W : Wts) (hB : BlocksOK B W) (p : Fin 512) :
    ((∀ q : Fin 256, v863 B (ix2 p q) = f3 W (rowF B p) (rowM B p) (rowC B p) 0 q)
      ∧ (∀ q : Fin 256, v913 B (ix2 p q) = f3 W (rowF B p) (rowM B p) (rowC B p) 1 q)
      ∧ (∀ q : Fin 256, v966 B (ix2 p q) = f3 W (rowF B p) (rowM B p) (rowC B p) 2 q))
    ∧ (∀ i : Fin 6, v813 B (ix2 p i) = rowGate W (rowF B p) (rowM B p) (rowC B p) i) := by
  have r1 := round1 B W hB p (feats0 W (rowF B p) (rowM B p) (rowC B p))
    (fun q => v8_apply B W hB p q) (fun q => v17_apply B W hB p q) (fun q => v26_apply B W hB p q)
    (fun q => (v28_apply B W hB p q).trans (v17_apply B W hB p q))
    (fun q => (v29_apply B W hB p q).trans (v26_apply B W hB p q)) (fun _ => rfl)
  have r2 := round2 B W hB p _ r1.1 r1.2.1 r1.2.2
  have r3 := round3 B W hB p _ r2.1 r2.2.1 r2.2.2
  exact ⟨⟨r3.1, r3.2.1, r3.2.2.1⟩, r3.2.2.2⟩

theorem outBlk_apply (B : Blocks Ideal) (W : Wts) (hB : BlocksOK B W) (p : Fin 512) (q : Fin 256) :
    outBlk B (ix2 p q) = rowOut W (rowF B p) (rowM B p) (rowC B p) q :=
  epilogue B W hB p _ (rounds B W hB p).1.1 (rounds B W hB p).1.2.1 (rounds B W hB p).1.2.2 q

theorem wBlk_apply (B : Blocks Ideal) (W : Wts) (hB : BlocksOK B W) (p : Fin 512) (i : Fin 6) :
    wBlk B (ix2 p i) = rowGate W (rowF B p) (rowM B p) (rowC B p) i :=
  (rounds B W hB p).2 i

end Cert.KernelIdeal.Body

end
-- ==== Proof.KFinal.lean ====
import proofs.«429394_j28956669510180_3_alg».proof.Proof.KFrame
import proofs.«429394_j28956669510180_3_alg».proof.Proof.KBlk
import proofs.«429394_j28956669510180_3_alg».proof.Proof.KVal

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx RouteSpec
open Idealize.ShloMosaic.Pipeline (Dat)
open Cert.ReferenceIdeal.Stages (RArgs wts)

variable (m : (ℓ : Loc nD τ sig) → Buf (Elt Ideal) ℓ) (c : Dev nD)

def Gout (A : RArgs Ideal) : Vec Ideal S32768x256 .f32 := fun i =>
  rowOut (wts A) (Cert.ReferenceIdeal.Stages.rowF A (i 0)) (Cert.ReferenceIdeal.Stages.rowM A (i 0)) (Cert.ReferenceIdeal.Stages.rowC A (i 0)) (i 1)
def Gw (A : RArgs Ideal) : Vec Ideal S32768x6 .f32 := fun i =>
  rowGate (wts A) (Cert.ReferenceIdeal.Stages.rowF A (i 0)) (Cert.ReferenceIdeal.Stages.rowM A (i 0)) (Cert.ReferenceIdeal.Stages.rowC A (i 0)) (i 1)

theorem Gout_apply (A : RArgs Ideal) (i : S32768x256.Idx) (r : Fin 32768) (q : Fin 256)
    (hr : (i 0).val = r.val) (hq : (i 1).val = q.val) :
    Gout A i = rowOut (wts A) (Cert.ReferenceIdeal.Stages.rowF A r) (Cert.ReferenceIdeal.Stages.rowM A r) (Cert.ReferenceIdeal.Stages.rowC A r) q := by
  obtain rfl : r = i 0 := Fin.ext hr.symm
  obtain rfl : q = i 1 := Fin.ext hq.symm
  rfl
theorem Gw_apply (A : RArgs Ideal) (i : S32768x6.Idx) (r : Fin 32768) (k : Fin 6)
    (hr : (i 0).val = r.val) (hk : (i 1).val = k.val) :
    Gw A i = rowGate (wts A) (Cert.ReferenceIdeal.Stages.rowF A r) (Cert.ReferenceIdeal.Stages.rowM A r) (Cert.ReferenceIdeal.Stages.rowC A r) k := by
  obtain rfl : r = i 0 := Fin.ext hr.symm
  obtain rfl : k = i 1 := Fin.ext hk.symm
  rfl

theorem origin_zero : (![0, 0] : Fin 2 → Nat) = fun _ => 0 := funext fun a => by fin_cases a <;> rfl

theorem out_index : ∀ t : Fin cfg0.N, win0_25.index t (0 : Fin 2) = t.val ∧ win0_25.index t (1 : Fin 2) = 0
    ∧ win0_26.index t (0 : Fin 2) = t.val ∧ win0_26.index t (1 : Fin 2) = 0 :=
  (by decide +kernel : ∀ t : Fin grid0.N, _)

theorem flushed25_eq (t : Fin cfg0.N) :
    (dats m 0 c).flushed 25 t = ((cfg0.win 25).blk t).view.read (Elt Ideal) (Gout (kargs m c)) := by
  show (cfg0.win 25).cut (grid0.coords t) ((dats m 0 c).after 25 t) = _
  rw [after0_25]
  unfold outCanon
  rw [View.canon_unit_zero origin_zero]
  obtain ⟨e0, e1, -, -⟩ := out_index t
  funext j
  obtain ⟨p, q, rfl⟩ : ∃ (p : Fin 512) (q : Fin 256), j = ix2 p q := ⟨j 0, j 1, eq_ix2 j⟩
  show outBlk (blocks m c t) (ix2 p q) = Gout (kargs m c) (((cfg0.win 25).blk t).view.emb (ix2 p q))
  rw [outBlk_apply _ _ (blocksOK m c t) p q, rowF_blocks, rowM_blocks, rowC_blocks]

  refine (Gout_apply (kargs m c) _ (brow t p) q ?_ ?_).symm
  · show win0_25.index t (0 : Fin 2) * 512 + 1 * p.val = 512 * t.val + p.val
    omega
  · show win0_25.index t (1 : Fin 2) * 256 + 1 * q.val = q.val
    omega

theorem mem_blk25 (t : Fin cfg0.N) (i : S32768x256.Idx) :
    i ∈ ((cfg0.win 25).blk t).view.set ↔ ∀ a : Fin 2, win0_25.index t a * S512x256.size a ≤ (i a).val ∧ (i a).val < win0_25.index t a * S512x256.size a + S512x256.size a := by
  show i ∈ ((View.whole main_v49_0).slice (win0_25.rect t)).set ↔ _
  rw [View.set_slice_whole, Rect.mem_set_unit]
  exact Iff.rfl

theorem cover25 (i : S32768x256.Idx) :
    ∃ t : Fin cfg0.N, (cfg0.win 25).flush t = true ∧ i ∈ ((cfg0.win 25).blk t).view.set := by
  have hi0 : (i 0).val < 32768 := (i 0).isLt
  have hi1 : (i 1).val < 256 := (i 1).isLt
  have hN : cfg0.N = 64 := N_0
  obtain ⟨t, ht⟩ : ∃ t : Fin cfg0.N, t.val = (i 0).val / 512 := ⟨⟨(i 0).val / 512, by omega⟩, rfl⟩
  refine ⟨t, flush0_25 t, ?_⟩
  rw [mem_blk25]
  obtain ⟨e0, e1, -, -⟩ := out_index t
  intro a
  match a with
  | ⟨0, _⟩ => show win0_25.index t (0 : Fin 2) * 512 ≤ (i 0).val ∧ (i 0).val < win0_25.index t (0 : Fin 2) * 512 + 512; omega
  | ⟨1, _⟩ => show win0_25.index t (1 : Fin 2) * 256 ≤ (i 1).val ∧ (i 1).val < win0_25.index t (1 : Fin 2) * 256 + 256; omega

theorem final25 : (dats m 0 c).arrAt 25 cfg0.N = Gout (kargs m c) :=
  (dats m 0 c).arrAt_eq_of_cover 25 (Gout (kargs m c)) (fun t _ => flushed25_eq m c t) cover25

theorem flushed26_eq (t : Fin cfg0.N) :
    (dats m 0 c).flushed 26 t = ((cfg0.win 26).blk t).view.read (Elt Ideal) (Gw (kargs m c)) := by
  show (cfg0.win 26).cut (grid0.coords t) ((dats m 0 c).after 26 t) = _
  rw [after0_26]
  unfold wCanon
  rw [View.canon_unit_zero origin_zero]
  obtain ⟨-, -, e0, e1⟩ := out_index t
  funext j
  obtain ⟨p, k, rfl⟩ : ∃ (p : Fin 512) (k : Fin 6), j = ix2 p k := ⟨j 0, j 1, eq_ix2 j⟩
  show wBlk (blocks m c t) (ix2 p k) = Gw (kargs m c) (((cfg0.win 26).blk t).view.emb (ix2 p k))
  rw [wBlk_apply _ _ (blocksOK m c t) p k, rowF_blocks, rowM_blocks, rowC_blocks]
  refine (Gw_apply (kargs m c) _ (brow t p) k ?_ ?_).symm
  · show win0_26.index t (0 : Fin 2) * 512 + 1 * p.val = 512 * t.val + p.val
    omega
  · show win0_26.index t (1 : Fin 2) * 6 + 1 * k.val = k.val
    omega

theorem mem_blk26 (t : Fin cfg0.N) (i : S32768x6.Idx) :
    i ∈ ((cfg0.win 26).blk t).view.set ↔ ∀ a : Fin 2, win0_26.index t a * S512x6.size a ≤ (i a).val ∧ (i a).val < win0_26.index t a * S512x6.size a + S512x6.size a := by
  show i ∈ ((View.whole main_v49_1).slice (win0_26.rect t)).set ↔ _
  rw [View.set_slice_whole, Rect.mem_set_unit]
  exact Iff.rfl

theorem cover26 (i : S32768x6.Idx) :
    ∃ t : Fin cfg0.N, (cfg0.win 26).flush t = true ∧ i ∈ ((cfg0.win 26).blk t).view.set := by
  have hi0 : (i 0).val < 32768 := (i 0).isLt
  have hi1 : (i 1).val < 6 := (i 1).isLt
  have hN : cfg0.N = 64 := N_0
  obtain ⟨t, ht⟩ : ∃ t : Fin cfg0.N, t.val = (i 0).val / 512 := ⟨⟨(i 0).val / 512, by omega⟩, rfl⟩
  refine ⟨t, flush0_26 t, ?_⟩
  rw [mem_blk26]
  obtain ⟨-, -, e0, e1⟩ := out_index t
  intro a
  match a with
  | ⟨0, _⟩ => show win0_26.index t (0 : Fin 2) * 512 ≤ (i 0).val ∧ (i 0).val < win0_26.index t (0 : Fin 2) * 512 + 512; omega
  | ⟨1, _⟩ => show win0_26.index t (1 : Fin 2) * 6 ≤ (i 1).val ∧ (i 1).val < win0_26.index t (1 : Fin 2) * 6 + 6; omega

theorem final26 : (dats m 0 c).arrAt 26 cfg0.N = Gw (kargs m c) :=
  (dats m 0 c).arrAt_eq_of_cover 26 (Gw (kargs m c)) (fun t _ => flushed26_eq m c t) cover26

end Cert.KernelIdeal.Body

end
-- ==== Proof.KTail.lean ====
import proofs.«429394_j28956669510180_3_alg».proof.Proof.Gen.KernelIdeal
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

theorem tail_apply (w : Vec Ideal S32768x6 .f32) (i : Fin 6) (b : Fin 32768) :
    (broadcastInDim S6x32768x1 ![0, 1] bcast_S6x32768_S6x32768x1_0_1
        ((transpose S6x32768 [1, 0] · transposes_S32768x6_S6x32768_1_0) w) : Vec Ideal S6x32768x1 .f32) (ix3 i b (0 : Fin 1))
      = w (ix2 b i) := by

  refine (broadcastInDim_apply _ _ _ (ix3 i b (0 : Fin 1)) (ix2 i b)
    (fun a => match a with | ⟨0, _⟩ => rfl | ⟨1, _⟩ => rfl)).trans ?_

  exact transpose_apply _ w _ (ix2 i b) (ix2 b i) (fun c => match c with | ⟨0, _⟩ => rfl | ⟨1, _⟩ => rfl)

end Cert.KernelIdeal.Body

end
-- ==== Proof.KRun.lean ====
import proofs.«429394_j28956669510180_3_alg».proof.Proof.KFrame
import proofs.«429394_j28956669510180_3_alg».proof.Proof.KFinal
import proofs.«429394_j28956669510180_3_alg».proof.Proof.KTail
import Idealize.ShloMosaic.Lib.StableHlo.Run

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx RouteSpec
open Idealize.ShloMosaic.Pipeline (Dat)
open Cert.ReferenceIdeal.Stages (RArgs wts)

variable (m : (ℓ : Loc nD τ sig) → Buf (Elt Ideal) ℓ) (ρ : Dev nD → PrngReg)

def tailOf (w : Vec Ideal S32768x6 .f32) : Vec Ideal S6x32768x1 .f32 :=
  broadcastInDim S6x32768x1 ![0, 1] bcast_S6x32768_S6x32768x1_0_1 ((transpose S6x32768 [1, 0] · transposes_S32768x6_S6x32768_1_0) w)

theorem tailOf_apply (w : Vec Ideal S32768x6 .f32) (i : Fin 6) (b : Fin 32768) : tailOf w (ix3 i b (0 : Fin 1)) = w (ix2 b i) :=
  tail_apply w i b

theorem tail_value (c : Dev nD) :
    Pipeline.afterTail₀ cfgs (dats m) 0 (V0 m) [hostOps1] c main_v51 = tailOf (Gw (kargs m c)) := by
  unfold Pipeline.afterTail₀
  show StableHlo.after hostOps1 _ (Proc.devRef .tc main_v51) = _
  after_results
  have e : (Pipeline.withArrays (cfgs 0).spec c (V0 m c) (fun w => (dats m 0 c).arrAt w (cfgs 0).N) (Proc.devRef .tc main_v49_1)
      : Vec Ideal S32768x6 .f32) = Gw (kargs m c) :=
    (Pipeline.withArrays_arr spec0 launch0.win.arr_inj c (V0 m c) (fun w => (dats m 0 c).arrAt w (cfgs 0).N) 26).trans (final26 m c)
  exact congrArg tailOf e

set_option maxHeartbeats 4000000 in
theorem krun (hsk : SoundKernel Ideal) : θ_run defs (onTc (τ := τ) (main (F := Ideal))) ⟨m, fun _ => 0, ρ⟩ (fun r => ∀ c : Dev nD,
      r.2.mem ((c.tc : Thread nD τ).loc main_v49_0) = Gout (kargs m c)
      ∧ r.2.mem ((c.tc : Thread nD τ).loc main_v51) = tailOf (Gw (kargs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 25).trans (final25 m c),
      ((h c).2 main_v51 (Pipeline.mem_restRefs_of main_v51 (by decide) (by decide))).trans (tail_value m c),
      args_kept m h c⟩)
    (run_main m ρ hsk)

end Cert.KernelIdeal.Body

end
-- ==== Proof.RefRunOps.lean ====
import proofs.«429394_j28956669510180_3_alg».proof.Proof.RefStages
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

def vargs (W : Valuation τ sig (Elt F)) : RArgs F :=
  ⟨W (Proc.devRef .tc main_arg0), W (Proc.devRef .tc main_arg1), W (Proc.devRef .tc main_arg2), W (Proc.devRef .tc main_arg3), W (Proc.devRef .tc main_arg4), W (Proc.devRef .tc main_arg5), W (Proc.devRef .tc main_arg6), W (Proc.devRef .tc main_arg7), W (Proc.devRef .tc main_arg8), W (Proc.devRef .tc main_arg9), W (Proc.devRef .tc main_arg10), W (Proc.devRef .tc main_arg11), W (Proc.devRef .tc main_arg12), W (Proc.devRef .tc main_arg13), W (Proc.devRef .tc main_arg14), W (Proc.devRef .tc main_arg15), W (Proc.devRef .tc main_arg16), W (Proc.devRef .tc main_arg17), W (Proc.devRef .tc main_arg18), W (Proc.devRef .tc main_arg19), W (Proc.devRef .tc main_arg20), W (Proc.devRef .tc main_arg21), W (Proc.devRef .tc main_arg22), W (Proc.devRef .tc main_arg23), W (Proc.devRef .tc main_arg24)⟩

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

theorem vargs_congr {W W' : Valuation τ sig (Elt F)}
    (h : ∀ r ∈ argRefs, W' (Proc.devRef .tc r) = W (Proc.devRef .tc r)) : vargs W' = vargs W := by
  unfold vargs
  rw [h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide), h main_arg18 (by decide), h main_arg19 (by decide), h main_arg20 (by decide), h main_arg21 (by decide), h main_arg22 (by decide), h main_arg23 (by decide), h main_arg24 (by decide)]

/-- Operations that keep every buffer outside a list naming no argument keep the argument arrays. -/
theorem args_of_keep {l : List (HloOp τ sig (Elt F))} {W : List (Ref sig .tc)}
    (hk : ∀ (V : Valuation τ sig (Elt F)) (r : Ref sig .tc), r ∉ W → after l V (Proc.devRef .tc r) = V (Proc.devRef .tc r))
    (hn : ∀ r ∈ argRefs, r ∉ W) (V : Valuation τ sig (Elt F)) : vargs (after l V) = vargs V :=
  vargs_congr fun r hr => hk V r (hn r hr)

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem keep_append {l₁ l₂ : List (HloOp τ sig (Elt F))} {W₁ W₂ : List (Ref sig .tc)}
    (h₁ : ∀ (V : Valuation τ sig (Elt F)) (r : Ref sig .tc), r ∉ W₁ → after l₁ V (Proc.devRef .tc r) = V (Proc.devRef .tc r))
    (h₂ : ∀ (V : Valuation τ sig (Elt F)) (r : Ref sig .tc), r ∉ W₂ → after l₂ V (Proc.devRef .tc r) = V (Proc.devRef .tc r))
    (V : Valuation τ sig (Elt F)) (r : Ref sig .tc) (h : r ∉ W₁ ++ W₂) :
    after (l₁ ++ l₂) V (Proc.devRef .tc r) = V (Proc.devRef .tc r) := by
  rw [after_app, h₂ _ r (fun hm => h (List.mem_append_right _ hm)), h₁ _ r (fun hm => h (List.mem_append_left _ hm))]

/-- One written buffer that is listed lies inside the listed buffers. -/
theorem writes_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

abbrev o000 : List (HloOp τ sig (Elt F)) :=
  [ StableHlo.nullary main_c (fun i => lit0 (S6.rowMajor i)),
    StableHlo.nullary main_c_0 (fun i => lit1 (S6.rowMajor i)),
    StableHlo.binary main_arg0 main_arg3 main_v0 ((fun l r => Host.dotGeneral dot_S32768x128_S128x256_S32768x256_1_0_0_1_n_n none l r) : Vec F S32768x128 .f32 → Vec F S128x256 .f32 → Vec F S32768x256 .f32),
    StableHlo.unary main_arg4 main_v1 (broadcastInDim S1x256 ![1] bcast_S256_S1x256_1 : Vec F S256 .f32 → Vec F S1x256 .f32),
    StableHlo.unary main_v1 main_v2 (broadcastInDim S32768x256 ![0, 1] bcast_S1x256_S32768x256_0_1 : Vec F S1x256 .f32 → Vec F S32768x256 .f32),
    StableHlo.binary main_v0 main_v2 main_v3 (addf : Vec F S32768x256 .f32 → Vec F S32768x256 .f32 → Vec F S32768x256 .f32),
    StableHlo.binary main_arg1 main_arg5 main_v4 ((fun l r => Host.dotGeneral dot_S32768x256_S256x256_S32768x256_1_0_0_1_n_n none l r) : Vec F S32768x256 .f32 → Vec F S256x256 .f32 → Vec F S32768x256 .f32),
    StableHlo.unary main_arg6 main_v5 (broadcastInDim S1x256 ![1] bcast_S256_S1x256_1 : Vec F S256 .f32 → Vec F S1x256 .f32),
    StableHlo.unary main_v5 main_v6 (broadcastInDim S32768x256 ![0, 1] bcast_S1x256_S32768x256_0_1 : Vec F S1x256 .f32 → Vec F S32768x256 .f32),
    StableHlo.binary main_v4 main_v6 main_v7 (addf : Vec F S32768x256 .f32 → Vec F S32768x256 .f32 → Vec F S32768x256 .f32),
    StableHlo.binary main_arg2 main_arg7 main_v8 ((fun l r => Host.dotGeneral dot_S32768x512_S512x256_S32768x256_1_0_0_1_n_n none l r) : Vec F S32768x512 .f32 → Vec F S512x256 .f32 → Vec F S32768x256 .f32),
    StableHlo.unary main_arg8 main_v9 (broadcastInDim S1x256 ![1] bcast_S256_S1x256_1 : Vec F S256 .f32 → Vec F S1x256 .f32),
    StableHlo.unary main_v9 main_v10 (broadcastInDim S32768x256 ![0, 1] bcast_S1x256_S32768x256_0_1 : Vec F S1x256 .f32 → Vec F S32768x256 .f32),
    StableHlo.binary main_v8 main_v10 main_v11 (addf : Vec F S32768x256 .f32 → Vec F S32768x256 .f32 → Vec F S32768x256 .f32),
    StableHlo.unary main_v3 main_v12 (broadcastInDim S1x32768x256 ![1, 2] bcast_S32768x256_S1x32768x256_1_2 : Vec F S32768x256 .f32 → Vec F S1x32768x256 .f32),
    StableHlo.unary main_v7 main_v13 (broadcastInDim S1x32768x256 ![1, 2] bcast_S32768x256_S1x32768x256_1_2 : Vec F S32768x256 .f32 → Vec F S1x32768x256 .f32),
    StableHlo.unary main_v11 main_v14 (broadcastInDim S1x32768x256 ![1, 2] bcast_S32768x256_S1x32768x256_1_2 : Vec F S32768x256 .f32 → Vec F S1x32768x256 .f32),
    StableHlo.nary ![main_v12, main_v13, main_v14] main_v15 (fun u => concatenate S3x32768x256 0 [⟨S1x32768x256, u 0⟩, ⟨S1x32768x256, u 1⟩, ⟨S1x32768x256, u 2⟩] concatenates_S1x32768x256_S1x32768x256_S1x32768x256_S3x32768x256_d0) ]

abbrev o018 : List (HloOp τ sig (Elt F)) :=
  [ StableHlo.nullary main_c_1 (constantI S_ 32 0#32),
    StableHlo.unary main_c_1 main_v16 (broadcastInDim S6 ![] bcast_S_S6 : Vec F S_ .i32 → Vec F S6 .i32),
    StableHlo.binary main_c main_v16 main_v17 (cmpi .slt : Vec F S6 .i32 → Vec F S6 .i32 → Vec F S6 .i1),
    StableHlo.nullary main_c_2 (constantI S_ 32 3#32),
    StableHlo.unary main_c_2 main_v18 (broadcastInDim S6 ![] bcast_S_S6 : Vec F S_ .i32 → Vec F S6 .i32),
    StableHlo.binary main_c main_v18 main_v19 (addi : Vec F S6 .i32 → Vec F S6 .i32 → Vec F S6 .i32),
    StableHlo.ternary main_v17 main_v19 main_c main_v20 (select : Vec F S6 .i1 → Vec F S6 .i32 → Vec F S6 .i32 → Vec F S6 .i32),
    StableHlo.unary main_v20 main_v21 (broadcastInDim S6x1 ![0] bcast_S6_S6x1_0 : Vec F S6 .i32 → Vec F S6x1 .i32),
    StableHlo.binary main_v15 main_v21 main_v22 ((fun x i => Host.gather gather_S3x32768x256_S6x1_S6x32768x256_12_0_n_n_0_1_132768256 x i) : Vec F S3x32768x256 .f32 → Vec F S6x1 .i32 → Vec F S6x32768x256 .f32),
    StableHlo.nullary main_c_3 (constantI S_ 32 0#32),
    StableHlo.unary main_c_3 main_v23 (broadcastInDim S6 ![] bcast_S_S6 : Vec F S_ .i32 → Vec F S6 .i32),
    StableHlo.binary main_c_0 main_v23 main_v24 (cmpi .slt : Vec F S6 .i32 → Vec F S6 .i32 → Vec F S6 .i1),
    StableHlo.nullary main_c_4 (constantI S_ 32 3#32),
    StableHlo.unary main_c_4 main_v25 (broadcastInDim S6 ![] bcast_S_S6 : Vec F S_ .i32 → Vec F S6 .i32),
    StableHlo.binary main_c_0 main_v25 main_v26 (addi : Vec F S6 .i32 → Vec F S6 .i32 → Vec F S6 .i32),
    StableHlo.ternary main_v24 main_v26 main_c_0 main_v27 (select : Vec F S6 .i1 → Vec F S6 .i32 → Vec F S6 .i32 → Vec F S6 .i32),
    StableHlo.unary main_v27 main_v28 (broadcastInDim S6x1 ![0] bcast_S6_S6x1_0 : Vec F S6 .i32 → Vec F S6x1 .i32),
    StableHlo.binary main_v15 main_v28 main_v29 ((fun x i => Host.gather gather_S3x32768x256_S6x1_S6x32768x256_12_0_n_n_0_1_132768256 x i) : Vec F S3x32768x256 .f32 → Vec F S6x1 .i32 → Vec F S6x32768x256 .f32) ]

abbrev o036 : List (HloOp τ sig (Elt F)) :=
  [ StableHlo.binary main_v22 main_v29 main_v30 ((fun a b => concatenate S6x32768x512 2 [⟨S6x32768x256, a⟩, ⟨S6x32768x256, b⟩] concatenates_S6x32768x256_S6x32768x256_S6x32768x512_d2) : Vec F S6x32768x256 .f32 → Vec F S6x32768x256 .f32 → Vec F S6x32768x512 .f32),
    StableHlo.binary main_v30 main_arg9 main_v31 ((fun l r => Host.dotGeneral dot_S6x32768x512_S6x512x256_S6x32768x256_2_1_1_2_0_0 none l r) : Vec F S6x32768x512 .f32 → Vec F S6x512x256 .f32 → Vec F S6x32768x256 .f32),
    StableHlo.unary main_arg10 main_v32 (broadcastInDim S6x1x256 ![0, 2] bcast_S6x256_S6x1x256_0_2 : Vec F S6x256 .f32 → Vec F S6x1x256 .f32),
    StableHlo.unary main_v32 main_v33 (broadcastInDim S6x32768x256 ![0, 1, 2] bcast_S6x1x256_S6x32768x256_0_1_2 : Vec F S6x1x256 .f32 → Vec F S6x32768x256 .f32),
    StableHlo.binary main_v31 main_v33 main_v34 (addf : Vec F S6x32768x256 .f32 → Vec F S6x32768x256 .f32 → Vec F S6x32768x256 .f32),
    StableHlo.TRef.nullary main_call0.cst (constant S_ .f32 0x00000000#32),
    StableHlo.TRef.unary main_call0.cst main_call0.v0 (broadcastInDim S6x32768x256 ![] bcast_S_S6x32768x256),
    StableHlo.TRef.binary (.of main_v34 : StableHlo.TRef sig ⟨S6x32768x256, .f32⟩) main_call0.v0 main_call0.v1 maximumf,
    StableHlo.binary main_v35 main_arg11 main_v36 ((fun l r => Host.dotGeneral dot_S6x32768x256_S6x256x1_S6x32768x1_2_1_1_2_0_0 none l r) : Vec F S6x32768x256 .f32 → Vec F S6x256x1 .f32 → Vec F S6x32768x1 .f32),
    StableHlo.unary main_arg12 main_v37 (broadcastInDim S6x1x1 ![0, 2] bcast_S6x1_S6x1x1_0_2 : Vec F S6x1 .f32 → Vec F S6x1x1 .f32),
    StableHlo.unary main_v37 main_v38 (broadcastInDim S6x32768x1 ![0, 1, 2] bcast_S6x1x1_S6x32768x1_0_1_2 : Vec F S6x1x1 .f32 → Vec F S6x32768x1 .f32),
    StableHlo.binary main_v36 main_v38 main_v39 (addf : Vec F S6x32768x1 .f32 → Vec F S6x32768x1 .f32 → Vec F S6x32768x1 .f32),
    StableHlo.unary main_v39 main_v40 (Host.negf : Vec F S6x32768x1 .f32 → Vec F S6x32768x1 .f32),
    StableHlo.unary main_v40 main_v41 (Host.exp : Vec F S6x32768x1 .f32 → Vec F S6x32768x1 .f32),
    StableHlo.nullary main_cst (constant S_ .f32 0x3F800000#32),
    StableHlo.unary main_cst main_v42 (broadcastInDim S6x32768x1 ![] bcast_S_S6x32768x1 : Vec F S_ .f32 → Vec F S6x32768x1 .f32),
    StableHlo.binary main_v42 main_v41 main_v43 (addf : Vec F S6x32768x1 .f32 → Vec F S6x32768x1 .f32 → Vec F S6x32768x1 .f32),
    StableHlo.nullary main_cst_5 (constant S_ .f32 0x3F800000#32),
    StableHlo.unary main_cst_5 main_v44 (broadcastInDim S6x32768x1 ![] bcast_S_S6x32768x1 : Vec F S_ .f32 → Vec F S6x32768x1 .f32),
    StableHlo.binary main_v44 main_v43 main_v45 (Host.divf : Vec F S6x32768x1 .f32 → Vec F S6x32768x1 .f32 → Vec F S6x32768x1 .f32),
    StableHlo.unary main_v45 main_v46 (broadcastInDim S6x32768x256 ![0, 1, 2] bcast_S6x32768x1_S6x32768x256_0_1_2 : Vec F S6x32768x1 .f32 → Vec F S6x32768x256 .f32),
    StableHlo.binary main_v46 main_v22 main_v47 (mulf : Vec F S6x32768x256 .f32 → Vec F S6x32768x256 .f32 → Vec F S6x32768x256 .f32) ]

abbrev o058 : List (HloOp τ sig (Elt F)) :=
  [ StableHlo.nullary main_cst_6 (constant S_ .f32 0x00000000#32),
    StableHlo.unary main_cst_6 main_v48 (broadcastInDim S3x32768x256 ![] bcast_S_S3x32768x256 : Vec F S_ .f32 → Vec F S3x32768x256 .f32),
    StableHlo.unary main_c_0 main_v49 (broadcastInDim S6x1 ![0] bcast_S6_S6x1_0 : Vec F S6 .i32 → Vec F S6x1 .i32),
    StableHlo.ternary main_v48 main_v49 main_v47 main_v50 ((fun x i u => Host.scatterAdd scatter_S3x32768x256_S6x1_S6x32768x256_12_0_0_1 x i u) : Vec F S3x32768x256 .f32 → Vec F S6x1 .i32 → Vec F S6x32768x256 .f32 → Vec F S3x32768x256 .f32) ]

abbrev o062 : List (HloOp τ sig (Elt F)) :=
  [ StableHlo.binary main_v15 main_v50 main_v51 (addf : Vec F S3x32768x256 .f32 → Vec F S3x32768x256 .f32 → Vec F S3x32768x256 .f32),
    StableHlo.binary main_v51 main_arg13 main_v52 ((fun l r => Host.dotGeneral dot_S3x32768x256_S3x256x256_S3x32768x256_2_1_1_2_0_0 none l r) : Vec F S3x32768x256 .f32 → Vec F S3x256x256 .f32 → Vec F S3x32768x256 .f32),
    StableHlo.unary main_arg14 main_v53 (broadcastInDim S3x1x256 ![0, 2] bcast_S3x256_S3x1x256_0_2 : Vec F S3x256 .f32 → Vec F S3x1x256 .f32),
    StableHlo.unary main_v53 main_v54 (broadcastInDim S3x32768x256 ![0, 1, 2] bcast_S3x1x256_S3x32768x256_0_1_2 : Vec F S3x1x256 .f32 → Vec F S3x32768x256 .f32),
    StableHlo.binary main_v52 main_v54 main_v55 (addf : Vec F S3x32768x256 .f32 → Vec F S3x32768x256 .f32 → Vec F S3x32768x256 .f32),
    StableHlo.TRef.nullary main_call1.cst (constant S_ .f32 0x00000000#32),
    StableHlo.TRef.unary main_call1.cst main_call1.v0 (broadcastInDim S3x32768x256 ![] bcast_S_S3x32768x256),
    StableHlo.TRef.binary (.of main_v55 : StableHlo.TRef sig ⟨S3x32768x256, .f32⟩) main_call1.v0 main_call1.v1 maximumf,
    StableHlo.binary main_v56 main_arg15 main_v57 ((fun l r => Host.dotGeneral dot_S3x32768x256_S3x256x256_S3x32768x256_2_1_1_2_0_0 none l r) : Vec F S3x32768x256 .f32 → Vec F S3x256x256 .f32 → Vec F S3x32768x256 .f32),
    StableHlo.unary main_arg16 main_v58 (broadcastInDim S3x1x256 ![0, 2] bcast_S3x256_S3x1x256_0_2 : Vec F S3x256 .f32 → Vec F S3x1x256 .f32),
    StableHlo.unary main_v58 main_v59 (broadcastInDim S3x32768x256 ![0, 1, 2] bcast_S3x1x256_S3x32768x256_0_1_2 : Vec F S3x1x256 .f32 → Vec F S3x32768x256 .f32),
    StableHlo.binary main_v57 main_v59 main_v60 (addf : Vec F S3x32768x256 .f32 → Vec F S3x32768x256 .f32 → Vec F S3x32768x256 .f32) ]

abbrev o074 : List (HloOp τ sig (Elt F)) :=
  [ StableHlo.unary main_arg17 main_v61 (broadcastInDim S3x1x256 ![0, 2] bcast_S3x256_S3x1x256_0_2 : Vec F S3x256 .f32 → Vec F S3x1x256 .f32),
    StableHlo.unary main_arg18 main_v62 (broadcastInDim S3x1x256 ![0, 2] bcast_S3x256_S3x1x256_0_2 : Vec F S3x256 .f32 → Vec F S3x1x256 .f32),
    StableHlo.nullary main_cst_7 (constant S_ .f32 0x00000000#32),
    StableHlo.binary main_v60 main_cst_7 main_v63 ((fun x v => Host.reduceAdd x v reducesTo_S3x32768x256_S3x32768_d2 h_S_) : Vec F S3x32768x256 .f32 → Vec F S_ .f32 → Vec F S3x32768 .f32),
    StableHlo.unary main_v63 main_v64 (broadcastInDim S3x32768x1 ![0, 1] bcast_S3x32768_S3x32768x1_0_1 : Vec F S3x32768 .f32 → Vec F S3x32768x1 .f32),
    StableHlo.nullary main_cst_8 (constant S_ .f32 0x43800000#32),
    StableHlo.unary main_cst_8 main_v65 (broadcastInDim S3x32768x1 ![] bcast_S_S3x32768x1 : Vec F S_ .f32 → Vec F S3x32768x1 .f32),
    StableHlo.binary main_v64 main_v65 main_v66 (Host.divf : Vec F S3x32768x1 .f32 → Vec F S3x32768x1 .f32 → Vec F S3x32768x1 .f32),
    StableHlo.unary main_v66 main_v67 (broadcastInDim S3x32768x256 ![0, 1, 2] bcast_S3x32768x1_S3x32768x256_0_1_2 : Vec F S3x32768x1 .f32 → Vec F S3x32768x256 .f32),
    StableHlo.binary main_v60 main_v67 main_v68 (subf : Vec F S3x32768x256 .f32 → Vec F S3x32768x256 .f32 → Vec F S3x32768x256 .f32),
    StableHlo.binary main_v68 main_v68 main_v69 (mulf : Vec F S3x32768x256 .f32 → Vec F S3x32768x256 .f32 → Vec F S3x32768x256 .f32),
    StableHlo.nullary main_cst_9 (constant S_ .f32 0x00000000#32),
    StableHlo.binary main_v69 main_cst_9 main_v70 ((fun x v => Host.reduceAdd x v reducesTo_S3x32768x256_S3x32768_d2 h_S_) : Vec F S3x32768x256 .f32 → Vec F S_ .f32 → Vec F S3x32768 .f32),
    StableHlo.unary main_v70 main_v71 (broadcastInDim S3x32768x1 ![0, 1] bcast_S3x32768_S3x32768x1_0_1 : Vec F S3x32768 .f32 → Vec F S3x32768x1 .f32),
    StableHlo.nullary main_cst_10 (constant S_ .f32 0x43800000#32),
    StableHlo.unary main_cst_10 main_v72 (broadcastInDim S3x32768x1 ![] bcast_S_S3x32768x1 : Vec F S_ .f32 → Vec F S3x32768x1 .f32),
    StableHlo.binary main_v71 main_v72 main_v73 (Host.divf : Vec F S3x32768x1 .f32 → Vec F S3x32768x1 .f32 → Vec F S3x32768x1 .f32),
    StableHlo.unary main_v66 main_v74 (broadcastInDim S3x32768x256 ![0, 1, 2] bcast_S3x32768x1_S3x32768x256_0_1_2 : Vec F S3x32768x1 .f32 → Vec F S3x32768x256 .f32),
    StableHlo.binary main_v60 main_v74 main_v75 (subf : Vec F S3x32768x256 .f32 → Vec F S3x32768x256 .f32 → Vec F S3x32768x256 .f32),
    StableHlo.nullary main_cst_11 (constant S_ .f32 0x3727C5AC#32),
    StableHlo.unary main_cst_11 main_v76 (broadcastInDim S3x32768x1 ![] bcast_S_S3x32768x1 : Vec F S_ .f32 → Vec F S3x32768x1 .f32),
    StableHlo.binary main_v73 main_v76 main_v77 (addf : Vec F S3x32768x1 .f32 → Vec F S3x32768x1 .f32 → Vec F S3x32768x1 .f32),
    StableHlo.unary main_v77 main_v78 (Host.sqrt : Vec F S3x32768x1 .f32 → Vec F S3x32768x1 .f32),
    StableHlo.unary main_v78 main_v79 (broadcastInDim S3x32768x256 ![0, 1, 2] bcast_S3x32768x1_S3x32768x256_0_1_2 : Vec F S3x32768x1 .f32 → Vec F S3x32768x256 .f32),
    StableHlo.binary main_v75 main_v79 main_v80 (Host.divf : Vec F S3x32768x256 .f32 → Vec F S3x32768x256 .f32 → Vec F S3x32768x256 .f32),
    StableHlo.unary main_v61 main_v81 (broadcastInDim S3x32768x256 ![0, 1, 2] bcast_S3x1x256_S3x32768x256_0_1_2 : Vec F S3x1x256 .f32 → Vec F S3x32768x256 .f32),
    StableHlo.binary main_v80 main_v81 main_v82 (mulf : Vec F S3x32768x256 .f32 → Vec F S3x32768x256 .f32 → Vec F S3x32768x256 .f32),
    StableHlo.unary main_v62 main_v83 (broadcastInDim S3x32768x256 ![0, 1, 2] bcast_S3x1x256_S3x32768x256_0_1_2 : Vec F S3x1x256 .f32 → Vec F S3x32768x256 .f32),
    StableHlo.binary main_v82 main_v83 main_v84 (addf : Vec F S3x32768x256 .f32 → Vec F S3x32768x256 .f32 → Vec F S3x32768x256 .f32) ]

abbrev o103 : List (HloOp τ sig (Elt F)) :=
  [ StableHlo.nullary main_c_12 (constantI S_ 32 0#32),
    StableHlo.unary main_c_12 main_v85 (broadcastInDim S6 ![] bcast_S_S6 : Vec F S_ .i32 → Vec F S6 .i32),
    StableHlo.binary main_c main_v85 main_v86 (cmpi .slt : Vec F S6 .i32 → Vec F S6 .i32 → Vec F S6 .i1),
    StableHlo.nullary main_c_13 (constantI S_ 32 3#32),
    StableHlo.unary main_c_13 main_v87 (broadcastInDim S6 ![] bcast_S_S6 : Vec F S_ .i32 → Vec F S6 .i32),
    StableHlo.binary main_c main_v87 main_v88 (addi : Vec F S6 .i32 → Vec F S6 .i32 → Vec F S6 .i32),
    StableHlo.ternary main_v86 main_v88 main_c main_v89 (select : Vec F S6 .i1 → Vec F S6 .i32 → Vec F S6 .i32 → Vec F S6 .i32),
    StableHlo.unary main_v89 main_v90 (broadcastInDim S6x1 ![0] bcast_S6_S6x1_0 : Vec F S6 .i32 → Vec F S6x1 .i32),
    StableHlo.binary main_v84 main_v90 main_v91 ((fun x i => Host.gather gather_S3x32768x256_S6x1_S6x32768x256_12_0_n_n_0_1_132768256 x i) : Vec F S3x32768x256 .f32 → Vec F S6x1 .i32 → Vec F S6x32768x256 .f32),
    StableHlo.nullary main_c_14 (constantI S_ 32 0#32),
    StableHlo.unary main_c_14 main_v92 (broadcastInDim S6 ![] bcast_S_S6 : Vec F S_ .i32 → Vec F S6 .i32),
    StableHlo.binary main_c_0 main_v92 main_v93 (cmpi .slt : Vec F S6 .i32 → Vec F S6 .i32 → Vec F S6 .i1),
    StableHlo.nullary main_c_15 (constantI S_ 32 3#32),
    StableHlo.unary main_c_15 main_v94 (broadcastInDim S6 ![] bcast_S_S6 : Vec F S_ .i32 → Vec F S6 .i32),
    StableHlo.binary main_c_0 main_v94 main_v95 (addi : Vec F S6 .i32 → Vec F S6 .i32 → Vec F S6 .i32),
    StableHlo.ternary main_v93 main_v95 main_c_0 main_v96 (select : Vec F S6 .i1 → Vec F S6 .i32 → Vec F S6 .i32 → Vec F S6 .i32),
    StableHlo.unary main_v96 main_v97 (broadcastInDim S6x1 ![0] bcast_S6_S6x1_0 : Vec F S6 .i32 → Vec F S6x1 .i32),
    StableHlo.binary main_v84 main_v97 main_v98 ((fun x i => Host.gather gather_S3x32768x256_S6x1_S6x32768x256_12_0_n_n_0_1_132768256 x i) : Vec F S3x32768x256 .f32 → Vec F S6x1 .i32 → Vec F S6x32768x256 .f32) ]

abbrev o121 : List (HloOp τ sig (Elt F)) :=
  [ StableHlo.binary main_v91 main_v98 main_v99 ((fun a b => concatenate S6x32768x512 2 [⟨S6x32768x256, a⟩, ⟨S6x32768x256, b⟩] concatenates_S6x32768x256_S6x32768x256_S6x32768x512_d2) : Vec F S6x32768x256 .f32 → Vec F S6x32768x256 .f32 → Vec F S6x32768x512 .f32),
    StableHlo.binary main_v99 main_arg9 main_v100 ((fun l r => Host.dotGeneral dot_S6x32768x512_S6x512x256_S6x32768x256_2_1_1_2_0_0 none l r) : Vec F S6x32768x512 .f32 → Vec F S6x512x256 .f32 → Vec F S6x32768x256 .f32),
    StableHlo.unary main_arg10 main_v101 (broadcastInDim S6x1x256 ![0, 2] bcast_S6x256_S6x1x256_0_2 : Vec F S6x256 .f32 → Vec F S6x1x256 .f32) ]

abbrev o124 : List (HloOp τ sig (Elt F)) :=
  [ StableHlo.unary main_v101 main_v102 (broadcastInDim S6x32768x256 ![0, 1, 2] bcast_S6x1x256_S6x32768x256_0_1_2 : Vec F S6x1x256 .f32 → Vec F S6x32768x256 .f32),
    StableHlo.binary main_v100 main_v102 main_v103 (addf : Vec F S6x32768x256 .f32 → Vec F S6x32768x256 .f32 → Vec F S6x32768x256 .f32),
    StableHlo.TRef.nullary main_call2.cst (constant S_ .f32 0x00000000#32),
    StableHlo.TRef.unary main_call2.cst main_call2.v0 (broadcastInDim S6x32768x256 ![] bcast_S_S6x32768x256),
    StableHlo.TRef.binary (.of main_v103 : StableHlo.TRef sig ⟨S6x32768x256, .f32⟩) main_call2.v0 main_call2.v1 maximumf,
    StableHlo.binary main_v104 main_arg11 main_v105 ((fun l r => Host.dotGeneral dot_S6x32768x256_S6x256x1_S6x32768x1_2_1_1_2_0_0 none l r) : Vec F S6x32768x256 .f32 → Vec F S6x256x1 .f32 → Vec F S6x32768x1 .f32),
    StableHlo.unary main_arg12 main_v106 (broadcastInDim S6x1x1 ![0, 2] bcast_S6x1_S6x1x1_0_2 : Vec F S6x1 .f32 → Vec F S6x1x1 .f32),
    StableHlo.unary main_v106 main_v107 (broadcastInDim S6x32768x1 ![0, 1, 2] bcast_S6x1x1_S6x32768x1_0_1_2 : Vec F S6x1x1 .f32 → Vec F S6x32768x1 .f32),
    StableHlo.binary main_v105 main_v107 main_v108 (addf : Vec F S6x32768x1 .f32 → Vec F S6x32768x1 .f32 → Vec F S6x32768x1 .f32),
    StableHlo.unary main_v108 main_v109 (Host.negf : Vec F S6x32768x1 .f32 → Vec F S6x32768x1 .f32),
    StableHlo.unary main_v109 main_v110 (Host.exp : Vec F S6x32768x1 .f32 → Vec F S6x32768x1 .f32),
    StableHlo.nullary main_cst_16 (constant S_ .f32 0x3F800000#32),
    StableHlo.unary main_cst_16 main_v111 (broadcastInDim S6x32768x1 ![] bcast_S_S6x32768x1 : Vec F S_ .f32 → Vec F S6x32768x1 .f32),
    StableHlo.binary main_v111 main_v110 main_v112 (addf : Vec F S6x32768x1 .f32 → Vec F S6x32768x1 .f32 → Vec F S6x32768x1 .f32),
    StableHlo.nullary main_cst_17 (constant S_ .f32 0x3F800000#32),
    StableHlo.unary main_cst_17 main_v113 (broadcastInDim S6x32768x1 ![] bcast_S_S6x32768x1 : Vec F S_ .f32 → Vec F S6x32768x1 .f32),
    StableHlo.binary main_v113 main_v112 main_v114 (Host.divf : Vec F S6x32768x1 .f32 → Vec F S6x32768x1 .f32 → Vec F S6x32768x1 .f32),
    StableHlo.unary main_v114 main_v115 (broadcastInDim S6x32768x256 ![0, 1, 2] bcast_S6x32768x1_S6x32768x256_0_1_2 : Vec F S6x32768x1 .f32 → Vec F S6x32768x256 .f32),
    StableHlo.binary main_v115 main_v91 main_v116 (mulf : Vec F S6x32768x256 .f32 → Vec F S6x32768x256 .f32 → Vec F S6x32768x256 .f32) ]

abbrev o143 : List (HloOp τ sig (Elt F)) :=
  [ StableHlo.nullary main_cst_18 (constant S_ .f32 0x00000000#32),
    StableHlo.unary main_cst_18 main_v117 (broadcastInDim S3x32768x256 ![] bcast_S_S3x32768x256 : Vec F S_ .f32 → Vec F S3x32768x256 .f32),
    StableHlo.unary main_c_0 main_v118 (broadcastInDim S6x1 ![0] bcast_S6_S6x1_0 : Vec F S6 .i32 → Vec F S6x1 .i32),
    StableHlo.ternary main_v117 main_v118 main_v116 main_v119 ((fun x i u => Host.scatterAdd scatter_S3x32768x256_S6x1_S6x32768x256_12_0_0_1 x i u) : Vec F S3x32768x256 .f32 → Vec F S6x1 .i32 → Vec F S6x32768x256 .f32 → Vec F S3x32768x256 .f32),
    StableHlo.binary main_v84 main_v119 main_v120 (addf : Vec F S3x32768x256 .f32 → Vec F S3x32768x256 .f32 → Vec F S3x32768x256 .f32),
    StableHlo.binary main_v120 main_arg13 main_v121 ((fun l r => Host.dotGeneral dot_S3x32768x256_S3x256x256_S3x32768x256_2_1_1_2_0_0 none l r) : Vec F S3x32768x256 .f32 → Vec F S3x256x256 .f32 → Vec F S3x32768x256 .f32),
    StableHlo.unary main_arg14 main_v122 (broadcastInDim S3x1x256 ![0, 2] bcast_S3x256_S3x1x256_0_2 : Vec F S3x256 .f32 → Vec F S3x1x256 .f32),
    StableHlo.unary main_v122 main_v123 (broadcastInDim S3x32768x256 ![0, 1, 2] bcast_S3x1x256_S3x32768x256_0_1_2 : Vec F S3x1x256 .f32 → Vec F S3x32768x256 .f32),
    StableHlo.binary main_v121 main_v123 main_v124 (addf : Vec F S3x32768x256 .f32 → Vec F S3x32768x256 .f32 → Vec F S3x32768x256 .f32),
    StableHlo.TRef.nullary main_call3.cst (constant S_ .f32 0x00000000#32),
    StableHlo.TRef.unary main_call3.cst main_call3.v0 (broadcastInDim S3x32768x256 ![] bcast_S_S3x32768x256),
    StableHlo.TRef.binary (.of main_v124 : StableHlo.TRef sig ⟨S3x32768x256, .f32⟩) main_call3.v0 main_call3.v1 maximumf,
    StableHlo.binary main_v125 main_arg15 main_v126 ((fun l r => Host.dotGeneral dot_S3x32768x256_S3x256x256_S3x32768x256_2_1_1_2_0_0 none l r) : Vec F S3x32768x256 .f32 → Vec F S3x256x256 .f32 → Vec F S3x32768x256 .f32),
    StableHlo.unary main_arg16 main_v127 (broadcastInDim S3x1x256 ![0, 2] bcast_S3x256_S3x1x256_0_2 : Vec F S3x256 .f32 → Vec F S3x1x256 .f32),
    StableHlo.unary main_v127 main_v128 (broadcastInDim S3x32768x256 ![0, 1, 2] bcast_S3x1x256_S3x32768x256_0_1_2 : Vec F S3x1x256 .f32 → Vec F S3x32768x256 .f32),
    StableHlo.binary main_v126 main_v128 main_v129 (addf : Vec F S3x32768x256 .f32 → Vec F S3x32768x256 .f32 → Vec F S3x32768x256 .f32) ]

abbrev o159 : List (HloOp τ sig (Elt F)) :=
  [ StableHlo.unary main_arg17 main_v130 (broadcastInDim S3x1x256 ![0, 2] bcast_S3x256_S3x1x256_0_2 : Vec F S3x256 .f32 → Vec F S3x1x256 .f32),
    StableHlo.unary main_arg18 main_v131 (broadcastInDim S3x1x256 ![0, 2] bcast_S3x256_S3x1x256_0_2 : Vec F S3x256 .f32 → Vec F S3x1x256 .f32),
    StableHlo.nullary main_cst_19 (constant S_ .f32 0x00000000#32),
    StableHlo.binary main_v129 main_cst_19 main_v132 ((fun x v => Host.reduceAdd x v reducesTo_S3x32768x256_S3x32768_d2 h_S_) : Vec F S3x32768x256 .f32 → Vec F S_ .f32 → Vec F S3x32768 .f32),
    StableHlo.unary main_v132 main_v133 (broadcastInDim S3x32768x1 ![0, 1] bcast_S3x32768_S3x32768x1_0_1 : Vec F S3x32768 .f32 → Vec F S3x32768x1 .f32),
    StableHlo.nullary main_cst_20 (constant S_ .f32 0x43800000#32),
    StableHlo.unary main_cst_20 main_v134 (broadcastInDim S3x32768x1 ![] bcast_S_S3x32768x1 : Vec F S_ .f32 → Vec F S3x32768x1 .f32),
    StableHlo.binary main_v133 main_v134 main_v135 (Host.divf : Vec F S3x32768x1 .f32 → Vec F S3x32768x1 .f32 → Vec F S3x32768x1 .f32),
    StableHlo.unary main_v135 main_v136 (broadcastInDim S3x32768x256 ![0, 1, 2] bcast_S3x32768x1_S3x32768x256_0_1_2 : Vec F S3x32768x1 .f32 → Vec F S3x32768x256 .f32),
    StableHlo.binary main_v129 main_v136 main_v137 (subf : Vec F S3x32768x256 .f32 → Vec F S3x32768x256 .f32 → Vec F S3x32768x256 .f32),
    StableHlo.binary main_v137 main_v137 main_v138 (mulf : Vec F S3x32768x256 .f32 → Vec F S3x32768x256 .f32 → Vec F S3x32768x256 .f32),
    StableHlo.nullary main_cst_21 (constant S_ .f32 0x00000000#32),
    StableHlo.binary main_v138 main_cst_21 main_v139 ((fun x v => Host.reduceAdd x v reducesTo_S3x32768x256_S3x32768_d2 h_S_) : Vec F S3x32768x256 .f32 → Vec F S_ .f32 → Vec F S3x32768 .f32),
    StableHlo.unary main_v139 main_v140 (broadcastInDim S3x32768x1 ![0, 1] bcast_S3x32768_S3x32768x1_0_1 : Vec F S3x32768 .f32 → Vec F S3x32768x1 .f32),
    StableHlo.nullary main_cst_22 (constant S_ .f32 0x43800000#32),
    StableHlo.unary main_cst_22 main_v141 (broadcastInDim S3x32768x1 ![] bcast_S_S3x32768x1 : Vec F S_ .f32 → Vec F S3x32768x1 .f32),
    StableHlo.binary main_v140 main_v141 main_v142 (Host.divf : Vec F S3x32768x1 .f32 → Vec F S3x32768x1 .f32 → Vec F S3x32768x1 .f32),
    StableHlo.unary main_v135 main_v143 (broadcastInDim S3x32768x256 ![0, 1, 2] bcast_S3x32768x1_S3x32768x256_0_1_2 : Vec F S3x32768x1 .f32 → Vec F S3x32768x256 .f32),
    StableHlo.binary main_v129 main_v143 main_v144 (subf : Vec F S3x32768x256 .f32 → Vec F S3x32768x256 .f32 → Vec F S3x32768x256 .f32),
    StableHlo.nullary main_cst_23 (constant S_ .f32 0x3727C5AC#32),
    StableHlo.unary main_cst_23 main_v145 (broadcastInDim S3x32768x1 ![] bcast_S_S3x32768x1 : Vec F S_ .f32 → Vec F S3x32768x1 .f32),
    StableHlo.binary main_v142 main_v145 main_v146 (addf : Vec F S3x32768x1 .f32 → Vec F S3x32768x1 .f32 → Vec F S3x32768x1 .f32),
    StableHlo.unary main_v146 main_v147 (Host.sqrt : Vec F S3x32768x1 .f32 → Vec F S3x32768x1 .f32),
    StableHlo.unary main_v147 main_v148 (broadcastInDim S3x32768x256 ![0, 1, 2] bcast_S3x32768x1_S3x32768x256_0_1_2 : Vec F S3x32768x1 .f32 → Vec F S3x32768x256 .f32),
    StableHlo.binary main_v144 main_v148 main_v149 (Host.divf : Vec F S3x32768x256 .f32 → Vec F S3x32768x256 .f32 → Vec F S3x32768x256 .f32),
    StableHlo.unary main_v130 main_v150 (broadcastInDim S3x32768x256 ![0, 1, 2] bcast_S3x1x256_S3x32768x256_0_1_2 : Vec F S3x1x256 .f32 → Vec F S3x32768x256 .f32),
    StableHlo.binary main_v149 main_v150 main_v151 (mulf : Vec F S3x32768x256 .f32 → Vec F S3x32768x256 .f32 → Vec F S3x32768x256 .f32),
    StableHlo.unary main_v131 main_v152 (broadcastInDim S3x32768x256 ![0, 1, 2] bcast_S3x1x256_S3x32768x256_0_1_2 : Vec F S3x1x256 .f32 → Vec F S3x32768x256 .f32),
    StableHlo.binary main_v151 main_v152 main_v153 (addf : Vec F S3x32768x256 .f32 → Vec F S3x32768x256 .f32 → Vec F S3x32768x256 .f32) ]

abbrev o188 : List (HloOp τ sig (Elt F)) :=
  [ StableHlo.nullary main_c_24 (constantI S_ 32 0#32),
    StableHlo.unary main_c_24 main_v154 (broadcastInDim S6 ![] bcast_S_S6 : Vec F S_ .i32 → Vec F S6 .i32),
    StableHlo.binary main_c main_v154 main_v155 (cmpi .slt : Vec F S6 .i32 → Vec F S6 .i32 → Vec F S6 .i1),
    StableHlo.nullary main_c_25 (constantI S_ 32 3#32),
    StableHlo.unary main_c_25 main_v156 (broadcastInDim S6 ![] bcast_S_S6 : Vec F S_ .i32 → Vec F S6 .i32),
    StableHlo.binary main_c main_v156 main_v157 (addi : Vec F S6 .i32 → Vec F S6 .i32 → Vec F S6 .i32),
    StableHlo.ternary main_v155 main_v157 main_c main_v158 (select : Vec F S6 .i1 → Vec F S6 .i32 → Vec F S6 .i32 → Vec F S6 .i32),
    StableHlo.unary main_v158 main_v159 (broadcastInDim S6x1 ![0] bcast_S6_S6x1_0 : Vec F S6 .i32 → Vec F S6x1 .i32),
    StableHlo.binary main_v153 main_v159 main_v160 ((fun x i => Host.gather gather_S3x32768x256_S6x1_S6x32768x256_12_0_n_n_0_1_132768256 x i) : Vec F S3x32768x256 .f32 → Vec F S6x1 .i32 → Vec F S6x32768x256 .f32),
    StableHlo.nullary main_c_26 (constantI S_ 32 0#32),
    StableHlo.unary main_c_26 main_v161 (broadcastInDim S6 ![] bcast_S_S6 : Vec F S_ .i32 → Vec F S6 .i32),
    StableHlo.binary main_c_0 main_v161 main_v162 (cmpi .slt : Vec F S6 .i32 → Vec F S6 .i32 → Vec F S6 .i1),
    StableHlo.nullary main_c_27 (constantI S_ 32 3#32),
    StableHlo.unary main_c_27 main_v163 (broadcastInDim S6 ![] bcast_S_S6 : Vec F S_ .i32 → Vec F S6 .i32),
    StableHlo.binary main_c_0 main_v163 main_v164 (addi : Vec F S6 .i32 → Vec F S6 .i32 → Vec F S6 .i32),
    StableHlo.ternary main_v162 main_v164 main_c_0 main_v165 (select : Vec F S6 .i1 → Vec F S6 .i32 → Vec F S6 .i32 → Vec F S6 .i32),
    StableHlo.unary main_v165 main_v166 (broadcastInDim S6x1 ![0] bcast_S6_S6x1_0 : Vec F S6 .i32 → Vec F S6x1 .i32),
    StableHlo.binary main_v153 main_v166 main_v167 ((fun x i => Host.gather gather_S3x32768x256_S6x1_S6x32768x256_12_0_n_n_0_1_132768256 x i) : Vec F S3x32768x256 .f32 → Vec F S6x1 .i32 → Vec F S6x32768x256 .f32) ]

abbrev o206 : List (HloOp τ sig (Elt F)) :=
  [ StableHlo.binary main_v160 main_v167 main_v168 ((fun a b => concatenate S6x32768x512 2 [⟨S6x32768x256, a⟩, ⟨S6x32768x256, b⟩] concatenates_S6x32768x256_S6x32768x256_S6x32768x512_d2) : Vec F S6x32768x256 .f32 → Vec F S6x32768x256 .f32 → Vec F S6x32768x512 .f32),
    StableHlo.binary main_v168 main_arg9 main_v169 ((fun l r => Host.dotGeneral dot_S6x32768x512_S6x512x256_S6x32768x256_2_1_1_2_0_0 none l r) : Vec F S6x32768x512 .f32 → Vec F S6x512x256 .f32 → Vec F S6x32768x256 .f32),
    StableHlo.unary main_arg10 main_v170 (broadcastInDim S6x1x256 ![0, 2] bcast_S6x256_S6x1x256_0_2 : Vec F S6x256 .f32 → Vec F S6x1x256 .f32),
    StableHlo.unary main_v170 main_v171 (broadcastInDim S6x32768x256 ![0, 1, 2] bcast_S6x1x256_S6x32768x256_0_1_2 : Vec F S6x1x256 .f32 → Vec F S6x32768x256 .f32),
    StableHlo.binary main_v169 main_v171 main_v172 (addf : Vec F S6x32768x256 .f32 → Vec F S6x32768x256 .f32 → Vec F S6x32768x256 .f32),
    StableHlo.TRef.nullary main_call4.cst (constant S_ .f32 0x00000000#32),
    StableHlo.TRef.unary main_call4.cst main_call4.v0 (broadcastInDim S6x32768x256 ![] bcast_S_S6x32768x256),
    StableHlo.TRef.binary (.of main_v172 : StableHlo.TRef sig ⟨S6x32768x256, .f32⟩) main_call4.v0 main_call4.v1 maximumf,
    StableHlo.binary main_v173 main_arg11 main_v174 ((fun l r => Host.dotGeneral dot_S6x32768x256_S6x256x1_S6x32768x1_2_1_1_2_0_0 none l r) : Vec F S6x32768x256 .f32 → Vec F S6x256x1 .f32 → Vec F S6x32768x1 .f32),
    StableHlo.unary main_arg12 main_v175 (broadcastInDim S6x1x1 ![0, 2] bcast_S6x1_S6x1x1_0_2 : Vec F S6x1 .f32 → Vec F S6x1x1 .f32),
    StableHlo.unary main_v175 main_v176 (broadcastInDim S6x32768x1 ![0, 1, 2] bcast_S6x1x1_S6x32768x1_0_1_2 : Vec F S6x1x1 .f32 → Vec F S6x32768x1 .f32),
    StableHlo.binary main_v174 main_v176 main_v177 (addf : Vec F S6x32768x1 .f32 → Vec F S6x32768x1 .f32 → Vec F S6x32768x1 .f32),
    StableHlo.unary main_v177 main_v178 (Host.negf : Vec F S6x32768x1 .f32 → Vec F S6x32768x1 .f32),
    StableHlo.unary main_v178 main_v179 (Host.exp : Vec F S6x32768x1 .f32 → Vec F S6x32768x1 .f32),
    StableHlo.nullary main_cst_28 (constant S_ .f32 0x3F800000#32),
    StableHlo.unary main_cst_28 main_v180 (broadcastInDim S6x32768x1 ![] bcast_S_S6x32768x1 : Vec F S_ .f32 → Vec F S6x32768x1 .f32),
    StableHlo.binary main_v180 main_v179 main_v181 (addf : Vec F S6x32768x1 .f32 → Vec F S6x32768x1 .f32 → Vec F S6x32768x1 .f32),
    StableHlo.nullary main_cst_29 (constant S_ .f32 0x3F800000#32),
    StableHlo.unary main_cst_29 main_v182 (broadcastInDim S6x32768x1 ![] bcast_S_S6x32768x1 : Vec F S_ .f32 → Vec F S6x32768x1 .f32),
    StableHlo.binary main_v182 main_v181 main_v183 (Host.divf : Vec F S6x32768x1 .f32 → Vec F S6x32768x1 .f32 → Vec F S6x32768x1 .f32),
    StableHlo.unary main_v183 main_v184 (broadcastInDim S6x32768x256 ![0, 1, 2] bcast_S6x32768x1_S6x32768x256_0_1_2 : Vec F S6x32768x1 .f32 → Vec F S6x32768x256 .f32),
    StableHlo.binary main_v184 main_v160 main_v185 (mulf : Vec F S6x32768x256 .f32 → Vec F S6x32768x256 .f32 → Vec F S6x32768x256 .f32) ]

abbrev o228 : List (HloOp τ sig (Elt F)) :=
  [ StableHlo.nullary main_cst_30 (constant S_ .f32 0x00000000#32),
    StableHlo.unary main_cst_30 main_v186 (broadcastInDim S3x32768x256 ![] bcast_S_S3x32768x256 : Vec F S_ .f32 → Vec F S3x32768x256 .f32),
    StableHlo.unary main_c_0 main_v187 (broadcastInDim S6x1 ![0] bcast_S6_S6x1_0 : Vec F S6 .i32 → Vec F S6x1 .i32),
    StableHlo.ternary main_v186 main_v187 main_v185 main_v188 ((fun x i u => Host.scatterAdd scatter_S3x32768x256_S6x1_S6x32768x256_12_0_0_1 x i u) : Vec F S3x32768x256 .f32 → Vec F S6x1 .i32 → Vec F S6x32768x256 .f32 → Vec F S3x32768x256 .f32),
    StableHlo.binary main_v153 main_v188 main_v189 (addf : Vec F S3x32768x256 .f32 → Vec F S3x32768x256 .f32 → Vec F S3x32768x256 .f32),
    StableHlo.binary main_v189 main_arg13 main_v190 ((fun l r => Host.dotGeneral dot_S3x32768x256_S3x256x256_S3x32768x256_2_1_1_2_0_0 none l r) : Vec F S3x32768x256 .f32 → Vec F S3x256x256 .f32 → Vec F S3x32768x256 .f32),
    StableHlo.unary main_arg14 main_v191 (broadcastInDim S3x1x256 ![0, 2] bcast_S3x256_S3x1x256_0_2 : Vec F S3x256 .f32 → Vec F S3x1x256 .f32),
    StableHlo.unary main_v191 main_v192 (broadcastInDim S3x32768x256 ![0, 1, 2] bcast_S3x1x256_S3x32768x256_0_1_2 : Vec F S3x1x256 .f32 → Vec F S3x32768x256 .f32),
    StableHlo.binary main_v190 main_v192 main_v193 (addf : Vec F S3x32768x256 .f32 → Vec F S3x32768x256 .f32 → Vec F S3x32768x256 .f32),
    StableHlo.TRef.nullary main_call5.cst (constant S_ .f32 0x00000000#32),
    StableHlo.TRef.unary main_call5.cst main_call5.v0 (broadcastInDim S3x32768x256 ![] bcast_S_S3x32768x256),
    StableHlo.TRef.binary (.of main_v193 : StableHlo.TRef sig ⟨S3x32768x256, .f32⟩) main_call5.v0 main_call5.v1 maximumf,
    StableHlo.binary main_v194 main_arg15 main_v195 ((fun l r => Host.dotGeneral dot_S3x32768x256_S3x256x256_S3x32768x256_2_1_1_2_0_0 none l r) : Vec F S3x32768x256 .f32 → Vec F S3x256x256 .f32 → Vec F S3x32768x256 .f32),
    StableHlo.unary main_arg16 main_v196 (broadcastInDim S3x1x256 ![0, 2] bcast_S3x256_S3x1x256_0_2 : Vec F S3x256 .f32 → Vec F S3x1x256 .f32),
    StableHlo.unary main_v196 main_v197 (broadcastInDim S3x32768x256 ![0, 1, 2] bcast_S3x1x256_S3x32768x256_0_1_2 : Vec F S3x1x256 .f32 → Vec F S3x32768x256 .f32),
    StableHlo.binary main_v195 main_v197 main_v198 (addf : Vec F S3x32768x256 .f32 → Vec F S3x32768x256 .f32 → Vec F S3x32768x256 .f32) ]

abbrev o244 : List (HloOp τ sig (Elt F)) :=
  [ StableHlo.unary main_arg17 main_v199 (broadcastInDim S3x1x256 ![0, 2] bcast_S3x256_S3x1x256_0_2 : Vec F S3x256 .f32 → Vec F S3x1x256 .f32),
    StableHlo.unary main_arg18 main_v200 (broadcastInDim S3x1x256 ![0, 2] bcast_S3x256_S3x1x256_0_2 : Vec F S3x256 .f32 → Vec F S3x1x256 .f32),
    StableHlo.nullary main_cst_31 (constant S_ .f32 0x00000000#32),
    StableHlo.binary main_v198 main_cst_31 main_v201 ((fun x v => Host.reduceAdd x v reducesTo_S3x32768x256_S3x32768_d2 h_S_) : Vec F S3x32768x256 .f32 → Vec F S_ .f32 → Vec F S3x32768 .f32),
    StableHlo.unary main_v201 main_v202 (broadcastInDim S3x32768x1 ![0, 1] bcast_S3x32768_S3x32768x1_0_1 : Vec F S3x32768 .f32 → Vec F S3x32768x1 .f32),
    StableHlo.nullary main_cst_32 (constant S_ .f32 0x43800000#32),
    StableHlo.unary main_cst_32 main_v203 (broadcastInDim S3x32768x1 ![] bcast_S_S3x32768x1 : Vec F S_ .f32 → Vec F S3x32768x1 .f32),
    StableHlo.binary main_v202 main_v203 main_v204 (Host.divf : Vec F S3x32768x1 .f32 → Vec F S3x32768x1 .f32 → Vec F S3x32768x1 .f32) ]

abbrev o252 : List (HloOp τ sig (Elt F)) :=
  [ StableHlo.unary main_v204 main_v205 (broadcastInDim S3x32768x256 ![0, 1, 2] bcast_S3x32768x1_S3x32768x256_0_1_2 : Vec F S3x32768x1 .f32 → Vec F S3x32768x256 .f32),
    StableHlo.binary main_v198 main_v205 main_v206 (subf : Vec F S3x32768x256 .f32 → Vec F S3x32768x256 .f32 → Vec F S3x32768x256 .f32),
    StableHlo.binary main_v206 main_v206 main_v207 (mulf : Vec F S3x32768x256 .f32 → Vec F S3x32768x256 .f32 → Vec F S3x32768x256 .f32),
    StableHlo.nullary main_cst_33 (constant S_ .f32 0x00000000#32),
    StableHlo.binary main_v207 main_cst_33 main_v208 ((fun x v => Host.reduceAdd x v reducesTo_S3x32768x256_S3x32768_d2 h_S_) : Vec F S3x32768x256 .f32 → Vec F S_ .f32 → Vec F S3x32768 .f32),
    StableHlo.unary main_v208 main_v209 (broadcastInDim S3x32768x1 ![0, 1] bcast_S3x32768_S3x32768x1_0_1 : Vec F S3x32768 .f32 → Vec F S3x32768x1 .f32),
    StableHlo.nullary main_cst_34 (constant S_ .f32 0x43800000#32),
    StableHlo.unary main_cst_34 main_v210 (broadcastInDim S3x32768x1 ![] bcast_S_S3x32768x1 : Vec F S_ .f32 → Vec F S3x32768x1 .f32),
    StableHlo.binary main_v209 main_v210 main_v211 (Host.divf : Vec F S3x32768x1 .f32 → Vec F S3x32768x1 .f32 → Vec F S3x32768x1 .f32),
    StableHlo.unary main_v204 main_v212 (broadcastInDim S3x32768x256 ![0, 1, 2] bcast_S3x32768x1_S3x32768x256_0_1_2 : Vec F S3x32768x1 .f32 → Vec F S3x32768x256 .f32),
    StableHlo.binary main_v198 main_v212 main_v213 (subf : Vec F S3x32768x256 .f32 → Vec F S3x32768x256 .f32 → Vec F S3x32768x256 .f32),
    StableHlo.nullary main_cst_35 (constant S_ .f32 0x3727C5AC#32),
    StableHlo.unary main_cst_35 main_v214 (broadcastInDim S3x32768x1 ![] bcast_S_S3x32768x1 : Vec F S_ .f32 → Vec F S3x32768x1 .f32),
    StableHlo.binary main_v211 main_v214 main_v215 (addf : Vec F S3x32768x1 .f32 → Vec F S3x32768x1 .f32 → Vec F S3x32768x1 .f32),
    StableHlo.unary main_v215 main_v216 (Host.sqrt : Vec F S3x32768x1 .f32 → Vec F S3x32768x1 .f32),
    StableHlo.unary main_v216 main_v217 (broadcastInDim S3x32768x256 ![0, 1, 2] bcast_S3x32768x1_S3x32768x256_0_1_2 : Vec F S3x32768x1 .f32 → Vec F S3x32768x256 .f32),
    StableHlo.binary main_v213 main_v217 main_v218 (Host.divf : Vec F S3x32768x256 .f32 → Vec F S3x32768x256 .f32 → Vec F S3x32768x256 .f32),
    StableHlo.unary main_v199 main_v219 (broadcastInDim S3x32768x256 ![0, 1, 2] bcast_S3x1x256_S3x32768x256_0_1_2 : Vec F S3x1x256 .f32 → Vec F S3x32768x256 .f32),
    StableHlo.binary main_v218 main_v219 main_v220 (mulf : Vec F S3x32768x256 .f32 → Vec F S3x32768x256 .f32 → Vec F S3x32768x256 .f32),
    StableHlo.unary main_v200 main_v221 (broadcastInDim S3x32768x256 ![0, 1, 2] bcast_S3x1x256_S3x32768x256_0_1_2 : Vec F S3x1x256 .f32 → Vec F S3x32768x256 .f32),
    StableHlo.binary main_v220 main_v221 main_v222 (addf : Vec F S3x32768x256 .f32 → Vec F S3x32768x256 .f32 → Vec F S3x32768x256 .f32) ]

abbrev o273 : List (HloOp τ sig (Elt F)) :=
  [ StableHlo.unary main_v222 main_v223 ((transpose S32768x3x256 [1, 0, 2] · transposes_S3x32768x256_S32768x3x256_1_0_2) : Vec F S3x32768x256 .f32 → Vec F S32768x3x256 .f32),
    StableHlo.reshape main_v223 main_v224 rfl shapeCasts_S32768x3x256_S32768x768,
    StableHlo.binary main_v224 main_arg19 main_v225 ((fun l r => Host.dotGeneral dot_S32768x768_S768x256_S32768x256_1_0_0_1_n_n none l r) : Vec F S32768x768 .f32 → Vec F S768x256 .f32 → Vec F S32768x256 .f32),
    StableHlo.unary main_arg20 main_v226 (broadcastInDim S1x256 ![1] bcast_S256_S1x256_1 : Vec F S256 .f32 → Vec F S1x256 .f32),
    StableHlo.unary main_v226 main_v227 (broadcastInDim S32768x256 ![0, 1] bcast_S1x256_S32768x256_0_1 : Vec F S1x256 .f32 → Vec F S32768x256 .f32),
    StableHlo.binary main_v225 main_v227 main_v228 (addf : Vec F S32768x256 .f32 → Vec F S32768x256 .f32 → Vec F S32768x256 .f32),
    StableHlo.TRef.nullary main_call6.cst (constant S_ .f32 0x00000000#32),
    StableHlo.TRef.unary main_call6.cst main_call6.v0 (broadcastInDim S32768x256 ![] bcast_S_S32768x256),
    StableHlo.TRef.binary (.of main_v228 : StableHlo.TRef sig ⟨S32768x256, .f32⟩) main_call6.v0 main_call6.v1 maximumf,
    StableHlo.binary main_v229 main_arg21 main_v230 ((fun l r => Host.dotGeneral dot_S32768x256_S256x256_S32768x256_1_0_0_1_n_n none l r) : Vec F S32768x256 .f32 → Vec F S256x256 .f32 → Vec F S32768x256 .f32),
    StableHlo.unary main_arg22 main_v231 (broadcastInDim S1x256 ![1] bcast_S256_S1x256_1 : Vec F S256 .f32 → Vec F S1x256 .f32),
    StableHlo.unary main_v231 main_v232 (broadcastInDim S32768x256 ![0, 1] bcast_S1x256_S32768x256_0_1 : Vec F S1x256 .f32 → Vec F S32768x256 .f32),
    StableHlo.binary main_v230 main_v232 main_v233 (addf : Vec F S32768x256 .f32 → Vec F S32768x256 .f32 → Vec F S32768x256 .f32) ]

abbrev o286 : List (HloOp τ sig (Elt F)) :=
  [ StableHlo.nullary main_cst_36 (constant S_ .f32 0x00000000#32),
    StableHlo.binary main_v233 main_cst_36 main_v234 ((fun x v => Host.reduceAdd x v reducesTo_S32768x256_S32768_d1 h_S_) : Vec F S32768x256 .f32 → Vec F S_ .f32 → Vec F S32768 .f32),
    StableHlo.unary main_v234 main_v235 (broadcastInDim S32768x1 ![0] bcast_S32768_S32768x1_0 : Vec F S32768 .f32 → Vec F S32768x1 .f32),
    StableHlo.nullary main_cst_37 (constant S_ .f32 0x43800000#32),
    StableHlo.unary main_cst_37 main_v236 (broadcastInDim S32768x1 ![] bcast_S_S32768x1 : Vec F S_ .f32 → Vec F S32768x1 .f32),
    StableHlo.binary main_v235 main_v236 main_v237 (Host.divf : Vec F S32768x1 .f32 → Vec F S32768x1 .f32 → Vec F S32768x1 .f32),
    StableHlo.unary main_v237 main_v238 (broadcastInDim S32768x256 ![0, 1] bcast_S32768x1_S32768x256_0_1 : Vec F S32768x1 .f32 → Vec F S32768x256 .f32),
    StableHlo.binary main_v233 main_v238 main_v239 (subf : Vec F S32768x256 .f32 → Vec F S32768x256 .f32 → Vec F S32768x256 .f32),
    StableHlo.binary main_v239 main_v239 main_v240 (mulf : Vec F S32768x256 .f32 → Vec F S32768x256 .f32 → Vec F S32768x256 .f32),
    StableHlo.nullary main_cst_38 (constant S_ .f32 0x00000000#32),
    StableHlo.binary main_v240 main_cst_38 main_v241 ((fun x v => Host.reduceAdd x v reducesTo_S32768x256_S32768_d1 h_S_) : Vec F S32768x256 .f32 → Vec F S_ .f32 → Vec F S32768 .f32),
    StableHlo.unary main_v241 main_v242 (broadcastInDim S32768x1 ![0] bcast_S32768_S32768x1_0 : Vec F S32768 .f32 → Vec F S32768x1 .f32),
    StableHlo.nullary main_cst_39 (constant S_ .f32 0x43800000#32),
    StableHlo.unary main_cst_39 main_v243 (broadcastInDim S32768x1 ![] bcast_S_S32768x1 : Vec F S_ .f32 → Vec F S32768x1 .f32),
    StableHlo.binary main_v242 main_v243 main_v244 (Host.divf : Vec F S32768x1 .f32 → Vec F S32768x1 .f32 → Vec F S32768x1 .f32),
    StableHlo.unary main_v237 main_v245 (broadcastInDim S32768x256 ![0, 1] bcast_S32768x1_S32768x256_0_1 : Vec F S32768x1 .f32 → Vec F S32768x256 .f32),
    StableHlo.binary main_v233 main_v245 main_v246 (subf : Vec F S32768x256 .f32 → Vec F S32768x256 .f32 → Vec F S32768x256 .f32),
    StableHlo.nullary main_cst_40 (constant S_ .f32 0x3727C5AC#32),
    StableHlo.unary main_cst_40 main_v247 (broadcastInDim S32768x1 ![] bcast_S_S32768x1 : Vec F S_ .f32 → Vec F S32768x1 .f32),
    StableHlo.binary main_v244 main_v247 main_v248 (addf : Vec F S32768x1 .f32 → Vec F S32768x1 .f32 → Vec F S32768x1 .f32),
    StableHlo.unary main_v248 main_v249 (Host.sqrt : Vec F S32768x1 .f32 → Vec F S32768x1 .f32),
    StableHlo.unary main_v249 main_v250 (broadcastInDim S32768x256 ![0, 1] bcast_S32768x1_S32768x256_0_1 : Vec F S32768x1 .f32 → Vec F S32768x256 .f32),
    StableHlo.binary main_v246 main_v250 main_v251 (Host.divf : Vec F S32768x256 .f32 → Vec F S32768x256 .f32 → Vec F S32768x256 .f32),
    StableHlo.unary main_arg23 main_v252 (broadcastInDim S1x256 ![1] bcast_S256_S1x256_1 : Vec F S256 .f32 → Vec F S1x256 .f32),
    StableHlo.unary main_v252 main_v253 (broadcastInDim S32768x256 ![0, 1] bcast_S1x256_S32768x256_0_1 : Vec F S1x256 .f32 → Vec F S32768x256 .f32),
    StableHlo.binary main_v251 main_v253 main_v254 (mulf : Vec F S32768x256 .f32 → Vec F S32768x256 .f32 → Vec F S32768x256 .f32),
    StableHlo.unary main_arg24 main_v255 (broadcastInDim S1x256 ![1] bcast_S256_S1x256_1 : Vec F S256 .f32 → Vec F S1x256 .f32),
    StableHlo.unary main_v255 main_v256 (broadcastInDim S32768x256 ![0, 1] bcast_S1x256_S32768x256_0_1 : Vec F S1x256 .f32 → Vec F S32768x256 .f32) ]

abbrev o314 : List (HloOp τ sig (Elt F)) :=
  [ StableHlo.binary main_v254 main_v256 main_v257 (addf : Vec F S32768x256 .f32 → Vec F S32768x256 .f32 → Vec F S32768x256 .f32) ]

abbrev ops : List (HloOp τ sig (Elt F)) :=
  o000 ++ (o018 ++ (o036 ++ (o058 ++ (o062 ++ (o074 ++ (o103 ++ (o121 ++ (o124 ++ (o143 ++ (o159 ++ (o188 ++ (o206 ++ (o228 ++ (o244 ++ (o252 ++ (o273 ++ (o286 ++ (o314))))))))))))))))))

set_option maxRecDepth 8192 in
theorem main_part0_eq (c : Dev nD) : main_part0 (F := F) c = seq (o000 ++ o018 ++ o036 ++ o058) := rfl

set_option maxRecDepth 8192 in
theorem main_part1_eq (c : Dev nD) : main_part1 (F := F) c = seq (o062 ++ o074 ++ o103 ++ o121) := rfl

set_option maxRecDepth 8192 in
theorem main_part2_eq (c : Dev nD) : main_part2 (F := F) c = seq (o124 ++ o143 ++ o159) := rfl

set_option maxRecDepth 8192 in
theorem main_part3_eq (c : Dev nD) : main_part3 (F := F) c = seq (o188 ++ o206 ++ o228 ++ o244) := rfl

set_option maxRecDepth 8192 in
theorem main_part4_eq (c : Dev nD) : main_part4 (F := F) c = seq (o252 ++ o273 ++ o286) := rfl

set_option maxRecDepth 8192 in
theorem main_part5_eq (c : Dev nD) : main_part5 (F := F) c = seq o314 := rfl

theorem main_eq (c : Dev nD) : main (F := F) c = seq ops := by
  simp only [main, main_part0_eq, main_part1_eq, main_part2_eq, main_part3_eq, main_part4_eq, main_part5_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem o000_sub : (o000 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o018_sub : (o018 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o036_sub : (o036 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o058_sub : (o058 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o062_sub : (o062 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o074_sub : (o074 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o103_sub : (o103 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o121_sub : (o121 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o124_sub : (o124 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o143_sub : (o143 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o159_sub : (o159 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o188_sub : (o188 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o206_sub : (o206 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o228_sub : (o228 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o244_sub : (o244 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o252_sub : (o252 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o273_sub : (o273 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
theorem o286_sub : (o286 : List (HloOp τ sig (Elt F))).Forall fun op => op.bufs ⊆ tcRefs τ sig := by
  and_intros <;> simp only [List.Forall, nullary_bufs_sub, unary_bufs_sub, binary_bufs_sub, ternary_bufs_sub, quaternary_bufs_sub, reshape_bufs_sub, binaryIndexed_bufs_sub, nary_bufs_sub, unaryIndexed_bufs_sub]
set_option maxRecDepth 8192 in
theorem o314_sub : (o314 : List (HloOp τ sig (Elt F))).Forall fun op => op.bufs ⊆ tcRefs τ sig :=
  binary_bufs_sub ..

theorem ops_sub : (ops : List (HloOp τ sig (Elt F))).Forall fun op => op.bufs ⊆ tcRefs τ sig := by
  simp only [ops, List.forall_append]
  exact ⟨o000_sub, o018_sub, o036_sub, o058_sub, o062_sub, o074_sub, o103_sub, o121_sub, o124_sub, o143_sub, o159_sub, o188_sub, o206_sub, o228_sub, o244_sub, o252_sub, o273_sub, o286_sub, o314_sub⟩

abbrev o000_W : List (Ref sig .tc) := [main_c, main_c_0, main_v0, main_v1, main_v2, main_v3, main_v4, main_v5, main_v6, main_v7, main_v8, main_v9, main_v10, main_v11, main_v12, main_v13, main_v14, main_v15]
theorem o000_keep (V : Valuation τ sig (Elt F)) (r : Ref sig .tc) (h : r ∉ o000_W) :
    after o000 V (Proc.devRef .tc r) = V (Proc.devRef .tc r) :=
  after_of_writes_sub o000 _ (by and_intros <;> exact writes_of_mem (by decide)) h

abbrev o018_W : List (Ref sig .tc) := [main_c_1, main_v16, main_v17, main_c_2, main_v18, main_v19, main_v20, main_v21, main_v22, main_c_3, main_v23, main_v24, main_c_4, main_v25, main_v26, main_v27, main_v28, main_v29]
theorem o018_keep (V : Valuation τ sig (Elt F)) (r : Ref sig .tc) (h : r ∉ o018_W) :
    after o018 V (Proc.devRef .tc r) = V (Proc.devRef .tc r) :=
  after_of_writes_sub o018 _ (by and_intros <;> exact writes_of_mem (by decide)) h

abbrev o036_W : List (Ref sig .tc) := [main_v30, main_v31, main_v32, main_v33, main_v34, main_call0_cst, main_call0_v0, main_v35, main_v36, main_v37, main_v38, main_v39, main_v40, main_v41, main_cst, main_v42, main_v43, main_cst_5, main_v44, main_v45, main_v46, main_v47]
theorem o036_keep (V : Valuation τ sig (Elt F)) (r : Ref sig .tc) (h : r ∉ o036_W) :
    after o036 V (Proc.devRef .tc r) = V (Proc.devRef .tc r) :=
  after_of_writes_sub o036 _ (by and_intros <;> exact writes_of_mem (by decide)) h

abbrev o058_W : List (Ref sig .tc) := [main_cst_6, main_v48, main_v49, main_v50]
theorem o058_keep (V : Valuation τ sig (Elt F)) (r : Ref sig .tc) (h : r ∉ o058_W) :
    after o058 V (Proc.devRef .tc r) = V (Proc.devRef .tc r) :=
  after_of_writes_sub o058 _ (by and_intros <;> exact writes_of_mem (by decide)) h

abbrev o062_W : List (Ref sig .tc) := [main_v51, main_v52, main_v53, main_v54, main_v55, main_call1_cst, main_call1_v0, main_v56, main_v57, main_v58, main_v59, main_v60]
theorem o062_keep (V : Valuation τ sig (Elt F)) (r : Ref sig .tc) (h : r ∉ o062_W) :
    after o062 V (Proc.devRef .tc r) = V (Proc.devRef .tc r) :=
  after_of_writes_sub o062 _ (by and_intros <;> exact writes_of_mem (by decide)) h

abbrev o074_W : List (Ref sig .tc) := [main_v61, main_v62, main_cst_7, main_v63, main_v64, main_cst_8, main_v65, main_v66, main_v67, main_v68, main_v69, main_cst_9, main_v70, main_v71, main_cst_10, main_v72, main_v73, main_v74, main_v75, main_cst_11, main_v76, main_v77, main_v78, main_v79, main_v80, main_v81, main_v82, main_v83, main_v84]
theorem o074_keep (V : Valuation τ sig (Elt F)) (r : Ref sig .tc) (h : r ∉ o074_W) :
    after o074 V (Proc.devRef .tc r) = V (Proc.devRef .tc r) :=
  after_of_writes_sub o074 _ (by and_intros <;> exact writes_of_mem (by decide)) h

abbrev o103_W : List (Ref sig .tc) := [main_c_12, main_v85, main_v86, main_c_13, main_v87, main_v88, main_v89, main_v90, main_v91, main_c_14, main_v92, main_v93, main_c_15, main_v94, main_v95, main_v96, main_v97, main_v98]
theorem o103_keep (V : Valuation τ sig (Elt F)) (r : Ref sig .tc) (h : r ∉ o103_W) :
    after o103 V (Proc.devRef .tc r) = V (Proc.devRef .tc r) :=
  after_of_writes_sub o103 _ (by and_intros <;> exact writes_of_mem (by decide)) h

abbrev o121_W : List (Ref sig .tc) := [main_v99, main_v100, main_v101]
theorem o121_keep (V : Valuation τ sig (Elt F)) (r : Ref sig .tc) (h : r ∉ o121_W) :
    after o121 V (Proc.devRef .tc r) = V (Proc.devRef .tc r) :=
  after_of_writes_sub o121 _ (by and_intros <;> exact writes_of_mem (by decide)) h

abbrev o124_W : List (Ref sig .tc) := [main_v102, main_v103, main_call2_cst, main_call2_v0, main_v104, main_v105, main_v106, main_v107, main_v108, main_v109, main_v110, main_cst_16, main_v111, main_v112, main_cst_17, main_v113, main_v114, main_v115, main_v116]
theorem o124_keep (V : Valuation τ sig (Elt F)) (r : Ref sig .tc) (h : r ∉ o124_W) :
    after o124 V (Proc.devRef .tc r) = V (Proc.devRef .tc r) :=
  after_of_writes_sub o124 _ (by and_intros <;> exact writes_of_mem (by decide)) h

abbrev o143_W : List (Ref sig .tc) := [main_cst_18, main_v117, main_v118, main_v119, main_v120, main_v121, main_v122, main_v123, main_v124, main_call3_cst, main_call3_v0, main_v125, main_v126, main_v127, main_v128, main_v129]
theorem o143_keep (V : Valuation τ sig (Elt F)) (r : Ref sig .tc) (h : r ∉ o143_W) :
    after o143 V (Proc.devRef .tc r) = V (Proc.devRef .tc r) :=
  after_of_writes_sub o143 _ (by and_intros <;> exact writes_of_mem (by decide)) h

abbrev o159_W : List (Ref sig .tc) := [main_v130, main_v131, main_cst_19, main_v132, main_v133, main_cst_20, main_v134, main_v135, main_v136, main_v137, main_v138, main_cst_21, main_v139, main_v140, main_cst_22, main_v141, main_v142, main_v143, main_v144, main_cst_23, main_v145, main_v146, main_v147, main_v148, main_v149, main_v150, main_v151, main_v152, main_v153]
theorem o159_keep (V : Valuation τ sig (Elt F)) (r : Ref sig .tc) (h : r ∉ o159_W) :
    after o159 V (Proc.devRef .tc r) = V (Proc.devRef .tc r) :=
  after_of_writes_sub o159 _ (by and_intros <;> exact writes_of_mem (by decide)) h

abbrev o188_W : List (Ref sig .tc) := [main_c_24, main_v154, main_v155, main_c_25, main_v156, main_v157, main_v158, main_v159, main_v160, main_c_26, main_v161, main_v162, main_c_27, main_v163, main_v164, main_v165, main_v166, main_v167]
theorem o188_keep (V : Valuation τ sig (Elt F)) (r : Ref sig .tc) (h : r ∉ o188_W) :
    after o188 V (Proc.devRef .tc r) = V (Proc.devRef .tc r) :=
  after_of_writes_sub o188 _ (by and_intros <;> exact writes_of_mem (by decide)) h

abbrev o206_W : List (Ref sig .tc) := [main_v168, main_v169, main_v170, main_v171, main_v172, main_call4_cst, main_call4_v0, main_v173, main_v174, main_v175, main_v176, main_v177, main_v178, main_v179, main_cst_28, main_v180, main_v181, main_cst_29, main_v182, main_v183, main_v184, main_v185]
theorem o206_keep (V : Valuation τ sig (Elt F)) (r : Ref sig .tc) (h : r ∉ o206_W) :
    after o206 V (Proc.devRef .tc r) = V (Proc.devRef .tc r) :=
  after_of_writes_sub o206 _ (by and_intros <;> exact writes_of_mem (by decide)) h

abbrev o228_W : List (Ref sig .tc) := [main_cst_30, main_v186, main_v187, main_v188, main_v189, main_v190, main_v191, main_v192, main_v193, main_call5_cst, main_call5_v0, main_v194, main_v195, main_v196, main_v197, main_v198]
theorem o228_keep (V : Valuation τ sig (Elt F)) (r : Ref sig .tc) (h : r ∉ o228_W) :
    after o228 V (Proc.devRef .tc r) = V (Proc.devRef .tc r) :=
  after_of_writes_sub o228 _ (by and_intros <;> exact writes_of_mem (by decide)) h

abbrev o244_W : List (Ref sig .tc) := [main_v199, main_v200, main_cst_31, main_v201, main_v202, main_cst_32, main_v203, main_v204]
theorem o244_keep (V : Valuation τ sig (Elt F)) (r : Ref sig .tc) (h : r ∉ o244_W) :
    after o244 V (Proc.devRef .tc r) = V (Proc.devRef .tc r) :=
  after_of_writes_sub o244 _ (by and_intros <;> exact writes_of_mem (by decide)) h

abbrev o252_W : List (Ref sig .tc) := [main_v205, main_v206, main_v207, main_cst_33, main_v208, main_v209, main_cst_34, main_v210, main_v211, main_v212, main_v213, main_cst_35, main_v214, main_v215, main_v216, main_v217, main_v218, main_v219, main_v220, main_v221, main_v222]
theorem o252_keep (V : Valuation τ sig (Elt F)) (r : Ref sig .tc) (h : r ∉ o252_W) :
    after o252 V (Proc.devRef .tc r) = V (Proc.devRef .tc r) :=
  after_of_writes_sub o252 _ (by and_intros <;> exact writes_of_mem (by decide)) h

abbrev o273_W : List (Ref sig .tc) := [main_v223, main_v224, main_v225, main_v226, main_v227, main_v228, main_call6_cst, main_call6_v0, main_v229, main_v230, main_v231, main_v232, main_v233]
theorem o273_keep (V : Valuation τ sig (Elt F)) (r : Ref sig .tc) (h : r ∉ o273_W) :
    after o273 V (Proc.devRef .tc r) = V (Proc.devRef .tc r) :=
  after_of_writes_sub o273 _ (by and_intros <;> exact writes_of_mem (by decide)) h

abbrev o286_W : List (Ref sig .tc) := [main_cst_36, main_v234, main_v235, main_cst_37, main_v236, main_v237, main_v238, main_v239, main_v240, main_cst_38, main_v241, main_v242, main_cst_39, main_v243, main_v244, main_v245, main_v246, main_cst_40, main_v247, main_v248, main_v249, main_v250, main_v251, main_v252, main_v253, main_v254, main_v255, main_v256]
theorem o286_keep (V : Valuation τ sig (Elt F)) (r : Ref sig .tc) (h : r ∉ o286_W) :
    after o286 V (Proc.devRef .tc r) = V (Proc.devRef .tc r) :=
  after_of_writes_sub o286 _ (by and_intros <;> exact writes_of_mem (by decide)) h

abbrev o314_W : List (Ref sig .tc) := [main_v257]
theorem o314_keep (V : Valuation τ sig (Elt F)) (r : Ref sig .tc) (h : r ∉ o314_W) :
    after o314 V (Proc.devRef .tc r) = V (Proc.devRef .tc r) :=
  after_of_writes_sub o314 _ (by and_intros <;> exact writes_of_mem (by decide)) h

abbrev cA : List (HloOp τ sig (Elt F)) := o000
abbrev cA_W : List (Ref sig .tc) := o000_W
theorem cA_keep (V : Valuation τ sig (Elt F)) (r : Ref sig .tc) (h : r ∉ cA_W) :
    after cA V (Proc.devRef .tc r) = V (Proc.devRef .tc r) := o000_keep V r h
theorem cA_args (V : Valuation τ sig (Elt F)) : vargs (after cA V) = vargs V := args_of_keep cA_keep (by decide) V

abbrev q11 : List (HloOp τ sig (Elt F)) := o018
abbrev q11_W : List (Ref sig .tc) := o018_W
theorem q11_keep (V : Valuation τ sig (Elt F)) (r : Ref sig .tc) (h : r ∉ q11_W) :
    after q11 V (Proc.devRef .tc r) = V (Proc.devRef .tc r) := o018_keep V r h
theorem q11_args (V : Valuation τ sig (Elt F)) : vargs (after q11 V) = vargs V := args_of_keep q11_keep (by decide) V

abbrev q12 : List (HloOp τ sig (Elt F)) := o036
abbrev q12_W : List (Ref sig .tc) := o036_W
theorem q12_keep (V : Valuation τ sig (Elt F)) (r : Ref sig .tc) (h : r ∉ q12_W) :
    after q12 V (Proc.devRef .tc r) = V (Proc.devRef .tc r) := o036_keep V r h
theorem q12_args (V : Valuation τ sig (Elt F)) : vargs (after q12 V) = vargs V := args_of_keep q12_keep (by decide) V

abbrev q13 : List (HloOp τ sig (Elt F)) := o058 ++ o062
abbrev q13_W : List (Ref sig .tc) := o058_W ++ o062_W
theorem q13_keep (V : Valuation τ sig (Elt F)) (r : Ref sig .tc) (h : r ∉ q13_W) :
    after q13 V (Proc.devRef .tc r) = V (Proc.devRef .tc r) := keep_append o058_keep o062_keep V r h
theorem q13_args (V : Valuation τ sig (Elt F)) : vargs (after q13 V) = vargs V := args_of_keep q13_keep (by decide) V

abbrev q14 : List (HloOp τ sig (Elt F)) := o074
abbrev q14_W : List (Ref sig .tc) := o074_W
theorem q14_keep (V : Valuation τ sig (Elt F)) (r : Ref sig .tc) (h : r ∉ q14_W) :
    after q14 V (Proc.devRef .tc r) = V (Proc.devRef .tc r) := o074_keep V r h
theorem q14_args (V : Valuation τ sig (Elt F)) : vargs (after q14 V) = vargs V := args_of_keep q14_keep (by decide) V

abbrev q21 : List (HloOp τ sig (Elt F)) := o103
abbrev q21_W : List (Ref sig .tc) := o103_W
theorem q21_keep (V : Valuation τ sig (Elt F)) (r : Ref sig .tc) (h : r ∉ q21_W) :
    after q21 V (Proc.devRef .tc r) = V (Proc.devRef .tc r) := o103_keep V r h
theorem q21_args (V : Valuation τ sig (Elt F)) : vargs (after q21 V) = vargs V := args_of_keep q21_keep (by decide) V

abbrev q22 : List (HloOp τ sig (Elt F)) := o121 ++ o124
abbrev q22_W : List (Ref sig .tc) := o121_W ++ o124_W
theorem q22_keep (V : Valuation τ sig (Elt F)) (r : Ref sig .tc) (h : r ∉ q22_W) :
    after q22 V (Proc.devRef .tc r) = V (Proc.devRef .tc r) := keep_append o121_keep o124_keep V r h
theorem q22_args (V : Valuation τ sig (Elt F)) : vargs (after q22 V) = vargs V := args_of_keep q22_keep (by decide) V

abbrev q23 : List (HloOp τ sig (Elt F)) := o143
abbrev q23_W : List (Ref sig .tc) := o143_W
theorem q23_keep (V : Valuation τ sig (Elt F)) (r : Ref sig .tc) (h : r ∉ q23_W) :
    after q23 V (Proc.devRef .tc r) = V (Proc.devRef .tc r) := o143_keep V r h
theorem q23_args (V : Valuation τ sig (Elt F)) : vargs (after q23 V) = vargs V := args_of_keep q23_keep (by decide) V

abbrev q24 : List (HloOp τ sig (Elt F)) := o159
abbrev q24_W : List (Ref sig .tc) := o159_W
theorem q24_keep (V : Valuation τ sig (Elt F)) (r : Ref sig .tc) (h : r ∉ q24_W) :
    after q24 V (Proc.devRef .tc r) = V (Proc.devRef .tc r) := o159_keep V r h
theorem q24_args (V : Valuation τ sig (Elt F)) : vargs (after q24 V) = vargs V := args_of_keep q24_keep (by decide) V

abbrev q31 : List (HloOp τ sig (Elt F)) := o188
abbrev q31_W : List (Ref sig .tc) := o188_W
theorem q31_keep (V : Valuation τ sig (Elt F)) (r : Ref sig .tc) (h : r ∉ q31_W) :
    after q31 V (Proc.devRef .tc r) = V (Proc.devRef .tc r) := o188_keep V r h
theorem q31_args (V : Valuation τ sig (Elt F)) : vargs (after q31 V) = vargs V := args_of_keep q31_keep (by decide) V

abbrev q32 : List (HloOp τ sig (Elt F)) := o206
abbrev q32_W : List (Ref sig .tc) := o206_W
theorem q32_keep (V : Valuation τ sig (Elt F)) (r : Ref sig .tc) (h : r ∉ q32_W) :
    after q32 V (Proc.devRef .tc r) = V (Proc.devRef .tc r) := o206_keep V r h
theorem q32_args (V : Valuation τ sig (Elt F)) : vargs (after q32 V) = vargs V := args_of_keep q32_keep (by decide) V

abbrev q33 : List (HloOp τ sig (Elt F)) := o228
abbrev q33_W : List (Ref sig .tc) := o228_W
theorem q33_keep (V : Valuation τ sig (Elt F)) (r : Ref sig .tc) (h : r ∉ q33_W) :
    after q33 V (Proc.devRef .tc r) = V (Proc.devRef .tc r) := o228_keep V r h
theorem q33_args (V : Valuation τ sig (Elt F)) : vargs (after q33 V) = vargs V := args_of_keep q33_keep (by decide) V

abbrev q34 : List (HloOp τ sig (Elt F)) := o244 ++ o252
abbrev q34_W : List (Ref sig .tc) := o244_W ++ o252_W
theorem q34_keep (V : Valuation τ sig (Elt F)) (r : Ref sig .tc) (h : r ∉ q34_W) :
    after q34 V (Proc.devRef .tc r) = V (Proc.devRef .tc r) := keep_append o244_keep o252_keep V r h
theorem q34_args (V : Valuation τ sig (Elt F)) : vargs (after q34 V) = vargs V := args_of_keep q34_keep (by decide) V

abbrev qE1 : List (HloOp τ sig (Elt F)) := o273
abbrev qE1_W : List (Ref sig .tc) := o273_W
theorem qE1_keep (V : Valuation τ sig (Elt F)) (r : Ref sig .tc) (h : r ∉ qE1_W) :
    after qE1 V (Proc.devRef .tc r) = V (Proc.devRef .tc r) := o273_keep V r h
theorem qE1_args (V : Valuation τ sig (Elt F)) : vargs (after qE1 V) = vargs V := args_of_keep qE1_keep (by decide) V

abbrev qE2 : List (HloOp τ sig (Elt F)) := o286 ++ o314
abbrev qE2_W : List (Ref sig .tc) := o286_W ++ o314_W
theorem qE2_keep (V : Valuation τ sig (Elt F)) (r : Ref sig .tc) (h : r ∉ qE2_W) :
    after qE2 V (Proc.devRef .tc r) = V (Proc.devRef .tc r) := keep_append o286_keep o314_keep V r h
theorem qE2_args (V : Valuation τ sig (Elt F)) : vargs (after qE2 V) = vargs V := args_of_keep qE2_keep (by decide) V

theorem after_ops (V : Valuation τ sig (Elt F)) :
    after ops V = after qE2 (after qE1 (after q34 (after q33 (after q32 (after q31 (after q24 (after q23 (after q22 (after q21 (after q14 (after q13 (after q12 (after q11 (after cA (V))))))))))))))) := by
  simp only [ops, q13, q22, q34, qE2, after_app]

end Cert.ReferenceIdeal.Stages

end
-- ==== Proof.RefRunValsA.lean ====
import proofs.«429394_j28956669510180_3_alg».proof.Proof.RefRunOps

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem cA_v15 (W : Valuation τ sig (Elt F)) : after cA W (Proc.devRef .tc main_v15) = r_v15 (vargs W) := by
  simp only [cA, o000]
  after_results_simp
  try dsimp only [Matrix.cons_val]
  try after_results_simp
  rfl

set_option maxRecDepth 8192 in
theorem cA_c (W : Valuation τ sig (Elt F)) : after cA W (Proc.devRef .tc main_c) = r_c (vargs W) := by
  simp only [cA, o000]
  after_results_simp
  rfl

set_option maxRecDepth 8192 in
theorem cA_c0 (W : Valuation τ sig (Elt F)) : after cA W (Proc.devRef .tc main_c_0) = r_c_0 (vargs W) := by
  simp only [cA, o000]
  after_results_simp
  rfl

set_option maxRecDepth 8192 in
set_option maxHeartbeats 4000000 in
theorem q11_v22 (W : Valuation τ sig (Elt F)) (f : FVec F S3x32768x256 .f32) (A : RArgs F) (hA : vargs W = A)
    (h_c : W (Proc.devRef .tc main_c) = r_c A) (h_f : W (Proc.devRef .tc main_v15) = f) (h_c_0 : W (Proc.devRef .tc main_c_0) = r_c_0 A) :
    after q11 W (Proc.devRef .tc main_v22) = t_v22 f A := by
  subst hA
  simp only [q11, o018]
  after_results_simp
  try rw [h_c]
  try rw [h_f]
  try rw [h_c_0]
  rfl

set_option maxRecDepth 8192 in
set_option maxHeartbeats 4000000 in
theorem q11_v29 (W : Valuation τ sig (Elt F)) (f : FVec F S3x32768x256 .f32) (A : RArgs F) (hA : vargs W = A)
    (h_c : W (Proc.devRef .tc main_c) = r_c A) (h_f : W (Proc.devRef .tc main_v15) = f) (h_c_0 : W (Proc.devRef .tc main_c_0) = r_c_0 A) :
    after q11 W (Proc.devRef .tc main_v29) = t_v29 f A := by
  subst hA
  simp only [q11, o018]
  after_results_simp
  try rw [h_c]
  try rw [h_f]
  try rw [h_c_0]
  rfl

set_option maxRecDepth 8192 in
set_option maxHeartbeats 4000000 in
theorem q12_v47 (W : Valuation τ sig (Elt F)) (f : FVec F S3x32768x256 .f32) (A : RArgs F) (hA : vargs W = A)
    (h_v22 : W (Proc.devRef .tc main_v22) = t_v22 f A) (h_v29 : W (Proc.devRef .tc main_v29) = t_v29 f A) :
    after q12 W (Proc.devRef .tc main_v47) = t_v47 f A := by
  subst hA
  simp only [q12, o036]
  after_results_simp
  try rw [h_v22]
  try rw [h_v29]
  rfl

set_option maxRecDepth 8192 in
set_option maxHeartbeats 4000000 in
theorem q13_v60 (W : Valuation τ sig (Elt F)) (f : FVec F S3x32768x256 .f32) (A : RArgs F) (hA : vargs W = A)
    (h_c_0 : W (Proc.devRef .tc main_c_0) = r_c_0 A) (h_v47 : W (Proc.devRef .tc main_v47) = t_v47 f A) (h_f : W (Proc.devRef .tc main_v15) = f) :
    after q13 W (Proc.devRef .tc main_v60) = t_v60 f A := by
  subst hA
  simp only [q13, o058, o062, List.cons_append, List.nil_append]
  after_results_simp
  try rw [h_c_0]
  try rw [h_v47]
  try rw [h_f]
  rfl

set_option maxRecDepth 8192 in
set_option maxHeartbeats 4000000 in
theorem q14_v84 (W : Valuation τ sig (Elt F)) (f : FVec F S3x32768x256 .f32) (A : RArgs F) (hA : vargs W = A)
    (h_v60 : W (Proc.devRef .tc main_v60) = t_v60 f A) :
    after q14 W (Proc.devRef .tc main_v84) = t_v84 f A := by
  subst hA
  simp only [q14, o074]
  after_results_simp
  try rw [h_v60]
  rfl

set_option maxRecDepth 8192 in
set_option maxHeartbeats 4000000 in
theorem q21_v22 (W : Valuation τ sig (Elt F)) (f : FVec F S3x32768x256 .f32) (A : RArgs F) (hA : vargs W = A)
    (h_c : W (Proc.devRef .tc main_c) = r_c A) (h_f : W (Proc.devRef .tc main_v84) = f) (h_c_0 : W (Proc.devRef .tc main_c_0) = r_c_0 A) :
    after q21 W (Proc.devRef .tc main_v91) = t_v22 f A := by
  subst hA
  simp only [q21, o103]
  after_results_simp
  try rw [h_c]
  try rw [h_f]
  try rw [h_c_0]
  rfl

set_option maxRecDepth 8192 in
set_option maxHeartbeats 4000000 in
theorem q21_v29 (W : Valuation τ sig (Elt F)) (f : FVec F S3x32768x256 .f32) (A : RArgs F) (hA : vargs W = A)
    (h_c : W (Proc.devRef .tc main_c) = r_c A) (h_f : W (Proc.devRef .tc main_v84) = f) (h_c_0 : W (Proc.devRef .tc main_c_0) = r_c_0 A) :
    after q21 W (Proc.devRef .tc main_v98) = t_v29 f A := by
  subst hA
  simp only [q21, o103]
  after_results_simp
  try rw [h_c]
  try rw [h_f]
  try rw [h_c_0]
  rfl

set_option maxRecDepth 8192 in
set_option maxHeartbeats 4000000 in
theorem q22_v47 (W : Valuation τ sig (Elt F)) (f : FVec F S3x32768x256 .f32) (A : RArgs F) (hA : vargs W = A)
    (h_v22 : W (Proc.devRef .tc main_v91) = t_v22 f A) (h_v29 : W (Proc.devRef .tc main_v98) = t_v29 f A) :
    after q22 W (Proc.devRef .tc main_v116) = t_v47 f A := by
  subst hA
  simp only [q22, o121, o124, List.cons_append, List.nil_append]
  after_results_simp
  try rw [h_v22]
  try rw [h_v29]
  rfl

set_option maxRecDepth 8192 in
set_option maxHeartbeats 4000000 in
theorem q23_v60 (W : Valuation τ sig (Elt F)) (f : FVec F S3x32768x256 .f32) (A : RArgs F) (hA : vargs W = A)
    (h_c_0 : W (Proc.devRef .tc main_c_0) = r_c_0 A) (h_v47 : W (Proc.devRef .tc main_v116) = t_v47 f A) (h_f : W (Proc.devRef .tc main_v84) = f) :
    after q23 W (Proc.devRef .tc main_v129) = t_v60 f A := by
  subst hA
  simp only [q23, o143]
  after_results_simp
  try rw [h_c_0]
  try rw [h_v47]
  try rw [h_f]
  rfl

set_option maxRecDepth 8192 in
set_option maxHeartbeats 4000000 in
theorem q24_v84 (W : Valuation τ sig (Elt F)) (f : FVec F S3x32768x256 .f32) (A : RArgs F) (hA : vargs W = A)
    (h_v60 : W (Proc.devRef .tc main_v129) = t_v60 f A) :
    after q24 W (Proc.devRef .tc main_v153) = t_v84 f A := by
  subst hA
  simp only [q24, o159]
  after_results_simp
  try rw [h_v60]
  rfl

end Cert.ReferenceIdeal.Stages

end
-- ==== Proof.RefRunValsB.lean ====
import proofs.«429394_j28956669510180_3_alg».proof.Proof.RefRunOps

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem q31_v22 (W : Valuation τ sig (Elt F)) (f : FVec F S3x32768x256 .f32) (A : RArgs F) (hA : vargs W = A)
    (h_c : W (Proc.devRef .tc main_c) = r_c A) (h_f : W (Proc.devRef .tc main_v153) = f) (h_c_0 : W (Proc.devRef .tc main_c_0) = r_c_0 A) :
    after q31 W (Proc.devRef .tc main_v160) = t_v22 f A := by
  subst hA
  simp only [q31, o188]
  after_results_simp
  try rw [h_c]
  try rw [h_f]
  try rw [h_c_0]
  rfl

set_option maxRecDepth 8192 in
set_option maxHeartbeats 4000000 in
theorem q31_v29 (W : Valuation τ sig (Elt F)) (f : FVec F S3x32768x256 .f32) (A : RArgs F) (hA : vargs W = A)
    (h_c : W (Proc.devRef .tc main_c) = r_c A) (h_f : W (Proc.devRef .tc main_v153) = f) (h_c_0 : W (Proc.devRef .tc main_c_0) = r_c_0 A) :
    after q31 W (Proc.devRef .tc main_v167) = t_v29 f A := by
  subst hA
  simp only [q31, o188]
  after_results_simp
  try rw [h_c]
  try rw [h_f]
  try rw [h_c_0]
  rfl

set_option maxRecDepth 8192 in
set_option maxHeartbeats 4000000 in
theorem q32_v47 (W : Valuation τ sig (Elt F)) (f : FVec F S3x32768x256 .f32) (A : RArgs F) (hA : vargs W = A)
    (h_v22 : W (Proc.devRef .tc main_v160) = t_v22 f A) (h_v29 : W (Proc.devRef .tc main_v167) = t_v29 f A) :
    after q32 W (Proc.devRef .tc main_v185) = t_v47 f A := by
  subst hA
  simp only [q32, o206]
  after_results_simp
  try rw [h_v22]
  try rw [h_v29]
  rfl

set_option maxRecDepth 8192 in
set_option maxHeartbeats 4000000 in
theorem q32_v45 (W : Valuation τ sig (Elt F)) (f : FVec F S3x32768x256 .f32) (A : RArgs F) (hA : vargs W = A)
    (h_v22 : W (Proc.devRef .tc main_v160) = t_v22 f A) (h_v29 : W (Proc.devRef .tc main_v167) = t_v29 f A) :
    after q32 W (Proc.devRef .tc main_v183) = t_v45 f A := by
  subst hA
  simp only [q32, o206]
  after_results_simp
  try rw [h_v22]
  try rw [h_v29]
  rfl

set_option maxRecDepth 8192 in
set_option maxHeartbeats 4000000 in
theorem q33_v60 (W : Valuation τ sig (Elt F)) (f : FVec F S3x32768x256 .f32) (A : RArgs F) (hA : vargs W = A)
    (h_c_0 : W (Proc.devRef .tc main_c_0) = r_c_0 A) (h_v47 : W (Proc.devRef .tc main_v185) = t_v47 f A) (h_f : W (Proc.devRef .tc main_v153) = f) :
    after q33 W (Proc.devRef .tc main_v198) = t_v60 f A := by
  subst hA
  simp only [q33, o228]
  after_results_simp
  try rw [h_c_0]
  try rw [h_v47]
  try rw [h_f]
  rfl

set_option maxRecDepth 8192 in
set_option maxHeartbeats 4000000 in
theorem q34_v84 (W : Valuation τ sig (Elt F)) (f : FVec F S3x32768x256 .f32) (A : RArgs F) (hA : vargs W = A)
    (h_v60 : W (Proc.devRef .tc main_v198) = t_v60 f A) :
    after q34 W (Proc.devRef .tc main_v222) = t_v84 f A := by
  subst hA
  simp only [q34, o244, o252, List.cons_append, List.nil_append]
  after_results_simp
  try rw [h_v60]
  rfl

set_option maxRecDepth 8192 in
set_option maxHeartbeats 4000000 in
theorem qE1_v233 (W : Valuation τ sig (Elt F)) (f : FVec F S3x32768x256 .f32) (A : RArgs F) (hA : vargs W = A)
    (h_f : W (Proc.devRef .tc main_v222) = f) :
    after qE1 W (Proc.devRef .tc main_v233) = e_v233 f A := by
  subst hA
  simp only [qE1, o273]
  after_results_simp
  try rw [h_f]
  rfl

set_option maxRecDepth 8192 in
set_option maxHeartbeats 4000000 in
theorem qE2_v257 (W : Valuation τ sig (Elt F)) (f : FVec F S3x32768x256 .f32) (A : RArgs F) (hA : vargs W = A)
    (h_v233 : W (Proc.devRef .tc main_v233) = e_v233 f A) :
    after qE2 W (Proc.devRef .tc main_v257) = e_v257 f A := by
  subst hA
  simp only [qE2, o286, o314, List.cons_append, List.nil_append]
  after_results_simp
  try rw [h_v233]
  rfl

end Cert.ReferenceIdeal.Stages

end
-- ==== Proof.RefRun.lean ====
import proofs.«429394_j28956669510180_3_alg».proof.Proof.RefRunValsA
import proofs.«429394_j28956669510180_3_alg».proof.Proof.RefRunValsB

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

def lev0 (V : Valuation τ sig (Elt F)) : FVec F S3x32768x256 .f32 := r_v15 (vargs V)
def lev1 (V : Valuation τ sig (Elt F)) : FVec F S3x32768x256 .f32 := t_v84 (lev0 V) (vargs V)
def lev2 (V : Valuation τ sig (Elt F)) : FVec F S3x32768x256 .f32 := t_v84 (lev1 V) (vargs V)
def lev3 (V : Valuation τ sig (Elt F)) : FVec F S3x32768x256 .f32 := t_v84 (lev2 V) (vargs V)

def val0 (V : Valuation τ sig (Elt F)) : Valuation τ sig (Elt F) := V
theorem val0_args (V : Valuation τ sig (Elt F)) : vargs (val0 V) = vargs V := rfl

def val1 (V : Valuation τ sig (Elt F)) : Valuation τ sig (Elt F) := after cA (val0 V)
theorem val1_args (V : Valuation τ sig (Elt F)) : vargs (val1 V) = vargs V := (cA_args (val0 V)).trans (val0_args V)
theorem val1_main_c (V : Valuation τ sig (Elt F)) : val1 V (Proc.devRef .tc main_c) = r_c (vargs V) :=
  cA_c (val0 V)
theorem val1_main_c_0 (V : Valuation τ sig (Elt F)) : val1 V (Proc.devRef .tc main_c_0) = r_c_0 (vargs V) :=
  cA_c0 (val0 V)
theorem val1_main_v15 (V : Valuation τ sig (Elt F)) : val1 V (Proc.devRef .tc main_v15) = lev0 V :=
  cA_v15 (val0 V)

def val2 (V : Valuation τ sig (Elt F)) : Valuation τ sig (Elt F) := after q11 (val1 V)
theorem val2_args (V : Valuation τ sig (Elt F)) : vargs (val2 V) = vargs V := (q11_args (val1 V)).trans (val1_args V)
theorem val2_main_c (V : Valuation τ sig (Elt F)) : val2 V (Proc.devRef .tc main_c) = r_c (vargs V) :=
  (q11_keep (val1 V) main_c (by decide)).trans (val1_main_c V)
theorem val2_main_c_0 (V : Valuation τ sig (Elt F)) : val2 V (Proc.devRef .tc main_c_0) = r_c_0 (vargs V) :=
  (q11_keep (val1 V) main_c_0 (by decide)).trans (val1_main_c_0 V)
theorem val2_main_v15 (V : Valuation τ sig (Elt F)) : val2 V (Proc.devRef .tc main_v15) = lev0 V :=
  (q11_keep (val1 V) main_v15 (by decide)).trans (val1_main_v15 V)
theorem val2_main_v22 (V : Valuation τ sig (Elt F)) : val2 V (Proc.devRef .tc main_v22) = t_v22 (lev0 V) (vargs V) :=
  q11_v22 (val1 V) (lev0 V) (vargs V) (val1_args V) (val1_main_c V) (val1_main_v15 V) (val1_main_c_0 V)
theorem val2_main_v29 (V : Valuation τ sig (Elt F)) : val2 V (Proc.devRef .tc main_v29) = t_v29 (lev0 V) (vargs V) :=
  q11_v29 (val1 V) (lev0 V) (vargs V) (val1_args V) (val1_main_c V) (val1_main_v15 V) (val1_main_c_0 V)

def val3 (V : Valuation τ sig (Elt F)) : Valuation τ sig (Elt F) := after q12 (val2 V)
theorem val3_args (V : Valuation τ sig (Elt F)) : vargs (val3 V) = vargs V := (q12_args (val2 V)).trans (val2_args V)
theorem val3_main_c (V : Valuation τ sig (Elt F)) : val3 V (Proc.devRef .tc main_c) = r_c (vargs V) :=
  (q12_keep (val2 V) main_c (by decide)).trans (val2_main_c V)
theorem val3_main_c_0 (V : Valuation τ sig (Elt F)) : val3 V (Proc.devRef .tc main_c_0) = r_c_0 (vargs V) :=
  (q12_keep (val2 V) main_c_0 (by decide)).trans (val2_main_c_0 V)
theorem val3_main_v15 (V : Valuation τ sig (Elt F)) : val3 V (Proc.devRef .tc main_v15) = lev0 V :=
  (q12_keep (val2 V) main_v15 (by decide)).trans (val2_main_v15 V)
theorem val3_main_v47 (V : Valuation τ sig (Elt F)) : val3 V (Proc.devRef .tc main_v47) = t_v47 (lev0 V) (vargs V) :=
  q12_v47 (val2 V) (lev0 V) (vargs V) (val2_args V) (val2_main_v22 V) (val2_main_v29 V)

def val4 (V : Valuation τ sig (Elt F)) : Valuation τ sig (Elt F) := after q13 (val3 V)
theorem val4_args (V : Valuation τ sig (Elt F)) : vargs (val4 V) = vargs V := (q13_args (val3 V)).trans (val3_args V)
theorem val4_main_c (V : Valuation τ sig (Elt F)) : val4 V (Proc.devRef .tc main_c) = r_c (vargs V) :=
  (q13_keep (val3 V) main_c (by decide)).trans (val3_main_c V)
theorem val4_main_c_0 (V : Valuation τ sig (Elt F)) : val4 V (Proc.devRef .tc main_c_0) = r_c_0 (vargs V) :=
  (q13_keep (val3 V) main_c_0 (by decide)).trans (val3_main_c_0 V)
theorem val4_main_v60 (V : Valuation τ sig (Elt F)) : val4 V (Proc.devRef .tc main_v60) = t_v60 (lev0 V) (vargs V) :=
  q13_v60 (val3 V) (lev0 V) (vargs V) (val3_args V) (val3_main_c_0 V) (val3_main_v47 V) (val3_main_v15 V)

def val5 (V : Valuation τ sig (Elt F)) : Valuation τ sig (Elt F) := after q14 (val4 V)
theorem val5_args (V : Valuation τ sig (Elt F)) : vargs (val5 V) = vargs V := (q14_args (val4 V)).trans (val4_args V)
theorem val5_main_c (V : Valuation τ sig (Elt F)) : val5 V (Proc.devRef .tc main_c) = r_c (vargs V) :=
  (q14_keep (val4 V) main_c (by decide)).trans (val4_main_c V)
theorem val5_main_c_0 (V : Valuation τ sig (Elt F)) : val5 V (Proc.devRef .tc main_c_0) = r_c_0 (vargs V) :=
  (q14_keep (val4 V) main_c_0 (by decide)).trans (val4_main_c_0 V)
theorem val5_main_v84 (V : Valuation τ sig (Elt F)) : val5 V (Proc.devRef .tc main_v84) = lev1 V :=
  q14_v84 (val4 V) (lev0 V) (vargs V) (val4_args V) (val4_main_v60 V)

def val6 (V : Valuation τ sig (Elt F)) : Valuation τ sig (Elt F) := after q21 (val5 V)
theorem val6_args (V : Valuation τ sig (Elt F)) : vargs (val6 V) = vargs V := (q21_args (val5 V)).trans (val5_args V)
theorem val6_main_c (V : Valuation τ sig (Elt F)) : val6 V (Proc.devRef .tc main_c) = r_c (vargs V) :=
  (q21_keep (val5 V) main_c (by decide)).trans (val5_main_c V)
theorem val6_main_c_0 (V : Valuation τ sig (Elt F)) : val6 V (Proc.devRef .tc main_c_0) = r_c_0 (vargs V) :=
  (q21_keep (val5 V) main_c_0 (by decide)).trans (val5_main_c_0 V)
theorem val6_main_v84 (V : Valuation τ sig (Elt F)) : val6 V (Proc.devRef .tc main_v84) = lev1 V :=
  (q21_keep (val5 V) main_v84 (by decide)).trans (val5_main_v84 V)
theorem val6_main_v91 (V : Valuation τ sig (Elt F)) : val6 V (Proc.devRef .tc main_v91) = t_v22 (lev1 V) (vargs V) :=
  q21_v22 (val5 V) (lev1 V) (vargs V) (val5_args V) (val5_main_c V) (val5_main_v84 V) (val5_main_c_0 V)
theorem val6_main_v98 (V : Valuation τ sig (Elt F)) : val6 V (Proc.devRef .tc main_v98) = t_v29 (lev1 V) (vargs V) :=
  q21_v29 (val5 V) (lev1 V) (vargs V) (val5_args V) (val5_main_c V) (val5_main_v84 V) (val5_main_c_0 V)

def val7 (V : Valuation τ sig (Elt F)) : Valuation τ sig (Elt F) := after q22 (val6 V)
theorem val7_args (V : Valuation τ sig (Elt F)) : vargs (val7 V) = vargs V := (q22_args (val6 V)).trans (val6_args V)
theorem val7_main_c (V : Valuation τ sig (Elt F)) : val7 V (Proc.devRef .tc main_c) = r_c (vargs V) :=
  (q22_keep (val6 V) main_c (by decide)).trans (val6_main_c V)
theorem val7_main_c_0 (V : Valuation τ sig (Elt F)) : val7 V (Proc.devRef .tc main_c_0) = r_c_0 (vargs V) :=
  (q22_keep (val6 V) main_c_0 (by decide)).trans (val6_main_c_0 V)
theorem val7_main_v84 (V : Valuation τ sig (Elt F)) : val7 V (Proc.devRef .tc main_v84) = lev1 V :=
  (q22_keep (val6 V) main_v84 (by decide)).trans (val6_main_v84 V)
theorem val7_main_v116 (V : Valuation τ sig (Elt F)) : val7 V (Proc.devRef .tc main_v116) = t_v47 (lev1 V) (vargs V) :=
  q22_v47 (val6 V) (lev1 V) (vargs V) (val6_args V) (val6_main_v91 V) (val6_main_v98 V)

def val8 (V : Valuation τ sig (Elt F)) : Valuation τ sig (Elt F) := after q23 (val7 V)
theorem val8_args (V : Valuation τ sig (Elt F)) : vargs (val8 V) = vargs V := (q23_args (val7 V)).trans (val7_args V)
theorem val8_main_c (V : Valuation τ sig (Elt F)) : val8 V (Proc.devRef .tc main_c) = r_c (vargs V) :=
  (q23_keep (val7 V) main_c (by decide)).trans (val7_main_c V)
theorem val8_main_c_0 (V : Valuation τ sig (Elt F)) : val8 V (Proc.devRef .tc main_c_0) = r_c_0 (vargs V) :=
  (q23_keep (val7 V) main_c_0 (by decide)).trans (val7_main_c_0 V)
theorem val8_main_v129 (V : Valuation τ sig (Elt F)) : val8 V (Proc.devRef .tc main_v129) = t_v60 (lev1 V) (vargs V) :=
  q23_v60 (val7 V) (lev1 V) (vargs V) (val7_args V) (val7_main_c_0 V) (val7_main_v116 V) (val7_main_v84 V)

def val9 (V : Valuation τ sig (Elt F)) : Valuation τ sig (Elt F) := after q24 (val8 V)
theorem val9_args (V : Valuation τ sig (Elt F)) : vargs (val9 V) = vargs V := (q24_args (val8 V)).trans (val8_args V)
theorem val9_main_c (V : Valuation τ sig (Elt F)) : val9 V (Proc.devRef .tc main_c) = r_c (vargs V) :=
  (q24_keep (val8 V) main_c (by decide)).trans (val8_main_c V)
theorem val9_main_c_0 (V : Valuation τ sig (Elt F)) : val9 V (Proc.devRef .tc main_c_0) = r_c_0 (vargs V) :=
  (q24_keep (val8 V) main_c_0 (by decide)).trans (val8_main_c_0 V)
theorem val9_main_v153 (V : Valuation τ sig (Elt F)) : val9 V (Proc.devRef .tc main_v153) = lev2 V :=
  q24_v84 (val8 V) (lev1 V) (vargs V) (val8_args V) (val8_main_v129 V)

def val10 (V : Valuation τ sig (Elt F)) : Valuation τ sig (Elt F) := after q31 (val9 V)
theorem val10_args (V : Valuation τ sig (Elt F)) : vargs (val10 V) = vargs V := (q31_args (val9 V)).trans (val9_args V)
theorem val10_main_c_0 (V : Valuation τ sig (Elt F)) : val10 V (Proc.devRef .tc main_c_0) = r_c_0 (vargs V) :=
  (q31_keep (val9 V) main_c_0 (by decide)).trans (val9_main_c_0 V)
theorem val10_main_v153 (V : Valuation τ sig (Elt F)) : val10 V (Proc.devRef .tc main_v153) = lev2 V :=
  (q31_keep (val9 V) main_v153 (by decide)).trans (val9_main_v153 V)
theorem val10_main_v160 (V : Valuation τ sig (Elt F)) : val10 V (Proc.devRef .tc main_v160) = t_v22 (lev2 V) (vargs V) :=
  q31_v22 (val9 V) (lev2 V) (vargs V) (val9_args V) (val9_main_c V) (val9_main_v153 V) (val9_main_c_0 V)
theorem val10_main_v167 (V : Valuation τ sig (Elt F)) : val10 V (Proc.devRef .tc main_v167) = t_v29 (lev2 V) (vargs V) :=
  q31_v29 (val9 V) (lev2 V) (vargs V) (val9_args V) (val9_main_c V) (val9_main_v153 V) (val9_main_c_0 V)

def val11 (V : Valuation τ sig (Elt F)) : Valuation τ sig (Elt F) := after q32 (val10 V)
theorem val11_args (V : Valuation τ sig (Elt F)) : vargs (val11 V) = vargs V := (q32_args (val10 V)).trans (val10_args V)
theorem val11_main_c_0 (V : Valuation τ sig (Elt F)) : val11 V (Proc.devRef .tc main_c_0) = r_c_0 (vargs V) :=
  (q32_keep (val10 V) main_c_0 (by decide)).trans (val10_main_c_0 V)
theorem val11_main_v153 (V : Valuation τ sig (Elt F)) : val11 V (Proc.devRef .tc main_v153) = lev2 V :=
  (q32_keep (val10 V) main_v153 (by decide)).trans (val10_main_v153 V)
theorem val11_main_v183 (V : Valuation τ sig (Elt F)) : val11 V (Proc.devRef .tc main_v183) = t_v45 (lev2 V) (vargs V) :=
  q32_v45 (val10 V) (lev2 V) (vargs V) (val10_args V) (val10_main_v160 V) (val10_main_v167 V)
theorem val11_main_v185 (V : Valuation τ sig (Elt F)) : val11 V (Proc.devRef .tc main_v185) = t_v47 (lev2 V) (vargs V) :=
  q32_v47 (val10 V) (lev2 V) (vargs V) (val10_args V) (val10_main_v160 V) (val10_main_v167 V)

def val12 (V : Valuation τ sig (Elt F)) : Valuation τ sig (Elt F) := after q33 (val11 V)
theorem val12_args (V : Valuation τ sig (Elt F)) : vargs (val12 V) = vargs V := (q33_args (val11 V)).trans (val11_args V)
theorem val12_main_v183 (V : Valuation τ sig (Elt F)) : val12 V (Proc.devRef .tc main_v183) = t_v45 (lev2 V) (vargs V) :=
  (q33_keep (val11 V) main_v183 (by decide)).trans (val11_main_v183 V)
theorem val12_main_v198 (V : Valuation τ sig (Elt F)) : val12 V (Proc.devRef .tc main_v198) = t_v60 (lev2 V) (vargs V) :=
  q33_v60 (val11 V) (lev2 V) (vargs V) (val11_args V) (val11_main_c_0 V) (val11_main_v185 V) (val11_main_v153 V)

def val13 (V : Valuation τ sig (Elt F)) : Valuation τ sig (Elt F) := after q34 (val12 V)
theorem val13_args (V : Valuation τ sig (Elt F)) : vargs (val13 V) = vargs V := (q34_args (val12 V)).trans (val12_args V)
theorem val13_main_v183 (V : Valuation τ sig (Elt F)) : val13 V (Proc.devRef .tc main_v183) = t_v45 (lev2 V) (vargs V) :=
  (q34_keep (val12 V) main_v183 (by decide)).trans (val12_main_v183 V)
theorem val13_main_v222 (V : Valuation τ sig (Elt F)) : val13 V (Proc.devRef .tc main_v222) = lev3 V :=
  q34_v84 (val12 V) (lev2 V) (vargs V) (val12_args V) (val12_main_v198 V)

def val14 (V : Valuation τ sig (Elt F)) : Valuation τ sig (Elt F) := after qE1 (val13 V)
theorem val14_args (V : Valuation τ sig (Elt F)) : vargs (val14 V) = vargs V := (qE1_args (val13 V)).trans (val13_args V)
theorem val14_main_v183 (V : Valuation τ sig (Elt F)) : val14 V (Proc.devRef .tc main_v183) = t_v45 (lev2 V) (vargs V) :=
  (qE1_keep (val13 V) main_v183 (by decide)).trans (val13_main_v183 V)
theorem val14_main_v233 (V : Valuation τ sig (Elt F)) : val14 V (Proc.devRef .tc main_v233) = e_v233 (lev3 V) (vargs V) :=
  qE1_v233 (val13 V) (lev3 V) (vargs V) (val13_args V) (val13_main_v222 V)

def val15 (V : Valuation τ sig (Elt F)) : Valuation τ sig (Elt F) := after qE2 (val14 V)
theorem val15_args (V : Valuation τ sig (Elt F)) : vargs (val15 V) = vargs V := (qE2_args (val14 V)).trans (val14_args V)
theorem val15_main_v183 (V : Valuation τ sig (Elt F)) : val15 V (Proc.devRef .tc main_v183) = t_v45 (lev2 V) (vargs V) :=
  (qE2_keep (val14 V) main_v183 (by decide)).trans (val14_main_v183 V)
theorem val15_main_v257 (V : Valuation τ sig (Elt F)) : val15 V (Proc.devRef .tc main_v257) = e_v257 (lev3 V) (vargs V) :=
  qE2_v257 (val14 V) (lev3 V) (vargs V) (val14_args V) (val14_main_v233 V)

theorem ops_v257 (V : Valuation τ sig (Elt F)) : after ops V (Proc.devRef .tc main_v257) = refOut (vargs V) := by
  rw [after_ops]; exact val15_main_v257 V
theorem ops_v183 (V : Valuation τ sig (Elt F)) : after ops V (Proc.devRef .tc main_v183) = refW (vargs V) := by
  rw [after_ops]; exact val15_main_v183 V

theorem ops_args (V : Valuation τ sig (Elt F)) (r : Ref sig .tc) (hr : r ∈ argRefs) :
    after ops V (Proc.devRef .tc r) = V (Proc.devRef .tc r) := by
  rw [after_ops, qE2_keep _ r ((by decide : ∀ r ∈ argRefs, r ∉ qE2_W) r hr), qE1_keep _ r ((by decide : ∀ r ∈ argRefs, r ∉ qE1_W) r hr), q34_keep _ r ((by decide : ∀ r ∈ argRefs, r ∉ q34_W) r hr), q33_keep _ r ((by decide : ∀ r ∈ argRefs, r ∉ q33_W) r hr), q32_keep _ r ((by decide : ∀ r ∈ argRefs, r ∉ q32_W) r hr), q31_keep _ r ((by decide : ∀ r ∈ argRefs, r ∉ q31_W) r hr), q24_keep _ r ((by decide : ∀ r ∈ argRefs, r ∉ q24_W) r hr), q23_keep _ r ((by decide : ∀ r ∈ argRefs, r ∉ q23_W) r hr), q22_keep _ r ((by decide : ∀ r ∈ argRefs, r ∉ q22_W) r hr), q21_keep _ r ((by decide : ∀ r ∈ argRefs, r ∉ q21_W) r hr), q14_keep _ r ((by decide : ∀ r ∈ argRefs, r ∉ q14_W) r hr), q13_keep _ r ((by decide : ∀ r ∈ argRefs, r ∉ q13_W) r hr), q12_keep _ r ((by decide : ∀ r ∈ argRefs, r ∉ q12_W) r hr), q11_keep _ r ((by decide : ∀ r ∈ argRefs, r ∉ q11_W) r hr), cA_keep _ r ((by decide : ∀ r ∈ argRefs, r ∉ cA_W) r hr)]

def margs (m : (ℓ : Loc nD τ sig) → Buf (Elt F) ℓ) (c : Dev nD) : RArgs F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24)⟩

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v257) = refOut (margs m c)
      ∧ r.2.mem ((c.tc : Thread nD τ).loc main_v183) = refW (margs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨(h c main_v257).trans (ops_v257 (launchContents m c)),
      (h c main_v183).trans (ops_v183 (launchContents m c)),
      (h c main_arg0).trans (ops_args (launchContents m c) main_arg0 (by decide)),
      (h c main_arg1).trans (ops_args (launchContents m c) main_arg1 (by decide)),
      (h c main_arg2).trans (ops_args (launchContents m c) main_arg2 (by decide)),
      (h c main_arg3).trans (ops_args (launchContents m c) main_arg3 (by decide)),
      (h c main_arg4).trans (ops_args (launchContents m c) main_arg4 (by decide)),
      (h c main_arg5).trans (ops_args (launchContents m c) main_arg5 (by decide)),
      (h c main_arg6).trans (ops_args (launchContents m c) main_arg6 (by decide)),
      (h c main_arg7).trans (ops_args (launchContents m c) main_arg7 (by decide)),
      (h c main_arg8).trans (ops_args (launchContents m c) main_arg8 (by decide)),
      (h c main_arg9).trans (ops_args (launchContents m c) main_arg9 (by decide)),
      (h c main_arg10).trans (ops_args (launchContents m c) main_arg10 (by decide)),
      (h c main_arg11).trans (ops_args (launchContents m c) main_arg11 (by decide)),
      (h c main_arg12).trans (ops_args (launchContents m c) main_arg12 (by decide)),
      (h c main_arg13).trans (ops_args (launchContents m c) main_arg13 (by decide)),
      (h c main_arg14).trans (ops_args (launchContents m c) main_arg14 (by decide)),
      (h c main_arg15).trans (ops_args (launchContents m c) main_arg15 (by decide)),
      (h c main_arg16).trans (ops_args (launchContents m c) main_arg16 (by decide)),
      (h c main_arg17).trans (ops_args (launchContents m c) main_arg17 (by decide)),
      (h c main_arg18).trans (ops_args (launchContents m c) main_arg18 (by decide)),
      (h c main_arg19).trans (ops_args (launchContents m c) main_arg19 (by decide)),
      (h c main_arg20).trans (ops_args (launchContents m c) main_arg20 (by decide)),
      (h c main_arg21).trans (ops_args (launchContents m c) main_arg21 (by decide)),
      (h c main_arg22).trans (ops_args (launchContents m c) main_arg22 (by decide)),
      (h c main_arg23).trans (ops_args (launchContents m c) main_arg23 (by decide)),
      (h c main_arg24).trans (ops_args (launchContents m c) main_arg24 (by decide))⟩)
    (run_seq scopedRefs_eq scopedSems_eq defs main (fun _ => ops) main_eq (fun _ => ops_sub) m ρ)

end Cert.ReferenceIdeal.Stages

end
-- ==== Proof.Algebra.lean ====
import proofs.«429394_j28956669510180_3_alg».proof.Proof.Spec

noncomputable section

namespace RouteSpec

open Idealize.ShloMosaic

theorem c0_eq : c0 = 0 := Ideal.ofBits_zero_f32

theorem c256_eq : c256 = ((256 : ℝ) : EReal) := by
  simp [Ideal.ofBits, Ideal.ieee, -EReal.coe_mul]; norm_num

theorem cone_eq : Ideal.ofBits .f32 0x3F800000#32 = 1 := by
  simp [Ideal.ofBits, Ideal.ieee, -EReal.coe_mul]; norm_num

theorem ceps_pos : 0 < ceps := by
  have h : ceps = (((10995116 : ℝ) * (2 : ℝ) ^ (-40 : Int) : ℝ) : EReal) := by
    simp [Ideal.ofBits, Ideal.ieee, -EReal.coe_mul]
  rw [h]
  have : (0 : ℝ) < (10995116 : ℝ) * (2 : ℝ) ^ (-40 : Int) := by positivity
  exact_mod_cast this

theorem sum_split512 (g : Fin 512 → EReal) :
    ∑ d, g d = (∑ d : Fin 256, g ⟨d.val, by omega⟩) + (∑ d : Fin 256, g ⟨256 + d.val, by omega⟩) :=
  Fin.sum_univ_add (a := 256) (b := 256) g

theorem sum_split768 (g : Fin 768 → EReal) :
    ∑ d, g d = ((∑ d : Fin 256, g ⟨d.val, by omega⟩) + (∑ d : Fin 256, g ⟨256 + d.val, by omega⟩))
      + (∑ d : Fin 256, g ⟨512 + d.val, by omega⟩) := by
  have h1 : ∑ d, g d = (∑ d : Fin 512, g ⟨d.val, by omega⟩) + (∑ d : Fin 256, g ⟨512 + d.val, by omega⟩) :=
    Fin.sum_univ_add (a := 512) (b := 256) g
  rw [h1, sum_split512 (fun d : Fin 512 => g ⟨d.val, by omega⟩)]

theorem mul_self_nonneg_ereal (z : EReal) : 0 ≤ z * z := by
  induction z using EReal.rec with
  | bot => rw [EReal.bot_mul_bot]; exact le_top
  | coe r => rw [← EReal.coe_mul]; exact_mod_cast mul_self_nonneg r
  | top => rw [EReal.top_mul_top]; exact le_top

theorem var_nonneg (x : Fin 256 → EReal) : 0 ≤ var x := by
  unfold var
  rw [c256_eq, Ideal.div_coe (by norm_num : (256 : ℝ) ≠ 0)]
  have hs : (0 : EReal) ≤ ∑ k, (x k - mean x) * (x k - mean x) :=
    Finset.sum_nonneg fun k _ => mul_self_nonneg_ereal _
  have hc : (0 : EReal) ≤ ((1 / 256 : ℝ) : EReal) := by
    have : (0 : ℝ) ≤ 1 / 256 := by norm_num
    exact_mod_cast this
  exact mul_nonneg hs hc

theorem var_add_eps_pos (x : Fin 256 → EReal) : 0 < var x + ceps :=
  lt_of_lt_of_le ceps_pos (le_add_of_nonneg_left (var_nonneg x))

theorem mul_rsqrt_eq_div_sqrt {v : EReal} (hv : 0 < v) (a : EReal) :
    a * Ideal.rsqrt v = Ideal.div a (Ideal.sqrt v) := by
  induction v using EReal.rec with
  | bot => exact absurd hv not_lt_bot
  | coe r =>

    have hr : 0 < r := by exact_mod_cast hv
    have hs : Real.sqrt r ≠ 0 := (Real.sqrt_pos.mpr hr).ne'
    have hs' : ((Real.sqrt r : ℝ) : EReal) ≠ 0 := by exact_mod_cast hs
    rw [Ideal.rsqrt_coe, if_neg (not_lt.mpr hr.le), if_neg hr.ne', Ideal.sqrt_coe, if_neg (not_lt.mpr hr.le),
      Ideal.div, if_neg hs', EReal.coe_inv]
  | top =>

    rw [Ideal.rsqrt_top, Ideal.sqrt_top, Ideal.div, if_neg EReal.top_ne_zero, EReal.inv_top]

theorem lnorm_eq_div (x g b : Fin 256 → EReal) (q : Fin 256) :
    lnorm x g b q = Ideal.div (x q - mean x) (Ideal.sqrt (var x + ceps)) * g q + b q := by
  unfold lnorm
  rw [mul_rsqrt_eq_div_sqrt (var_add_eps_pos x)]

theorem logistic_eq_div (x : EReal) :
    Ideal.logistic x = Ideal.div (Ideal.ofBits .f32 0x3F800000#32) (Ideal.ofBits .f32 0x3F800000#32 + Ideal.exp (-x)) := by
  rw [cone_eq, Ideal.logistic]

end RouteSpec

end
-- ==== Proof.LibPlainDot.lean ====
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

abbrev kEquiv : (DotDims.plain M K N).contr.Idx ≃ Fin K := contrEquiv1 (DotDims.plain M K N) K (contr_rank M K N) (contr_size M K N)

theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.RValPE.lean ====
import proofs.«429394_j28956669510180_3_alg».proof.Proof.RIface
import proofs.«429394_j28956669510180_3_alg».proof.Proof.Algebra
import proofs.«429394_j28956669510180_3_alg».proof.Proof.LibPlainDot
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.Stages

open Cert.ReferenceIdeal Cert.ReferenceIdeal.Gen Idealize.ShloMosaic Idealize.ShloMosaic.ValueIdx RouteSpec

theorem bias_apply (x : FVec Ideal S256 .f32) (p : Fin 32768) (q : Fin 256) :
    (broadcastInDim S32768x256 ![0, 1] bcast_S1x256_S32768x256_0_1
      (broadcastInDim S1x256 ![1] bcast_S256_S1x256_1 x) : FVec Ideal S32768x256 .f32) (ix2 p q) = x (ix1 q) := by
  rw [broadcastInDim_apply _ _ _ (ix2 p q) (ix2 (0 : Fin 1) q) (by
    intro a; match a with
    | ⟨0, _⟩ => rfl
    | ⟨1, _⟩ => rfl)]
  rw [broadcastInDim_apply _ _ _ (ix2 (0 : Fin 1) q) (ix1 q) (by
    intro a; match a with
    | ⟨0, _⟩ => rfl)]

theorem lift3_apply (x : FVec Ideal S32768x256 .f32) (z : Fin 1) (p : Fin 32768) (q : Fin 256) :
    (broadcastInDim S1x32768x256 ![1, 2] bcast_S32768x256_S1x32768x256_1_2 x : FVec Ideal S1x32768x256 .f32) (ix3 z p q)
      = x (ix2 p q) := by
  rw [broadcastInDim_apply _ _ _ (ix3 z p q) (ix2 p q) (by
    intro a; match a with
    | ⟨0, _⟩ => rfl
    | ⟨1, _⟩ => rfl)]

theorem stack3_apply (x0 x1 x2 : FVec Ideal S1x32768x256 .f32) (l : Fin 3) (b : Fin 32768) (q : Fin 256) :
    concatenate S3x32768x256 0 [⟨S1x32768x256, x0⟩, ⟨S1x32768x256, x1⟩, ⟨S1x32768x256, x2⟩]
      concatenates_S1x32768x256_S1x32768x256_S1x32768x256_S3x32768x256_d0 (ix3 l b q)
      = (![x0, x1, x2] l) (ix3 (0 : Fin 1) b q) := by
  have hi : ∀ c : Fin S1x32768x256.rank, c.cast (rfl : S1x32768x256.rank = S3x32768x256.rank) ≠ (0 : Fin S3x32768x256.rank) →
      ((ix3 (0 : Fin 1) b q : S1x32768x256.Idx) c).val = ((ix3 l b q : S3x32768x256.Idx) (c.cast rfl)).val := by
    intro c hc
    match c with
    | ⟨0, _⟩ => exact absurd rfl hc
    | ⟨1, _⟩ => rfl
    | ⟨2, _⟩ => rfl
  match l with
  | ⟨0, _⟩ =>
    exact concatenate_apply_piece (0 : Fin S3x32768x256.rank) _ _ (ix3 _ b q) 0 (by show (0 : Nat) < 3; omega) S1x32768x256 x0 rfl rfl 0 rfl
      (ix3 (0 : Fin 1) b q) hi rfl
  | ⟨1, _⟩ =>
    exact concatenate_apply_piece (0 : Fin S3x32768x256.rank) _ _ (ix3 _ b q) 1 (by show (1 : Nat) < 3; omega) S1x32768x256 x1 rfl rfl 1 rfl
      (ix3 (0 : Fin 1) b q) hi rfl
  | ⟨2, _⟩ =>
    exact concatenate_apply_piece (0 : Fin S3x32768x256.rank) _ _ (ix3 _ b q) 2 (by show (2 : Nat) < 3; omega) S1x32768x256 x2 rfl rfl 2 rfl
      (ix3 (0 : Fin 1) b q) hi rfl

theorem r_v3_apply (A : RArgs Ideal) (b : Fin 32768) (q : Fin 256) :
    r_v3 A (ix2 b q) = proj0 (wts A) (rowF A b) q := by
  unfold r_v3 r_v2 r_v1 r_v0
  rw [addf_apply, bias_apply]
  exact congrArg (· + A.a4 (ix1 q)) (PlainDot.dotGeneral_apply 32768 128 256 none A.a0 A.a3 b q)

theorem r_v7_apply (A : RArgs Ideal) (b : Fin 32768) (q : Fin 256) :
    r_v7 A (ix2 b q) = proj1 (wts A) (rowM A b) q := by
  unfold r_v7 r_v6 r_v5 r_v4
  rw [addf_apply, bias_apply]
  exact congrArg (· + A.a6 (ix1 q)) (PlainDot.dotGeneral_apply 32768 256 256 none A.a1 A.a5 b q)

theorem r_v11_apply (A : RArgs Ideal) (b : Fin 32768) (q : Fin 256) :
    r_v11 A (ix2 b q) = proj2 (wts A) (rowC A b) q := by
  unfold r_v11 r_v10 r_v9 r_v8
  rw [addf_apply, bias_apply]
  exact congrArg (· + A.a8 (ix1 q)) (PlainDot.dotGeneral_apply 32768 512 256 none A.a2 A.a7 b q)

theorem refProj_apply (A : RArgs Ideal) (l : Fin 3) (b : Fin 32768) (q : Fin 256) :
    refProj A (ix3 l b q) = feats0 (wts A) (rowF A b) (rowM A b) (rowC A b) l q := by
  unfold refProj r_v15
  rw [stack3_apply]
  unfold r_v12 r_v13 r_v14 feats0
  match l with
  | ⟨0, _⟩ => exact (lift3_apply _ _ b q).trans (r_v3_apply A b q)
  | ⟨1, _⟩ => exact (lift3_apply _ _ b q).trans (r_v7_apply A b q)
  | ⟨2, _⟩ => exact (lift3_apply _ _ b q).trans (r_v11_apply A b q)

theorem e_v224_apply (f : FVec Ideal S3x32768x256 .f32) (A : RArgs Ideal) (b : Fin 32768) (c : Fin 768) (l : Fin 3) (d : Fin 256)
    (hc : c.val = 256 * l.val + d.val) : e_v224 f A (ix2 b c) = f (ix3 l b d) := by
  unfold e_v224 e_v223
  rw [shapeCast_apply _ _ (ix2 b c) (ix3 b l d) (by
    rw [Shape.rowMajor_val_three, Shape.rowMajor_val_two]
    show (b.val * 3 + l.val) * 256 + d.val = b.val * 768 + c.val
    omega)]
  exact transpose_apply _ _ _ (ix3 b l d) (ix3 l b d) (by
    intro a; match a with
    | ⟨0, _⟩ => rfl
    | ⟨1, _⟩ => rfl
    | ⟨2, _⟩ => rfl)

theorem e_v225_apply (f : FVec Ideal S3x32768x256 .f32) (A : RArgs Ideal) (b : Fin 32768) (e : Fin 256) :
    e_v225 f A (ix2 b e) = ((∑ d, rowL f b 0 d * (wts A).fW1 0 d e) + (∑ d, rowL f b 1 d * (wts A).fW1 1 d e))
      + (∑ d, rowL f b 2 d * (wts A).fW1 2 d e) := by
  unfold e_v225
  refine (PlainDot.dotGeneral_apply 32768 768 256 none (e_v224 f A) A.a19 b e).trans ?_
  refine (sum_split768 (fun c : Fin 768 => e_v224 f A (ix2 b c) * A.a19 (ix2 c e))).trans ?_
  refine congrArg₂ (· + ·) (congrArg₂ (· + ·) ?_ ?_) ?_
  · exact Finset.sum_congr rfl fun d _ => congrArg₂ (· * ·)
      (e_v224_apply f A b _ 0 d (by show d.val = 256 * 0 + d.val; omega))
      (congrArg (fun c : Fin 768 => A.a19 (ix2 c e)) (Fin.ext (by show d.val = 256 * 0 + d.val; omega)))
  · exact Finset.sum_congr rfl fun d _ => congrArg₂ (· * ·)
      (e_v224_apply f A b _ 1 d (by show 256 + d.val = 256 * 1 + d.val; omega))
      (congrArg (fun c : Fin 768 => A.a19 (ix2 c e)) (Fin.ext (by show 256 + d.val = 256 * 1 + d.val; omega)))
  · exact Finset.sum_congr rfl fun d _ => congrArg₂ (· * ·)
      (e_v224_apply f A b _ 2 d (by show 512 + d.val = 256 * 2 + d.val; omega))
      (congrArg (fun c : Fin 768 => A.a19 (ix2 c e)) (Fin.ext (by show 512 + d.val = 256 * 2 + d.val; omega)))

theorem e_v229_apply (f : FVec Ideal S3x32768x256 .f32) (A : RArgs Ideal) (b : Fin 32768) (e : Fin 256) :
    e_v229 f A (ix2 b e) = h4 (wts A) (rowL f b) e := by
  unfold e_v229 e_v228 e_v227 e_v226
  rw [maximumf_apply, addf_apply, bias_apply, e_v225_apply, broadcastInDim_scalar_apply, constant_apply]
  rfl

theorem e_v233_apply (f : FVec Ideal S3x32768x256 .f32) (A : RArgs Ideal) (b : Fin 32768) (e : Fin 256) :
    e_v233 f A (ix2 b e) = h5 (wts A) (rowL f b) e := by
  unfold e_v233 e_v232 e_v231 e_v230
  rw [addf_apply, bias_apply]
  refine congrArg (· + A.a22 (ix1 e)) ?_
  refine (PlainDot.dotGeneral_apply 32768 256 256 none (e_v229 f A) A.a21 b e).trans ?_
  exact Finset.sum_congr rfl fun d _ => congrArg (· * A.a21 (ix2 d e)) (e_v229_apply f A b d)

theorem col_apply (x : FVec Ideal S32768 .f32) (b : Fin 32768) (z : Fin 1) :
    (broadcastInDim S32768x1 ![0] bcast_S32768_S32768x1_0 x : FVec Ideal S32768x1 .f32) (ix2 b z) = x (ix1 b) := by
  rw [broadcastInDim_apply _ _ _ (ix2 b z) (ix1 b) (by
    intro a; match a with
    | ⟨0, _⟩ => rfl)]

theorem scalCol_apply (x : FVec Ideal S_ .f32) (b : Fin 32768) (z : Fin 1) :
    (broadcastInDim S32768x1 ![] bcast_S_S32768x1 x : FVec Ideal S32768x1 .f32) (ix2 b z) = x ix0 :=
  broadcastInDim_scalar_apply _ _ _

theorem spread_apply (x : FVec Ideal S32768x1 .f32) (b : Fin 32768) (q : Fin 256) :
    (broadcastInDim S32768x256 ![0, 1] bcast_S32768x1_S32768x256_0_1 x : FVec Ideal S32768x256 .f32) (ix2 b q)
      = x (ix2 b (0 : Fin 1)) := by
  rw [broadcastInDim_apply _ _ _ (ix2 b q) (ix2 b (0 : Fin 1)) (by
    intro a; match a with
    | ⟨0, _⟩ => rfl
    | ⟨1, _⟩ => rfl)]

theorem rowsum_apply (X : FVec Ideal S32768x256 .f32) (b : Fin 32768) :
    Host.reduceAdd X (constant (F := Ideal) S_ .f32 0x00000000#32) reducesTo_S32768x256_S32768_d1 h_S_ (ix1 b)
      = ∑ k : Fin 256, X (ix2 b k) := by
  have hR : S32768x256.Reduces [1] S32768 := by decide
  rw [hostReduceAdd_apply, Ideal.hostReduceAdd_single _ hR, constant_apply, Ideal.ofBits_zero_f32, zero_add]
  refine Finset.sum_congr rfl fun k _ => congrArg X ?_
  funext a
  match a with
  | ⟨0, _⟩ => rfl
  | ⟨1, _⟩ => rfl

theorem hostSqrt_apply {s : Shape} {φ : FTy} (a : FVec Ideal s φ) (i : s.Idx) : Host.sqrt a i = Ideal.sqrt (a i) := rfl

theorem e_v237_apply (f : FVec Ideal S3x32768x256 .f32) (A : RArgs Ideal) (b : Fin 32768) (z : Fin 1) :
    e_v237 f A (ix2 b z) = mean (h5 (wts A) (rowL f b)) := by
  unfold e_v237 e_v236 e_v235 e_v234 e_cst_37 e_cst_36
  beta_reduce
  rw [hostDivf_apply, col_apply, scalCol_apply, constant_apply, rowsum_apply]
  unfold mean
  exact congrArg (Ideal.div · c256) (Finset.sum_congr rfl fun k _ => e_v233_apply f A b k)

theorem e_v239_apply (f : FVec Ideal S3x32768x256 .f32) (A : RArgs Ideal) (b : Fin 32768) (q : Fin 256) :
    e_v239 f A (ix2 b q) = h5 (wts A) (rowL f b) q - mean (h5 (wts A) (rowL f b)) := by
  unfold e_v239 e_v238
  rw [subf_apply, spread_apply, e_v233_apply, e_v237_apply]

theorem e_v246_apply (f : FVec Ideal S3x32768x256 .f32) (A : RArgs Ideal) (b : Fin 32768) (q : Fin 256) :
    e_v246 f A (ix2 b q) = h5 (wts A) (rowL f b) q - mean (h5 (wts A) (rowL f b)) := by
  unfold e_v246 e_v245
  rw [subf_apply, spread_apply, e_v233_apply, e_v237_apply]

theorem e_v244_apply (f : FVec Ideal S3x32768x256 .f32) (A : RArgs Ideal) (b : Fin 32768) (z : Fin 1) :
    e_v244 f A (ix2 b z) = var (h5 (wts A) (rowL f b)) := by
  unfold e_v244 e_v243 e_v242 e_v241 e_v240 e_cst_39 e_cst_38
  beta_reduce
  rw [hostDivf_apply, col_apply, scalCol_apply, constant_apply, rowsum_apply]
  unfold var
  refine congrArg (Ideal.div · c256) (Finset.sum_congr rfl fun k _ => ?_)
  rw [mulf_apply, e_v239_apply]

theorem e_v249_apply (f : FVec Ideal S3x32768x256 .f32) (A : RArgs Ideal) (b : Fin 32768) (z : Fin 1) :
    e_v249 f A (ix2 b z) = Ideal.sqrt (var (h5 (wts A) (rowL f b)) + ceps) := by
  unfold e_v249 e_v248 e_v247 e_cst_40
  rw [hostSqrt_apply, addf_apply, e_v244_apply, scalCol_apply, constant_apply]

theorem refFin_apply (f : FVec Ideal S3x32768x256 .f32) (A : RArgs Ideal) (b : Fin 32768) (q : Fin 256) :
    refFin f A (ix2 b q) = fin (wts A) (rowL f b) q := by
  unfold refFin e_v257 e_v256 e_v255 e_v254 e_v253 e_v252 e_v251 e_v250
  rw [addf_apply, mulf_apply, bias_apply, bias_apply, hostDivf_apply, e_v246_apply, spread_apply, e_v249_apply]
  unfold fin
  exact (lnorm_eq_div (h5 (wts A) (rowL f b)) (wts A).fng (wts A).fnb q).symm

end Cert.ReferenceIdeal.Stages

end
-- ==== Proof.LibGatherRows.lean ====
import Idealize.ShloMosaic.Lib.ValueIdx

noncomputable section

namespace Cert.GatherRows

open Idealize.ShloMosaic Idealize.ShloMosaic.ValueIdx

theorem gather_rows2 {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  unfold Host.gather
  congr 1
  funext a
  refine Fin.ext ?_
  have hb : ∀ a : Fin 2, a ∉ d.operandBatchingDims := fun a => by rw [hob]; exact List.not_mem_nil

  have hbd : d.batchDims = [0] := by
    show (List.finRange 2).filter (· ∉ d.offsetDims) = _
    rw [hoff]; rfl
  match a with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j k) idx 0 + d.batchCoord (ix2 j k) 0 + d.offCoord (ix2 j k) 0 = _
    rw [GatherDims.batchCoord_eq_zero _ _ _ (hb 0), GatherDims.offCoord_eq_zero _ _ _ hk]
    simp only [Nat.add_zero]
    unfold GatherDims.start
    rw [dif_pos hm]
    have e : ∀ X : Fin 2, X ∈ d.batchDims → ((ix2 j k : (⟨2, ![n, C]⟩ : Shape).Idx) X).val = j.val := fun X hX => by
      rw [hbd] at hX
      obtain rfl := List.mem_singleton.mp hX
      rfl
    have hsi : d.siIdx (ix2 j k) ⟨List.idxOf (0 : Fin 2) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 2) d.startIndexMap = 0
        rw [hsim]; simp
    rw [hsi, hsl]
    rfl
  | ⟨1, _⟩ =>

    have hk : (1 : Fin 2) ∈ d.sKept := by rw [GatherDims.mem_sKept, hcoll, hob]; simp
    have hm : (1 : Fin 2) ∉ d.startIndexMap := by rw [hsim]; simp
    show d.start (ix2 j k) idx 1 + d.batchCoord (ix2 j k) 1 + d.offCoord (ix2 j k) 1 = k.val
    rw [GatherDims.batchCoord_eq_zero _ _ _ (hb 1)]
    unfold GatherDims.start GatherDims.offCoord
    rw [dif_neg hm, dif_pos hk]
    simp only [Nat.add_zero, Nat.zero_add]
    have e : ∀ X : Fin 2, X ∈ d.offsetDims → ((ix2 j k : (⟨2, ![n, C]⟩ : Shape).Idx) X).val = k.val := fun X hX => by
      rw [hoff] at hX
      obtain rfl := List.mem_singleton.mp hX
      rfl
    exact e _ (List.getElem_mem _)

theorem gather_rows3 {α : Type} {N L C n w : Nat} (hN : 0 < N)
    (d : GatherDims ⟨3, ![N, L, C]⟩ ⟨2, ![n, 1]⟩ ⟨3, ![n, L, C]⟩)
    (hoff : d.offsetDims = [1, 2]) (hcoll : d.collapsedSliceDims = [0]) (hob : d.operandBatchingDims = [])
    (hsim : d.startIndexMap = [0]) (hivd : d.indexVectorDim = 1)
    (x : (⟨3, ![N, L, C]⟩ : Shape).Idx → α) (idx : IVec ⟨2, ![n, 1]⟩ w) (j : Fin n) (l : Fin L) (k : Fin C) :
    Host.gather d x idx (ix3 j l k)
      = x (ix3 ⟨min (idx (ix2 j (0 : Fin 1))).toInt.toNat (N - 1), by omega⟩ l k) := by
  unfold Host.gather
  congr 1
  funext a
  refine Fin.ext ?_
  have hb : ∀ a : Fin 3, a ∉ d.operandBatchingDims := fun a => by rw [hob]; exact List.not_mem_nil

  have hbd : d.batchDims = [0] := by
    show (List.finRange 3).filter (· ∉ d.offsetDims) = _
    rw [hoff]; rfl
  have hsk : d.sKept = [1, 2] := by
    show (List.finRange 3).filter (· ∉ d.collapsedSliceDims ++ d.operandBatchingDims) = _
    rw [hcoll, hob]; rfl

  have hoffax : ∀ (a : Fin 3) (p : Nat) (hp : p < d.offsetDims.length), a ∈ d.sKept → a ∉ d.startIndexMap →
      d.sKept.idxOf a = p →
      d.start (ix3 j l k) idx a + d.batchCoord (ix3 j l k) a + d.offCoord (ix3 j l k) a
        = ((ix3 j l k : (⟨3, ![n, L, C]⟩ : Shape).Idx) (d.offsetDims[p]'hp)).val := by
    intro a p hp hk hm hidx
    subst hidx
    rw [GatherDims.batchCoord_eq_zero _ _ _ (hb a)]
    unfold GatherDims.start GatherDims.offCoord
    rw [dif_neg hm, dif_pos hk]
    simp only [Nat.add_zero, Nat.zero_add]
  match a with
  | ⟨0, _⟩ =>

    have hk : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j l k) idx 0 + d.batchCoord (ix3 j l k) 0 + d.offCoord (ix3 j l k) 0 = _
    rw [GatherDims.batchCoord_eq_zero _ _ _ (hb 0), GatherDims.offCoord_eq_zero _ _ _ hk]
    simp only [Nat.add_zero]
    unfold GatherDims.start
    rw [dif_pos hm]
    have e : ∀ X : Fin 3, X ∈ d.batchDims → ((ix3 j l k : (⟨3, ![n, L, C]⟩ : Shape).Idx) X).val = j.val := fun X hX => by
      rw [hbd] at hX
      obtain rfl := List.mem_singleton.mp hX
      rfl
    have hsi : d.siIdx (ix3 j l k) ⟨List.idxOf (0 : Fin 3) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 3) d.startIndexMap = 0
        rw [hsim]; simp
    rw [hsi, hsl]
    rfl
  | ⟨1, _⟩ =>

    have hk : (1 : Fin 3) ∈ d.sKept := by rw [hsk]; simp
    have hm : (1 : Fin 3) ∉ d.startIndexMap := by rw [hsim]; simp
    have hp : 0 < d.offsetDims.length := by rw [hoff]; simp
    have h1 : d.offsetDims[0]'hp = 1 := by rw [List.getElem_of_eq hoff]; rfl
    show d.start (ix3 j l k) idx 1 + d.batchCoord (ix3 j l k) 1 + d.offCoord (ix3 j l k) 1 = l.val
    rw [hoffax 1 0 hp hk hm (by rw [hsk]; rfl), h1]
    rfl
  | ⟨2, _⟩ =>

    have hk : (2 : Fin 3) ∈ d.sKept := by rw [hsk]; simp
    have hm : (2 : Fin 3) ∉ d.startIndexMap := by rw [hsim]; simp
    have hp : 1 < d.offsetDims.length := by rw [hoff]; simp
    have h2 : d.offsetDims[1]'hp = 2 := by rw [List.getElem_of_eq hoff]; rfl
    show d.start (ix3 j l k) idx 2 + d.batchCoord (ix3 j l k) 2 + d.offCoord (ix3 j l k) 2 = k.val
    rw [hoffax 2 1 hp hk hm (by rw [hsk]; rfl), h2]
    rfl

end Cert.GatherRows

end
-- ==== Proof.LibBatchDot.lean ====
import Idealize.ShloMosaic.PureOps.Ideal
import Idealize.ShloMosaic.PureOps.Ideal.Laws
import Idealize.ShloMosaic.Lib.ValueIdx

noncomputable section

namespace Cert.BatchDot

open Idealize.ShloMosaic Idealize.ShloMosaic.ValueIdx

variable {B M K N : Nat} (d : DotDims ⟨3, ![B, M, K]⟩ ⟨3, ![B, K, N]⟩ ⟨3, ![B, M, N]⟩)

theorem contr_rank (hlc : d.lhsContracting = [2]) : d.contr.rank = 1 := by
  rw [d.rank_contr, hlc]; rfl

theorem contr_size (hlc : d.lhsContracting = [2]) :
    d.contr.size ⟨0, by rw [contr_rank d hlc]; exact Nat.one_pos⟩ = K := by
  rw [d.size_contr 0 (by rw [hlc]; exact Nat.one_pos), List.getElem_of_eq hlc]; rfl

abbrev kEquiv (hlc : d.lhsContracting = [2]) : d.contr.Idx ≃ Fin K :=
  contrEquiv1 d K (contr_rank d hlc) (contr_size d hlc)

private theorem coord_val {n0 n1 n2 : Nat} (j : (⟨3, ![n0, n1, n2]⟩ : Shape).Idx) (m c : Nat) (hm : m < 3) (hc : c < 3)
    (h : m = c) : (j ⟨m, hm⟩).val = (j ⟨c, hc⟩).val := by subst h; rfl

theorem lhsIdx_0 (hlb : d.lhsBatch = [0]) (j : (⟨3, ![B, M, N]⟩ : Shape).Idx) (kk : d.contr.Idx) :
    (d.lhsIdx j kk (0 : Fin 3)).val = (j (0 : Fin 3)).val := by
  have hb : (0 : Fin 3) ∈ d.lhsBatch := by rw [hlb]; exact List.mem_singleton.mpr rfl
  unfold DotDims.lhsIdx
  rw [dif_pos hb]
  simp only [Fin.val_cast]
  exact coord_val j _ 0 _ (by omega) (by rw [hlb]; rfl)

theorem lhsIdx_1 (hln : d.lhsNonContracting = [1]) (hlb : d.lhsBatch = [0]) (j : (⟨3, ![B, M, N]⟩ : Shape).Idx)
    (kk : d.contr.Idx) : (d.lhsIdx j kk (1 : Fin 3)).val = (j (1 : Fin 3)).val := by
  have hb : (1 : Fin 3) ∉ d.lhsBatch := by rw [hlb]; simp
  have hn : (1 : Fin 3) ∈ d.lhsNonContracting := by rw [hln]; exact List.mem_singleton.mpr rfl
  unfold DotDims.lhsIdx
  rw [dif_neg hb, dif_pos hn]
  simp only [Fin.val_cast]
  exact coord_val j _ 1 _ (by omega) (by rw [hlb, hln]; rfl)

theorem rhsIdx_0 (hrb : d.rhsBatch = [0]) (j : (⟨3, ![B, M, N]⟩ : Shape).Idx) (kk : d.contr.Idx) :
    (d.rhsIdx j kk (0 : Fin 3)).val = (j (0 : Fin 3)).val := by
  have hb : (0 : Fin 3) ∈ d.rhsBatch := by rw [hrb]; exact List.mem_singleton.mpr rfl
  unfold DotDims.rhsIdx
  rw [dif_pos hb]
  simp only [Fin.val_cast]
  exact coord_val j _ 0 _ (by omega) (by rw [hrb]; rfl)

theorem rhsIdx_2 (hln : d.lhsNonContracting = [1]) (hrn : d.rhsNonContracting = [2]) (hlb : d.lhsBatch = [0])
    (hrb : d.rhsBatch = [0]) (j : (⟨3, ![B, M, N]⟩ : Shape).Idx) (kk : d.contr.Idx) :
    (d.rhsIdx j kk (2 : Fin 3)).val = (j (2 : Fin 3)).val := by
  have hb : (2 : Fin 3) ∉ d.rhsBatch := by rw [hrb]; simp
  have hn : (2 : Fin 3) ∈ d.rhsNonContracting := by rw [hrn]; exact List.mem_singleton.mpr rfl
  unfold DotDims.rhsIdx
  rw [dif_neg hb, dif_pos hn]
  simp only [Fin.val_cast]
  exact coord_val j _ 2 _ (by omega) (by rw [hlb, hln, hrn]; rfl)

theorem lhsIdx_eq (hlc : d.lhsContracting = [2]) (hln : d.lhsNonContracting = [1]) (hlb : d.lhsBatch = [0])
    (i : Fin B) (p : Fin M) (q : Fin N) (k : Fin K) :
    d.lhsIdx (ix3 i p q) ((kEquiv d hlc).symm k) = ix3 i p k := by
  funext a
  apply Fin.ext
  match a with
  | ⟨0, _⟩ => exact lhsIdx_0 d hlb (ix3 i p q) _
  | ⟨1, _⟩ => exact lhsIdx_1 d hln hlb (ix3 i p q) _
  | ⟨2, _⟩ =>
    exact (d.lhsIdx_val_of_single (cl := 2) hlc (ix3 i p q) _).trans
      (contrEquiv1_symm_val d K (contr_rank d hlc) (contr_size d hlc) k)

theorem rhsIdx_eq (hlc : d.lhsContracting = [2]) (hrc : d.rhsContracting = [1]) (hln : d.lhsNonContracting = [1])
    (hrn : d.rhsNonContracting = [2]) (hlb : d.lhsBatch = [0]) (hrb : d.rhsBatch = [0])
    (i : Fin B) (p : Fin M) (q : Fin N) (k : Fin K) :
    d.rhsIdx (ix3 i p q) ((kEquiv d hlc).symm k) = ix3 i k q := by
  funext a
  apply Fin.ext
  match a with
  | ⟨0, _⟩ => exact rhsIdx_0 d hrb (ix3 i p q) _
  | ⟨1, _⟩ =>
    exact (d.rhsIdx_val_of_single (cr := 1) hrc (ix3 i p q) _).trans
      (contrEquiv1_symm_val d K (contr_rank d hlc) (contr_size d hlc) k)
  | ⟨2, _⟩ => exact rhsIdx_2 d hln hrn hlb hrb (ix3 i p q) _

theorem sum_eq (hlc : d.lhsContracting = [2]) (hrc : d.rhsContracting = [1]) (hln : d.lhsNonContracting = [1])
    (hrn : d.rhsNonContracting = [2]) (hlb : d.lhsBatch = [0]) (hrb : d.rhsBatch = [0])
    (l : (⟨3, ![B, M, K]⟩ : Shape).Idx → EReal) (r : (⟨3, ![B, K, N]⟩ : Shape).Idx → EReal)
    (i : Fin B) (p : Fin M) (q : Fin N) :
    (∑ kk : d.contr.Idx, l (d.lhsIdx (ix3 i p q) kk) * r (d.rhsIdx (ix3 i p q) kk))
      = ∑ k : Fin K, l (ix3 i p k) * r (ix3 i k q) := by
  rw [← Equiv.sum_comp (kEquiv d hlc).symm]
  exact Finset.sum_congr rfl fun k _ =>
    congrArg₂ (· * ·) (congrArg l (lhsIdx_eq d hlc hln hlb i p q k))
      (congrArg r (rhsIdx_eq d hlc hrc hln hrn hlb hrb i p q k))

variable {φ₁ φ₂ : FTy}

theorem dotGeneral_apply (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (l : FVec Ideal ⟨3, ![B, M, K]⟩ φ₁) (r : FVec Ideal ⟨3, ![B, K, N]⟩ φ₂)
    (i : Fin B) (p : Fin M) (q : Fin N) :
    Host.dotGeneral d prec l r (ix3 i p q) = ∑ k : Fin K, l (ix3 i p k) * r (ix3 i k q) :=
  (Ideal.dotGeneral_apply d prec _ l r (ix3 i p q)).trans (sum_eq d hlc hrc hln hrn hlb hrb l r i p q)

end Cert.BatchDot

end
-- ==== Proof.LibScatterRead.lean ====
import Idealize.ShloMosaic.PureOps.ShapeOps

namespace Cert.LibScatterRead

open Idealize.ShloMosaic

variable {s si u : Shape} {w : Nat} {α : Type}

def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_miss (d : ScatterDims s si u) (idx : IVec si w) (upd : u.Idx → α) (r : s.Idx → α) (n : Fin u.numel)
    (i' : s.Idx) (h : d.resultIdx? (u.rowMajor.symm n) idx ≠ some i') : step d idx upd r n i' = r i' := by
  unfold step
  cases hr : d.resultIdx? (u.rowMajor.symm n) idx with
  | none => rfl
  | some i =>
    have hne : i' ≠ i := fun e => h (by rw [hr, e])
    simp only [if_neg hne]

theorem step_hit (d : ScatterDims s si u) (idx : IVec si w) (upd : u.Idx → α) (r : s.Idx → α) (n : Fin u.numel)
    (i' : s.Idx) (h : d.resultIdx? (u.rowMajor.symm n) idx = some i') :
    step d idx upd r n i' = upd (u.rowMajor.symm n) := by
  unfold step
  rw [h]
  exact if_pos rfl

theorem foldl_miss (d : ScatterDims s si u) (idx : IVec si w) (upd : u.Idx → α) (i' : s.Idx) :
    ∀ (l : List (Fin u.numel)) (r : s.Idx → α), (∀ n ∈ l, d.resultIdx? (u.rowMajor.symm n) idx ≠ some i') →
      l.foldl (step d idx upd) r i' = r i'
  | [], _, _ => rfl
  | a :: t, r, h => by
    rw [List.foldl_cons, foldl_miss d idx upd i' t _ (fun n hn => h n (List.mem_cons_of_mem _ hn)),
      step_miss d idx upd r a i' (h a List.mem_cons_self)]

theorem foldl_hit (d : ScatterDims s si u) (idx : IVec si w) (upd : u.Idx → α) (i' : s.Idx) (n0 : Fin u.numel)
    (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (step d idx upd) r i' = upd (u.rowMajor.symm n0)
  | [], _, hm, _ => absurd hm List.not_mem_nil
  | a :: t, r, hm, hu => by
    rw [List.foldl_cons]
    by_cases ht : n0 ∈ t
    · exact foldl_hit d idx upd i' n0 h0 t _ ht (fun n hn => hu n (List.mem_cons_of_mem _ hn))
    · have ha : a = n0 := by
        rcases List.mem_cons.1 hm with e | e
        · exact e.symm
        · exact absurd e ht
      rw [foldl_miss d idx upd i' t _ (fun n hn e => ht (hu n (List.mem_cons_of_mem _ hn) e ▸ hn)), ha,
        step_hit d idx upd r n0 i' h0]

theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  rw [scatter_eq_foldl]
  exact foldl_miss d idx upd i' _ x (fun n _ => h _)

theorem scatter_set_hit (d : ScatterDims s si u) (x : s.Idx → α) (idx : IVec si w) (upd : u.Idx → α) (i' : s.Idx)
    (j : u.Idx) (hj : d.resultIdx? j idx = some i') (huniq : ∀ j' : u.Idx, d.resultIdx? j' idx = some i' → j' = j) :
    Host.scatter d (fun _ b => b) x idx upd i' = upd j := by
  rw [scatter_eq_foldl]
  have h0 : d.resultIdx? (u.rowMajor.symm (u.rowMajor j)) idx = some i' := by rw [Equiv.symm_apply_apply]; exact hj
  have := foldl_hit d idx upd i' (u.rowMajor j) h0 (List.finRange u.numel) x (List.mem_finRange _)
    (fun n _ e => by
      have := huniq _ e
      rw [← this, Equiv.apply_symm_apply])
  rw [this, Equiv.symm_apply_apply]

theorem resultIdx?_eq_some_iff (d : ScatterDims s si u) (j : u.Idx) (idx : IVec si w) (i' : s.Idx) :
    d.resultIdx? j idx = some i' ↔ ∀ a, ((i' a).val : Int) = d.start j idx a + d.window j a := by
  unfold ScatterDims.resultIdx?
  split
  · rename_i h
    rw [Option.some.injEq]
    constructor
    · rintro rfl a
      have := (h a).1
      simp only [Int.toNat_of_nonneg this]
    · intro hi
      funext a
      apply Fin.ext
      have := hi a
      simp only
      omega
  · rename_i h
    constructor
    · intro hh; cases hh
    · intro hi
      exfalso
      apply h
      intro a
      have := hi a
      have := (i' a).isLt
      omega

end Cert.LibScatterRead
-- ==== Proof.LibScatterRows3.lean ====
import Idealize.ShloMosaic.Lib.ValueIdx
import Idealize.ShloMosaic.PureOps.Ideal
import Idealize.ShloMosaic.PureOps.Contract
import proofs.«429394_j28956669510180_3_alg».proof.Proof.LibScatterRead

noncomputable section

namespace Cert.ScatterRows3

open Idealize.ShloMosaic Idealize.ShloMosaic.ValueIdx

variable {N L C n w : Nat}

theorem resultIdx?_rows3 (d : ScatterDims ⟨3, ![N, L, C]⟩ ⟨2, ![n, 1]⟩ ⟨3, ![n, L, C]⟩)
    (huw : d.updateWindowDims = [1, 2]) (hiw : d.insertedWindowDims = [0]) (hsd : d.scatterDimsToOperandDims = [0])
    (hivd : d.indexVectorDim = 1) (idx : IVec ⟨2, ![n, 1]⟩ w) (e : Fin n) (l : Fin L) (k : Fin C)
    (i : Fin N) (l' : Fin L) (k' : Fin C) :
    d.resultIdx? (ix3 e l k) idx = some (ix3 i l' k')
      ↔ (idx (ix2 e (0 : Fin 1))).toInt = (i.val : ℤ) ∧ l = l' ∧ k = k' := by
  rw [Cert.LibScatterRead.resultIdx?_eq_some_iff]

  have hsk : d.sKept = [1, 2] := by
    show (List.finRange 3).filter (· ∉ d.insertedWindowDims) = _
    rw [hiw]; rfl
  have hus : d.uScatter = [0] := by
    show (List.finRange 3).filter (· ∉ d.updateWindowDims) = _
    rw [huw]; rfl
  have hm0 : (0 : Fin 3) ∈ d.scatterDimsToOperandDims := by rw [hsd]; exact List.mem_singleton.mpr rfl
  have hm1 : (1 : Fin 3) ∉ d.scatterDimsToOperandDims := by rw [hsd]; simp
  have hm2 : (2 : Fin 3) ∉ d.scatterDimsToOperandDims := by rw [hsd]; simp
  have hk0 : (0 : Fin 3) ∉ d.sKept := by rw [hsk]; simp
  have hk1 : (1 : Fin 3) ∈ d.sKept := by rw [hsk]; simp
  have hk2 : (2 : Fin 3) ∈ d.sKept := by rw [hsk]; simp

  have hsi : d.siIdx (ix3 e l k) ⟨List.idxOf (0 : Fin 3) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 3, X ∈ d.uScatter → ((ix3 e l k : (⟨3, ![n, L, C]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 3) d.scatterDimsToOperandDims = 0
      rw [hsd]; simp

  have hs0 : d.start (ix3 e l k) idx 0 = (idx (ix2 e (0 : Fin 1))).toInt := by
    unfold ScatterDims.start
    rw [dif_pos hm0, hsi]
  have hs1 : d.start (ix3 e l k) idx 1 = 0 := by
    unfold ScatterDims.start
    rw [dif_neg hm1]
  have hs2 : d.start (ix3 e l k) idx 2 = 0 := by
    unfold ScatterDims.start
    rw [dif_neg hm2]
  have hw0 : d.window (ix3 e l k) 0 = 0 := by
    unfold ScatterDims.window
    rw [dif_neg hk0]

  have hwin : ∀ (p : Nat) (hp : p < d.updateWindowDims.length) (c : Fin 3), (d.updateWindowDims[p]'hp) = c →
      ((ix3 e l k : (⟨3, ![n, L, C]⟩ : Shape).Idx) (d.updateWindowDims[p]'hp)).val
        = ((ix3 e l k : (⟨3, ![n, L, C]⟩ : Shape).Idx) c).val := fun p hp c h => by rw [h]
  have hlen : d.updateWindowDims.length = 2 := by rw [huw]; rfl
  have hw1 : d.window (ix3 e l k) 1 = l.val := by
    unfold ScatterDims.window
    rw [dif_pos hk1]
    have hp : d.sKept.idxOf (1 : Fin 3) = 0 := by rw [hsk]; rfl
    have h1 : ∀ (p : Nat) (hp' : p < d.updateWindowDims.length), p = 0 → d.updateWindowDims[p]'hp' = (1 : Fin 3) := by
      intro p hp' h0; subst h0; rw [List.getElem_of_eq huw]; rfl
    exact hwin _ _ 1 (h1 _ _ hp)
  have hw2 : d.window (ix3 e l k) 2 = k.val := by
    unfold ScatterDims.window
    rw [dif_pos hk2]
    have hp : d.sKept.idxOf (2 : Fin 3) = 1 := by rw [hsk]; rfl
    have h2 : ∀ (p : Nat) (hp' : p < d.updateWindowDims.length), p = 1 → d.updateWindowDims[p]'hp' = (2 : Fin 3) := by
      intro p hp' h0; subst h0; rw [List.getElem_of_eq huw]; rfl
    exact hwin _ _ 2 (h2 _ _ hp)
  have hi0 : (((ix3 i l' k' : (⟨3, ![N, L, C]⟩ : Shape).Idx) 0).val : Int) = (i.val : Int) := rfl
  have hi1 : (((ix3 i l' k' : (⟨3, ![N, L, C]⟩ : Shape).Idx) 1).val : Int) = (l'.val : Int) := rfl
  have hi2 : (((ix3 i l' k' : (⟨3, ![N, L, C]⟩ : Shape).Idx) 2).val : Int) = (k'.val : Int) := rfl
  constructor
  · intro h
    have h0 := h 0
    have h1 := h 1
    have h2 := h 2
    rw [hs0, hw0, hi0] at h0
    rw [hs1, hw1, hi1] at h1
    rw [hs2, hw2, hi2] at h2
    refine ⟨by omega, Fin.ext (by omega), Fin.ext (by omega)⟩
  · rintro ⟨h0, rfl, rfl⟩ a
    match a with
    | ⟨0, _⟩ =>
      show (((ix3 i l k : (⟨3, ![N, L, C]⟩ : Shape).Idx) 0).val : Int) = d.start (ix3 e l k) idx 0 + d.window (ix3 e l k) 0
      rw [hs0, hw0, hi0, h0]; simp
    | ⟨1, _⟩ =>
      show (((ix3 i l k : (⟨3, ![N, L, C]⟩ : Shape).Idx) 1).val : Int) = d.start (ix3 e l k) idx 1 + d.window (ix3 e l k) 1
      rw [hs1, hw1, hi1]; simp
    | ⟨2, _⟩ =>
      show (((ix3 i l k : (⟨3, ![N, L, C]⟩ : Shape).Idx) 2).val : Int) = d.start (ix3 e l k) idx 2 + d.window (ix3 e l k) 2
      rw [hs2, hw2, hi2]; simp

theorem sum_landing_rows3 {Mo : Type} [AddCommMonoid Mo] (d : ScatterDims ⟨3, ![N, L, C]⟩ ⟨2, ![n, 1]⟩ ⟨3, ![n, L, C]⟩)
    (huw : d.updateWindowDims = [1, 2]) (hiw : d.insertedWindowDims = [0]) (hsd : d.scatterDimsToOperandDims = [0])
    (hivd : d.indexVectorDim = 1) (idx : IVec ⟨2, ![n, 1]⟩ w) (upd : (⟨3, ![n, L, C]⟩ : Shape).Idx → Mo)
    (i : Fin N) (l : Fin L) (k : Fin C) :
    ∑ j ∈ Finset.univ.filter (fun j => d.resultIdx? j idx = some (ix3 i l k)), upd j
      = ∑ e ∈ Finset.univ.filter (fun e : Fin n => (idx (ix2 e (0 : Fin 1))).toInt = (i.val : ℤ)),
          upd (ix3 e l k) := by
  symm
  refine Finset.sum_bij (fun e _ => ix3 e l k) ?_ ?_ ?_ ?_
  · intro e he
    rw [Finset.mem_filter] at he ⊢
    exact ⟨Finset.mem_univ _, (resultIdx?_rows3 d huw hiw hsd hivd idx e l k i l k).2 ⟨he.2, rfl, rfl⟩⟩
  · intro e1 _ e2 _ h
    exact congrFun h 0
  · intro j hj
    rw [Finset.mem_filter] at hj
    have hj2 := hj.2
    rw [eq_ix3 j] at hj2
    obtain ⟨h0, h1, h2⟩ := (resultIdx?_rows3 d huw hiw hsd hivd idx (j 0) (j 1) (j 2) i l k).1 hj2
    refine ⟨j 0, ?_, ?_⟩
    · exact Finset.mem_filter.2 ⟨Finset.mem_univ _, h0⟩
    · rw [← h1, ← h2]; exact (eq_ix3 j).symm
  · intro e _; rfl

theorem scatterAdd_rows3 {φ : FTy} (d : ScatterDims ⟨3, ![N, L, C]⟩ ⟨2, ![n, 1]⟩ ⟨3, ![n, L, C]⟩)
    (huw : d.updateWindowDims = [1, 2]) (hiw : d.insertedWindowDims = [0]) (hsd : d.scatterDimsToOperandDims = [0])
    (hivd : d.indexVectorDim = 1) (x : FVec Ideal ⟨3, ![N, L, C]⟩ φ) (idx : IVec ⟨2, ![n, 1]⟩ w)
    (upd : FVec Ideal ⟨3, ![n, L, C]⟩ φ) (i : Fin N) (l : Fin L) (k : Fin C) :
    Host.scatterAdd d x idx upd (ix3 i l k)
      = x (ix3 i l k) + ∑ e ∈ Finset.univ.filter (fun e : Fin n => (idx (ix2 e (0 : Fin 1))).toInt = (i.val : ℤ)),
          upd (ix3 e l k) := by
  show Ideal.hostScatterAdd d x idx upd (ix3 i l k) = _
  unfold Ideal.hostScatterAdd
  rw [sum_landing_rows3 d huw hiw hsd hivd idx upd i l k]

end Cert.ScatterRows3

end
-- ==== Proof.RValRb.lean ====
import proofs.«429394_j28956669510180_3_alg».proof.Proof.RIface
import proofs.«429394_j28956669510180_3_alg».proof.Proof.Algebra
import proofs.«429394_j28956669510180_3_alg».proof.Proof.LibBatchDot
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.Stages

open Cert.ReferenceIdeal Cert.ReferenceIdeal.Gen Idealize.ShloMosaic Idealize.ShloMosaic.ValueIdx RouteSpec

namespace Rb

theorem bias3_apply (x : FVec Ideal S3x256 .f32) (l : Fin 3) (p : Fin 32768) (q : Fin 256) :
    (broadcastInDim S3x32768x256 ![0, 1, 2] bcast_S3x1x256_S3x32768x256_0_1_2
      (broadcastInDim S3x1x256 ![0, 2] bcast_S3x256_S3x1x256_0_2 x) : FVec Ideal S3x32768x256 .f32) (ix3 l p q) = x (ix2 l q) := by
  rw [broadcastInDim_apply _ _ _ (ix3 l p q) (ix3 l (0 : Fin 1) q) (by
    intro a; match a with
    | ⟨0, _⟩ => rfl
    | ⟨1, _⟩ => rfl
    | ⟨2, _⟩ => rfl)]
  rw [broadcastInDim_apply _ _ _ (ix3 l (0 : Fin 1) q) (ix2 l q) (by
    intro a; match a with
    | ⟨0, _⟩ => rfl
    | ⟨1, _⟩ => rfl)]

theorem col3_apply (x : FVec Ideal S3x32768 .f32) (l : Fin 3) (p : Fin 32768) (z : Fin 1) :
    (broadcastInDim S3x32768x1 ![0, 1] bcast_S3x32768_S3x32768x1_0_1 x : FVec Ideal S3x32768x1 .f32) (ix3 l p z) = x (ix2 l p) := by
  rw [broadcastInDim_apply _ _ _ (ix3 l p z) (ix2 l p) (by
    intro a; match a with
    | ⟨0, _⟩ => rfl
    | ⟨1, _⟩ => rfl)]

theorem scalCol3_apply (x : FVec Ideal S_ .f32) (l : Fin 3) (p : Fin 32768) (z : Fin 1) :
    (broadcastInDim S3x32768x1 ![] bcast_S_S3x32768x1 x : FVec Ideal S3x32768x1 .f32) (ix3 l p z) = x ix0 :=
  broadcastInDim_scalar_apply _ _ _

theorem spread3_apply (x : FVec Ideal S3x32768x1 .f32) (l : Fin 3) (p : Fin 32768) (q : Fin 256) :
    (broadcastInDim S3x32768x256 ![0, 1, 2] bcast_S3x32768x1_S3x32768x256_0_1_2 x : FVec Ideal S3x32768x256 .f32) (ix3 l p q)
      = x (ix3 l p (0 : Fin 1)) := by
  rw [broadcastInDim_apply _ _ _ (ix3 l p q) (ix3 l p (0 : Fin 1)) (by
    intro a; match a with
    | ⟨0, _⟩ => rfl
    | ⟨1, _⟩ => rfl
    | ⟨2, _⟩ => rfl)]

theorem rowsum3_apply (X : FVec Ideal S3x32768x256 .f32) (l : Fin 3) (p : Fin 32768) :
    Host.reduceAdd X (constant (F := Ideal) S_ .f32 0x00000000#32) reducesTo_S3x32768x256_S3x32768_d2 h_S_ (ix2 l p)
      = ∑ k : Fin 256, X (ix3 l p k) := by
  have hR : S3x32768x256.Reduces [2] S3x32768 := by decide
  rw [hostReduceAdd_apply, Ideal.hostReduceAdd_single _ hR, constant_apply, Ideal.ofBits_zero_f32, zero_add]
  refine Finset.sum_congr rfl fun k _ => congrArg X ?_
  funext a
  match a with
  | ⟨0, _⟩ => rfl
  | ⟨1, _⟩ => rfl
  | ⟨2, _⟩ => rfl

theorem hostSqrt_apply {s : Shape} {φ : FTy} (a : FVec Ideal s φ) (i : s.Idx) : Host.sqrt a i = Ideal.sqrt (a i) := rfl

theorem dot3_apply (X : FVec Ideal S3x32768x256 .f32) (W : FVec Ideal S3x256x256 .f32) (l : Fin 3) (p : Fin 32768) (q : Fin 256) :
    Host.dotGeneral dot_S3x32768x256_S3x256x256_S3x32768x256_2_1_1_2_0_0 none X W (ix3 l p q)
      = ∑ k : Fin 256, X (ix3 l p k) * W (ix3 l k q) :=
  Cert.BatchDot.dotGeneral_apply dot_S3x32768x256_S3x256x256_S3x32768x256_2_1_1_2_0_0 rfl rfl rfl rfl rfl rfl none X W l p q

section
variable (f : FVec Ideal S3x32768x256 .f32) (A : RArgs Ideal) (b : Fin 32768)
  (hupd : ∀ (l : Fin 3) (d : Fin 256), t_v51 f A (ix3 l b d) = upd (wts A) (rowL f b) l d)
include hupd

theorem t_v56_apply (l : Fin 3) (e : Fin 256) : t_v56 f A (ix3 l b e) = h2 (wts A) (rowL f b) l e := by
  unfold t_v56 t_v55 t_v54 t_v53 t_v52
  beta_reduce
  rw [maximumf_apply, addf_apply, bias3_apply, dot3_apply, broadcastInDim_scalar_apply, constant_apply]
  unfold h2 relu
  refine congrArg (fun s => max (s + A.a14 (ix2 l e)) c0) ?_
  exact Finset.sum_congr rfl fun d _ => congrArg (· * A.a13 (ix3 l d e)) (hupd l d)

theorem t_v60_apply (l : Fin 3) (e : Fin 256) : t_v60 f A (ix3 l b e) = h3 (wts A) (rowL f b) l e := by
  unfold t_v60 t_v59 t_v58 t_v57
  beta_reduce
  rw [addf_apply, bias3_apply, dot3_apply]
  unfold h3
  refine congrArg (· + A.a16 (ix2 l e)) ?_
  exact Finset.sum_congr rfl fun d _ => congrArg (· * A.a15 (ix3 l d e)) (t_v56_apply f A b hupd l d)

theorem t_v66_apply (l : Fin 3) (z : Fin 1) : t_v66 f A (ix3 l b z) = mean (h3 (wts A) (rowL f b) l) := by
  unfold t_v66 t_v65 t_v64 t_v63 t_cst_8 t_cst_7
  beta_reduce
  rw [hostDivf_apply, col3_apply, scalCol3_apply, constant_apply, rowsum3_apply]
  unfold mean
  exact congrArg (Ideal.div · c256) (Finset.sum_congr rfl fun k _ => t_v60_apply f A b hupd l k)

theorem t_v68_apply (l : Fin 3) (q : Fin 256) :
    t_v68 f A (ix3 l b q) = h3 (wts A) (rowL f b) l q - mean (h3 (wts A) (rowL f b) l) := by
  unfold t_v68 t_v67
  rw [subf_apply, spread3_apply, t_v60_apply f A b hupd, t_v66_apply f A b hupd]

theorem t_v75_apply (l : Fin 3) (q : Fin 256) :
    t_v75 f A (ix3 l b q) = h3 (wts A) (rowL f b) l q - mean (h3 (wts A) (rowL f b) l) := by
  unfold t_v75 t_v74
  rw [subf_apply, spread3_apply, t_v60_apply f A b hupd, t_v66_apply f A b hupd]

theorem t_v73_apply (l : Fin 3) (z : Fin 1) : t_v73 f A (ix3 l b z) = var (h3 (wts A) (rowL f b) l) := by
  unfold t_v73 t_v72 t_v71 t_v70 t_v69 t_cst_10 t_cst_9
  beta_reduce
  rw [hostDivf_apply, col3_apply, scalCol3_apply, constant_apply, rowsum3_apply]
  unfold var
  refine congrArg (Ideal.div · c256) (Finset.sum_congr rfl fun k _ => ?_)
  rw [mulf_apply, t_v68_apply f A b hupd]

theorem t_v78_apply (l : Fin 3) (z : Fin 1) :
    t_v78 f A (ix3 l b z) = Ideal.sqrt (var (h3 (wts A) (rowL f b) l) + ceps) := by
  unfold t_v78 t_v77 t_v76 t_cst_11
  rw [hostSqrt_apply, addf_apply, t_v73_apply f A b hupd, scalCol3_apply, constant_apply]

theorem t_v84_apply (l : Fin 3) (q : Fin 256) : t_v84 f A (ix3 l b q) = step (wts A) (rowL f b) l q := by
  unfold t_v84 t_v83 t_v82 t_v81 t_v80 t_v79 t_v62 t_v61
  rw [addf_apply, mulf_apply, bias3_apply, bias3_apply, hostDivf_apply, t_v75_apply f A b hupd, spread3_apply,
    t_v78_apply f A b hupd]
  unfold step
  exact (lnorm_eq_div (h3 (wts A) (rowL f b) l) ((wts A).lng l) ((wts A).lnb l) q).symm

end

end Rb

theorem refStep_of_upd (f : FVec Ideal S3x32768x256 .f32) (A : RArgs Ideal) (b : Fin 32768)
    (hupd : ∀ (l : Fin 3) (d : Fin 256), t_v51 f A (ix3 l b d) = upd (wts A) (rowL f b) l d) :
    ∀ (l : Fin 3) (q : Fin 256), t_v84 f A (ix3 l b q) = step (wts A) (rowL f b) l q :=
  fun l q => Rb.t_v84_apply f A b hupd l q

end Cert.ReferenceIdeal.Stages

end
-- ==== Proof.RValR.lean ====
import proofs.«429394_j28956669510180_3_alg».proof.Proof.RIface
import proofs.«429394_j28956669510180_3_alg».proof.Proof.Algebra
import proofs.«429394_j28956669510180_3_alg».proof.Proof.LibGatherRows
import proofs.«429394_j28956669510180_3_alg».proof.Proof.LibBatchDot
import proofs.«429394_j28956669510180_3_alg».proof.Proof.LibScatterRows3
import proofs.«429394_j28956669510180_3_alg».proof.Proof.RValRb
import Idealize.ShloMosaic.PureOps.Ideal.Laws
import Idealize.ShloMosaic.Lib.ValueIdx
import Idealize.ShloMosaic.Lib.Pipeline.Value

noncomputable section

namespace Cert.ReferenceIdeal.Stages

open Cert.ReferenceIdeal Cert.ReferenceIdeal.Gen Idealize.ShloMosaic Idealize.ShloMosaic.ValueIdx RouteSpec

namespace Ra

variable (f : FVec Ideal S3x32768x256 .f32) (A : RArgs Ideal)

theorem t_v21_apply (i : Fin 6) : (t_v21 f A (ix2 i (0 : Fin 1))).toInt = ((src i).val : Int) := by
  fin_cases i <;> rfl

theorem t_v28_apply (i : Fin 6) : (t_v28 f A (ix2 i (0 : Fin 1))).toInt = ((tgt i).val : Int) := by
  fin_cases i <;> rfl

theorem t_v49_apply (i : Fin 6) : (t_v49 f A (ix2 i (0 : Fin 1))).toInt = ((tgt i).val : Int) := by
  fin_cases i <;> rfl

theorem ix3_congr {n0 n1 n2 : Nat} {a a' : Fin n0} (h : a.val = a'.val) (b : Fin n1) (c : Fin n2) :
    (ix3 a b c : (⟨3, ![n0, n1, n2]⟩ : Shape).Idx) = ix3 a' b c := by
  have : a = a' := Fin.ext h
  rw [this]

theorem t_v22_apply (i : Fin 6) (b : Fin 32768) (q : Fin 256) : t_v22 f A (ix3 i b q) = rowL f b (src i) q := by
  unfold t_v22
  refine (Cert.GatherRows.gather_rows3 (by decide) _ rfl rfl rfl rfl rfl f (t_v21 f A) i b q).trans ?_
  refine congrArg f (ix3_congr ?_ b q)
  show min (t_v21 f A (ix2 i (0 : Fin 1))).toInt.toNat (3 - 1) = (src i).val
  rw [t_v21_apply]
  have := (src i).isLt
  omega

theorem t_v29_apply (i : Fin 6) (b : Fin 32768) (q : Fin 256) : t_v29 f A (ix3 i b q) = rowL f b (tgt i) q := by
  unfold t_v29
  refine (Cert.GatherRows.gather_rows3 (by decide) _ rfl rfl rfl rfl rfl f (t_v28 f A) i b q).trans ?_
  refine congrArg f (ix3_congr ?_ b q)
  show min (t_v28 f A (ix2 i (0 : Fin 1))).toInt.toNat (3 - 1) = (tgt i).val
  rw [t_v28_apply]
  have := (tgt i).isLt
  omega

theorem t_v30_left (i : Fin 6) (b : Fin 32768) (d : Fin 256) :
    t_v30 f A (ix3 i b (⟨d.val, by omega⟩ : Fin 512)) = t_v22 f A (ix3 i b d) := by
  unfold t_v30
  exact concatenate_pair_apply_left (2 : Fin 3) (t_v22 f A) (t_v29 f A)
    concatenates_S6x32768x256_S6x32768x256_S6x32768x512_d2 (ix3 i b (⟨d.val, by omega⟩ : Fin 512)) rfl (ix3 i b d)
    (fun a => by
      match a with
      | ⟨0, _⟩ => rfl
      | ⟨1, _⟩ => rfl
      | ⟨2, _⟩ => rfl)

theorem t_v30_right (i : Fin 6) (b : Fin 32768) (d : Fin 256) :
    t_v30 f A (ix3 i b (⟨256 + d.val, by omega⟩ : Fin 512)) = t_v29 f A (ix3 i b d) := by
  unfold t_v30
  exact concatenate_pair_apply_right (2 : Fin 3) (t_v22 f A) (t_v29 f A)
    concatenates_S6x32768x256_S6x32768x256_S6x32768x512_d2 (ix3 i b (⟨256 + d.val, by omega⟩ : Fin 512)) rfl rfl (ix3 i b d)
    (fun a ha => by
      match a with
      | ⟨0, _⟩ => rfl
      | ⟨1, _⟩ => rfl
      | ⟨2, _⟩ => exact absurd rfl ha)
    (by show d.val + 256 = 256 + d.val; omega)

theorem t_v31_apply (i : Fin 6) (b : Fin 32768) (h : Fin 256) :
    t_v31 f A (ix3 i b h)
      = (∑ d, rowL f b (src i) d * (wts A).rWa i d h) + (∑ d, rowL f b (tgt i) d * (wts A).rWb i d h) := by
  unfold t_v31
  refine (Cert.BatchDot.dotGeneral_apply _ rfl rfl rfl rfl rfl rfl none (t_v30 f A) A.a9 i b h).trans ?_
  refine (sum_split512 _).trans ?_
  refine congrArg₂ (· + ·) (Finset.sum_congr rfl fun d _ => ?_) (Finset.sum_congr rfl fun d _ => ?_)
  · show t_v30 f A (ix3 i b (⟨d.val, by omega⟩ : Fin 512)) * A.a9 (ix3 i (⟨d.val, by omega⟩ : Fin 512) h) = _
    rw [t_v30_left, t_v22_apply]; rfl
  · show t_v30 f A (ix3 i b (⟨256 + d.val, by omega⟩ : Fin 512)) * A.a9 (ix3 i (⟨256 + d.val, by omega⟩ : Fin 512) h) = _
    rw [t_v30_right, t_v29_apply]; rfl

theorem t_v33_apply (i : Fin 6) (b : Fin 32768) (h : Fin 256) : t_v33 f A (ix3 i b h) = A.a10 (ix2 i h) := by
  unfold t_v33 t_v32
  refine (broadcastInDim_apply _ _ _ (ix3 i b h) (ix3 i (0 : Fin 1) h) (fun a => by
    match a with
    | ⟨0, _⟩ => rfl
    | ⟨1, _⟩ => rfl
    | ⟨2, _⟩ => rfl)).trans ?_
  exact broadcastInDim_apply _ _ _ (ix3 i (0 : Fin 1) h) (ix2 i h) (fun a => by
    match a with
    | ⟨0, _⟩ => rfl
    | ⟨1, _⟩ => rfl)

theorem t_v35_apply (i : Fin 6) (b : Fin 32768) (h : Fin 256) :
    t_v35 f A (ix3 i b h) = hid (wts A) (rowL f b) i h := by
  show max (t_v31 f A (ix3 i b h) + t_v33 f A (ix3 i b h)) (Ideal.ofBits .f32 0x00000000#32) = _
  rw [t_v31_apply, t_v33_apply]; rfl

theorem t_v36_apply (i : Fin 6) (b : Fin 32768) :
    t_v36 f A (ix3 i b (0 : Fin 1)) = ∑ h, hid (wts A) (rowL f b) i h * (wts A).rW2 i h := by
  unfold t_v36
  refine (Cert.BatchDot.dotGeneral_apply _ rfl rfl rfl rfl rfl rfl none (t_v35 f A) A.a11 i b (0 : Fin 1)).trans ?_
  exact Finset.sum_congr rfl fun h _ => by rw [t_v35_apply]; rfl

theorem t_v38_apply (i : Fin 6) (b : Fin 32768) : t_v38 f A (ix3 i b (0 : Fin 1)) = A.a12 (ix2 i (0 : Fin 1)) := by
  unfold t_v38 t_v37
  refine (broadcastInDim_apply _ _ _ (ix3 i b (0 : Fin 1)) (ix3 i (0 : Fin 1) (0 : Fin 1)) (fun a => by
    match a with
    | ⟨0, _⟩ => rfl
    | ⟨1, _⟩ => rfl
    | ⟨2, _⟩ => rfl)).trans ?_
  exact broadcastInDim_apply _ _ _ (ix3 i (0 : Fin 1) (0 : Fin 1)) (ix2 i (0 : Fin 1)) (fun a => by
    match a with
    | ⟨0, _⟩ => rfl
    | ⟨1, _⟩ => rfl)

theorem bcast_const (T : Shape) (h : S_.BroadcastsInDim T ![]) (w : BitVec 32) (j : T.Idx) :
    broadcastInDim T ![] h (constant (F := Ideal) S_ .f32 w) j = Ideal.ofBits .f32 w := rfl

theorem t_v45_apply (i : Fin 6) (b : Fin 32768) :
    t_v45 f A (ix3 i b (0 : Fin 1)) = gate (wts A) (rowL f b) i := by
  have e45 : t_v45 f A (ix3 i b (0 : Fin 1))
      = Ideal.div (t_v44 f A (ix3 i b (0 : Fin 1))) (t_v43 f A (ix3 i b (0 : Fin 1))) := by
    unfold t_v45
    simp only [Host.divf, Ideal.hostDivf_def]
  have e44 : t_v44 f A (ix3 i b (0 : Fin 1)) = Ideal.ofBits .f32 0x3F800000#32 := bcast_const _ _ _ _
  have e43 : t_v43 f A (ix3 i b (0 : Fin 1)) = t_v42 f A (ix3 i b (0 : Fin 1)) + t_v41 f A (ix3 i b (0 : Fin 1)) := rfl
  have e42 : t_v42 f A (ix3 i b (0 : Fin 1)) = Ideal.ofBits .f32 0x3F800000#32 := bcast_const _ _ _ _
  have e41 : t_v41 f A (ix3 i b (0 : Fin 1)) = Ideal.exp (-(t_v39 f A (ix3 i b (0 : Fin 1)))) := by
    unfold t_v41 t_v40
    simp only [Host.exp, Host.negf, Ideal.hostUnary_exp_def, Ideal.hostNegf_def, Ideal.negf_def]
  have e39 : t_v39 f A (ix3 i b (0 : Fin 1)) = t_v36 f A (ix3 i b (0 : Fin 1)) + t_v38 f A (ix3 i b (0 : Fin 1)) := rfl
  rw [e45, e44, e43, e42, e41, e39, t_v36_apply, t_v38_apply, ← logistic_eq_div]; rfl

theorem t_v47_apply (i : Fin 6) (b : Fin 32768) (q : Fin 256) :
    t_v47 f A (ix3 i b q) = sent (wts A) (rowL f b) i q := by
  have h46 : t_v46 f A (ix3 i b q) = t_v45 f A (ix3 i b (0 : Fin 1)) := by
    unfold t_v46
    exact broadcastInDim_apply _ _ _ (ix3 i b q) (ix3 i b (0 : Fin 1)) (fun a => by
      match a with
      | ⟨0, _⟩ => rfl
      | ⟨1, _⟩ => rfl
      | ⟨2, _⟩ => rfl)
  show t_v46 f A (ix3 i b q) * t_v22 f A (ix3 i b q) = _
  rw [h46, t_v45_apply, t_v22_apply]; rfl

theorem pa_ne_pb (l : Fin 3) : pa l ≠ pb l := by fin_cases l <;> decide

theorem tgt_eq_iff (l : Fin 3) (e : Fin 6) : ((tgt e).val : ℤ) = (l.val : ℤ) ↔ e = pa l ∨ e = pb l := by
  fin_cases l <;> fin_cases e <;> decide

theorem t_v50_apply (l : Fin 3) (b : Fin 32768) (q : Fin 256) :
    t_v50 f A (ix3 l b q) = sent (wts A) (rowL f b) (pa l) q + sent (wts A) (rowL f b) (pb l) q := by
  unfold t_v50
  refine (Cert.ScatterRows3.scatterAdd_rows3 _ rfl rfl rfl rfl (t_v48 f A) (t_v49 f A) (t_v47 f A) l b q).trans ?_
  have hfilt : (Finset.univ.filter (fun e : Fin 6 => (t_v49 f A (ix2 e (0 : Fin 1))).toInt = (l.val : ℤ)))
      = {pa l, pb l} := by
    ext e
    rw [Finset.mem_filter, t_v49_apply, Finset.mem_insert, Finset.mem_singleton]
    exact ⟨fun h => (tgt_eq_iff l e).1 h.2, fun h => ⟨Finset.mem_univ _, (tgt_eq_iff l e).2 h⟩⟩
  have h48 : t_v48 f A (ix3 l b q) = c0 := bcast_const _ _ _ _
  rw [hfilt, Finset.sum_pair (pa_ne_pb l), h48, c0_eq, zero_add, t_v47_apply, t_v47_apply]

theorem t_v51_apply (l : Fin 3) (b : Fin 32768) (q : Fin 256) :
    t_v51 f A (ix3 l b q) = upd (wts A) (rowL f b) l q := by
  show f (ix3 l b q) + t_v50 f A (ix3 l b q) = _
  rw [t_v50_apply]; rfl

end Ra

theorem refStep_apply (f : FVec Ideal S3x32768x256 .f32) (A : RArgs Ideal) (l : Fin 3) (b : Fin 32768) (q : Fin 256) :
    refStep f A (ix3 l b q) = step (wts A) (rowL f b) l q :=
  refStep_of_upd f A b (fun l d => Ra.t_v51_apply f A l b d) l q

theorem refGate_apply (f : FVec Ideal S3x32768x256 .f32) (A : RArgs Ideal) (i : Fin 6) (b : Fin 32768) :
    refGate f A (ix3 i b (0 : Fin 1)) = gate (wts A) (rowL f b) i :=
  Ra.t_v45_apply f A i b

end Cert.ReferenceIdeal.Stages

end
-- ==== Proof.RVal.lean ====
import proofs.«429394_j28956669510180_3_alg».proof.Proof.RValPE
import proofs.«429394_j28956669510180_3_alg».proof.Proof.RValR

noncomputable section

namespace Cert.ReferenceIdeal.Stages

open Cert.ReferenceIdeal Cert.ReferenceIdeal.Gen Idealize.ShloMosaic Idealize.ShloMosaic.ValueIdx RouteSpec

theorem rowL_refProj (A : RArgs Ideal) (b : Fin 32768) :
    rowL (refProj A) b = feats0 (wts A) (rowF A b) (rowM A b) (rowC A b) :=
  funext fun l => funext fun q => refProj_apply A l b q

theorem rowL_refStep (f : FVec Ideal S3x32768x256 .f32) (A : RArgs Ideal) (b : Fin 32768) :
    rowL (refStep f A) b = step (wts A) (rowL f b) :=
  funext fun l => funext fun q => refStep_apply f A l b q

theorem refOut_apply (A : RArgs Ideal) (b : Fin 32768) (q : Fin 256) :
    refOut A (ix2 b q) = rowOut (wts A) (rowF A b) (rowM A b) (rowC A b) q := by
  unfold refOut
  rw [refFin_apply, rowL_refStep, rowL_refStep, rowL_refStep, rowL_refProj]
  rfl

theorem refW_apply (A : RArgs Ideal) (i : Fin 6) (b : Fin 32768) :
    refW A (ix3 i b (0 : Fin 1)) = rowGate (wts A) (rowF A b) (rowM A b) (rowC A b) i := by
  unfold refW
  rw [refGate_apply, rowL_refStep, rowL_refStep, rowL_refProj]
  rfl

end Cert.ReferenceIdeal.Stages

end
-- ==== Proof.lean ====
import proofs.«429394_j28956669510180_3_alg».proof.Defs
import proofs.«429394_j28956669510180_3_alg».proof.Proof.Gen.Kernel
import proofs.«429394_j28956669510180_3_alg».proof.Proof.Gen.KernelIdeal
import proofs.«429394_j28956669510180_3_alg».proof.Proof.Gen.ReferenceIdeal
import proofs.«429394_j28956669510180_3_alg».proof.Proof.Gen.Pre_finite_inputs
import proofs.«429394_j28956669510180_3_alg».proof.Proof.KFrameBits
import proofs.«429394_j28956669510180_3_alg».proof.Proof.KSoundBits
import proofs.«429394_j28956669510180_3_alg».proof.Proof.KSound
import proofs.«429394_j28956669510180_3_alg».proof.Proof.KRun
import proofs.«429394_j28956669510180_3_alg».proof.Proof.RefRun
import proofs.«429394_j28956669510180_3_alg».proof.Proof.RVal

noncomputable section

namespace Cert.Proof

open Idealize.ShloMosaic Idealize.ShloMosaic.TcCoe Idealize.SL.Sem Idealize.ShloMosaic.ValueIdx

theorem frame_p : Cert.frame_Kernel := fun m ρ _ =>
  (θ_run Cert.Kernel.defs _ _).mono (fun _ h c => Cert.Kernel.Body.args_kept m h c)
    (Cert.Kernel.Body.run_main m ρ Cert.Kernel.Body.sound_kernel)

theorem frame_pi : Cert.frame_KernelIdeal := fun m ρ _ =>
  (θ_run Cert.KernelIdeal.defs _ _).mono (fun _ h c => Cert.KernelIdeal.Body.args_kept m h c)
    (Cert.KernelIdeal.Body.run_main m ρ Cert.KernelIdeal.Body.sound_kernel)

theorem frame_ri : Cert.frame_ReferenceIdeal := fun m ρ _ =>
  (θ_run Cert.ReferenceIdeal.defs _ _).mono (fun _ h c => (h c).2.2) (Cert.ReferenceIdeal.Stages.run (F := Ideal) m ρ)

theorem preserves : Cert.preserves_Kernel_KernelIdeal := trivial

open Cert.KernelIdeal.Body Cert.ReferenceIdeal.Stages in

/-- On each batch row both first results are the network's output on that row. -/
theorem out_eq (A : RArgs Ideal) : refOut A = Gout A := by
  funext i
  obtain ⟨b, q, rfl⟩ : ∃ (b : Fin 32768) (q : Fin 256), i = ix2 b q := ⟨i 0, i 1, eq_ix2 i⟩
  rw [refOut_apply]
  rfl

open Cert.KernelIdeal.Body Cert.ReferenceIdeal.Stages in

/-- Entry (i, b, 0) of both second results is pair i's last-round gate on row b. -/
theorem w_eq (A : RArgs Ideal) : refW A = tailOf (Gw A) := by
  funext i
  obtain ⟨k, b, u, rfl⟩ : ∃ (k : Fin 6) (b : Fin 32768) (u : Fin 1), i = ix3 k b u := ⟨i 0, i 1, i 2, eq_ix3 i⟩
  obtain rfl : u = 0 := Subsingleton.elim _ _
  rw [refW_apply, tailOf_apply]
  rfl

open Cert.KernelIdeal.Body Cert.ReferenceIdeal.Stages in
theorem algebraic : Cert.algebraic_KernelIdeal_ReferenceIdeal := by
  intro m ρ m' ρ' _ hagree
  refine ⟨fun c => Gout (kargs m c), fun c => tailOf (Gw (kargs m c)), krun m ρ sound_kernel, ?_⟩
  refine (θ_run Cert.ReferenceIdeal.defs _ _).mono (fun _ h c => ?_) (run (F := Ideal) m' ρ')
  have hA : margs m' c = kargs m c := by
    obtain ⟨e0, e1, e2, e3, e4, e5, e6, e7, e8, e9, e10, e11, e12, e13, e14, e15, e16, e17, e18, e19, e20, e21, e22, e23, e24⟩ := hagree c
    unfold margs kargs
    rw [e0, e1, e2, e3, e4, e5, e6, e7, e8, e9, e10, e11, e12, e13, e14, e15, e16, e17, e18, e19, e20, e21, e22, e23, e24]
  refine ⟨(h c).1.trans ?_, (h c).2.1.trans ?_, (h c).2.2⟩
  · rw [hA]; exact out_eq _
  · rw [hA]; exact w_eq _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
